-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v291)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v291) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v515) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x600000 : Shape := ⟨2, ![2, 600000]⟩
abbrev S600000x3 : Shape := ⟨2, ![600000, 3]⟩
abbrev S9x4x128 : Shape := ⟨3, ![9, 4, 128]⟩
abbrev S5x3x4x128 : Shape := ⟨4, ![5, 3, 4, 128]⟩
abbrev S5 : Shape := ⟨1, ![5]⟩
abbrev S5x128x128 : Shape := ⟨3, ![5, 128, 128]⟩
abbrev S5x128 : Shape := ⟨2, ![5, 128]⟩
abbrev S_ : Shape := ⟨0, ![]⟩

class Facts : Prop where
  bcast_S_S9x4x128 : S_.BroadcastsInDim S9x4x128 (![] : Fin 0 → Fin S9x4x128.rank)
  reducesTo_S9x4x128_S_d0_1_2 : S9x4x128.ReducesTo [0, 1, 2] S_
  h_S_ : 0 < S_.numel
  bcast_S_S5x3x4x128 : S_.BroadcastsInDim S5x3x4x128 (![] : Fin 0 → Fin S5x3x4x128.rank)
  reducesTo_S5x3x4x128_S_d0_1_2_3 : S5x3x4x128.ReducesTo [0, 1, 2, 3] S_
  bcast_S_S5 : S_.BroadcastsInDim S5 (![] : Fin 0 → Fin S5.rank)
  reducesTo_S5_S_d0 : S5.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S600000x3 : S_.BroadcastsInDim S600000x3 (![] : Fin 0 → Fin S600000x3.rank)
  reducesTo_S600000x3_S_d0_1 : S600000x3.ReducesTo [0, 1] S_

variable [Facts]

def fn_part4 {F : FTy → Type} [FloatOps F] (main_arg2 : IVec S600000x3 32) (main_arg17 : FVec F S5x128 .f32) (main_v63 : IVec S_ 1) (main_v67 : IVec S_ 1) : IVec S_ 1 :=
  let main_v68 : IVec S_ 1 := andi main_v63 main_v67
  let main_v69 : FVec F S5x128 .f32 := Host.absf main_arg17
  let main_cst_26 : FVec F S_ .f32 := constant S_ .f32 0x7F800000#32
  let main_v70 : FVec F S5x128 .f32 := broadcastInDim S5x128 ![] bcast_S_S5x128 main_cst_26
  let main_v71 : IVec S5x128 1 := cmpf .olt main_v69 main_v70
  let main_c_27 : IVec S_ 1 := constantI S_ 1 1#1
  let main_v72 : IVec S_ 1 := (fun x v => Host.reduce IntOp.andi x v reducesTo_S5x128_S_d0_1 h_S_) main_v71 main_c_27
  let main_v73 : IVec S_ 1 := andi main_v68 main_v72
  let main_c_28 : IVec S_ 32 := constantI S_ 32 0#32
  let main_v74 : IVec S600000x3 32 := broadcastInDim S600000x3 ![] bcast_S_S600000x3 main_c_28
  let main_v75 : IVec S600000x3 1 := cmpi .sge main_arg2 main_v74
  let main_c_29 : IVec S_ 32 := constantI S_ 32 4#32
  let main_v76 : IVec S600000x3 32 := broadcastInDim S600000x3 ![] bcast_S_S600000x3 main_c_29
  let main_v77 : IVec S600000x3 1 := cmpi .slt main_arg2 main_v76
  let main_v78 : IVec S600000x3 1 := andi main_v75 main_v77
  let main_c_30 : IVec S_ 1 := constantI S_ 1 1#1
  let main_v79 : IVec S_ 1 := (fun x v => Host.reduce IntOp.andi x v reducesTo_S600000x3_S_d0_1 h_S_) main_v78 main_c_30
  let main_v80 : IVec S_ 1 := andi main_v73 main_v79
  main_v80

def fn_part3 {F : FTy → Type} [FloatOps F] (main_arg2 : IVec S600000x3 32) (main_arg14 : FVec F S5x128 .f32) (main_arg15 : FVec F S5x128 .f32) (main_arg16 : FVec F S5x128 .f32) (main_arg17 : FVec F S5x128 .f32) (main_v48 : IVec S_ 1) (main_v49 : FVec F S5x128 .f32) (main_v50 : FVec F S5x128 .f32) : IVec S_ 1 :=
  let main_v51 : IVec S5x128 1 := cmpf .olt main_v49 main_v50
  let main_c_19 : IVec S_ 1 := constantI S_ 1 1#1
  let main_v52 : IVec S_ 1 := (fun x v => Host.reduce IntOp.andi x v reducesTo_S5x128_S_d0_1 h_S_) main_v51 main_c_19
  let main_v53 : IVec S_ 1 := andi main_v48 main_v52
  let main_v54 : FVec F S5x128 .f32 := Host.absf main_arg14
  let main_cst_20 : FVec F S_ .f32 := constant S_ .f32 0x7F800000#32
  let main_v55 : FVec F S5x128 .f32 := broadcastInDim S5x128 ![] bcast_S_S5x128 main_cst_20
  let main_v56 : IVec S5x128 1 := cmpf .olt main_v54 main_v55
  let main_c_21 : IVec S_ 1 := constantI S_ 1 1#1
  let main_v57 : IVec S_ 1 := (fun x v => Host.reduce IntOp.andi x v reducesTo_S5x128_S_d0_1 h_S_) main_v56 main_c_21
  let main_v58 : IVec S_ 1 := andi main_v53 main_v57
  let main_v59 : FVec F S5x128 .f32 := Host.absf main_arg15
  let main_cst_22 : FVec F S_ .f32 := constant S_ .f32 0x7F800000#32
  let main_v60 : FVec F S5x128 .f32 := broadcastInDim S5x128 ![] bcast_S_S5x128 main_cst_22
  let main_v61 : IVec S5x128 1 := cmpf .olt main_v59 main_v60
  let main_c_23 : IVec S_ 1 := constantI S_ 1 1#1
  let main_v62 : IVec S_ 1 := (fun x v => Host.reduce IntOp.andi x v reducesTo_S5x128_S_d0_1 h_S_) main_v61 main_c_23
  let main_v63 : IVec S_ 1 := andi main_v58 main_v62
  let main_v64 : FVec F S5x128 .f32 := Host.absf main_arg16
  let main_cst_24 : FVec F S_ .f32 := constant S_ .f32 0x7F800000#32
  let main_v65 : FVec F S5x128 .f32 := broadcastInDim S5x128 ![] bcast_S_S5x128 main_cst_24
  let main_v66 : IVec S5x128 1 := cmpf .olt main_v64 main_v65
  let main_c_25 : IVec S_ 1 := constantI S_ 1 1#1
  let main_v67 : IVec S_ 1 := (fun x v => Host.reduce IntOp.andi x v reducesTo_S5x128_S_d0_1 h_S_) main_v66 main_c_25
  fn_part4 (F := F) main_arg2 main_arg17 main_v63 main_v67

def fn_part2 {F : FTy → Type} [FloatOps F] (main_arg2 : IVec S600000x3 32) (main_arg10 : FVec F S5x128 .f32) (main_arg11 : FVec F S5x128 .f32) (main_arg12 : FVec F S5x128x128 .f32) (main_arg13 : FVec F S5x128 .f32) (main_arg14 : FVec F S5x128 .f32) (main_arg15 : FVec F S5x128 .f32) (main_arg16 : FVec F S5x128 .f32) (main_arg17 : FVec F S5x128 .f32) (main_v33 : IVec S_ 1) : IVec S_ 1 :=
  let main_v34 : FVec F S5x128 .f32 := Host.absf main_arg10
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S5x128 .f32 := Host.absf main_arg11
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S5x128x128 .f32 := Host.absf main_arg12
  let main_cst_16 : FVec F S_ .f32 := constant S_ .f32 0x7F800000#32
  let main_v45 : FVec F S5x128x128 .f32 := broadcastInDim S5x128x128 ![] bcast_S_S5x128x128 main_cst_16
  let main_v46 : IVec S5x128x128 1 := cmpf .olt main_v44 main_v45
  let main_c_17 : IVec S_ 1 := constantI S_ 1 1#1
  let main_v47 : IVec S_ 1 := (fun x v => Host.reduce IntOp.andi x v reducesTo_S5x128x128_S_d0_1_2 h_S_) main_v46 main_c_17
  let main_v48 : IVec S_ 1 := andi main_v43 main_v47
  let main_v49 : FVec F S5x128 .f32 := Host.absf main_arg13
  let main_cst_18 : FVec F S_ .f32 := constant S_ .f32 0x7F800000#32
  let main_v50 : FVec F S5x128 .f32 := broadcastInDim S5x128 ![] bcast_S_S5x128 main_cst_18
  fn_part3 (F := F) main_arg2 main_arg14 main_arg15 main_arg16 main_arg17 main_v48 main_v49 main_v50

def fn_part1 {F : FTy → Type} [FloatOps F] (main_arg2 : IVec S600000x3 32) (main_arg7 : FVec F S5x128 .f32) (main_arg8 : FVec F S5x128 .f32) (main_arg9 : FVec F S5x128 .f32) (main_arg10 : FVec F S5x128 .f32) (main_arg11 : FVec F S5x128 .f32) (main_arg12 : FVec F S5x128x128 .f32) (main_arg13 : FVec F S5x128 .f32) (main_arg14 : FVec F S5x128 .f32) (main_arg15 : FVec F S5x128 .f32) (main_arg16 : FVec F S5x128 .f32) (main_arg17 : FVec F S5x128 .f32) (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  let main_v19 : FVec F S5x128 .f32 := Host.absf main_arg7
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg8
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg9
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg2 main_arg10 main_arg11 main_arg12 main_arg13 main_arg14 main_arg15 main_arg16 main_arg17 main_v33

def fn {F : FTy → Type} [FloatOps F] (main_arg0 : IVec S50000x9 32) (main_arg1 : IVec S2x600000 32) (main_arg2 : IVec S600000x3 32) (main_arg3 : FVec F S9x4x128 .f32) (main_arg4 : FVec F S5x3x4x128 .f32) (main_arg5 : FVec F S5 .f32) (main_arg6 : FVec F S5x128x128 .f32) (main_arg7 : FVec F S5x128 .f32) (main_arg8 : FVec F S5x128 .f32) (main_arg9 : FVec F S5x128 .f32) (main_arg10 : FVec F S5x128 .f32) (main_arg11 : FVec F S5x128 .f32) (main_arg12 : FVec F S5x128x128 .f32) (main_arg13 : FVec F S5x128 .f32) (main_arg14 : FVec F S5x128 .f32) (main_arg15 : FVec F S5x128 .f32) (main_arg16 : FVec F S5x128 .f32) (main_arg17 : FVec F S5x128 .f32) : IVec S_ 1 :=
  let main_v0 : FVec F S9x4x128 .f32 := Host.absf main_arg3
  let main_cst : FVec F S_ .f32 := constant S_ .f32 0x7F800000#32
  let main_v1 : FVec F S9x4x128 .f32 := broadcastInDim S9x4x128 ![] bcast_S_S9x4x128 main_cst
  let main_v2 : IVec S9x4x128 1 := cmpf .olt main_v0 main_v1
  let main_c : IVec S_ 1 := constantI S_ 1 1#1
  let main_v3 : IVec S_ 1 := (fun x v => Host.reduce IntOp.andi x v reducesTo_S9x4x128_S_d0_1_2 h_S_) main_v2 main_c
  let main_v4 : FVec F S5x3x4x128 .f32 := Host.absf main_arg4
  let main_cst_0 : FVec F S_ .f32 := constant S_ .f32 0x7F800000#32
  let main_v5 : FVec F S5x3x4x128 .f32 := broadcastInDim S5x3x4x128 ![] bcast_S_S5x3x4x128 main_cst_0
  let main_v6 : IVec S5x3x4x128 1 := cmpf .olt main_v4 main_v5
  let main_c_1 : IVec S_ 1 := constantI S_ 1 1#1
  let main_v7 : IVec S_ 1 := (fun x v => Host.reduce IntOp.andi x v reducesTo_S5x3x4x128_S_d0_1_2_3 h_S_) main_v6 main_c_1
  let main_v8 : IVec S_ 1 := andi main_v3 main_v7
  let main_v9 : FVec F S5 .f32 := Host.absf main_arg5
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x128x128 .f32 := Host.absf main_arg6
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_arg2 main_arg7 main_arg8 main_arg9 main_arg10 main_arg11 main_arg12 main_arg13 main_arg14 main_arg15 main_arg16 main_arg17 main_v13 main_v16
-- ==== Kernel.lean ====
abbrev S50000x9 : Shape := ⟨2, ![50000, 9]⟩
abbrev S2x600000 : Shape := ⟨2, ![2, 600000]⟩
abbrev S600000x3 : Shape := ⟨2, ![600000, 3]⟩
abbrev S9x4x128 : Shape := ⟨3, ![9, 4, 128]⟩
abbrev S5x3x4x128 : Shape := ⟨4, ![5, 3, 4, 128]⟩
abbrev S5 : Shape := ⟨1, ![5]⟩
abbrev S5x128x128 : Shape := ⟨3, ![5, 128, 128]⟩
abbrev S5x128 : Shape := ⟨2, ![5, 128]⟩
abbrev S1x600000 : Shape := ⟨2, ![1, 600000]⟩
abbrev S600000 : Shape := ⟨1, ![600000]⟩
abbrev S9 : Shape := ⟨1, ![9]⟩
abbrev S1x9 : Shape := ⟨2, ![1, 9]⟩
abbrev S_ : Shape := ⟨0, ![]⟩
abbrev S50000x9x1 : Shape := ⟨3, ![50000, 9, 1]⟩
abbrev S50000x9x2 : Shape := ⟨3, ![50000, 9, 2]⟩
abbrev S50000x9x128 : Shape := ⟨3, ![50000, 9, 128]⟩
abbrev S50000x128 : Shape := ⟨2, ![50000, 128]⟩
abbrev S600000x1 : Shape := ⟨2, ![600000, 1]⟩
abbrev S600000x128 : Shape := ⟨2, ![600000, 128]⟩
abbrev S1x3x4x128 : Shape := ⟨4, ![1, 3, 4, 128]⟩
abbrev S3x4x128 : Shape := ⟨3, ![3, 4, 128]⟩
abbrev S6000x3 : Shape := ⟨2, ![6000, 3]⟩
abbrev S6000x128 : Shape := ⟨2, ![6000, 128]⟩
abbrev S6000x4 : Shape := ⟨2, ![6000, 4]⟩
abbrev S6000x1 : Shape := ⟨2, ![6000, 1]⟩
abbrev S1x4x128 : Shape := ⟨3, ![1, 4, 128]⟩
abbrev S4x128 : Shape := ⟨2, ![4, 128]⟩
abbrev S1 : Shape := ⟨1, ![1]⟩
abbrev S1x1 : Shape := ⟨2, ![1, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 335
  | .vmem => 130
  | .smem => 0
  | _ => 0

abbrev hbmTy0_0 (i : Nat) : BufTy := match i % 128 with
  | 0 => ⟨S50000x9, .i32⟩
  | 1 => ⟨S2x600000, .i32⟩
  | 2 => ⟨S600000x3, .i32⟩
  | 3 => ⟨S9x4x128, .f32⟩
  | 4 => ⟨S5x3x4x128, .f32⟩
  | 5 => ⟨S5, .f32⟩
  | 6 => ⟨S5x128x128, .f32⟩
  | 7 => ⟨S5x128, .f32⟩
  | 8 => ⟨S5x128, .f32⟩
  | 9 => ⟨S5x128, .f32⟩
  | 10 => ⟨S5x128, .f32⟩
  | 11 => ⟨S5x128, .f32⟩
  | 12 => ⟨S5x128x128, .f32⟩
  | 13 => ⟨S5x128, .f32⟩
  | 14 => ⟨S5x128, .f32⟩
  | 15 => ⟨S5x128, .f32⟩
  | 16 => ⟨S5x128, .f32⟩
  | 17 => ⟨S5x128, .f32⟩
  | 18 => ⟨S1x600000, .i32⟩
  | 19 => ⟨S600000, .i32⟩
  | 20 => ⟨S1x600000, .i32⟩
  | 21 => ⟨S600000, .i32⟩
  | 22 => ⟨S9, .i32⟩
  | 23 => ⟨S1x9, .i32⟩
  | 24 => ⟨S_, .i32⟩
  | 25 => ⟨S1x9, .i32⟩
  | 26 => ⟨S1x9, .i1⟩
  | 27 => ⟨S_, .i32⟩
  | 28 => ⟨S1x9, .i32⟩
  | 29 => ⟨S1x9, .i32⟩
  | 30 => ⟨S1x9, .i32⟩
  | 31 => ⟨S_, .i32⟩
  | 32 => ⟨S50000x9, .i32⟩
  | 33 => ⟨S50000x9, .i1⟩
  | 34 => ⟨S_, .i32⟩
  | 35 => ⟨S50000x9, .i32⟩
  | 36 => ⟨S50000x9, .i32⟩
  | 37 => ⟨S50000x9, .i32⟩
  | 38 => ⟨S50000x9, .i32⟩
  | 39 => ⟨S50000x9x1, .i32⟩
  | 40 => ⟨S50000x9x1, .i32⟩
  | 41 => ⟨S50000x9x2, .i32⟩
  | 42 => ⟨S50000x9x128, .f32⟩
  | 43 => ⟨S_, .f32⟩
  | 44 => ⟨S50000x128, .f32⟩
  | 45 => ⟨S50000x128, .bf16⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .bf16⟩
  | 55 => ⟨S1x3x4x128, .f32⟩
  | 56 => ⟨S3x4x128, .f32⟩
  | 57 => ⟨S600000x128, .bf16⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S1, .f32⟩
  | 64 => ⟨S_, .f32⟩
  | 65 => ⟨S_, .f32⟩
  | 66 => ⟨S_, .f32⟩
  | 67 => ⟨S1x1, .f32⟩
  | 68 => ⟨S1x128x128, .f32⟩
  | 69 => ⟨S128x128, .f32⟩
  | 70 => ⟨S1x128, .f32⟩
  | 71 => ⟨S128, .f32⟩
  | 72 => ⟨S1x128, .f32⟩
  | 73 => ⟨S1x128, .f32⟩
  | 74 => ⟨S128, .f32⟩
  | 75 => ⟨S1x128, .f32⟩
  | 76 => ⟨S1x128, .f32⟩
  | 77 => ⟨S128, .f32⟩
  | 78 => ⟨S1x128, .f32⟩
  | 79 => ⟨S1x128, .f32⟩
  | 80 => ⟨S128, .f32⟩
  | 81 => ⟨S1x128, .f32⟩
  | 82 => ⟨S1x128, .f32⟩
  | 83 => ⟨S128, .f32⟩
  | 84 => ⟨S1x128, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S1x128, .f32⟩
  | 97 => ⟨S128, .f32⟩
  | 98 => ⟨S1x128, .f32⟩
  | 99 => ⟨S1x128, .f32⟩
  | 100 => ⟨S128, .f32⟩
  | 101 => ⟨S1x128, .f32⟩
  | 102 => ⟨S50000x128, .f32⟩
  | 103 => ⟨S50000x128, .bf16⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .bf16⟩
  | 113 => ⟨S1x3x4x128, .f32⟩
  | 114 => ⟨S3x4x128, .f32⟩
  | 115 => ⟨S600000x128, .bf16⟩
  | 116 => ⟨S600000x128, .f32⟩
  | 117 => ⟨S_, .f32⟩
  | 118 => ⟨S50000x128, .f32⟩
  | 119 => ⟨S600000x1, .i32⟩
  | 120 => ⟨S50000x128, .f32⟩
  | 121 => ⟨S1, .f32⟩
  | 122 => ⟨S_, .f32⟩
  | 123 => ⟨S_, .f32⟩
  | 124 => ⟨S_, .f32⟩
  | 125 => ⟨S1x1, .f32⟩
  | 126 => ⟨S1x128x128, .f32⟩
  | 127 => ⟨S128x128, .f32⟩
  | _ => ⟨S50000x9, .i32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S128, .f32⟩
  | 5 => ⟨S1x128, .f32⟩
  | 6 => ⟨S1x128, .f32⟩
  | 7 => ⟨S128, .f32⟩
  | 8 => ⟨S1x128, .f32⟩
  | 9 => ⟨S1x128, .f32⟩
  | 10 => ⟨S128, .f32⟩
  | 11 => ⟨S1x128, .f32⟩
  | 12 => ⟨S1x128, .f32⟩
  | 13 => ⟨S128, .f32⟩
  | 14 => ⟨S1x128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S1x128, .f32⟩
  | 21 => ⟨S128, .f32⟩
  | 22 => ⟨S1x128, .f32⟩
  | 23 => ⟨S1x128, .f32⟩
  | 24 => ⟨S128, .f32⟩
  | 25 => ⟨S1x128, .f32⟩
  | 26 => ⟨S1x128, .f32⟩
  | 27 => ⟨S128, .f32⟩
  | 28 => ⟨S1x128, .f32⟩
  | 29 => ⟨S1x128, .f32⟩
  | 30 => ⟨S128, .f32⟩
  | 31 => ⟨S1x128, .f32⟩
  | 32 => ⟨S50000x128, .f32⟩
  | 33 => ⟨S50000x128, .bf16⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .bf16⟩
  | 43 => ⟨S1x3x4x128, .f32⟩
  | 44 => ⟨S3x4x128, .f32⟩
  | 45 => ⟨S600000x128, .bf16⟩
  | 46 => ⟨S600000x128, .f32⟩
  | 47 => ⟨S_, .f32⟩
  | 48 => ⟨S50000x128, .f32⟩
  | 49 => ⟨S600000x1, .i32⟩
  | 50 => ⟨S50000x128, .f32⟩
  | 51 => ⟨S1, .f32⟩
  | 52 => ⟨S_, .f32⟩
  | 53 => ⟨S_, .f32⟩
  | 54 => ⟨S_, .f32⟩
  | 55 => ⟨S1x1, .f32⟩
  | 56 => ⟨S1x128x128, .f32⟩
  | 57 => ⟨S128x128, .f32⟩
  | 58 => ⟨S1x128, .f32⟩
  | 59 => ⟨S128, .f32⟩
  | 60 => ⟨S1x128, .f32⟩
  | 61 => ⟨S1x128, .f32⟩
  | 62 => ⟨S128, .f32⟩
  | 63 => ⟨S1x128, .f32⟩
  | 64 => ⟨S1x128, .f32⟩
  | 65 => ⟨S128, .f32⟩
  | 66 => ⟨S1x128, .f32⟩
  | 67 => ⟨S1x128, .f32⟩
  | 68 => ⟨S128, .f32⟩
  | 69 => ⟨S1x128, .f32⟩
  | 70 => ⟨S1x128, .f32⟩
  | 71 => ⟨S128, .f32⟩
  | 72 => ⟨S1x128, .f32⟩
  | 73 => ⟨S1x128x128, .f32⟩
  | 74 => ⟨S128x128, .f32⟩
  | 75 => ⟨S1x128, .f32⟩
  | 76 => ⟨S128, .f32⟩
  | 77 => ⟨S1x128, .f32⟩
  | 78 => ⟨S1x128, .f32⟩
  | 79 => ⟨S128, .f32⟩
  | 80 => ⟨S1x128, .f32⟩
  | 81 => ⟨S1x128, .f32⟩
  | 82 => ⟨S128, .f32⟩
  | 83 => ⟨S1x128, .f32⟩
  | 84 => ⟨S1x128, .f32⟩
  | 85 => ⟨S128, .f32⟩
  | 86 => ⟨S1x128, .f32⟩
  | 87 => ⟨S1x128, .f32⟩
  | 88 => ⟨S128, .f32⟩
  | 89 => ⟨S1x128, .f32⟩
  | 90 => ⟨S50000x128, .f32⟩
  | 91 => ⟨S50000x128, .bf16⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .bf16⟩
  | 101 => ⟨S1x3x4x128, .f32⟩
  | 102 => ⟨S3x4x128, .f32⟩
  | 103 => ⟨S600000x128, .bf16⟩
  | 104 => ⟨S600000x128, .f32⟩
  | 105 => ⟨S_, .f32⟩
  | 106 => ⟨S50000x128, .f32⟩
  | 107 => ⟨S600000x1, .i32⟩
  | 108 => ⟨S50000x128, .f32⟩
  | 109 => ⟨S1, .f32⟩
  | 110 => ⟨S_, .f32⟩
  | 111 => ⟨S_, .f32⟩
  | 112 => ⟨S_, .f32⟩
  | 113 => ⟨S1x1, .f32⟩
  | 114 => ⟨S1x128x128, .f32⟩
  | 115 => ⟨S128x128, .f32⟩
  | 116 => ⟨S1x128, .f32⟩
  | 117 => ⟨S128, .f32⟩
  | 118 => ⟨S1x128, .f32⟩
  | 119 => ⟨S1x128, .f32⟩
  | 120 => ⟨S128, .f32⟩
  | 121 => ⟨S1x128, .f32⟩
  | 122 => ⟨S1x128, .f32⟩
  | 123 => ⟨S128, .f32⟩
  | 124 => ⟨S1x128, .f32⟩
  | 125 => ⟨S1x128, .f32⟩
  | 126 => ⟨S128, .f32⟩
  | 127 => ⟨S1x128, .f32⟩
  | _ => ⟨S50000x9, .i32⟩

abbrev hbmTy0_2 (i : Nat) : BufTy := match i % 128 with
  | 0 => ⟨S1x128, .f32⟩
  | 1 => ⟨S128, .f32⟩
  | 2 => ⟨S1x128, .f32⟩
  | 3 => ⟨S1x128x128, .f32⟩
  | 4 => ⟨S128x128, .f32⟩
  | 5 => ⟨S1x128, .f32⟩
  | 6 => ⟨S128, .f32⟩
  | 7 => ⟨S1x128, .f32⟩
  | 8 => ⟨S1x128, .f32⟩
  | 9 => ⟨S128, .f32⟩
  | 10 => ⟨S1x128, .f32⟩
  | 11 => ⟨S1x128, .f32⟩
  | 12 => ⟨S128, .f32⟩
  | 13 => ⟨S1x128, .f32⟩
  | 14 => ⟨S1x128, .f32⟩
  | 15 => ⟨S128, .f32⟩
  | 16 => ⟨S1x128, .f32⟩
  | 17 => ⟨S1x128, .f32⟩
  | 18 => ⟨S128, .f32⟩
  | 19 => ⟨S1x128, .f32⟩
  | 20 => ⟨S50000x128, .f32⟩
  | 21 => ⟨S50000x128, .bf16⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .bf16⟩
  | 31 => ⟨S1x3x4x128, .f32⟩
  | 32 => ⟨S3x4x128, .f32⟩
  | 33 => ⟨S600000x128, .bf16⟩
  | 34 => ⟨S600000x128, .f32⟩
  | 35 => ⟨S_, .f32⟩
  | 36 => ⟨S50000x128, .f32⟩
  | 37 => ⟨S600000x1, .i32⟩
  | 38 => ⟨S50000x128, .f32⟩
  | 39 => ⟨S1, .f32⟩
  | 40 => ⟨S_, .f32⟩
  | 41 => ⟨S_, .f32⟩
  | 42 => ⟨S_, .f32⟩
  | 43 => ⟨S1x1, .f32⟩
  | 44 => ⟨S1x128x128, .f32⟩
  | 45 => ⟨S128x128, .f32⟩
  | 46 => ⟨S1x128, .f32⟩
  | 47 => ⟨S128, .f32⟩
  | 48 => ⟨S1x128, .f32⟩
  | 49 => ⟨S1x128, .f32⟩
  | 50 => ⟨S128, .f32⟩
  | 51 => ⟨S1x128, .f32⟩
  | 52 => ⟨S1x128, .f32⟩
  | 53 => ⟨S128, .f32⟩
  | 54 => ⟨S1x128, .f32⟩
  | 55 => ⟨S1x128, .f32⟩
  | 56 => ⟨S128, .f32⟩
  | 57 => ⟨S1x128, .f32⟩
  | 58 => ⟨S1x128, .f32⟩
  | 59 => ⟨S128, .f32⟩
  | 60 => ⟨S1x128, .f32⟩
  | 61 => ⟨S1x128x128, .f32⟩
  | 62 => ⟨S128x128, .f32⟩
  | 63 => ⟨S1x128, .f32⟩
  | 64 => ⟨S128, .f32⟩
  | 65 => ⟨S1x128, .f32⟩
  | 66 => ⟨S1x128, .f32⟩
  | 67 => ⟨S128, .f32⟩
  | 68 => ⟨S1x128, .f32⟩
  | 69 => ⟨S1x128, .f32⟩
  | 70 => ⟨S128, .f32⟩
  | 71 => ⟨S1x128, .f32⟩
  | 72 => ⟨S1x128, .f32⟩
  | 73 => ⟨S128, .f32⟩
  | 74 => ⟨S1x128, .f32⟩
  | 75 => ⟨S1x128, .f32⟩
  | 76 => ⟨S128, .f32⟩
  | 77 => ⟨S1x128, .f32⟩
  | 78 => ⟨S50000x128, .f32⟩
  | _ => ⟨S50000x9, .i32⟩

abbrev hbmTy (i : Nat) : BufTy := match i / 128 with
  | 0 => hbmTy0_0 i
  | 1 => hbmTy0_1 i
  | 2 => hbmTy0_2 i
  | _ => ⟨S50000x9, .i32⟩

abbrev vmemTy0_0 (i : Nat) : BufTy := match i % 128 with
  | 0 => ⟨S6000x3, .i32⟩
  | 1 => ⟨S6000x3, .i32⟩
  | 2 => ⟨S6000x128, .bf16⟩
  | 3 => ⟨S6000x128, .bf16⟩
  | 4 => ⟨S3x4x128, .f32⟩
  | 5 => ⟨S6000x128, .bf16⟩
  | 6 => ⟨S6000x128, .bf16⟩
  | 7 => ⟨S5000x128, .f32⟩
  | 8 => ⟨S5000x128, .f32⟩
  | 9 => ⟨S5000x128, .f32⟩
  | 10 => ⟨S5000x128, .f32⟩
  | 11 => ⟨S1x1, .f32⟩
  | 12 => ⟨S128x128, .f32⟩
  | 13 => ⟨S1x128, .f32⟩
  | 14 => ⟨S1x128, .f32⟩
  | 15 => ⟨S1x128, .f32⟩
  | 16 => ⟨S1x128, .f32⟩
  | 17 => ⟨S1x128, .f32⟩
  | 18 => ⟨S128x128, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S5000x128, .f32⟩
  | 25 => ⟨S5000x128, .f32⟩
  | 26 => ⟨S6000x3, .i32⟩
  | 27 => ⟨S6000x3, .i32⟩
  | 28 => ⟨S6000x128, .bf16⟩
  | 29 => ⟨S6000x128, .bf16⟩
  | 30 => ⟨S3x4x128, .f32⟩
  | 31 => ⟨S6000x128, .bf16⟩
  | 32 => ⟨S6000x128, .bf16⟩
  | 33 => ⟨S5000x128, .f32⟩
  | 34 => ⟨S5000x128, .f32⟩
  | 35 => ⟨S5000x128, .f32⟩
  | 36 => ⟨S5000x128, .f32⟩
  | 37 => ⟨S1x1, .f32⟩
  | 38 => ⟨S128x128, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S128x128, .f32⟩
  | 45 => ⟨S1x128, .f32⟩
  | 46 => ⟨S1x128, .f32⟩
  | 47 => ⟨S1x128, .f32⟩
  | 48 => ⟨S1x128, .f32⟩
  | 49 => ⟨S1x128, .f32⟩
  | 50 => ⟨S5000x128, .f32⟩
  | 51 => ⟨S5000x128, .f32⟩
  | 52 => ⟨S6000x3, .i32⟩
  | 53 => ⟨S6000x3, .i32⟩
  | 54 => ⟨S6000x128, .bf16⟩
  | 55 => ⟨S6000x128, .bf16⟩
  | 56 => ⟨S3x4x128, .f32⟩
  | 57 => ⟨S6000x128, .bf16⟩
  | 58 => ⟨S6000x128, .bf16⟩
  | 59 => ⟨S5000x128, .f32⟩
  | 60 => ⟨S5000x128, .f32⟩
  | 61 => ⟨S5000x128, .f32⟩
  | 62 => ⟨S5000x128, .f32⟩
  | 63 => ⟨S1x1, .f32⟩
  | 64 => ⟨S128x128, .f32⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S128x128, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S5000x128, .f32⟩
  | 77 => ⟨S5000x128, .f32⟩
  | 78 => ⟨S6000x3, .i32⟩
  | 79 => ⟨S6000x3, .i32⟩
  | 80 => ⟨S6000x128, .bf16⟩
  | 81 => ⟨S6000x128, .bf16⟩
  | 82 => ⟨S3x4x128, .f32⟩
  | 83 => ⟨S6000x128, .bf16⟩
  | 84 => ⟨S6000x128, .bf16⟩
  | 85 => ⟨S5000x128, .f32⟩
  | 86 => ⟨S5000x128, .f32⟩
  | 87 => ⟨S5000x128, .f32⟩
  | 88 => ⟨S5000x128, .f32⟩
  | 89 => ⟨S1x1, .f32⟩
  | 90 => ⟨S128x128, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S128x128, .f32⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S5000x128, .f32⟩
  | 103 => ⟨S5000x128, .f32⟩
  | 104 => ⟨S6000x3, .i32⟩
  | 105 => ⟨S6000x3, .i32⟩
  | 106 => ⟨S6000x128, .bf16⟩
  | 107 => ⟨S6000x128, .bf16⟩
  | 108 => ⟨S3x4x128, .f32⟩
  | 109 => ⟨S6000x128, .bf16⟩
  | 110 => ⟨S6000x128, .bf16⟩
  | 111 => ⟨S5000x128, .f32⟩
  | 112 => ⟨S5000x128, .f32⟩
  | 113 => ⟨S5000x128, .f32⟩
  | 114 => ⟨S5000x128, .f32⟩
  | 115 => ⟨S1x1, .f32⟩
  | 116 => ⟨S128x128, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S128x128, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S50000x9, .i32⟩

abbrev vmemTy0_1 (i : Nat) : BufTy := match i % 128 with
  | 0 => ⟨S5000x128, .f32⟩
  | 1 => ⟨S5000x128, .f32⟩
  | _ => ⟨S50000x9, .i32⟩

abbrev vmemTy (i : Nat) : BufTy := match i / 128 with
  | 0 => vmemTy0_0 i
  | 1 => vmemTy0_1 i
  | _ => ⟨S50000x9, .i32⟩

abbrev bufTy : (tb : Table) → Fin (tcTables nBuf tb) → BufTy
  | .hbm, ⟨i, _⟩ => hbmTy i
  | .local _ .vmem, ⟨i, _⟩ => vmemTy i
  | _, _ => ⟨S50000x9, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 130 → Bool
  | ⟨i, _⟩ => dmaSemScopedAt i

abbrev sig : RefSig :=
  ofTc nBuf bufTy 0 130 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_7 : Ref sig .tc := ⟨.hbm, 104, rfl⟩
abbrev main_v77 : Ref sig .tc := ⟨.hbm, 105, rfl⟩
abbrev main_v78 : Ref sig .tc := ⟨.hbm, 106, rfl⟩
abbrev main_c_8 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_9 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_10 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_c_11 : Ref sig .tc := ⟨.hbm, 162, rfl⟩
abbrev main_v131 : Ref sig .tc := ⟨.hbm, 163, rfl⟩
abbrev main_v132 : Ref sig .tc := ⟨.hbm, 164, rfl⟩
abbrev main_c_12 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_cst_13 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_cst_14 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_c_15 : Ref sig .tc := ⟨.hbm, 220, rfl⟩
abbrev main_v185 : Ref sig .tc := ⟨.hbm, 221, rfl⟩
abbrev main_v186 : Ref sig .tc := ⟨.hbm, 222, rfl⟩
abbrev main_c_16 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_cst_17 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_cst_18 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_c_19 : Ref sig .tc := ⟨.hbm, 278, rfl⟩
abbrev main_v239 : Ref sig .tc := ⟨.hbm, 279, rfl⟩
abbrev main_v240 : Ref sig .tc := ⟨.hbm, 280, rfl⟩
abbrev main_c_20 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_cst_21 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_cst_22 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_v291 : Ref sig .tc := ⟨.hbm, 334, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg15_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg3_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg8_0 : Ref sig .tc := ⟨.vmem, 43, rfl⟩
abbrev cc3_stg9_0 : Ref sig .tc := ⟨.vmem, 44, rfl⟩
abbrev cc3_stg10_0 : Ref sig .tc := ⟨.vmem, 45, rfl⟩
abbrev cc3_stg11_0 : Ref sig .tc := ⟨.vmem, 46, rfl⟩
abbrev cc3_stg12_0 : Ref sig .tc := ⟨.vmem, 47, rfl⟩
abbrev cc3_stg13_0 : Ref sig .tc := ⟨.vmem, 48, rfl⟩
abbrev cc3_stg14_0 : Ref sig .tc := ⟨.vmem, 49, rfl⟩
abbrev cc3_stg15_0 : Ref sig .tc := ⟨.vmem, 50, rfl⟩
abbrev cc3_stg15_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg3_1 : Ref sig .tc := ⟨.vmem, 58, rfl⟩
abbrev cc5_stg0_0 : Ref sig .tc := ⟨.vmem, 59, rfl⟩
abbrev cc5_stg0_1 : Ref sig .tc := ⟨.vmem, 60, rfl⟩
abbrev cc5_stg1_0 : Ref sig .tc := ⟨.vmem, 61, rfl⟩
abbrev cc5_stg1_1 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg6_0 : Ref sig .tc := ⟨.vmem, 67, rfl⟩
abbrev cc5_stg7_0 : Ref sig .tc := ⟨.vmem, 68, rfl⟩
abbrev cc5_stg8_0 : Ref sig .tc := ⟨.vmem, 69, rfl⟩
abbrev cc5_stg9_0 : Ref sig .tc := ⟨.vmem, 70, rfl⟩
abbrev cc5_stg10_0 : Ref sig .tc := ⟨.vmem, 71, rfl⟩
abbrev cc5_stg11_0 : Ref sig .tc := ⟨.vmem, 72, rfl⟩
abbrev cc5_stg12_0 : Ref sig .tc := ⟨.vmem, 73, rfl⟩
abbrev cc5_stg13_0 : Ref sig .tc := ⟨.vmem, 74, rfl⟩
abbrev cc5_stg14_0 : Ref sig .tc := ⟨.vmem, 75, rfl⟩
abbrev cc5_stg15_0 : Ref sig .tc := ⟨.vmem, 76, rfl⟩
abbrev cc5_stg15_1 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg1_1 : Ref sig .tc := ⟨.vmem, 81, rfl⟩
abbrev cc6_stg2_0 : Ref sig .tc := ⟨.vmem, 82, rfl⟩
abbrev cc6_stg3_0 : Ref sig .tc := ⟨.vmem, 83, rfl⟩
abbrev cc6_stg3_1 : Ref sig .tc := ⟨.vmem, 84, rfl⟩
abbrev cc7_stg0_0 : Ref sig .tc := ⟨.vmem, 85, rfl⟩
abbrev cc7_stg0_1 : Ref sig .tc := ⟨.vmem, 86, rfl⟩
abbrev cc7_stg1_0 : Ref sig .tc := ⟨.vmem, 87, rfl⟩
abbrev cc7_stg1_1 : Ref sig .tc := ⟨.vmem, 88, rfl⟩
abbrev cc7_stg2_0 : Ref sig .tc := ⟨.vmem, 89, rfl⟩
abbrev cc7_stg3_0 : Ref sig .tc := ⟨.vmem, 90, rfl⟩
abbrev cc7_stg4_0 : Ref sig .tc := ⟨.vmem, 91, rfl⟩
abbrev cc7_stg5_0 : Ref sig .tc := ⟨.vmem, 92, rfl⟩
abbrev cc7_stg6_0 : Ref sig .tc := ⟨.vmem, 93, rfl⟩
abbrev cc7_stg7_0 : Ref sig .tc := ⟨.vmem, 94, rfl⟩
abbrev cc7_stg8_0 : Ref sig .tc := ⟨.vmem, 95, rfl⟩
abbrev cc7_stg9_0 : Ref sig .tc := ⟨.vmem, 96, rfl⟩
abbrev cc7_stg10_0 : Ref sig .tc := ⟨.vmem, 97, rfl⟩
abbrev cc7_stg11_0 : Ref sig .tc := ⟨.vmem, 98, rfl⟩
abbrev cc7_stg12_0 : Ref sig .tc := ⟨.vmem, 99, rfl⟩
abbrev cc7_stg13_0 : Ref sig .tc := ⟨.vmem, 100, rfl⟩
abbrev cc7_stg14_0 : Ref sig .tc := ⟨.vmem, 101, rfl⟩
abbrev cc7_stg15_0 : Ref sig .tc := ⟨.vmem, 102, rfl⟩
abbrev cc7_stg15_1 : Ref sig .tc := ⟨.vmem, 103, rfl⟩
abbrev cc8_stg0_0 : Ref sig .tc := ⟨.vmem, 104, rfl⟩
abbrev cc8_stg0_1 : Ref sig .tc := ⟨.vmem, 105, rfl⟩
abbrev cc8_stg1_0 : Ref sig .tc := ⟨.vmem, 106, rfl⟩
abbrev cc8_stg1_1 : Ref sig .tc := ⟨.vmem, 107, rfl⟩
abbrev cc8_stg2_0 : Ref sig .tc := ⟨.vmem, 108, rfl⟩
abbrev cc8_stg3_0 : Ref sig .tc := ⟨.vmem, 109, rfl⟩
abbrev cc8_stg3_1 : Ref sig .tc := ⟨.vmem, 110, rfl⟩
abbrev cc9_stg0_0 : Ref sig .tc := ⟨.vmem, 111, rfl⟩
abbrev cc9_stg0_1 : Ref sig .tc := ⟨.vmem, 112, rfl⟩
abbrev cc9_stg1_0 : Ref sig .tc := ⟨.vmem, 113, rfl⟩
abbrev cc9_stg1_1 : Ref sig .tc := ⟨.vmem, 114, rfl⟩
abbrev cc9_stg2_0 : Ref sig .tc := ⟨.vmem, 115, rfl⟩
abbrev cc9_stg3_0 : Ref sig .tc := ⟨.vmem, 116, rfl⟩
abbrev cc9_stg4_0 : Ref sig .tc := ⟨.vmem, 117, rfl⟩
abbrev cc9_stg5_0 : Ref sig .tc := ⟨.vmem, 118, rfl⟩
abbrev cc9_stg6_0 : Ref sig .tc := ⟨.vmem, 119, rfl⟩
abbrev cc9_stg7_0 : Ref sig .tc := ⟨.vmem, 120, rfl⟩
abbrev cc9_stg8_0 : Ref sig .tc := ⟨.vmem, 121, rfl⟩
abbrev cc9_stg9_0 : Ref sig .tc := ⟨.vmem, 122, rfl⟩
abbrev cc9_stg10_0 : Ref sig .tc := ⟨.vmem, 123, rfl⟩
abbrev cc9_stg11_0 : Ref sig .tc := ⟨.vmem, 124, rfl⟩
abbrev cc9_stg12_0 : Ref sig .tc := ⟨.vmem, 125, rfl⟩
abbrev cc9_stg13_0 : Ref sig .tc := ⟨.vmem, 126, rfl⟩
abbrev cc9_stg14_0 : Ref sig .tc := ⟨.vmem, 127, rfl⟩
abbrev cc9_stg15_0 : Ref sig .tc := ⟨.vmem, 128, rfl⟩
abbrev cc9_stg15_1 : Ref sig .tc := ⟨.vmem, 129, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem15_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem3_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem9_0 : DmaSem sig := 44
abbrev cc3_sem10_0 : DmaSem sig := 45
abbrev cc3_sem11_0 : DmaSem sig := 46
abbrev cc3_sem12_0 : DmaSem sig := 47
abbrev cc3_sem13_0 : DmaSem sig := 48
abbrev cc3_sem14_0 : DmaSem sig := 49
abbrev cc3_sem15_0 : DmaSem sig := 50
abbrev cc3_sem15_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem3_1 : DmaSem sig := 58
abbrev cc5_sem0_0 : DmaSem sig := 59
abbrev cc5_sem0_1 : DmaSem sig := 60
abbrev cc5_sem1_0 : DmaSem sig := 61
abbrev cc5_sem1_1 : DmaSem sig := 62
abbrev cc5_sem2_0 : DmaSem sig := 63
abbrev cc5_sem3_0 : DmaSem sig := 64
abbrev cc5_sem4_0 : DmaSem sig := 65
abbrev cc5_sem5_0 : DmaSem sig := 66
abbrev cc5_sem6_0 : DmaSem sig := 67
abbrev cc5_sem7_0 : DmaSem sig := 68
abbrev cc5_sem8_0 : DmaSem sig := 69
abbrev cc5_sem9_0 : DmaSem sig := 70
abbrev cc5_sem10_0 : DmaSem sig := 71
abbrev cc5_sem11_0 : DmaSem sig := 72
abbrev cc5_sem12_0 : DmaSem sig := 73
abbrev cc5_sem13_0 : DmaSem sig := 74
abbrev cc5_sem14_0 : DmaSem sig := 75
abbrev cc5_sem15_0 : DmaSem sig := 76
abbrev cc5_sem15_1 : DmaSem sig := 77
abbrev cc6_sem0_0 : DmaSem sig := 78
abbrev cc6_sem0_1 : DmaSem sig := 79
abbrev cc6_sem1_0 : DmaSem sig := 80
abbrev cc6_sem1_1 : DmaSem sig := 81
abbrev cc6_sem2_0 : DmaSem sig := 82
abbrev cc6_sem3_0 : DmaSem sig := 83
abbrev cc6_sem3_1 : DmaSem sig := 84
abbrev cc7_sem0_0 : DmaSem sig := 85
abbrev cc7_sem0_1 : DmaSem sig := 86
abbrev cc7_sem1_0 : DmaSem sig := 87
abbrev cc7_sem1_1 : DmaSem sig := 88
abbrev cc7_sem2_0 : DmaSem sig := 89
abbrev cc7_sem3_0 : DmaSem sig := 90
abbrev cc7_sem4_0 : DmaSem sig := 91
abbrev cc7_sem5_0 : DmaSem sig := 92
abbrev cc7_sem6_0 : DmaSem sig := 93
abbrev cc7_sem7_0 : DmaSem sig := 94
abbrev cc7_sem8_0 : DmaSem sig := 95
abbrev cc7_sem9_0 : DmaSem sig := 96
abbrev cc7_sem10_0 : DmaSem sig := 97
abbrev cc7_sem11_0 : DmaSem sig := 98
abbrev cc7_sem12_0 : DmaSem sig := 99
abbrev cc7_sem13_0 : DmaSem sig := 100
abbrev cc7_sem14_0 : DmaSem sig := 101
abbrev cc7_sem15_0 : DmaSem sig := 102
abbrev cc7_sem15_1 : DmaSem sig := 103
abbrev cc8_sem0_0 : DmaSem sig := 104
abbrev cc8_sem0_1 : DmaSem sig := 105
abbrev cc8_sem1_0 : DmaSem sig := 106
abbrev cc8_sem1_1 : DmaSem sig := 107
abbrev cc8_sem2_0 : DmaSem sig := 108
abbrev cc8_sem3_0 : DmaSem sig := 109
abbrev cc8_sem3_1 : DmaSem sig := 110
abbrev cc9_sem0_0 : DmaSem sig := 111
abbrev cc9_sem0_1 : DmaSem sig := 112
abbrev cc9_sem1_0 : DmaSem sig := 113
abbrev cc9_sem1_1 : DmaSem sig := 114
abbrev cc9_sem2_0 : DmaSem sig := 115
abbrev cc9_sem3_0 : DmaSem sig := 116
abbrev cc9_sem4_0 : DmaSem sig := 117
abbrev cc9_sem5_0 : DmaSem sig := 118
abbrev cc9_sem6_0 : DmaSem sig := 119
abbrev cc9_sem7_0 : DmaSem sig := 120
abbrev cc9_sem8_0 : DmaSem sig := 121
abbrev cc9_sem9_0 : DmaSem sig := 122
abbrev cc9_sem10_0 : DmaSem sig := 123
abbrev cc9_sem11_0 : DmaSem sig := 124
abbrev cc9_sem12_0 : DmaSem sig := 125
abbrev cc9_sem13_0 : DmaSem sig := 126
abbrev cc9_sem14_0 : DmaSem sig := 127
abbrev cc9_sem15_0 : DmaSem sig := 128
abbrev cc9_sem15_1 : DmaSem sig := 129

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x3 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S5000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x3 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x4x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S6000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 2 → Memref sig .tc .vmem S5000x128 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x3 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S3x4x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S6000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_15 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S1x128 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 1 → Memref sig .tc .vmem S1x128 .f32 := fun | 0 => Memref.whole cc5_stg14_0 | ⟨_ + 1, h⟩ => absurd h (Nat.not_lt.2 (Nat.le_add_left _ _))
abbrev sem5_14 : Fin 1 → DmaSem sig := fun | 0 => cc5_sem14_0 | ⟨_ + 1, h⟩ => absurd h (Nat.not_lt.2 (Nat.le_add_left _ _))
abbrev reads5_14 : Fin grid5.rank → Bool := ![false]

abbrev stage5_15 : Fin 2 → Memref sig .tc .vmem S5000x128 .f32 := fun | 0 => Memref.whole cc5_stg15_0 | 1 => Memref.whole cc5_stg15_1 | ⟨_ + 2, h⟩ => absurd h (Nat.not_lt.2 (Nat.le_add_left _ _))
abbrev sem5_15 : Fin 2 → DmaSem sig := fun | 0 => cc5_sem15_0 | 1 => cc5_sem15_1 | ⟨_ + 2, h⟩ => absurd h (Nat.not_lt.2 (Nat.le_add_left _ _))
abbrev reads5_15 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x3 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S3x4x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S6000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_14 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_15 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S128x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x128 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S1x128 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S1x128 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 1 → Memref sig .tc .vmem S1x128 .f32 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![false]

abbrev stage7_14 : Fin 1 → Memref sig .tc .vmem S1x128 .f32 := fun | 0 => Memref.whole cc7_stg14_0 | ⟨_ + 1, h⟩ => absurd h (Nat.not_lt.2 (Nat.le_add_left _ _))
abbrev sem7_14 : Fin 1 → DmaSem sig := fun | 0 => cc7_sem14_0 | ⟨_ + 1, h⟩ => absurd h (Nat.not_lt.2 (Nat.le_add_left _ _))
abbrev reads7_14 : Fin grid7.rank → Bool := ![false]

abbrev stage7_15 : Fin 2 → Memref sig .tc .vmem S5000x128 .f32 := fun | 0 => Memref.whole cc7_stg15_0 | 1 => Memref.whole cc7_stg15_1 | ⟨_ + 2, h⟩ => absurd h (Nat.not_lt.2 (Nat.le_add_left _ _))
abbrev sem7_15 : Fin 2 → DmaSem sig := fun | 0 => cc7_sem15_0 | 1 => cc7_sem15_1 | ⟨_ + 2, h⟩ => absurd h (Nat.not_lt.2 (Nat.le_add_left _ _))
abbrev reads7_15 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S6000x3 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S6000x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S3x4x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S6000x128 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_12 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_13 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_14 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_15 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S128x128 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S1x128 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 1 → Memref sig .tc .vmem S1x128 .f32 := fun | 0 => Memref.whole cc9_stg11_0 | ⟨_ + 1, h⟩ => absurd h (Nat.not_lt.2 (Nat.le_add_left _ _))
abbrev sem9_11 : Fin 1 → DmaSem sig := fun | 0 => cc9_sem11_0 | ⟨_ + 1, h⟩ => absurd h (Nat.not_lt.2 (Nat.le_add_left _ _))
abbrev reads9_11 : Fin grid9.rank → Bool := ![false]

abbrev stage9_12 : Fin 1 → Memref sig .tc .vmem S1x128 .f32 := fun | 0 => Memref.whole cc9_stg12_0 | ⟨_ + 1, h⟩ => absurd h (Nat.not_lt.2 (Nat.le_add_left _ _))
abbrev sem9_12 : Fin 1 → DmaSem sig := fun | 0 => cc9_sem12_0 | ⟨_ + 1, h⟩ => absurd h (Nat.not_lt.2 (Nat.le_add_left _ _))
abbrev reads9_12 : Fin grid9.rank → Bool := ![false]

abbrev stage9_13 : Fin 1 → Memref sig .tc .vmem S1x128 .f32 := fun | 0 => Memref.whole cc9_stg13_0 | ⟨_ + 1, h⟩ => absurd h (Nat.not_lt.2 (Nat.le_add_left _ _))
abbrev sem9_13 : Fin 1 → DmaSem sig := fun | 0 => cc9_sem13_0 | ⟨_ + 1, h⟩ => absurd h (Nat.not_lt.2 (Nat.le_add_left _ _))
abbrev reads9_13 : Fin grid9.rank → Bool := ![false]

abbrev stage9_14 : Fin 1 → Memref sig .tc .vmem S1x128 .f32 := fun | 0 => Memref.whole cc9_stg14_0 | ⟨_ + 1, h⟩ => absurd h (Nat.not_lt.2 (Nat.le_add_left _ _))
abbrev sem9_14 : Fin 1 → DmaSem sig := fun | 0 => cc9_sem14_0 | ⟨_ + 1, h⟩ => absurd h (Nat.not_lt.2 (Nat.le_add_left _ _))
abbrev reads9_14 : Fin grid9.rank → Bool := ![false]

abbrev stage9_15 : Fin 2 → Memref sig .tc .vmem S5000x128 .f32 := fun | 0 => Memref.whole cc9_stg15_0 | 1 => Memref.whole cc9_stg15_1 | ⟨_ + 2, h⟩ => absurd h (Nat.not_lt.2 (Nat.le_add_left _ _))
abbrev sem9_15 : Fin 2 → DmaSem sig := fun | 0 => cc9_sem15_0 | 1 => cc9_sem15_1 | ⟨_ + 2, h⟩ => absurd h (Nat.not_lt.2 (Nat.le_add_left _ _))
abbrev reads9_15 : Fin grid9.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S9_S1x9_1 : S9.BroadcastsInDim S1x9 (![1] : Fin 1 → Fin S1x9.rank)
  bcast_S_S1x9 : S_.BroadcastsInDim S1x9 (![] : Fin 0 → Fin S1x9.rank)
  bcast_S_S50000x9 : S_.BroadcastsInDim S50000x9 (![] : Fin 0 → Fin S50000x9.rank)
  bcast_S1x9_S50000x9_0_1 : S1x9.BroadcastsInDim S50000x9 (![0, 1] : Fin 2 → Fin S50000x9.rank)
  bcast_S50000x9_S50000x9x1_0_1 : S50000x9.BroadcastsInDim S50000x9x1 (![0, 1] : Fin 2 → Fin S50000x9x1.rank)
  concatenates_S50000x9x1_S50000x9x1_S50000x9x2_d2 : Shape.Concatenates [S50000x9x1, S50000x9x1] S50000x9x2 2
  reducesTo_S50000x9x128_S50000x128_d1 : S50000x9x128.ReducesTo [1] S50000x128
  h_S_ : 0 < S_.numel
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  slices_S5x3x4x128_S1x3x4x128_0_0_0_0 : S5x3x4x128.Slices ![0, 0, 0, 0] S1x3x4x128
  shapeCasts_S1x3x4x128_S3x4x128 : S1x3x4x128.ShapeCasts S3x4x128
  iota_S6000x4_d1_w32 : S6000x4.Iotas .tc 32 [1]
  inb_S3x4x128_S3x4x128_0_0_0 : ∀ a, (![0, 0, 0] : Fin 3 → Nat) a + S3x4x128.size a ≤ S3x4x128.size a
  h_S3x4x128 : 0 < S3x4x128.numel
  shapeCasts_S3x4x128_S3x4x128 : S3x4x128.ShapeCasts S3x4x128
  inb_S6000x3_S6000x1_0_0 : ∀ a, (![0, 0] : Fin 2 → Nat) a + S6000x1.size a ≤ S6000x3.size a
  h_S6000x1 : 0 < S6000x1.numel
  broadcasts_S6000x1_S6000x4 : S6000x1.Broadcasts S6000x4
  natLt_1_32 : 1 < 32
  slices_S3x4x128_o0_0_0_S1x4x128 : S3x4x128.Slices ![0, 0, 0] S1x4x128
  shapeCasts_S1x4x128_S4x128 : S1x4x128.ShapeCasts S4x128
  inb_S6000x3_S6000x1_0_1 : ∀ a, (![0, 1] : Fin 2 → Nat) a + S6000x1.size a ≤ S6000x3.size a
  slices_S3x4x128_o1_0_0_S1x4x128 : S3x4x128.Slices ![1, 0, 0] S1x4x128
  inb_S6000x3_S6000x1_0_2 : ∀ a, (![0, 2] : Fin 2 → Nat) a + S6000x1.size a ≤ S6000x3.size a
  slices_S3x4x128_o2_0_0_S1x4x128 : S3x4x128.Slices ![2, 0, 0] S1x4x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  packedbf16_S6000x128_S6000x128_0_0 : (Rect.unit (s := S6000x128) ![0, 0] S6000x128.size inb_S6000x128_S6000x128_0_0).PackedRows (EltTy.packing .bf16)
  bcast_S_S50000x128 : S_.BroadcastsInDim S50000x128 (![] : Fin 0 → Fin S50000x128.rank)
  slices_S5_S1_0 : S5.Slices ![0] S1
  shapeCasts_S1_S_ : S1.ShapeCasts S_
  shapeCasts_S_S1x1 : S_.ShapeCasts S1x1
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x1_S5000x128 : S1x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5x3x4x128_S1x3x4x128_1_0_0_0 : S5x3x4x128.Slices ![1, 0, 0, 0] S1x3x4x128
  slices_S5_S1_1 : S5.Slices ![1] S1
  slices_S5x128x128_S1x128x128_1_0_0 : S5x128x128.Slices ![1, 0, 0] S1x128x128
  slices_S5x128_S1x128_1_0 : S5x128.Slices ![1, 0] S1x128
  slices_S5x3x4x128_S1x3x4x128_2_0_0_0 : S5x3x4x128.Slices ![2, 0, 0, 0] S1x3x4x128
  slices_S5_S1_2 : S5.Slices ![2] S1
  slices_S5x128x128_S1x128x128_2_0_0 : S5x128x128.Slices ![2, 0, 0] S1x128x128
  slices_S5x128_S1x128_2_0 : S5x128.Slices ![2, 0] S1x128
  slices_S5x3x4x128_S1x3x4x128_3_0_0_0 : S5x3x4x128.Slices ![3, 0, 0, 0] S1x3x4x128
  slices_S5_S1_3 : S5.Slices ![3] S1
  slices_S5x128x128_S1x128x128_3_0_0 : S5x128x128.Slices ![3, 0, 0] S1x128x128
  slices_S5x128_S1x128_3_0 : S5x128.Slices ![3, 0] S1x128
  slices_S5x3x4x128_S1x3x4x128_4_0_0_0 : S5x3x4x128.Slices ![4, 0, 0, 0] S1x3x4x128
  slices_S5_S1_4 : S5.Slices ![4] S1
  slices_S5x128x128_S1x128x128_4_0_0 : S5x128x128.Slices ![4, 0, 0] S1x128x128
  slices_S5x128_S1x128_4_0 : S5x128.Slices ![4, 0] S1x128
  gather_S9x4x128_S50000x9x2_S50000x9x128_2_01_n_n_01_2_11128_wf : GatherDims.WF S9x4x128 S50000x9x2 S50000x9x128 [2] [0, 1] [] [0, 1] [] 2 ![1, 1, 128]
  gather_S50000x128_S600000x1_S600000x128_1_0_n_n_0_1_1128_wf : GatherDims.WF S50000x128 S600000x1 S600000x128 [1] [0] [] [0] [] 1 ![1, 128]
  dot_S6000x4_S4x128_S6000x128_1_0_0_1_n_n_wf : DotDims.WF S6000x4 S4x128 S6000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x3.size a ≤ S600000x3.size a
  hwx0_0 : ∀ i : grid0.Coords, EltTy.bits .i32 = 32 ∨ (Rect.block (s := S600000x3) S6000x3.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .bf16 = 32 ∨ (Rect.block (s := S600000x128) S6000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x4x128.size a ≤ S3x4x128.size a
  hwx0_2 : ∀ i : grid0.Coords, EltTy.bits .f32 = 32 ∨ (Rect.block (s := S3x4x128) S3x4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x128.size a ≤ S600000x128.size a
  hwx0_3 : ∀ i : grid0.Coords, EltTy.bits .bf16 = 32 ∨ (Rect.block (s := S600000x128) S6000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S5000x128.size a ≤ S50000x128.size a
  hwx1_15 : ∀ i : grid1.Coords, EltTy.bits .f32 = 32 ∨ (Rect.block (s := S50000x128) S5000x128.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x3.size a ≤ S600000x3.size a
  hwx2_0 : ∀ i : grid2.Coords, EltTy.bits .i32 = 32 ∨ (Rect.block (s := S600000x3) S6000x3.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x128.size a ≤ S600000x128.size a
  hwx2_1 : ∀ i : grid2.Coords, EltTy.bits .bf16 = 32 ∨ (Rect.block (s := S600000x128) S6000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x4x128.size a ≤ S3x4x128.size a
  hwx2_2 : ∀ i : grid2.Coords, EltTy.bits .f32 = 32 ∨ (Rect.block (s := S3x4x128) S3x4x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6000x128.size a ≤ S600000x128.size a
  hwx2_3 : ∀ i : grid2.Coords, EltTy.bits .bf16 = 32 ∨ (Rect.block (s := S600000x128) S6000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x128.size a ≤ S128x128.size a
  hwx3_9 : ∀ i : grid3.Coords, EltTy.bits .f32 = 32 ∨ (Rect.block (s := S128x128) S128x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x128.size a ≤ S1x128.size a
  hwx3_13 : ∀ i : grid3.Coords, EltTy.bits .f32 = 32 ∨ (Rect.block (s := S1x128) S1x128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x128.size a ≤ S1x128.size a
  hwx3_14 : ∀ i : grid3.Coords, EltTy.bits .f32 = 32 ∨ (Rect.block (s := S1x128) S1x128.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S5000x128.size a ≤ S50000x128.size a
  hwx3_15 : ∀ i : grid3.Coords, EltTy.bits .f32 = 32 ∨ (Rect.block (s := S50000x128) S5000x128.size (cc3_transform_15 i) (hinb3_15 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x3.size a ≤ S600000x3.size a
  hwx4_0 : ∀ i : grid4.Coords, EltTy.bits .i32 = 32 ∨ (Rect.block (s := S600000x3) S6000x3.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x128.size a ≤ S600000x128.size a
  hwx4_1 : ∀ i : grid4.Coords, EltTy.bits .bf16 = 32 ∨ (Rect.block (s := S600000x128) S6000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S3x4x128.size a ≤ S3x4x128.size a
  hwx4_2 : ∀ i : grid4.Coords, EltTy.bits .f32 = 32 ∨ (Rect.block (s := S3x4x128) S3x4x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S6000x128.size a ≤ S600000x128.size a
  hwx4_3 : ∀ i : grid4.Coords, EltTy.bits .bf16 = 32 ∨ (Rect.block (s := S600000x128) S6000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S128x128.size a ≤ S128x128.size a
  hwx5_9 : ∀ i : grid5.Coords, EltTy.bits .f32 = 32 ∨ (Rect.block (s := S128x128) S128x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x128.size a ≤ S1x128.size a
  hwx5_10 : ∀ i : grid5.Coords, EltTy.bits .f32 = 32 ∨ (Rect.block (s := S1x128) S1x128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x128.size a ≤ S1x128.size a
  hwx5_11 : ∀ i : grid5.Coords, EltTy.bits .f32 = 32 ∨ (Rect.block (s := S1x128) S1x128.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x128.size a ≤ S1x128.size a
  hwx5_12 : ∀ i : grid5.Coords, EltTy.bits .f32 = 32 ∨ (Rect.block (s := S1x128) S1x128.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S1x128.size a ≤ S1x128.size a
  hwx5_13 : ∀ i : grid5.Coords, EltTy.bits .f32 = 32 ∨ (Rect.block (s := S1x128) S1x128.size (cc5_transform_13 i) (hinb5_13 i)).WholeWords (EltTy.packing .f32)
  hstage5_14 : ∀ j, (stage5_14 j).IsWhole
  nbuf5_14 : grid5.bufCount reads5_14 true = 1
  hreads5_14 : ∀ i i' : grid5.Coords, (∀ a, reads5_14 a = true → i a = i' a) → cc5_transform_14 i = cc5_transform_14 i'
  hinb5_14 : ∀ (i : grid5.Coords) a, (cc5_transform_14 i a + 1) * S1x128.size a ≤ S1x128.size a
  hwx5_14 : ∀ i : grid5.Coords, EltTy.bits .f32 = 32 ∨ (Rect.block (s := S1x128) S1x128.size (cc5_transform_14 i) (hinb5_14 i)).WholeWords (EltTy.packing .f32)
  hstage5_15 : ∀ j, (stage5_15 j).IsWhole
  nbuf5_15 : grid5.bufCount reads5_15 false = 2
  hreads5_15 : ∀ i i' : grid5.Coords, (∀ a, reads5_15 a = true → i a = i' a) → cc5_transform_15 i = cc5_transform_15 i'
  hinb5_15 : ∀ (i : grid5.Coords) a, (cc5_transform_15 i a + 1) * S5000x128.size a ≤ S50000x128.size a
  hwx5_15 : ∀ i : grid5.Coords, EltTy.bits .f32 = 32 ∨ (Rect.block (s := S50000x128) S5000x128.size (cc5_transform_15 i) (hinb5_15 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x3.size a ≤ S600000x3.size a
  hwx6_0 : ∀ i : grid6.Coords, EltTy.bits .i32 = 32 ∨ (Rect.block (s := S600000x3) S6000x3.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6000x128.size a ≤ S600000x128.size a
  hwx6_1 : ∀ i : grid6.Coords, EltTy.bits .bf16 = 32 ∨ (Rect.block (s := S600000x128) S6000x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S3x4x128.size a ≤ S3x4x128.size a
  hwx6_2 : ∀ i : grid6.Coords, EltTy.bits .f32 = 32 ∨ (Rect.block (s := S3x4x128) S3x4x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S6000x128.size a ≤ S600000x128.size a
  hwx6_3 : ∀ i : grid6.Coords, EltTy.bits .bf16 = 32 ∨ (Rect.block (s := S600000x128) S6000x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S128x128.size a ≤ S128x128.size a
  hwx7_9 : ∀ i : grid7.Coords, EltTy.bits .f32 = 32 ∨ (Rect.block (s := S128x128) S128x128.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1x128.size a ≤ S1x128.size a
  hwx7_10 : ∀ i : grid7.Coords, EltTy.bits .f32 = 32 ∨ (Rect.block (s := S1x128) S1x128.size (cc7_transform_10 i) (hinb7_10 i)).WholeWords (EltTy.packing .f32)
  hstage7_11 : ∀ j, (stage7_11 j).IsWhole
  nbuf7_11 : grid7.bufCount reads7_11 true = 1
  hreads7_11 : ∀ i i' : grid7.Coords, (∀ a, reads7_11 a = true → i a = i' a) → cc7_transform_11 i = cc7_transform_11 i'
  hinb7_11 : ∀ (i : grid7.Coords) a, (cc7_transform_11 i a + 1) * S1x128.size a ≤ S1x128.size a
  hwx7_11 : ∀ i : grid7.Coords, EltTy.bits .f32 = 32 ∨ (Rect.block (s := S1x128) S1x128.size (cc7_transform_11 i) (hinb7_11 i)).WholeWords (EltTy.packing .f32)
  hstage7_12 : ∀ j, (stage7_12 j).IsWhole
  nbuf7_12 : grid7.bufCount reads7_12 true = 1
  hreads7_12 : ∀ i i' : grid7.Coords, (∀ a, reads7_12 a = true → i a = i' a) → cc7_transform_12 i = cc7_transform_12 i'
  hinb7_12 : ∀ (i : grid7.Coords) a, (cc7_transform_12 i a + 1) * S1x128.size a ≤ S1x128.size a
  hwx7_12 : ∀ i : grid7.Coords, EltTy.bits .f32 = 32 ∨ (Rect.block (s := S1x128) S1x128.size (cc7_transform_12 i) (hinb7_12 i)).WholeWords (EltTy.packing .f32)
  hstage7_13 : ∀ j, (stage7_13 j).IsWhole
  nbuf7_13 : grid7.bufCount reads7_13 true = 1
  hreads7_13 : ∀ i i' : grid7.Coords, (∀ a, reads7_13 a = true → i a = i' a) → cc7_transform_13 i = cc7_transform_13 i'
  hinb7_13 : ∀ (i : grid7.Coords) a, (cc7_transform_13 i a + 1) * S1x128.size a ≤ S1x128.size a
  hwx7_13 : ∀ i : grid7.Coords, EltTy.bits .f32 = 32 ∨ (Rect.block (s := S1x128) S1x128.size (cc7_transform_13 i) (hinb7_13 i)).WholeWords (EltTy.packing .f32)
  hstage7_14 : ∀ j, (stage7_14 j).IsWhole
  nbuf7_14 : grid7.bufCount reads7_14 true = 1
  hreads7_14 : ∀ i i' : grid7.Coords, (∀ a, reads7_14 a = true → i a = i' a) → cc7_transform_14 i = cc7_transform_14 i'
  hinb7_14 : ∀ (i : grid7.Coords) a, (cc7_transform_14 i a + 1) * S1x128.size a ≤ S1x128.size a
  hwx7_14 : ∀ i : grid7.Coords, EltTy.bits .f32 = 32 ∨ (Rect.block (s := S1x128) S1x128.size (cc7_transform_14 i) (hinb7_14 i)).WholeWords (EltTy.packing .f32)
  hstage7_15 : ∀ j, (stage7_15 j).IsWhole
  nbuf7_15 : grid7.bufCount reads7_15 false = 2
  hreads7_15 : ∀ i i' : grid7.Coords, (∀ a, reads7_15 a = true → i a = i' a) → cc7_transform_15 i = cc7_transform_15 i'
  hinb7_15 : ∀ (i : grid7.Coords) a, (cc7_transform_15 i a + 1) * S5000x128.size a ≤ S50000x128.size a
  hwx7_15 : ∀ i : grid7.Coords, EltTy.bits .f32 = 32 ∨ (Rect.block (s := S50000x128) S5000x128.size (cc7_transform_15 i) (hinb7_15 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S6000x3.size a ≤ S600000x3.size a
  hwx8_0 : ∀ i : grid8.Coords, EltTy.bits .i32 = 32 ∨ (Rect.block (s := S600000x3) S6000x3.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S6000x128.size a ≤ S600000x128.size a
  hwx8_1 : ∀ i : grid8.Coords, EltTy.bits .bf16 = 32 ∨ (Rect.block (s := S600000x128) S6000x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S3x4x128.size a ≤ S3x4x128.size a
  hwx8_2 : ∀ i : grid8.Coords, EltTy.bits .f32 = 32 ∨ (Rect.block (s := S3x4x128) S3x4x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S6000x128.size a ≤ S600000x128.size a
  hwx8_3 : ∀ i : grid8.Coords, EltTy.bits .bf16 = 32 ∨ (Rect.block (s := S600000x128) S6000x128.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x128.size a ≤ S1x128.size a
  hwx9_7 : ∀ i : grid9.Coords, EltTy.bits .f32 = 32 ∨ (Rect.block (s := S1x128) S1x128.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x128.size a ≤ S1x128.size a
  hwx9_8 : ∀ i : grid9.Coords, EltTy.bits .f32 = 32 ∨ (Rect.block (s := S1x128) S1x128.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S128x128.size a ≤ S128x128.size a
  hwx9_9 : ∀ i : grid9.Coords, EltTy.bits .f32 = 32 ∨ (Rect.block (s := S128x128) S128x128.size (cc9_transform_9 i) (hinb9_9 i)).WholeWords (EltTy.packing .f32)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S1x128.size a ≤ S1x128.size a
  hwx9_10 : ∀ i : grid9.Coords, EltTy.bits .f32 = 32 ∨ (Rect.block (s := S1x128) S1x128.size (cc9_transform_10 i) (hinb9_10 i)).WholeWords (EltTy.packing .f32)
  hstage9_11 : ∀ j, (stage9_11 j).IsWhole
  nbuf9_11 : grid9.bufCount reads9_11 true = 1
  hreads9_11 : ∀ i i' : grid9.Coords, (∀ a, reads9_11 a = true → i a = i' a) → cc9_transform_11 i = cc9_transform_11 i'
  hinb9_11 : ∀ (i : grid9.Coords) a, (cc9_transform_11 i a + 1) * S1x128.size a ≤ S1x128.size a
  hwx9_11 : ∀ i : grid9.Coords, EltTy.bits .f32 = 32 ∨ (Rect.block (s := S1x128) S1x128.size (cc9_transform_11 i) (hinb9_11 i)).WholeWords (EltTy.packing .f32)
  hstage9_12 : ∀ j, (stage9_12 j).IsWhole
  nbuf9_12 : grid9.bufCount reads9_12 true = 1
  hreads9_12 : ∀ i i' : grid9.Coords, (∀ a, reads9_12 a = true → i a = i' a) → cc9_transform_12 i = cc9_transform_12 i'
  hinb9_12 : ∀ (i : grid9.Coords) a, (cc9_transform_12 i a + 1) * S1x128.size a ≤ S1x128.size a
  hwx9_12 : ∀ i : grid9.Coords, EltTy.bits .f32 = 32 ∨ (Rect.block (s := S1x128) S1x128.size (cc9_transform_12 i) (hinb9_12 i)).WholeWords (EltTy.packing .f32)
  hstage9_13 : ∀ j, (stage9_13 j).IsWhole
  nbuf9_13 : grid9.bufCount reads9_13 true = 1
  hreads9_13 : ∀ i i' : grid9.Coords, (∀ a, reads9_13 a = true → i a = i' a) → cc9_transform_13 i = cc9_transform_13 i'
  hinb9_13 : ∀ (i : grid9.Coords) a, (cc9_transform_13 i a + 1) * S1x128.size a ≤ S1x128.size a
  hwx9_13 : ∀ i : grid9.Coords, EltTy.bits .f32 = 32 ∨ (Rect.block (s := S1x128) S1x128.size (cc9_transform_13 i) (hinb9_13 i)).WholeWords (EltTy.packing .f32)
  hstage9_14 : ∀ j, (stage9_14 j).IsWhole
  nbuf9_14 : grid9.bufCount reads9_14 true = 1
  hreads9_14 : ∀ i i' : grid9.Coords, (∀ a, reads9_14 a = true → i a = i' a) → cc9_transform_14 i = cc9_transform_14 i'
  hinb9_14 : ∀ (i : grid9.Coords) a, (cc9_transform_14 i a + 1) * S1x128.size a ≤ S1x128.size a
  hwx9_14 : ∀ i : grid9.Coords, EltTy.bits .f32 = 32 ∨ (Rect.block (s := S1x128) S1x128.size (cc9_transform_14 i) (hinb9_14 i)).WholeWords (EltTy.packing .f32)
  hstage9_15 : ∀ j, (stage9_15 j).IsWhole
  nbuf9_15 : grid9.bufCount reads9_15 false = 2
  hreads9_15 : ∀ i i' : grid9.Coords, (∀ a, reads9_15 a = true → i a = i' a) → cc9_transform_15 i = cc9_transform_15 i'
  hinb9_15 : ∀ (i : grid9.Coords) a, (cc9_transform_15 i a + 1) * S5000x128.size a ≤ S50000x128.size a
  hwx9_15 : ∀ i : grid9.Coords, EltTy.bits .f32 = 32 ∨ (Rect.block (s := S50000x128) S5000x128.size (cc9_transform_15 i) (hinb9_15 i)).WholeWords (EltTy.packing .f32)

variable [Facts₀]

def gather_S9x4x128_S50000x9x2_S50000x9x128_2_01_n_n_01_2_11128 : GatherDims S9x4x128 S50000x9x2 S50000x9x128 where
  offsetDims := [2]
  collapsedSliceDims := [0, 1]
  operandBatchingDims := []
  startIndicesBatchingDims := []
  startIndexMap := [0, 1]
  indexVectorDim := 2
  sliceSizes := ![1, 1, 128]
  wf := gather_S9x4x128_S50000x9x2_S50000x9x128_2_01_n_n_01_2_11128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x4_S4x128_S6000x128_1_0_0_1_n_n : DotDims S6000x4 S4x128 S6000x128 where
  lhsContracting := [1]
  rhsContracting := [0]
  lhsNonContracting := [0]
  rhsNonContracting := [1]
  lhsBatch := []
  rhsBatch := []
  wf := dot_S6000x4_S4x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg2) S6000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S3x4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S6000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v57) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v59) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v62) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v65) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v68) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v71) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v74) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v75) S5000x128.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_arg2) S6000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S6000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S3x4x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v86) S6000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v94) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v96) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v99) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v102) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v105) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v108) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v111) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v113) S128x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v116) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v119) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v122) S1x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v125) S1x128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v128) S1x128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v129) S5000x128.size cc3_transform_15 reads3_15 true false 2 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

abbrev win4_0 : Pipeline.Window sig grid4 :=
  Pipeline.Window.ofSpec (Memref.whole main_arg2) S6000x3.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v137) S6000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v139) S3x4x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v140) S6000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v129) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v144) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v148) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v150) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v153) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v156) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v159) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v162) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v165) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v167) S128x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v170) S1x128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v173) S1x128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v176) S1x128.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v179) S1x128.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v182) S1x128.size cc5_transform_14 reads5_14 false true 1 stage5_14 sem5_14
    hrank5 hreads5_14 hinb5_14 nbuf5_14 (Memref.isWhole_whole _) hwx5_14 hstage5_14

abbrev win5_15 : Pipeline.Window sig grid5 :=
  Pipeline.Window.ofSpec (Memref.whole main_v183) S5000x128.size cc5_transform_15 reads5_15 true false 2 stage5_15 sem5_15
    hrank5 hreads5_15 hinb5_15 nbuf5_15 (Memref.isWhole_whole _) hwx5_15 hstage5_15

abbrev win5 : Fin 16 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | ⟨_ + 16, h⟩ => absurd h (Nat.not_lt.2 (Nat.le_add_left _ _))
abbrev spec5 : Fin 16 → Pipeline.WinSpec sig grid5.rank := fun w => (win5 w).toWinSpec

abbrev win6_0 : Pipeline.Window sig grid6 :=
  Pipeline.Window.ofSpec (Memref.whole main_arg2) S6000x3.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v191) S6000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v193) S3x4x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v194) S6000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v183) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v198) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v202) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v204) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v207) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v210) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v213) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v216) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v219) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v221) S128x128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v224) S1x128.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v227) S1x128.size cc7_transform_11 reads7_11 false true 1 stage7_11 sem7_11
    hrank7 hreads7_11 hinb7_11 nbuf7_11 (Memref.isWhole_whole _) hwx7_11 hstage7_11

abbrev win7_12 : Pipeline.Window sig grid7 :=
  Pipeline.Window.ofSpec (Memref.whole main_v230) S1x128.size cc7_transform_12 reads7_12 false true 1 stage7_12 sem7_12
    hrank7 hreads7_12 hinb7_12 nbuf7_12 (Memref.isWhole_whole _) hwx7_12 hstage7_12

abbrev win7_13 : Pipeline.Window sig grid7 :=
  Pipeline.Window.ofSpec (Memref.whole main_v233) S1x128.size cc7_transform_13 reads7_13 false true 1 stage7_13 sem7_13
    hrank7 hreads7_13 hinb7_13 nbuf7_13 (Memref.isWhole_whole _) hwx7_13 hstage7_13

abbrev win7_14 : Pipeline.Window sig grid7 :=
  Pipeline.Window.ofSpec (Memref.whole main_v236) S1x128.size cc7_transform_14 reads7_14 false true 1 stage7_14 sem7_14
    hrank7 hreads7_14 hinb7_14 nbuf7_14 (Memref.isWhole_whole _) hwx7_14 hstage7_14

abbrev win7_15 : Pipeline.Window sig grid7 :=
  Pipeline.Window.ofSpec (Memref.whole main_v237) S5000x128.size cc7_transform_15 reads7_15 true false 2 stage7_15 sem7_15
    hrank7 hreads7_15 hinb7_15 nbuf7_15 (Memref.isWhole_whole _) hwx7_15 hstage7_15

abbrev win7 : Fin 16 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | 13 => win7_13 | 14 => win7_14 | 15 => win7_15 | ⟨_ + 16, h⟩ => absurd h (Nat.not_lt.2 (Nat.le_add_left _ _))
abbrev spec7 : Fin 16 → Pipeline.WinSpec sig grid7.rank := fun w => (win7 w).toWinSpec

abbrev win8_0 : Pipeline.Window sig grid8 :=
  Pipeline.Window.ofSpec (Memref.whole main_arg2) S6000x3.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v245) S6000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v247) S3x4x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v248) S6000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v237) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v252) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v256) S1x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v258) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v261) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v264) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v267) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v270) S1x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v273) S1x128.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v275) S128x128.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_v278) S1x128.size cc9_transform_10 reads9_10 false true 1 stage9_10 sem9_10
    hrank9 hreads9_10 hinb9_10 nbuf9_10 (Memref.isWhole_whole _) hwx9_10 hstage9_10

abbrev win9_11 : Pipeline.Window sig grid9 :=
  Pipeline.Window.ofSpec (Memref.whole main_v281) S1x128.size cc9_transform_11 reads9_11 false true 1 stage9_11 sem9_11
    hrank9 hreads9_11 hinb9_11 nbuf9_11 (Memref.isWhole_whole _) hwx9_11 hstage9_11

abbrev win9_12 : Pipeline.Window sig grid9 :=
  Pipeline.Window.ofSpec (Memref.whole main_v284) S1x128.size cc9_transform_12 reads9_12 false true 1 stage9_12 sem9_12
    hrank9 hreads9_12 hinb9_12 nbuf9_12 (Memref.isWhole_whole _) hwx9_12 hstage9_12

abbrev win9_13 : Pipeline.Window sig grid9 :=
  Pipeline.Window.ofSpec (Memref.whole main_v287) S1x128.size cc9_transform_13 reads9_13 false true 1 stage9_13 sem9_13
    hrank9 hreads9_13 hinb9_13 nbuf9_13 (Memref.isWhole_whole _) hwx9_13 hstage9_13

abbrev win9_14 : Pipeline.Window sig grid9 :=
  Pipeline.Window.ofSpec (Memref.whole main_v290) S1x128.size cc9_transform_14 reads9_14 false true 1 stage9_14 sem9_14
    hrank9 hreads9_14 hinb9_14 nbuf9_14 (Memref.isWhole_whole _) hwx9_14 hstage9_14

abbrev win9_15 : Pipeline.Window sig grid9 :=
  Pipeline.Window.ofSpec (Memref.whole main_v291) S5000x128.size cc9_transform_15 reads9_15 true false 2 stage9_15 sem9_15
    hrank9 hreads9_15 hinb9_15 nbuf9_15 (Memref.isWhole_whole _) hwx9_15 hstage9_15

abbrev win9 : Fin 16 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | 12 => win9_12 | 13 => win9_13 | 14 => win9_14 | 15 => win9_15 | ⟨_ + 16, h⟩ => absurd h (Nat.not_lt.2 (Nat.le_add_left _ _))
abbrev spec9 : Fin 16 → Pipeline.WinSpec sig grid9.rank := fun w => (win9 w).toWinSpec

class Facts : Prop extends Facts₀ where

variable [Facts]
-- ==== ReferenceIdeal.lean ====
abbrev S50000x9 : Shape := ⟨2, ![50000, 9]⟩
abbrev S2x600000 : Shape := ⟨2, ![2, 600000]⟩
abbrev S600000x3 : Shape := ⟨2, ![600000, 3]⟩
abbrev S9x4x128 : Shape := ⟨3, ![9, 4, 128]⟩
abbrev S5x3x4x128 : Shape := ⟨4, ![5, 3, 4, 128]⟩
abbrev S5 : Shape := ⟨1, ![5]⟩
abbrev S5x128x128 : Shape := ⟨3, ![5, 128, 128]⟩
abbrev S5x128 : Shape := ⟨2, ![5, 128]⟩
abbrev S9 : Shape := ⟨1, ![9]⟩
abbrev S1x9 : Shape := ⟨2, ![1, 9]⟩
abbrev S_ : Shape := ⟨0, ![]⟩
abbrev S50000x9x1 : Shape := ⟨3, ![50000, 9, 1]⟩
abbrev S50000x9x2 : Shape := ⟨3, ![50000, 9, 2]⟩
abbrev S50000x9x128 : Shape := ⟨3, ![50000, 9, 128]⟩
abbrev S50000x128 : Shape := ⟨2, ![50000, 128]⟩
abbrev S1x600000 : Shape := ⟨2, ![1, 600000]⟩
abbrev S600000 : Shape := ⟨1, ![600000]⟩
abbrev S1x3x4x128 : Shape := ⟨4, ![1, 3, 4, 128]⟩
abbrev S3x4x128 : Shape := ⟨3, ![3, 4, 128]⟩
abbrev S3 : Shape := ⟨1, ![3]⟩
abbrev S1x3 : Shape := ⟨2, ![1, 3]⟩
abbrev S600000x3x1 : Shape := ⟨3, ![600000, 3, 1]⟩
abbrev S600000x3x2 : Shape := ⟨3, ![600000, 3, 2]⟩
abbrev S600000x3x128 : Shape := ⟨3, ![600000, 3, 128]⟩
abbrev S600000x128 : Shape := ⟨2, ![600000, 128]⟩
abbrev S600000x1 : Shape := ⟨2, ![600000, 1]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 632
  | .vmem => 0
  | .smem => 0
  | _ => 0

abbrev hbmTy0_0 (i : Nat) : BufTy := match i % 128 with
  | 0 => ⟨S50000x9, .i32⟩
  | 1 => ⟨S2x600000, .i32⟩
  | 2 => ⟨S600000x3, .i32⟩
  | 3 => ⟨S9x4x128, .f32⟩
  | 4 => ⟨S5x3x4x128, .f32⟩
  | 5 => ⟨S5, .f32⟩
  | 6 => ⟨S5x128x128, .f32⟩
  | 7 => ⟨S5x128, .f32⟩
  | 8 => ⟨S5x128, .f32⟩
  | 9 => ⟨S5x128, .f32⟩
  | 10 => ⟨S5x128, .f32⟩
  | 11 => ⟨S5x128, .f32⟩
  | 12 => ⟨S5x128x128, .f32⟩
  | 13 => ⟨S5x128, .f32⟩
  | 14 => ⟨S5x128, .f32⟩
  | 15 => ⟨S5x128, .f32⟩
  | 16 => ⟨S5x128, .f32⟩
  | 17 => ⟨S5x128, .f32⟩
  | 18 => ⟨S9, .i32⟩
  | 19 => ⟨S1x9, .i32⟩
  | 20 => ⟨S_, .i32⟩
  | 21 => ⟨S1x9, .i32⟩
  | 22 => ⟨S1x9, .i1⟩
  | 23 => ⟨S_, .i32⟩
  | 24 => ⟨S1x9, .i32⟩
  | 25 => ⟨S1x9, .i32⟩
  | 26 => ⟨S1x9, .i32⟩
  | 27 => ⟨S_, .i32⟩
  | 28 => ⟨S50000x9, .i32⟩
  | 29 => ⟨S50000x9, .i1⟩
  | 30 => ⟨S_, .i32⟩
  | 31 => ⟨S50000x9, .i32⟩
  | 32 => ⟨S50000x9, .i32⟩
  | 33 => ⟨S50000x9, .i32⟩
  | 34 => ⟨S50000x9, .i32⟩
  | 35 => ⟨S50000x9x1, .i32⟩
  | 36 => ⟨S50000x9x1, .i32⟩
  | 37 => ⟨S50000x9x2, .i32⟩
  | 38 => ⟨S50000x9x128, .f32⟩
  | 39 => ⟨S_, .f32⟩
  | 40 => ⟨S50000x128, .f32⟩
  | 41 => ⟨S1x600000, .i32⟩
  | 42 => ⟨S600000, .i32⟩
  | 43 => ⟨S1x600000, .i32⟩
  | 44 => ⟨S600000, .i32⟩
  | 45 => ⟨S1x3x4x128, .f32⟩
  | 46 => ⟨S3x4x128, .f32⟩
  | 47 => ⟨S3, .i32⟩
  | 48 => ⟨S1x3, .i32⟩
  | 49 => ⟨S_, .i32⟩
  | 50 => ⟨S1x3, .i32⟩
  | 51 => ⟨S1x3, .i1⟩
  | 52 => ⟨S_, .i32⟩
  | 53 => ⟨S1x3, .i32⟩
  | 54 => ⟨S1x3, .i32⟩
  | 55 => ⟨S1x3, .i32⟩
  | 56 => ⟨S_, .i32⟩
  | 57 => ⟨S600000x3, .i32⟩
  | 58 => ⟨S600000x3, .i1⟩
  | 59 => ⟨S_, .i32⟩
  | 60 => ⟨S600000x3, .i32⟩
  | 61 => ⟨S600000x3, .i32⟩
  | 62 => ⟨S600000x3, .i32⟩
  | 63 => ⟨S600000x3, .i32⟩
  | 64 => ⟨S600000x3x1, .i32⟩
  | 65 => ⟨S600000x3x1, .i32⟩
  | 66 => ⟨S600000x3x2, .i32⟩
  | 67 => ⟨S600000x3x128, .f32⟩
  | 68 => ⟨S_, .f32⟩
  | 69 => ⟨S600000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S600000x128, .f32⟩
  | 80 => ⟨S_, .f32⟩
  | 81 => ⟨S600000x128, .f32⟩
  | 82 => ⟨S600000x128, .f32⟩
  | 83 => ⟨S_, .f32⟩
  | 84 => ⟨S50000x128, .f32⟩
  | 85 => ⟨S600000x1, .i32⟩
  | 86 => ⟨S50000x128, .f32⟩
  | 87 => ⟨S1, .f32⟩
  | 88 => ⟨S_, .f32⟩
  | 89 => ⟨S_, .f32⟩
  | 90 => ⟨S_, .f32⟩
  | 91 => ⟨S50000x128, .f32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S128, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S1x128x128, .f32⟩
  | _ => ⟨S50000x9, .i32⟩

abbrev hbmTy0_1 (i : Nat) : BufTy := match i % 128 with
  | 0 => ⟨S128x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S_, .f32⟩
  | 22 => ⟨S128, .f32⟩
  | 23 => ⟨S128, .f32⟩
  | 24 => ⟨S128, .f32⟩
  | 25 => ⟨S128, .f32⟩
  | 26 => ⟨S1x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S1x3x4x128, .f32⟩
  | 36 => ⟨S3x4x128, .f32⟩
  | 37 => ⟨S3, .i32⟩
  | 38 => ⟨S1x3, .i32⟩
  | 39 => ⟨S_, .i32⟩
  | 40 => ⟨S1x3, .i32⟩
  | 41 => ⟨S1x3, .i1⟩
  | 42 => ⟨S_, .i32⟩
  | 43 => ⟨S1x3, .i32⟩
  | 44 => ⟨S1x3, .i32⟩
  | 45 => ⟨S1x3, .i32⟩
  | 46 => ⟨S_, .i32⟩
  | 47 => ⟨S600000x3, .i32⟩
  | 48 => ⟨S600000x3, .i1⟩
  | 49 => ⟨S_, .i32⟩
  | 50 => ⟨S600000x3, .i32⟩
  | 51 => ⟨S600000x3, .i32⟩
  | 52 => ⟨S600000x3, .i32⟩
  | 53 => ⟨S600000x3, .i32⟩
  | 54 => ⟨S600000x3x1, .i32⟩
  | 55 => ⟨S600000x3x1, .i32⟩
  | 56 => ⟨S600000x3x2, .i32⟩
  | 57 => ⟨S600000x3x128, .f32⟩
  | 58 => ⟨S_, .f32⟩
  | 59 => ⟨S600000x128, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .f32⟩
  | 69 => ⟨S600000x128, .f32⟩
  | 70 => ⟨S_, .f32⟩
  | 71 => ⟨S600000x128, .f32⟩
  | 72 => ⟨S600000x128, .f32⟩
  | 73 => ⟨S_, .f32⟩
  | 74 => ⟨S50000x128, .f32⟩
  | 75 => ⟨S600000x1, .i32⟩
  | 76 => ⟨S50000x128, .f32⟩
  | 77 => ⟨S1, .f32⟩
  | 78 => ⟨S_, .f32⟩
  | 79 => ⟨S_, .f32⟩
  | 80 => ⟨S_, .f32⟩
  | 81 => ⟨S50000x128, .f32⟩
  | 82 => ⟨S50000x128, .f32⟩
  | 83 => ⟨S50000x128, .f32⟩
  | 84 => ⟨S1x128x128, .f32⟩
  | 85 => ⟨S128x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S128, .f32⟩
  | 94 => ⟨S1x128, .f32⟩
  | 95 => ⟨S128, .f32⟩
  | 96 => ⟨S1x128, .f32⟩
  | 97 => ⟨S128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S_, .f32⟩
  | 104 => ⟨S128, .f32⟩
  | 105 => ⟨S128, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S1x128x128, .f32⟩
  | 118 => ⟨S128x128, .f32⟩
  | 119 => ⟨S50000x128, .f32⟩
  | 120 => ⟨S1x128, .f32⟩
  | 121 => ⟨S128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x9, .i32⟩

abbrev hbmTy0_2 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S128, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S1x3x4x128, .f32⟩
  | 26 => ⟨S3x4x128, .f32⟩
  | 27 => ⟨S3, .i32⟩
  | 28 => ⟨S1x3, .i32⟩
  | 29 => ⟨S_, .i32⟩
  | 30 => ⟨S1x3, .i32⟩
  | 31 => ⟨S1x3, .i1⟩
  | 32 => ⟨S_, .i32⟩
  | 33 => ⟨S1x3, .i32⟩
  | 34 => ⟨S1x3, .i32⟩
  | 35 => ⟨S1x3, .i32⟩
  | 36 => ⟨S_, .i32⟩
  | 37 => ⟨S600000x3, .i32⟩
  | 38 => ⟨S600000x3, .i1⟩
  | 39 => ⟨S_, .i32⟩
  | 40 => ⟨S600000x3, .i32⟩
  | 41 => ⟨S600000x3, .i32⟩
  | 42 => ⟨S600000x3, .i32⟩
  | 43 => ⟨S600000x3, .i32⟩
  | 44 => ⟨S600000x3x1, .i32⟩
  | 45 => ⟨S600000x3x1, .i32⟩
  | 46 => ⟨S600000x3x2, .i32⟩
  | 47 => ⟨S600000x3x128, .f32⟩
  | 48 => ⟨S_, .f32⟩
  | 49 => ⟨S600000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x128, .f32⟩
  | 60 => ⟨S_, .f32⟩
  | 61 => ⟨S600000x128, .f32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S1, .f32⟩
  | 68 => ⟨S_, .f32⟩
  | 69 => ⟨S_, .f32⟩
  | 70 => ⟨S_, .f32⟩
  | 71 => ⟨S50000x128, .f32⟩
  | 72 => ⟨S50000x128, .f32⟩
  | 73 => ⟨S50000x128, .f32⟩
  | 74 => ⟨S1x128x128, .f32⟩
  | 75 => ⟨S128x128, .f32⟩
  | 76 => ⟨S50000x128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S128, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S1x128x128, .f32⟩
  | 108 => ⟨S128x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S128, .f32⟩
  | 126 => ⟨S1x128, .f32⟩
  | 127 => ⟨S50000x128, .f32⟩
  | _ => ⟨S50000x9, .i32⟩

abbrev hbmTy0_3 (i : Nat) : BufTy := match i % 128 with
  | 0 => ⟨S50000x128, .f32⟩
  | 1 => ⟨S_, .f32⟩
  | 2 => ⟨S128, .f32⟩
  | 3 => ⟨S128, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S1x3x4x128, .f32⟩
  | 16 => ⟨S3x4x128, .f32⟩
  | 17 => ⟨S3, .i32⟩
  | 18 => ⟨S1x3, .i32⟩
  | 19 => ⟨S_, .i32⟩
  | 20 => ⟨S1x3, .i32⟩
  | 21 => ⟨S1x3, .i1⟩
  | 22 => ⟨S_, .i32⟩
  | 23 => ⟨S1x3, .i32⟩
  | 24 => ⟨S1x3, .i32⟩
  | 25 => ⟨S1x3, .i32⟩
  | 26 => ⟨S_, .i32⟩
  | 27 => ⟨S600000x3, .i32⟩
  | 28 => ⟨S600000x3, .i1⟩
  | 29 => ⟨S_, .i32⟩
  | 30 => ⟨S600000x3, .i32⟩
  | 31 => ⟨S600000x3, .i32⟩
  | 32 => ⟨S600000x3, .i32⟩
  | 33 => ⟨S600000x3, .i32⟩
  | 34 => ⟨S600000x3x1, .i32⟩
  | 35 => ⟨S600000x3x1, .i32⟩
  | 36 => ⟨S600000x3x2, .i32⟩
  | 37 => ⟨S600000x3x128, .f32⟩
  | 38 => ⟨S_, .f32⟩
  | 39 => ⟨S600000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S600000x128, .f32⟩
  | 50 => ⟨S_, .f32⟩
  | 51 => ⟨S600000x128, .f32⟩
  | 52 => ⟨S600000x128, .f32⟩
  | 53 => ⟨S_, .f32⟩
  | 54 => ⟨S50000x128, .f32⟩
  | 55 => ⟨S600000x1, .i32⟩
  | 56 => ⟨S50000x128, .f32⟩
  | 57 => ⟨S1, .f32⟩
  | 58 => ⟨S_, .f32⟩
  | 59 => ⟨S_, .f32⟩
  | 60 => ⟨S_, .f32⟩
  | 61 => ⟨S50000x128, .f32⟩
  | 62 => ⟨S50000x128, .f32⟩
  | 63 => ⟨S50000x128, .f32⟩
  | 64 => ⟨S1x128x128, .f32⟩
  | 65 => ⟨S128x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S1x128x128, .f32⟩
  | 98 => ⟨S128x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S128, .f32⟩
  | 121 => ⟨S128, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000x9, .i32⟩

abbrev hbmTy0_4 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S1x3x4x128, .f32⟩
  | 6 => ⟨S3x4x128, .f32⟩
  | 7 => ⟨S3, .i32⟩
  | 8 => ⟨S1x3, .i32⟩
  | 9 => ⟨S_, .i32⟩
  | 10 => ⟨S1x3, .i32⟩
  | 11 => ⟨S1x3, .i1⟩
  | 12 => ⟨S_, .i32⟩
  | 13 => ⟨S1x3, .i32⟩
  | 14 => ⟨S1x3, .i32⟩
  | 15 => ⟨S1x3, .i32⟩
  | 16 => ⟨S_, .i32⟩
  | 17 => ⟨S600000x3, .i32⟩
  | 18 => ⟨S600000x3, .i1⟩
  | 19 => ⟨S_, .i32⟩
  | 20 => ⟨S600000x3, .i32⟩
  | 21 => ⟨S600000x3, .i32⟩
  | 22 => ⟨S600000x3, .i32⟩
  | 23 => ⟨S600000x3, .i32⟩
  | 24 => ⟨S600000x3x1, .i32⟩
  | 25 => ⟨S600000x3x1, .i32⟩
  | 26 => ⟨S600000x3x2, .i32⟩
  | 27 => ⟨S600000x3x128, .f32⟩
  | 28 => ⟨S_, .f32⟩
  | 29 => ⟨S600000x128, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x128, .f32⟩
  | 39 => ⟨S600000x128, .f32⟩
  | 40 => ⟨S_, .f32⟩
  | 41 => ⟨S600000x128, .f32⟩
  | 42 => ⟨S600000x128, .f32⟩
  | 43 => ⟨S_, .f32⟩
  | 44 => ⟨S50000x128, .f32⟩
  | 45 => ⟨S600000x1, .i32⟩
  | 46 => ⟨S50000x128, .f32⟩
  | 47 => ⟨S1, .f32⟩
  | 48 => ⟨S_, .f32⟩
  | 49 => ⟨S_, .f32⟩
  | 50 => ⟨S_, .f32⟩
  | 51 => ⟨S50000x128, .f32⟩
  | 52 => ⟨S50000x128, .f32⟩
  | 53 => ⟨S50000x128, .f32⟩
  | 54 => ⟨S1x128x128, .f32⟩
  | 55 => ⟨S128x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S128, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S1x128x128, .f32⟩
  | 88 => ⟨S128x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S_, .f32⟩
  | 110 => ⟨S128, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | _ => ⟨S50000x9, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x9, .i32⟩

abbrev bufTy : (tb : Table) → Fin (tcTables nBuf tb) → BufTy
  | .hbm, ⟨i, _⟩ => hbmTy i
  | _, _ => ⟨S50000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_3 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call0_cst : Ref sig .tc := ⟨.hbm, 80, rfl⟩
abbrev main_call0_v0 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_12 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call1_cst : Ref sig .tc := ⟨.hbm, 124, rfl⟩
abbrev main_call1_v0 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_call2_cst : Ref sig .tc := ⟨.hbm, 135, rfl⟩
abbrev main_call2_v0 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_13 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_call3_cst : Ref sig .tc := ⟨.hbm, 160, rfl⟩
abbrev main_call3_v0 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_14 : Ref sig .tc := ⟨.hbm, 167, rfl⟩
abbrev main_v125 : Ref sig .tc := ⟨.hbm, 168, rfl⟩
abbrev main_v126 : Ref sig .tc := ⟨.hbm, 169, rfl⟩
abbrev main_c_15 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_c_16 : Ref sig .tc := ⟨.hbm, 174, rfl⟩
abbrev main_v130 : Ref sig .tc := ⟨.hbm, 175, rfl⟩
abbrev main_v131 : Ref sig .tc := ⟨.hbm, 176, rfl⟩
abbrev main_c_17 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_18 : Ref sig .tc := ⟨.hbm, 186, rfl⟩
abbrev main_v140 : Ref sig .tc := ⟨.hbm, 187, rfl⟩
abbrev main_c_19 : Ref sig .tc := ⟨.hbm, 188, rfl⟩
abbrev main_v141 : Ref sig .tc := ⟨.hbm, 189, rfl⟩
abbrev main_v142 : Ref sig .tc := ⟨.hbm, 190, rfl⟩
abbrev main_c_20 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_call4_cst : Ref sig .tc := ⟨.hbm, 198, rfl⟩
abbrev main_call4_v0 : Ref sig .tc := ⟨.hbm, 199, rfl⟩
abbrev main_v149 : Ref sig .tc := ⟨.hbm, 200, rfl⟩
abbrev main_cst_21 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_22 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_cst_23 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_call5_cst : Ref sig .tc := ⟨.hbm, 242, rfl⟩
abbrev main_call5_v0 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_call6_cst : Ref sig .tc := ⟨.hbm, 253, rfl⟩
abbrev main_call6_v0 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_cst_24 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_call7_cst : Ref sig .tc := ⟨.hbm, 278, rfl⟩
abbrev main_call7_v0 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_c_25 : Ref sig .tc := ⟨.hbm, 285, rfl⟩
abbrev main_v224 : Ref sig .tc := ⟨.hbm, 286, rfl⟩
abbrev main_v225 : Ref sig .tc := ⟨.hbm, 287, rfl⟩
abbrev main_c_26 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_c_27 : Ref sig .tc := ⟨.hbm, 292, rfl⟩
abbrev main_v229 : Ref sig .tc := ⟨.hbm, 293, rfl⟩
abbrev main_v230 : Ref sig .tc := ⟨.hbm, 294, rfl⟩
abbrev main_c_28 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_cst_29 : Ref sig .tc := ⟨.hbm, 304, rfl⟩
abbrev main_v239 : Ref sig .tc := ⟨.hbm, 305, rfl⟩
abbrev main_c_30 : Ref sig .tc := ⟨.hbm, 306, rfl⟩
abbrev main_v240 : Ref sig .tc := ⟨.hbm, 307, rfl⟩
abbrev main_v241 : Ref sig .tc := ⟨.hbm, 308, rfl⟩
abbrev main_c_31 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_call8_cst : Ref sig .tc := ⟨.hbm, 316, rfl⟩
abbrev main_call8_v0 : Ref sig .tc := ⟨.hbm, 317, rfl⟩
abbrev main_v248 : Ref sig .tc := ⟨.hbm, 318, rfl⟩
abbrev main_cst_32 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_cst_33 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_cst_34 : Ref sig .tc := ⟨.hbm, 349, rfl⟩
abbrev main_v277 : Ref sig .tc := ⟨.hbm, 350, rfl⟩
abbrev main_v278 : Ref sig .tc := ⟨.hbm, 351, rfl⟩
abbrev main_v279 : Ref sig .tc := ⟨.hbm, 352, rfl⟩
abbrev main_v280 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_v284 : Ref sig .tc := ⟨.hbm, 357, rfl⟩
abbrev main_v285 : Ref sig .tc := ⟨.hbm, 358, rfl⟩
abbrev main_v286 : Ref sig .tc := ⟨.hbm, 359, rfl⟩
abbrev main_call9_cst : Ref sig .tc := ⟨.hbm, 360, rfl⟩
abbrev main_call9_v0 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_v295 : Ref sig .tc := ⟨.hbm, 370, rfl⟩
abbrev main_call10_cst : Ref sig .tc := ⟨.hbm, 371, rfl⟩
abbrev main_call10_v0 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_v305 : Ref sig .tc := ⟨.hbm, 382, rfl⟩
abbrev main_v306 : Ref sig .tc := ⟨.hbm, 383, rfl⟩
abbrev main_v307 : Ref sig .tc := ⟨.hbm, 384, rfl⟩
abbrev main_cst_35 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_call11_cst : Ref sig .tc := ⟨.hbm, 396, rfl⟩
abbrev main_call11_v0 : Ref sig .tc := ⟨.hbm, 397, rfl⟩
abbrev main_v318 : Ref sig .tc := ⟨.hbm, 398, rfl⟩
abbrev main_v319 : Ref sig .tc := ⟨.hbm, 399, rfl⟩
abbrev main_v320 : Ref sig .tc := ⟨.hbm, 400, rfl⟩
abbrev main_v321 : Ref sig .tc := ⟨.hbm, 401, rfl⟩
abbrev main_v322 : Ref sig .tc := ⟨.hbm, 402, rfl⟩
abbrev main_c_36 : Ref sig .tc := ⟨.hbm, 403, rfl⟩
abbrev main_v323 : Ref sig .tc := ⟨.hbm, 404, rfl⟩
abbrev main_v324 : Ref sig .tc := ⟨.hbm, 405, rfl⟩
abbrev main_c_37 : Ref sig .tc := ⟨.hbm, 406, rfl⟩
abbrev main_v325 : Ref sig .tc := ⟨.hbm, 407, rfl⟩
abbrev main_v326 : Ref sig .tc := ⟨.hbm, 408, rfl⟩
abbrev main_v327 : Ref sig .tc := ⟨.hbm, 409, rfl⟩
abbrev main_c_38 : Ref sig .tc := ⟨.hbm, 410, rfl⟩
abbrev main_v328 : Ref sig .tc := ⟨.hbm, 411, rfl⟩
abbrev main_v329 : Ref sig .tc := ⟨.hbm, 412, rfl⟩
abbrev main_c_39 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩
abbrev main_cst_40 : Ref sig .tc := ⟨.hbm, 422, rfl⟩
abbrev main_v338 : Ref sig .tc := ⟨.hbm, 423, rfl⟩
abbrev main_c_41 : Ref sig .tc := ⟨.hbm, 424, rfl⟩
abbrev main_v339 : Ref sig .tc := ⟨.hbm, 425, rfl⟩
abbrev main_v340 : Ref sig .tc := ⟨.hbm, 426, rfl⟩
abbrev main_c_42 : Ref sig .tc := ⟨.hbm, 427, rfl⟩
abbrev main_v341 : Ref sig .tc := ⟨.hbm, 428, rfl⟩
abbrev main_v342 : Ref sig .tc := ⟨.hbm, 429, rfl⟩
abbrev main_v343 : Ref sig .tc := ⟨.hbm, 430, rfl⟩
abbrev main_v344 : Ref sig .tc := ⟨.hbm, 431, rfl⟩
abbrev main_v345 : Ref sig .tc := ⟨.hbm, 432, rfl⟩
abbrev main_v346 : Ref sig .tc := ⟨.hbm, 433, rfl⟩
abbrev main_call12_cst : Ref sig .tc := ⟨.hbm, 434, rfl⟩
abbrev main_call12_v0 : Ref sig .tc := ⟨.hbm, 435, rfl⟩
abbrev main_v347 : Ref sig .tc := ⟨.hbm, 436, rfl⟩
abbrev main_cst_43 : Ref sig .tc := ⟨.hbm, 437, rfl⟩
abbrev main_v348 : Ref sig .tc := ⟨.hbm, 438, rfl⟩
abbrev main_v349 : Ref sig .tc := ⟨.hbm, 439, rfl⟩
abbrev main_v350 : Ref sig .tc := ⟨.hbm, 440, rfl⟩
abbrev main_v351 : Ref sig .tc := ⟨.hbm, 441, rfl⟩
abbrev main_v352 : Ref sig .tc := ⟨.hbm, 442, rfl⟩
abbrev main_cst_44 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_v360 : Ref sig .tc := ⟨.hbm, 451, rfl⟩
abbrev main_v361 : Ref sig .tc := ⟨.hbm, 452, rfl⟩
abbrev main_v362 : Ref sig .tc := ⟨.hbm, 453, rfl⟩
abbrev main_v363 : Ref sig .tc := ⟨.hbm, 454, rfl⟩
abbrev main_v364 : Ref sig .tc := ⟨.hbm, 455, rfl⟩
abbrev main_v365 : Ref sig .tc := ⟨.hbm, 456, rfl⟩
abbrev main_v366 : Ref sig .tc := ⟨.hbm, 457, rfl⟩
abbrev main_v367 : Ref sig .tc := ⟨.hbm, 458, rfl⟩
abbrev main_v368 : Ref sig .tc := ⟨.hbm, 459, rfl⟩
abbrev main_v369 : Ref sig .tc := ⟨.hbm, 460, rfl⟩
abbrev main_v370 : Ref sig .tc := ⟨.hbm, 461, rfl⟩
abbrev main_v371 : Ref sig .tc := ⟨.hbm, 462, rfl⟩
abbrev main_v372 : Ref sig .tc := ⟨.hbm, 463, rfl⟩
abbrev main_v373 : Ref sig .tc := ⟨.hbm, 464, rfl⟩
abbrev main_v374 : Ref sig .tc := ⟨.hbm, 465, rfl⟩
abbrev main_v375 : Ref sig .tc := ⟨.hbm, 466, rfl⟩
abbrev main_cst_45 : Ref sig .tc := ⟨.hbm, 467, rfl⟩
abbrev main_v376 : Ref sig .tc := ⟨.hbm, 468, rfl⟩
abbrev main_v377 : Ref sig .tc := ⟨.hbm, 469, rfl⟩
abbrev main_v378 : Ref sig .tc := ⟨.hbm, 470, rfl⟩
abbrev main_v379 : Ref sig .tc := ⟨.hbm, 471, rfl⟩
abbrev main_v380 : Ref sig .tc := ⟨.hbm, 472, rfl⟩
abbrev main_v381 : Ref sig .tc := ⟨.hbm, 473, rfl⟩
abbrev main_v382 : Ref sig .tc := ⟨.hbm, 474, rfl⟩
abbrev main_v383 : Ref sig .tc := ⟨.hbm, 475, rfl⟩
abbrev main_v384 : Ref sig .tc := ⟨.hbm, 476, rfl⟩
abbrev main_v385 : Ref sig .tc := ⟨.hbm, 477, rfl⟩
abbrev main_call13_cst : Ref sig .tc := ⟨.hbm, 478, rfl⟩
abbrev main_call13_v0 : Ref sig .tc := ⟨.hbm, 479, rfl⟩
abbrev main_v386 : Ref sig .tc := ⟨.hbm, 480, rfl⟩
abbrev main_v387 : Ref sig .tc := ⟨.hbm, 481, rfl⟩
abbrev main_v388 : Ref sig .tc := ⟨.hbm, 482, rfl⟩
abbrev main_v389 : Ref sig .tc := ⟨.hbm, 483, rfl⟩
abbrev main_v390 : Ref sig .tc := ⟨.hbm, 484, rfl⟩
abbrev main_v391 : Ref sig .tc := ⟨.hbm, 485, rfl⟩
abbrev main_v392 : Ref sig .tc := ⟨.hbm, 486, rfl⟩
abbrev main_v393 : Ref sig .tc := ⟨.hbm, 487, rfl⟩
abbrev main_v394 : Ref sig .tc := ⟨.hbm, 488, rfl⟩
abbrev main_call14_cst : Ref sig .tc := ⟨.hbm, 489, rfl⟩
abbrev main_call14_v0 : Ref sig .tc := ⟨.hbm, 490, rfl⟩
abbrev main_v395 : Ref sig .tc := ⟨.hbm, 491, rfl⟩
abbrev main_v396 : Ref sig .tc := ⟨.hbm, 492, rfl⟩
abbrev main_v397 : Ref sig .tc := ⟨.hbm, 493, rfl⟩
abbrev main_v398 : Ref sig .tc := ⟨.hbm, 494, rfl⟩
abbrev main_v399 : Ref sig .tc := ⟨.hbm, 495, rfl⟩
abbrev main_v400 : Ref sig .tc := ⟨.hbm, 496, rfl⟩
abbrev main_v401 : Ref sig .tc := ⟨.hbm, 497, rfl⟩
abbrev main_v402 : Ref sig .tc := ⟨.hbm, 498, rfl⟩
abbrev main_v403 : Ref sig .tc := ⟨.hbm, 499, rfl⟩
abbrev main_v404 : Ref sig .tc := ⟨.hbm, 500, rfl⟩
abbrev main_v405 : Ref sig .tc := ⟨.hbm, 501, rfl⟩
abbrev main_v406 : Ref sig .tc := ⟨.hbm, 502, rfl⟩
abbrev main_cst_46 : Ref sig .tc := ⟨.hbm, 503, rfl⟩
abbrev main_v407 : Ref sig .tc := ⟨.hbm, 504, rfl⟩
abbrev main_v408 : Ref sig .tc := ⟨.hbm, 505, rfl⟩
abbrev main_v409 : Ref sig .tc := ⟨.hbm, 506, rfl⟩
abbrev main_v410 : Ref sig .tc := ⟨.hbm, 507, rfl⟩
abbrev main_v411 : Ref sig .tc := ⟨.hbm, 508, rfl⟩
abbrev main_v412 : Ref sig .tc := ⟨.hbm, 509, rfl⟩
abbrev main_v413 : Ref sig .tc := ⟨.hbm, 510, rfl⟩
abbrev main_v414 : Ref sig .tc := ⟨.hbm, 511, rfl⟩
abbrev main_v415 : Ref sig .tc := ⟨.hbm, 512, rfl⟩
abbrev main_v416 : Ref sig .tc := ⟨.hbm, 513, rfl⟩
abbrev main_call15_cst : Ref sig .tc := ⟨.hbm, 514, rfl⟩
abbrev main_call15_v0 : Ref sig .tc := ⟨.hbm, 515, rfl⟩
abbrev main_v417 : Ref sig .tc := ⟨.hbm, 516, rfl⟩
abbrev main_v418 : Ref sig .tc := ⟨.hbm, 517, rfl⟩
abbrev main_v419 : Ref sig .tc := ⟨.hbm, 518, rfl⟩
abbrev main_v420 : Ref sig .tc := ⟨.hbm, 519, rfl⟩
abbrev main_v421 : Ref sig .tc := ⟨.hbm, 520, rfl⟩
abbrev main_c_47 : Ref sig .tc := ⟨.hbm, 521, rfl⟩
abbrev main_v422 : Ref sig .tc := ⟨.hbm, 522, rfl⟩
abbrev main_v423 : Ref sig .tc := ⟨.hbm, 523, rfl⟩
abbrev main_c_48 : Ref sig .tc := ⟨.hbm, 524, rfl⟩
abbrev main_v424 : Ref sig .tc := ⟨.hbm, 525, rfl⟩
abbrev main_v425 : Ref sig .tc := ⟨.hbm, 526, rfl⟩
abbrev main_v426 : Ref sig .tc := ⟨.hbm, 527, rfl⟩
abbrev main_c_49 : Ref sig .tc := ⟨.hbm, 528, rfl⟩
abbrev main_v427 : Ref sig .tc := ⟨.hbm, 529, rfl⟩
abbrev main_v428 : Ref sig .tc := ⟨.hbm, 530, rfl⟩
abbrev main_c_50 : Ref sig .tc := ⟨.hbm, 531, rfl⟩
abbrev main_v429 : Ref sig .tc := ⟨.hbm, 532, rfl⟩
abbrev main_v430 : Ref sig .tc := ⟨.hbm, 533, rfl⟩
abbrev main_v431 : Ref sig .tc := ⟨.hbm, 534, rfl⟩
abbrev main_v432 : Ref sig .tc := ⟨.hbm, 535, rfl⟩
abbrev main_v433 : Ref sig .tc := ⟨.hbm, 536, rfl⟩
abbrev main_v434 : Ref sig .tc := ⟨.hbm, 537, rfl⟩
abbrev main_v435 : Ref sig .tc := ⟨.hbm, 538, rfl⟩
abbrev main_v436 : Ref sig .tc := ⟨.hbm, 539, rfl⟩
abbrev main_cst_51 : Ref sig .tc := ⟨.hbm, 540, rfl⟩
abbrev main_v437 : Ref sig .tc := ⟨.hbm, 541, rfl⟩
abbrev main_c_52 : Ref sig .tc := ⟨.hbm, 542, rfl⟩
abbrev main_v438 : Ref sig .tc := ⟨.hbm, 543, rfl⟩
abbrev main_v439 : Ref sig .tc := ⟨.hbm, 544, rfl⟩
abbrev main_c_53 : Ref sig .tc := ⟨.hbm, 545, rfl⟩
abbrev main_v440 : Ref sig .tc := ⟨.hbm, 546, rfl⟩
abbrev main_v441 : Ref sig .tc := ⟨.hbm, 547, rfl⟩
abbrev main_v442 : Ref sig .tc := ⟨.hbm, 548, rfl⟩
abbrev main_v443 : Ref sig .tc := ⟨.hbm, 549, rfl⟩
abbrev main_v444 : Ref sig .tc := ⟨.hbm, 550, rfl⟩
abbrev main_v445 : Ref sig .tc := ⟨.hbm, 551, rfl⟩
abbrev main_call16_cst : Ref sig .tc := ⟨.hbm, 552, rfl⟩
abbrev main_call16_v0 : Ref sig .tc := ⟨.hbm, 553, rfl⟩
abbrev main_v446 : Ref sig .tc := ⟨.hbm, 554, rfl⟩
abbrev main_cst_54 : Ref sig .tc := ⟨.hbm, 555, rfl⟩
abbrev main_v447 : Ref sig .tc := ⟨.hbm, 556, rfl⟩
abbrev main_v448 : Ref sig .tc := ⟨.hbm, 557, rfl⟩
abbrev main_v449 : Ref sig .tc := ⟨.hbm, 558, rfl⟩
abbrev main_v450 : Ref sig .tc := ⟨.hbm, 559, rfl⟩
abbrev main_v451 : Ref sig .tc := ⟨.hbm, 560, rfl⟩
abbrev main_cst_55 : Ref sig .tc := ⟨.hbm, 561, rfl⟩
abbrev main_v452 : Ref sig .tc := ⟨.hbm, 562, rfl⟩
abbrev main_v453 : Ref sig .tc := ⟨.hbm, 563, rfl⟩
abbrev main_v454 : Ref sig .tc := ⟨.hbm, 564, rfl⟩
abbrev main_v455 : Ref sig .tc := ⟨.hbm, 565, rfl⟩
abbrev main_v456 : Ref sig .tc := ⟨.hbm, 566, rfl⟩
abbrev main_v457 : Ref sig .tc := ⟨.hbm, 567, rfl⟩
abbrev main_v458 : Ref sig .tc := ⟨.hbm, 568, rfl⟩
abbrev main_v459 : Ref sig .tc := ⟨.hbm, 569, rfl⟩
abbrev main_v460 : Ref sig .tc := ⟨.hbm, 570, rfl⟩
abbrev main_v461 : Ref sig .tc := ⟨.hbm, 571, rfl⟩
abbrev main_v462 : Ref sig .tc := ⟨.hbm, 572, rfl⟩
abbrev main_v463 : Ref sig .tc := ⟨.hbm, 573, rfl⟩
abbrev main_v464 : Ref sig .tc := ⟨.hbm, 574, rfl⟩
abbrev main_v465 : Ref sig .tc := ⟨.hbm, 575, rfl⟩
abbrev main_v466 : Ref sig .tc := ⟨.hbm, 576, rfl⟩
abbrev main_v467 : Ref sig .tc := ⟨.hbm, 577, rfl⟩
abbrev main_v468 : Ref sig .tc := ⟨.hbm, 578, rfl⟩
abbrev main_v469 : Ref sig .tc := ⟨.hbm, 579, rfl⟩
abbrev main_v470 : Ref sig .tc := ⟨.hbm, 580, rfl⟩
abbrev main_v471 : Ref sig .tc := ⟨.hbm, 581, rfl⟩
abbrev main_v472 : Ref sig .tc := ⟨.hbm, 582, rfl⟩
abbrev main_v473 : Ref sig .tc := ⟨.hbm, 583, rfl⟩
abbrev main_v474 : Ref sig .tc := ⟨.hbm, 584, rfl⟩
abbrev main_cst_56 : Ref sig .tc := ⟨.hbm, 585, rfl⟩
abbrev main_v475 : Ref sig .tc := ⟨.hbm, 586, rfl⟩
abbrev main_v476 : Ref sig .tc := ⟨.hbm, 587, rfl⟩
abbrev main_v477 : Ref sig .tc := ⟨.hbm, 588, rfl⟩
abbrev main_v478 : Ref sig .tc := ⟨.hbm, 589, rfl⟩
abbrev main_v479 : Ref sig .tc := ⟨.hbm, 590, rfl⟩
abbrev main_v480 : Ref sig .tc := ⟨.hbm, 591, rfl⟩
abbrev main_v481 : Ref sig .tc := ⟨.hbm, 592, rfl⟩
abbrev main_v482 : Ref sig .tc := ⟨.hbm, 593, rfl⟩
abbrev main_v483 : Ref sig .tc := ⟨.hbm, 594, rfl⟩
abbrev main_v484 : Ref sig .tc := ⟨.hbm, 595, rfl⟩
abbrev main_call17_cst : Ref sig .tc := ⟨.hbm, 596, rfl⟩
abbrev main_call17_v0 : Ref sig .tc := ⟨.hbm, 597, rfl⟩
abbrev main_v485 : Ref sig .tc := ⟨.hbm, 598, rfl⟩
abbrev main_v486 : Ref sig .tc := ⟨.hbm, 599, rfl⟩
abbrev main_v487 : Ref sig .tc := ⟨.hbm, 600, rfl⟩
abbrev main_v488 : Ref sig .tc := ⟨.hbm, 601, rfl⟩
abbrev main_v489 : Ref sig .tc := ⟨.hbm, 602, rfl⟩
abbrev main_v490 : Ref sig .tc := ⟨.hbm, 603, rfl⟩
abbrev main_v491 : Ref sig .tc := ⟨.hbm, 604, rfl⟩
abbrev main_v492 : Ref sig .tc := ⟨.hbm, 605, rfl⟩
abbrev main_v493 : Ref sig .tc := ⟨.hbm, 606, rfl⟩
abbrev main_call18_cst : Ref sig .tc := ⟨.hbm, 607, rfl⟩
abbrev main_call18_v0 : Ref sig .tc := ⟨.hbm, 608, rfl⟩
abbrev main_v494 : Ref sig .tc := ⟨.hbm, 609, rfl⟩
abbrev main_v495 : Ref sig .tc := ⟨.hbm, 610, rfl⟩
abbrev main_v496 : Ref sig .tc := ⟨.hbm, 611, rfl⟩
abbrev main_v497 : Ref sig .tc := ⟨.hbm, 612, rfl⟩
abbrev main_v498 : Ref sig .tc := ⟨.hbm, 613, rfl⟩
abbrev main_v499 : Ref sig .tc := ⟨.hbm, 614, rfl⟩
abbrev main_v500 : Ref sig .tc := ⟨.hbm, 615, rfl⟩
abbrev main_v501 : Ref sig .tc := ⟨.hbm, 616, rfl⟩
abbrev main_v502 : Ref sig .tc := ⟨.hbm, 617, rfl⟩
abbrev main_v503 : Ref sig .tc := ⟨.hbm, 618, rfl⟩
abbrev main_v504 : Ref sig .tc := ⟨.hbm, 619, rfl⟩
abbrev main_v505 : Ref sig .tc := ⟨.hbm, 620, rfl⟩
abbrev main_cst_57 : Ref sig .tc := ⟨.hbm, 621, rfl⟩
abbrev main_v506 : Ref sig .tc := ⟨.hbm, 622, rfl⟩
abbrev main_v507 : Ref sig .tc := ⟨.hbm, 623, rfl⟩
abbrev main_v508 : Ref sig .tc := ⟨.hbm, 624, rfl⟩
abbrev main_v509 : Ref sig .tc := ⟨.hbm, 625, rfl⟩
abbrev main_v510 : Ref sig .tc := ⟨.hbm, 626, rfl⟩
abbrev main_v511 : Ref sig .tc := ⟨.hbm, 627, rfl⟩
abbrev main_v512 : Ref sig .tc := ⟨.hbm, 628, rfl⟩
abbrev main_v513 : Ref sig .tc := ⟨.hbm, 629, rfl⟩
abbrev main_v514 : Ref sig .tc := ⟨.hbm, 630, rfl⟩
abbrev main_v515 : Ref sig .tc := ⟨.hbm, 631, rfl⟩

abbrev nD : Nat := 1
abbrev τ : Topo := Topo.v7x

variable {F : FTy → Type} [FloatOps F]

class Facts₀ : Prop where
  bcast_S9_S1x9_1 : S9.BroadcastsInDim S1x9 (![1] : Fin 1 → Fin S1x9.rank)
  bcast_S_S1x9 : S_.BroadcastsInDim S1x9 (![] : Fin 0 → Fin S1x9.rank)
  bcast_S_S50000x9 : S_.BroadcastsInDim S50000x9 (![] : Fin 0 → Fin S50000x9.rank)
  bcast_S1x9_S50000x9_0_1 : S1x9.BroadcastsInDim S50000x9 (![0, 1] : Fin 2 → Fin S50000x9.rank)
  bcast_S50000x9_S50000x9x1_0_1 : S50000x9.BroadcastsInDim S50000x9x1 (![0, 1] : Fin 2 → Fin S50000x9x1.rank)
  concatenates_S50000x9x1_S50000x9x1_S50000x9x2_d2 : Shape.Concatenates [S50000x9x1, S50000x9x1] S50000x9x2 2
  reducesTo_S50000x9x128_S50000x128_d1 : S50000x9x128.ReducesTo [1] S50000x128
  h_S_ : 0 < S_.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S5x3x4x128_S1x3x4x128_0_0_0_0 : S5x3x4x128.Slices ![0, 0, 0, 0] S1x3x4x128
  shapeCasts_S1x3x4x128_S3x4x128 : S1x3x4x128.ShapeCasts S3x4x128
  bcast_S3_S1x3_1 : S3.BroadcastsInDim S1x3 (![1] : Fin 1 → Fin S1x3.rank)
  bcast_S_S1x3 : S_.BroadcastsInDim S1x3 (![] : Fin 0 → Fin S1x3.rank)
  bcast_S_S600000x3 : S_.BroadcastsInDim S600000x3 (![] : Fin 0 → Fin S600000x3.rank)
  bcast_S1x3_S600000x3_0_1 : S1x3.BroadcastsInDim S600000x3 (![0, 1] : Fin 2 → Fin S600000x3.rank)
  bcast_S600000x3_S600000x3x1_0_1 : S600000x3.BroadcastsInDim S600000x3x1 (![0, 1] : Fin 2 → Fin S600000x3x1.rank)
  concatenates_S600000x3x1_S600000x3x1_S600000x3x2_d2 : Shape.Concatenates [S600000x3x1, S600000x3x1] S600000x3x2 2
  reducesTo_S600000x3x128_S600000x128_d1 : S600000x3x128.ReducesTo [1] S600000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  slices_S5_S1_0 : S5.Slices ![0] S1
  shapeCasts_S1_S_ : S1.ShapeCasts S_
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S5x3x4x128_S1x3x4x128_1_0_0_0 : S5x3x4x128.Slices ![1, 0, 0, 0] S1x3x4x128
  slices_S5_S1_1 : S5.Slices ![1] S1
  slices_S5x128x128_S1x128x128_1_0_0 : S5x128x128.Slices ![1, 0, 0] S1x128x128
  slices_S5x128_S1x128_1_0 : S5x128.Slices ![1, 0] S1x128
  slices_S5x3x4x128_S1x3x4x128_2_0_0_0 : S5x3x4x128.Slices ![2, 0, 0, 0] S1x3x4x128
  slices_S5_S1_2 : S5.Slices ![2] S1
  slices_S5x128x128_S1x128x128_2_0_0 : S5x128x128.Slices ![2, 0, 0] S1x128x128
  slices_S5x128_S1x128_2_0 : S5x128.Slices ![2, 0] S1x128
  slices_S5x3x4x128_S1x3x4x128_3_0_0_0 : S5x3x4x128.Slices ![3, 0, 0, 0] S1x3x4x128
  slices_S5_S1_3 : S5.Slices ![3] S1
  slices_S5x128x128_S1x128x128_3_0_0 : S5x128x128.Slices ![3, 0, 0] S1x128x128
  slices_S5x128_S1x128_3_0 : S5x128.Slices ![3, 0] S1x128
  slices_S5x3x4x128_S1x3x4x128_4_0_0_0 : S5x3x4x128.Slices ![4, 0, 0, 0] S1x3x4x128
  slices_S5_S1_4 : S5.Slices ![4] S1
  slices_S5x128x128_S1x128x128_4_0_0 : S5x128x128.Slices ![4, 0, 0] S1x128x128
  slices_S5x128_S1x128_4_0 : S5x128.Slices ![4, 0] S1x128
  gather_S9x4x128_S50000x9x2_S50000x9x128_2_01_n_n_01_2_11128_wf : GatherDims.WF S9x4x128 S50000x9x2 S50000x9x128 [2] [0, 1] [] [0, 1] [] 2 ![1, 1, 128]
  gather_S3x4x128_S600000x3x2_S600000x3x128_2_01_n_n_01_2_11128_wf : GatherDims.WF S3x4x128 S600000x3x2 S600000x3x128 [2] [0, 1] [] [0, 1] [] 2 ![1, 1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S9x4x128_S50000x9x2_S50000x9x128_2_01_n_n_01_2_11128 : GatherDims S9x4x128 S50000x9x2 S50000x9x128 where
  offsetDims := [2]
  collapsedSliceDims := [0, 1]
  operandBatchingDims := []
  startIndicesBatchingDims := []
  startIndexMap := [0, 1]
  indexVectorDim := 2
  sliceSizes := ![1, 1, 128]
  wf := gather_S9x4x128_S50000x9x2_S50000x9x128_2_01_n_n_01_2_11128_wf
def gather_S3x4x128_S600000x3x2_S600000x3x128_2_01_n_n_01_2_11128 : GatherDims S3x4x128 S600000x3x2 S600000x3x128 where
  offsetDims := [2]
  collapsedSliceDims := [0, 1]
  operandBatchingDims := []
  startIndicesBatchingDims := []
  startIndexMap := [0, 1]
  indexVectorDim := 2
  sliceSizes := ![1, 1, 128]
  wf := gather_S3x4x128_S600000x3x2_S600000x3x128_2_01_n_n_01_2_11128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
import proofs.«402997_j6614249635914_3_alg».proof.KernelIdeal
import Idealize.ShloMosaic.Lib.ValueIdx

noncomputable section

open scoped BigOperators

namespace Cert.Gin

open Idealize.ShloMosaic Idealize.ShloMosaic.ValueIdx Cert.KernelIdeal
open Cert.KernelIdeal.Facts₀ Cert.KernelIdeal.Facts

variable [Cert.KernelIdeal.Facts]

abbrev Arr (s : Shape) : Type := s.Idx → EReal

def bnEps : EReal := Ideal.ofBits .f32 0x3727C5AC#32

def vocab (a : BitVec 32) : Fin 4 := ⟨a.toNat % 4, Nat.mod_lt _ (by decide)⟩

-- The sum of an edge's three bond-attribute embeddings at feature j.
def bondSum (ea : IVec S600000x3 32) (tbl : Arr S3x4x128) (e : Fin 600000) (j : Fin 128) : EReal :=
  ∑ f : Fin 3, tbl (ix3 f (vocab (ea (ix2 e f))) j)

-- An edge's message: its source node's features plus its bond embedding, rectified.
def msgF (ea : IVec S600000x3 32) (hs : Arr S600000x128) (tbl : Arr S3x4x128) : Arr S600000x128 :=
  fun i => max (hs i + bondSum ea tbl (i 0) (i 1)) 0

def affine (z : Arr S50000x128) (W : Arr S128x128) (b : Arr S128) : Arr S50000x128 :=
  fun i => (∑ k : Fin 128, z (ix2 (i 0) k) * W (ix2 k (i 1))) + b (ix1 (i 1))

-- Batch normalisation with fixed mean and variance rows.
def bnorm (x : Arr S50000x128) (g bb mu v : Arr S128) : Arr S50000x128 :=
  fun i => (x i - mu (ix1 (i 1))) * (g (ix1 (i 1)) * Ideal.rsqrt (v (ix1 (i 1)) + bnEps)) + bb (ix1 (i 1))

def rect (x : Arr S50000x128) : Arr S50000x128 := fun i => max (x i) 0

-- The node update: the weighted features plus the summed messages through two affine maps, each batch-normalised; only the last layer has no closing rectifier.
def nodeF (last : Bool) (s : EReal) (h a : Arr S50000x128) (W1 : Arr S128x128) (b1 g1 bb1 m1 v1 : Arr S128)
    (W2 : Arr S128x128) (b2 g2 bb2 m2 v2 : Arr S128) : Arr S50000x128 :=
  let y := bnorm (rect (affine (rect (bnorm (affine (fun i => s * h i + a i) W1 b1) g1 bb1 m1 v1)) W2 b2)) g2 bb2 m2 v2
  if last then y else rect y

-- The features of every edge's source node (a negative index counts from the end).
def gathOp (h : Arr S50000x128) (srcv : IVec S600000 32) : Arr S600000x128 :=
  Host.gather gather_S50000x128_S600000x1_S600000x128_1_0_n_n_0_1_1128 h
    (broadcastInDim S600000x1 ![0] bcast_S600000_S600000x1_0
      (select (cmpi .slt srcv (broadcastInDim S600000 ![] bcast_S_S600000 (constantI S_ 32 0#32)))
        (addi srcv (broadcastInDim S600000 ![] bcast_S_S600000 (constantI S_ 32 50000#32))) srcv))

-- The messages summed into their destination nodes.
def aggOp (dstv : IVec S600000 32) (u : Arr S600000x128) : Arr S50000x128 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dstv) u

-- One message-passing layer.
def layer (last : Bool) (srcv dstv : IVec S600000 32) (ea : IVec S600000x3 32) (tbl : Arr S3x4x128) (s : Arr S_)
    (W1 : Arr S128x128) (b1 g1 bb1 m1 v1 : Arr S128) (W2 : Arr S128x128) (b2 g2 bb2 m2 v2 : Arr S128)
    (h : Arr S50000x128) : Arr S50000x128 :=
  nodeF last (s ix0) h (aggOp dstv (msgF ea (gathOp h srcv) tbl)) W1 b1 g1 bb1 m1 v1 W2 b2 g2 bb2 m2 v2

end Cert.Gin

end
-- ==== Proof.ModelBase.lean ====
import proofs.«402997_j6614249635914_3_alg».proof.Proof.Spec

noncomputable section

namespace Cert.Gin

open Idealize.ShloMosaic Idealize.ShloMosaic.ValueIdx Cert.KernelIdeal
open Cert.KernelIdeal.Facts₀ Cert.KernelIdeal.Facts

variable [Cert.KernelIdeal.Facts]

def srcOf (ei : IVec S2x600000 32) : IVec S600000 32 :=
  shapeCast S600000 (extractStridedSlice S1x600000 ![0, 0] ei slices_S2x600000_S1x600000_0_0) shapeCasts_S1x600000_S600000

def dstOf (ei : IVec S2x600000 32) : IVec S600000 32 :=
  shapeCast S600000 (extractStridedSlice S1x600000 ![1, 0] ei slices_S2x600000_S1x600000_1_0) shapeCasts_S1x600000_S600000

def atomOp (x : IVec S50000x9 32) (atom : Arr S9x4x128) : Arr S50000x128 :=
  Host.reduceAdd (F := Ideal)
    (Host.gather gather_S9x4x128_S50000x9x2_S50000x9x128_2_01_n_n_01_2_11128 atom
      (concatenate S50000x9x2 2
        [⟨S50000x9x1, broadcastInDim S50000x9x1 ![0, 1] bcast_S50000x9_S50000x9x1_0_1
            (broadcastInDim S50000x9 ![0, 1] bcast_S1x9_S50000x9_0_1
              (select (cmpi .slt (broadcastInDim S1x9 ![1] bcast_S9_S1x9_1 (iotaInDim S9 32 0)) (broadcastInDim S1x9 ![] bcast_S_S1x9 (constantI S_ 32 0#32)))
                (addi (broadcastInDim S1x9 ![1] bcast_S9_S1x9_1 (iotaInDim S9 32 0)) (broadcastInDim S1x9 ![] bcast_S_S1x9 (constantI S_ 32 9#32)))
                (broadcastInDim S1x9 ![1] bcast_S9_S1x9_1 (iotaInDim S9 32 0))))⟩,
         ⟨S50000x9x1, broadcastInDim S50000x9x1 ![0, 1] bcast_S50000x9_S50000x9x1_0_1
            (select (cmpi .slt x (broadcastInDim S50000x9 ![] bcast_S_S50000x9 (constantI S_ 32 0#32)))
              (addi x (broadcastInDim S50000x9 ![] bcast_S_S50000x9 (constantI S_ 32 4#32))) x)⟩]
        concatenates_S50000x9x1_S50000x9x1_S50000x9x2_d2))
    (constant (F := Ideal) S_ .f32 0x00000000#32) reducesTo_S50000x9x128_S50000x128_d1 h_S_

end Cert.Gin

end
-- ==== Proof.Params0.lean ====
import proofs.«402997_j6614249635914_3_alg».proof.Proof.ModelBase

noncomputable section

namespace Cert.Gin

open Idealize.ShloMosaic Idealize.ShloMosaic.ValueIdx Cert.KernelIdeal
open Cert.KernelIdeal.Facts₀ Cert.KernelIdeal.Facts

variable [Cert.KernelIdeal.Facts]

def tbl0 (bond : Arr S5x3x4x128) : Arr S3x4x128 :=
  shapeCast S3x4x128 (extractStridedSlice S1x3x4x128 ![0, 0, 0, 0] bond slices_S5x3x4x128_S1x3x4x128_0_0_0_0) shapeCasts_S1x3x4x128_S3x4x128

def sc0 (eps : Arr S5) : Arr S_ :=
  addf (F := Ideal) (constant (F := Ideal) S_ .f32 0x3F800000#32) (shapeCast S_ (extractStridedSlice S1 ![0] eps slices_S5_S1_0) shapeCasts_S1_S_)

def mat0 (W : Arr S5x128x128) : Arr S128x128 :=
  shapeCast S128x128 (extractStridedSlice S1x128x128 ![0, 0, 0] W slices_S5x128x128_S1x128x128_0_0_0) shapeCasts_S1x128x128_S128x128

def row0 (A : Arr S5x128) : Arr S128 :=
  shapeCast S128 (extractStridedSlice S1x128 ![0, 0] A slices_S5x128_S1x128_0_0) shapeCasts_S1x128_S128

def lyr0 (ei : IVec S2x600000 32) (ea : IVec S600000x3 32) (bond : Arr S5x3x4x128) (eps : Arr S5)
    (W1 : Arr S5x128x128) (b1 g1 bb1 m1 v1 : Arr S5x128) (W2 : Arr S5x128x128) (b2 g2 bb2 m2 v2 : Arr S5x128)
    (h : Arr S50000x128) : Arr S50000x128 :=
  layer false (srcOf ei) (dstOf ei) ea (tbl0 bond) (sc0 eps) (mat0 W1) (row0 b1) (row0 g1) (row0 bb1) (row0 m1) (row0 v1)
    (mat0 W2) (row0 b2) (row0 g2) (row0 bb2) (row0 m2) (row0 v2) h

end Cert.Gin

end
-- ==== Proof.Params1.lean ====
import proofs.«402997_j6614249635914_3_alg».proof.Proof.ModelBase

noncomputable section

namespace Cert.Gin

open Idealize.ShloMosaic Idealize.ShloMosaic.ValueIdx Cert.KernelIdeal
open Cert.KernelIdeal.Facts₀ Cert.KernelIdeal.Facts

variable [Cert.KernelIdeal.Facts]

def tbl1 (bond : Arr S5x3x4x128) : Arr S3x4x128 :=
  shapeCast S3x4x128 (extractStridedSlice S1x3x4x128 ![1, 0, 0, 0] bond slices_S5x3x4x128_S1x3x4x128_1_0_0_0) shapeCasts_S1x3x4x128_S3x4x128

def sc1 (eps : Arr S5) : Arr S_ :=
  addf (F := Ideal) (constant (F := Ideal) S_ .f32 0x3F800000#32) (shapeCast S_ (extractStridedSlice S1 ![1] eps slices_S5_S1_1) shapeCasts_S1_S_)

def mat1 (W : Arr S5x128x128) : Arr S128x128 :=
  shapeCast S128x128 (extractStridedSlice S1x128x128 ![1, 0, 0] W slices_S5x128x128_S1x128x128_1_0_0) shapeCasts_S1x128x128_S128x128

def row1 (A : Arr S5x128) : Arr S128 :=
  shapeCast S128 (extractStridedSlice S1x128 ![1, 0] A slices_S5x128_S1x128_1_0) shapeCasts_S1x128_S128

def lyr1 (ei : IVec S2x600000 32) (ea : IVec S600000x3 32) (bond : Arr S5x3x4x128) (eps : Arr S5)
    (W1 : Arr S5x128x128) (b1 g1 bb1 m1 v1 : Arr S5x128) (W2 : Arr S5x128x128) (b2 g2 bb2 m2 v2 : Arr S5x128)
    (h : Arr S50000x128) : Arr S50000x128 :=
  layer false (srcOf ei) (dstOf ei) ea (tbl1 bond) (sc1 eps) (mat1 W1) (row1 b1) (row1 g1) (row1 bb1) (row1 m1) (row1 v1)
    (mat1 W2) (row1 b2) (row1 g2) (row1 bb2) (row1 m2) (row1 v2) h

end Cert.Gin

end
-- ==== Proof.Params2.lean ====
import proofs.«402997_j6614249635914_3_alg».proof.Proof.ModelBase

noncomputable section

namespace Cert.Gin

open Idealize.ShloMosaic Idealize.ShloMosaic.ValueIdx Cert.KernelIdeal
open Cert.KernelIdeal.Facts₀ Cert.KernelIdeal.Facts

variable [Cert.KernelIdeal.Facts]

def tbl2 (bond : Arr S5x3x4x128) : Arr S3x4x128 :=
  shapeCast S3x4x128 (extractStridedSlice S1x3x4x128 ![2, 0, 0, 0] bond slices_S5x3x4x128_S1x3x4x128_2_0_0_0) shapeCasts_S1x3x4x128_S3x4x128

def sc2 (eps : Arr S5) : Arr S_ :=
  addf (F := Ideal) (constant (F := Ideal) S_ .f32 0x3F800000#32) (shapeCast S_ (extractStridedSlice S1 ![2] eps slices_S5_S1_2) shapeCasts_S1_S_)

def mat2 (W : Arr S5x128x128) : Arr S128x128 :=
  shapeCast S128x128 (extractStridedSlice S1x128x128 ![2, 0, 0] W slices_S5x128x128_S1x128x128_2_0_0) shapeCasts_S1x128x128_S128x128

def row2 (A : Arr S5x128) : Arr S128 :=
  shapeCast S128 (extractStridedSlice S1x128 ![2, 0] A slices_S5x128_S1x128_2_0) shapeCasts_S1x128_S128

def lyr2 (ei : IVec S2x600000 32) (ea : IVec S600000x3 32) (bond : Arr S5x3x4x128) (eps : Arr S5)
    (W1 : Arr S5x128x128) (b1 g1 bb1 m1 v1 : Arr S5x128) (W2 : Arr S5x128x128) (b2 g2 bb2 m2 v2 : Arr S5x128)
    (h : Arr S50000x128) : Arr S50000x128 :=
  layer false (srcOf ei) (dstOf ei) ea (tbl2 bond) (sc2 eps) (mat2 W1) (row2 b1) (row2 g1) (row2 bb1) (row2 m1) (row2 v1)
    (mat2 W2) (row2 b2) (row2 g2) (row2 bb2) (row2 m2) (row2 v2) h

end Cert.Gin

end
-- ==== Proof.Params3.lean ====
import proofs.«402997_j6614249635914_3_alg».proof.Proof.ModelBase

noncomputable section

namespace Cert.Gin

open Idealize.ShloMosaic Idealize.ShloMosaic.ValueIdx Cert.KernelIdeal
open Cert.KernelIdeal.Facts₀ Cert.KernelIdeal.Facts

variable [Cert.KernelIdeal.Facts]

def tbl3 (bond : Arr S5x3x4x128) : Arr S3x4x128 :=
  shapeCast S3x4x128 (extractStridedSlice S1x3x4x128 ![3, 0, 0, 0] bond slices_S5x3x4x128_S1x3x4x128_3_0_0_0) shapeCasts_S1x3x4x128_S3x4x128

def sc3 (eps : Arr S5) : Arr S_ :=
  addf (F := Ideal) (constant (F := Ideal) S_ .f32 0x3F800000#32) (shapeCast S_ (extractStridedSlice S1 ![3] eps slices_S5_S1_3) shapeCasts_S1_S_)

def mat3 (W : Arr S5x128x128) : Arr S128x128 :=
  shapeCast S128x128 (extractStridedSlice S1x128x128 ![3, 0, 0] W slices_S5x128x128_S1x128x128_3_0_0) shapeCasts_S1x128x128_S128x128

def row3 (A : Arr S5x128) : Arr S128 :=
  shapeCast S128 (extractStridedSlice S1x128 ![3, 0] A slices_S5x128_S1x128_3_0) shapeCasts_S1x128_S128

def lyr3 (ei : IVec S2x600000 32) (ea : IVec S600000x3 32) (bond : Arr S5x3x4x128) (eps : Arr S5)
    (W1 : Arr S5x128x128) (b1 g1 bb1 m1 v1 : Arr S5x128) (W2 : Arr S5x128x128) (b2 g2 bb2 m2 v2 : Arr S5x128)
    (h : Arr S50000x128) : Arr S50000x128 :=
  layer false (srcOf ei) (dstOf ei) ea (tbl3 bond) (sc3 eps) (mat3 W1) (row3 b1) (row3 g1) (row3 bb1) (row3 m1) (row3 v1)
    (mat3 W2) (row3 b2) (row3 g2) (row3 bb2) (row3 m2) (row3 v2) h

end Cert.Gin

end
-- ==== Proof.Params4.lean ====
import proofs.«402997_j6614249635914_3_alg».proof.Proof.ModelBase

noncomputable section

namespace Cert.Gin

open Idealize.ShloMosaic Idealize.ShloMosaic.ValueIdx Cert.KernelIdeal
open Cert.KernelIdeal.Facts₀ Cert.KernelIdeal.Facts

variable [Cert.KernelIdeal.Facts]

def tbl4 (bond : Arr S5x3x4x128) : Arr S3x4x128 :=
  shapeCast S3x4x128 (extractStridedSlice S1x3x4x128 ![4, 0, 0, 0] bond slices_S5x3x4x128_S1x3x4x128_4_0_0_0) shapeCasts_S1x3x4x128_S3x4x128

def sc4 (eps : Arr S5) : Arr S_ :=
  addf (F := Ideal) (constant (F := Ideal) S_ .f32 0x3F800000#32) (shapeCast S_ (extractStridedSlice S1 ![4] eps slices_S5_S1_4) shapeCasts_S1_S_)

def mat4 (W : Arr S5x128x128) : Arr S128x128 :=
  shapeCast S128x128 (extractStridedSlice S1x128x128 ![4, 0, 0] W slices_S5x128x128_S1x128x128_4_0_0) shapeCasts_S1x128x128_S128x128

def row4 (A : Arr S5x128) : Arr S128 :=
  shapeCast S128 (extractStridedSlice S1x128 ![4, 0] A slices_S5x128_S1x128_4_0) shapeCasts_S1x128_S128

def lyr4 (ei : IVec S2x600000 32) (ea : IVec S600000x3 32) (bond : Arr S5x3x4x128) (eps : Arr S5)
    (W1 : Arr S5x128x128) (b1 g1 bb1 m1 v1 : Arr S5x128) (W2 : Arr S5x128x128) (b2 g2 bb2 m2 v2 : Arr S5x128)
    (h : Arr S50000x128) : Arr S50000x128 :=
  layer true (srcOf ei) (dstOf ei) ea (tbl4 bond) (sc4 eps) (mat4 W1) (row4 b1) (row4 g1) (row4 bb1) (row4 m1) (row4 v1)
    (mat4 W2) (row4 b2) (row4 g2) (row4 bb2) (row4 m2) (row4 v2) h

end Cert.Gin

end
-- ==== Proof.Model.lean ====
import proofs.«402997_j6614249635914_3_alg».proof.Proof.ModelBase
import proofs.«402997_j6614249635914_3_alg».proof.Proof.Params0
import proofs.«402997_j6614249635914_3_alg».proof.Proof.Params1
import proofs.«402997_j6614249635914_3_alg».proof.Proof.Params2
import proofs.«402997_j6614249635914_3_alg».proof.Proof.Params3
import proofs.«402997_j6614249635914_3_alg».proof.Proof.Params4

noncomputable section

namespace Cert.Gin

open Idealize.ShloMosaic Idealize.ShloMosaic.ValueIdx Cert.KernelIdeal
open Cert.KernelIdeal.Facts₀ Cert.KernelIdeal.Facts

variable [Cert.KernelIdeal.Facts]

-- The whole network as one function of the eighteen argument arrays: the atom encoding, then the five layers.
def model (x : IVec S50000x9 32) (ei : IVec S2x600000 32) (ea : IVec S600000x3 32) (atom : Arr S9x4x128)
    (bond : Arr S5x3x4x128) (eps : Arr S5) (W1 : Arr S5x128x128) (b1 g1 bb1 m1 v1 : Arr S5x128)
    (W2 : Arr S5x128x128) (b2 g2 bb2 m2 v2 : Arr S5x128) : Arr S50000x128 :=
  lyr4 ei ea bond eps W1 b1 g1 bb1 m1 v1 W2 b2 g2 bb2 m2 v2
    (lyr3 ei ea bond eps W1 b1 g1 bb1 m1 v1 W2 b2 g2 bb2 m2 v2
      (lyr2 ei ea bond eps W1 b1 g1 bb1 m1 v1 W2 b2 g2 bb2 m2 v2
        (lyr1 ei ea bond eps W1 b1 g1 bb1 m1 v1 W2 b2 g2 bb2 m2 v2
          (lyr0 ei ea bond eps W1 b1 g1 bb1 m1 v1 W2 b2 g2 bb2 m2 v2 (atomOp x atom)))))

end Cert.Gin

end
-- ==== Proof.KBase.lean ====
import proofs.«402997_j6614249635914_3_alg».proof.Proof.Gen.KernelIdeal.Frame
import proofs.«402997_j6614249635914_3_alg».proof.Proof.Model
import Idealize.ShloMosaic.Lib.StableHlo.Run

set_option maxRecDepth 16384

noncomputable section

namespace Cert.Gin

open Idealize.ShloMosaic Idealize.ShloMosaic.TcCoe Idealize.ShloMosaic.StableHlo Idealize.ShloMosaic.ValueIdx Cert.KernelIdeal Cert.KernelIdeal.Gen

section Host

variable (X : Valuation τ sig (Elt Ideal))

theorem base_src_of :
    StableHlo.after hostOps0 X (Proc.devRef .tc main_v1) = srcOf (X (Proc.devRef .tc main_arg1)) := by
  after_results_simp
  rfl

theorem base_dst_of :
    StableHlo.after hostOps0 X (Proc.devRef .tc main_v3) = dstOf (X (Proc.devRef .tc main_arg1)) := by
  after_results_simp
  rfl

theorem base_atom_of :
    StableHlo.after hostOps0 X (Proc.devRef .tc main_v21)
      = atomOp (X (Proc.devRef .tc main_arg0)) (X (Proc.devRef .tc main_arg3)) := by
  after_results_simp
  rfl

end Host

variable (m : (ℓ : Loc nD τ sig) → Buf (Elt Ideal) ℓ) (ρ : Dev nD → PrngReg)

theorem base_src (c : Dev nD) :
    W1 m ρ c (Proc.devRef .tc main_v1) = srcOf (m ((c : Thread nD τ).loc main_arg1)) :=
  base_src_of (W0 m ρ c)

theorem base_dst (c : Dev nD) :
    W1 m ρ c (Proc.devRef .tc main_v3) = dstOf (m ((c : Thread nD τ).loc main_arg1)) :=
  base_dst_of (W0 m ρ c)

theorem base_atom (c : Dev nD) :
    W1 m ρ c (Proc.devRef .tc main_v21) = atomOp (m ((c : Thread nD τ).loc main_arg0)) (m ((c : Thread nD τ).loc main_arg3)) :=
  base_atom_of (W0 m ρ c)

end Cert.Gin

end
-- ==== Proof.KGlue.lean ====
import proofs.«402997_j6614249635914_3_alg».proof.Proof.Spec
import Idealize.ShloMosaic.Lib.ValueLayout

namespace Cert.Gin

open Idealize.ShloMosaic Idealize.ShloMosaic.ValueIdx

theorem row_of_cast {α : Type} {a : ℕ} (r : (⟨1, ![a]⟩ : Shape).Idx → α)
    (h : (⟨1, ![a]⟩ : Shape).ShapeCasts ⟨2, ![1, a]⟩) :
    (fun i : (⟨1, ![a]⟩ : Shape).Idx => shapeCast ⟨2, ![1, a]⟩ r h (ix2 (0 : Fin 1) (i 0))) = r := by
  funext i
  exact (shapeCast_a_1a_apply r h (0 : Fin 1) (i 0)).trans (congrArg r (eq_ix1 i).symm)

theorem scalar_of_cast {α : Type} (s : (⟨0, ![]⟩ : Shape).Idx → α)
    (h : (⟨0, ![]⟩ : Shape).ShapeCasts ⟨2, ![1, 1]⟩) :
    shapeCast ⟨2, ![1, 1]⟩ s h (ix2 (0 : Fin 1) (0 : Fin 1)) = s ix0 := by
  unfold shapeCast
  exact congrArg s (eq_ix0 _)

end Cert.Gin
-- ==== Proof.KKept.lean ====
import proofs.«402997_j6614249635914_3_alg».proof.Proof.KBase
import proofs.«402997_j6614249635914_3_alg».proof.Proof.KGlue

noncomputable section

namespace Cert.Gin

open Idealize.ShloMosaic Idealize.ShloMosaic.TcCoe Idealize.ShloMosaic.StableHlo Idealize.ShloMosaic.ValueIdx Cert.KernelIdeal Cert.KernelIdeal.Gen

theorem nodeF_casts (last : Bool) (s : Arr S_) (h a : Arr S50000x128) (W1 : Arr S128x128) (b1 g1 bb1 m1 v1 : Arr S128)
    (W2 : Arr S128x128) (b2 g2 bb2 m2 v2 : Arr S128) (hs : S_.ShapeCasts S1x1) (hr : S128.ShapeCasts S1x128) :
    nodeF last (shapeCast S1x1 s hs (ix2 0 0)) h a W1
      (fun i => shapeCast S1x128 b1 hr (ix2 0 (i 0))) (fun i => shapeCast S1x128 g1 hr (ix2 0 (i 0))) (fun i => shapeCast S1x128 bb1 hr (ix2 0 (i 0))) (fun i => shapeCast S1x128 m1 hr (ix2 0 (i 0))) (fun i => shapeCast S1x128 v1 hr (ix2 0 (i 0)))
      W2 (fun i => shapeCast S1x128 b2 hr (ix2 0 (i 0))) (fun i => shapeCast S1x128 g2 hr (ix2 0 (i 0))) (fun i => shapeCast S1x128 bb2 hr (ix2 0 (i 0))) (fun i => shapeCast S1x128 m2 hr (ix2 0 (i 0))) (fun i => shapeCast S1x128 v2 hr (ix2 0 (i 0)))
      = nodeF last (s ix0) h a W1 b1 g1 bb1 m1 v1 W2 b2 g2 bb2 m2 v2 := by
  rw [scalar_of_cast, row_of_cast, row_of_cast, row_of_cast, row_of_cast, row_of_cast, row_of_cast, row_of_cast, row_of_cast, row_of_cast, row_of_cast]

abbrev args : List (Ref sig .tc) := [main_arg2, main_arg4, main_arg5, main_arg6, main_arg7, main_arg8, main_arg9, main_arg10, main_arg11, main_arg12, main_arg13, main_arg14, main_arg15, main_arg16, main_arg17]

abbrev keptL : List (Ref sig .tc) := main_v1 :: main_v3 :: args

variable (m : (ℓ : Loc nD τ sig) → Buf (Elt Ideal) ℓ)

structure Kept (c : Dev nD) (X : Valuation τ sig (Elt Ideal)) : Prop where
  arg : ∀ b ∈ args, X (Proc.devRef .tc b) = m ((c : Thread nD τ).loc b)
  src : X (Proc.devRef .tc main_v1) = srcOf (m ((c : Thread nD τ).loc main_arg1))
  dst : X (Proc.devRef .tc main_v3) = dstOf (m ((c : Thread nD τ).loc main_arg1))

macro "kept_host " ops:ident : tactic =>
  `(tactic| (
    intro b hb
    simp only [$ops:ident, List.Forall]
    repeat' apply And.intro
    all_goals (
      simp only [StableHlo.nullary_writes, StableHlo.unary_writes, StableHlo.binary_writes, StableHlo.ternary_writes,
        StableHlo.quaternary_writes, StableHlo.reshape_writes, StableHlo.binaryIndexed_writes, Finset.mem_singleton]
      exact StableHlo.devRef_ne_of_ne (ne_of_mem_of_not_mem hb (by decide)))))

theorem after_keep {L : List (Ref sig .tc)} (ops : List (HloOp τ sig (Elt Ideal))) (X : Valuation τ sig (Elt Ideal))
    (hw : ∀ b ∈ L, ops.Forall fun op => Proc.devRef (τ := τ) .tc b ∉ op.writes) :
    ∀ b ∈ L, StableHlo.after ops X (Proc.devRef .tc b) = X (Proc.devRef .tc b) :=
  fun b hb => StableHlo.after_of_forall_not_mem ops X (List.forall_iff_forall_mem.mp (hw b hb))

section
variable {m} {c : Dev nD} {X Y : Valuation τ sig (Elt Ideal)}

theorem Kept.of_agree (h : Kept m c X) (e : ∀ b ∈ keptL, Y (Proc.devRef .tc b) = X (Proc.devRef .tc b)) : Kept m c Y :=
  ⟨fun b hb => (e b (List.mem_cons_of_mem _ (List.mem_cons_of_mem _ hb))).trans (h.arg b hb),
    (e main_v1 (by decide)).trans h.src, (e main_v3 (by decide)).trans h.dst⟩

theorem Kept.host (h : Kept m c X) (ops : List (HloOp τ sig (Elt Ideal)))
    (hw : ∀ b ∈ keptL, ops.Forall fun op => Proc.devRef (τ := τ) .tc b ∉ op.writes) : Kept m c (StableHlo.after ops X) :=
  h.of_agree (after_keep ops X hw)

theorem Kept.region {W : ℕ} (h : Kept m c X) (arr : Fin W → Ref sig .tc)
    (hne : ∀ b, (∀ w, arr w ≠ b) → Y (Proc.devRef .tc b) = X (Proc.devRef .tc b)) (hd : ∀ w, arr w ∉ keptL) : Kept m c Y :=
  h.of_agree fun b hb => hne b fun w e => hd w (e ▸ hb)

theorem Kept.region_in {W : ℕ} (h : Kept m c X) (arr : Fin W → Ref sig .tc)
    (h2 : Y (Proc.devRef .tc main_arg2) = X (Proc.devRef .tc main_arg2))
    (hne : ∀ b, (∀ w, arr w ≠ b) → Y (Proc.devRef .tc b) = X (Proc.devRef .tc b)) (hd : ∀ w, arr w ∈ keptL → arr w = main_arg2) :
    Kept m c Y :=
  h.of_agree fun b hb => by
    by_cases e2 : b = main_arg2
    · subst e2; exact h2
    · exact hne b fun w e => e2 (e.symm.trans (hd w (e ▸ hb)))

theorem Kept.ea_lt (h : Kept m c X) (hea : ∀ i, (m ((c : Thread nD τ).loc main_arg2) i).toNat < 4) (i) :
    (X (Proc.devRef .tc main_arg2) i).toNat < 4 := by
  rw [h.arg main_arg2 (by decide)]; exact hea i

theorem msg_of_kept (hX : Kept m c X) (tbl : Arr S5x3x4x128 → Arr S3x4x128) (h : Arr S50000x128) :
    msgF (X (Proc.devRef .tc main_arg2)) (gathOp h (X (Proc.devRef .tc main_v1))) (tbl (X (Proc.devRef .tc main_arg4)))
      = msgF (m ((c : Thread nD τ).loc main_arg2)) (gathOp h (srcOf (m ((c : Thread nD τ).loc main_arg1)))) (tbl (m ((c : Thread nD τ).loc main_arg4))) := by
  rw [hX.arg main_arg2 (by decide), hX.src, hX.arg main_arg4 (by decide)]

-- Rewriting each operand to the launch argument it equals leaves the specification's layer, unfolded.
theorem layer_of_kept (hX : Kept m c X) (last : Bool) (tbl : Arr S5x3x4x128 → Arr S3x4x128) (sc : Arr S5 → Arr S_)
    (mat : Arr S5x128x128 → Arr S128x128) (row : Arr S5x128 → Arr S128) (h : Arr S50000x128) :
    nodeF last (sc (X (Proc.devRef .tc main_arg5)) ix0) h
        (aggOp (X (Proc.devRef .tc main_v3)) (msgF (m ((c : Thread nD τ).loc main_arg2)) (gathOp h (srcOf (m ((c : Thread nD τ).loc main_arg1)))) (tbl (m ((c : Thread nD τ).loc main_arg4)))))
        (mat (X (Proc.devRef .tc main_arg6))) (row (X (Proc.devRef .tc main_arg7))) (row (X (Proc.devRef .tc main_arg8))) (row (X (Proc.devRef .tc main_arg9))) (row (X (Proc.devRef .tc main_arg10))) (row (X (Proc.devRef .tc main_arg11)))
        (mat (X (Proc.devRef .tc main_arg12))) (row (X (Proc.devRef .tc main_arg13))) (row (X (Proc.devRef .tc main_arg14))) (row (X (Proc.devRef .tc main_arg15))) (row (X (Proc.devRef .tc main_arg16))) (row (X (Proc.devRef .tc main_arg17)))
      = layer last (srcOf (m ((c : Thread nD τ).loc main_arg1))) (dstOf (m ((c : Thread nD τ).loc main_arg1))) (m ((c : Thread nD τ).loc main_arg2)) (tbl (m ((c : Thread nD τ).loc main_arg4))) (sc (m ((c : Thread nD τ).loc main_arg5)))
          (mat (m ((c : Thread nD τ).loc main_arg6))) (row (m ((c : Thread nD τ).loc main_arg7))) (row (m ((c : Thread nD τ).loc main_arg8))) (row (m ((c : Thread nD τ).loc main_arg9))) (row (m ((c : Thread nD τ).loc main_arg10))) (row (m ((c : Thread nD τ).loc main_arg11)))
          (mat (m ((c : Thread nD τ).loc main_arg12))) (row (m ((c : Thread nD τ).loc main_arg13))) (row (m ((c : Thread nD τ).loc main_arg14))) (row (m ((c : Thread nD τ).loc main_arg15))) (row (m ((c : Thread nD τ).loc main_arg16))) (row (m ((c : Thread nD τ).loc main_arg17))) h := by
  rw [hX.arg main_arg5 (by decide), hX.arg main_arg6 (by decide), hX.arg main_arg7 (by decide), hX.arg main_arg8 (by decide), hX.arg main_arg9 (by decide), hX.arg main_arg10 (by decide), hX.arg main_arg11 (by decide), hX.arg main_arg12 (by decide), hX.arg main_arg13 (by decide), hX.arg main_arg14 (by decide), hX.arg main_arg15 (by decide), hX.arg main_arg16 (by decide), hX.arg main_arg17 (by decide), hX.dst]
  rfl

end

variable (ρ : Dev nD → PrngReg) (c : Dev nD)

theorem inv1 : Kept m c (W1 m ρ c) :=
  ⟨after_keep hostOps0 (W0 m ρ c) (by kept_host hostOps0), base_src m ρ c, base_dst m ρ c⟩
theorem inv2 : Kept m c (W2 m ρ c) :=
  (inv1 m ρ c).region_in (Pipeline.arrRef spec0)
    ((W2_arr m ρ c 0).trans (((dat0 (V1 m ρ) c).arrAt_in 0 rfl _).trans (A_eq0 (V1 m ρ) c 0)))
    (W2_of_ne m ρ c) (by decide)
theorem inv3 : Kept m c (W3 m ρ c) := (inv2 m ρ c).host hostOps1 (by kept_host hostOps1)
theorem inv4 : Kept m c (W4 m ρ c) :=
  (inv3 m ρ c).region (Pipeline.arrRef spec1) (W4_of_ne m ρ c) (by decide)
theorem inv5 : Kept m c (W5 m ρ c) := (inv4 m ρ c).host hostOps2 (by kept_host hostOps2)
theorem inv6 : Kept m c (W6 m ρ c) :=
  (inv5 m ρ c).region_in (Pipeline.arrRef spec2)
    ((W6_arr m ρ c 0).trans (((dat2 (V5 m ρ) c).arrAt_in 0 rfl _).trans (A_eq2 (V5 m ρ) c 0)))
    (W6_of_ne m ρ c) (by decide)
theorem inv7 : Kept m c (W7 m ρ c) := (inv6 m ρ c).host hostOps3 (by kept_host hostOps3)
theorem inv8 : Kept m c (W8 m ρ c) :=
  (inv7 m ρ c).region (Pipeline.arrRef spec3) (W8_of_ne m ρ c) (by decide)
theorem inv9 : Kept m c (W9 m ρ c) := (inv8 m ρ c).host hostOps4 (by kept_host hostOps4)
theorem inv10 : Kept m c (W10 m ρ c) :=
  (inv9 m ρ c).region_in (Pipeline.arrRef spec4)
    ((W10_arr m ρ c 0).trans (((dat4 (V9 m ρ) c).arrAt_in 0 rfl _).trans (A_eq4 (V9 m ρ) c 0)))
    (W10_of_ne m ρ c) (by decide)
theorem inv11 : Kept m c (W11 m ρ c) := (inv10 m ρ c).host hostOps5 (by kept_host hostOps5)
theorem inv12 : Kept m c (W12 m ρ c) :=
  (inv11 m ρ c).region (Pipeline.arrRef spec5) (W12_of_ne m ρ c) (by decide)
theorem inv13 : Kept m c (W13 m ρ c) := (inv12 m ρ c).host hostOps6 (by kept_host hostOps6)
theorem inv14 : Kept m c (W14 m ρ c) :=
  (inv13 m ρ c).region_in (Pipeline.arrRef spec6)
    ((W14_arr m ρ c 0).trans (((dat6 (V13 m ρ) c).arrAt_in 0 rfl _).trans (A_eq6 (V13 m ρ) c 0)))
    (W14_of_ne m ρ c) (by decide)
theorem inv15 : Kept m c (W15 m ρ c) := (inv14 m ρ c).host hostOps7 (by kept_host hostOps7)
theorem inv16 : Kept m c (W16 m ρ c) :=
  (inv15 m ρ c).region (Pipeline.arrRef spec7) (W16_of_ne m ρ c) (by decide)
theorem inv17 : Kept m c (W17 m ρ c) := (inv16 m ρ c).host hostOps8 (by kept_host hostOps8)
theorem inv18 : Kept m c (W18 m ρ c) :=
  (inv17 m ρ c).region_in (Pipeline.arrRef spec8)
    ((W18_arr m ρ c 0).trans (((dat8 (V17 m ρ) c).arrAt_in 0 rfl _).trans (A_eq8 (V17 m ρ) c 0)))
    (W18_of_ne m ρ c) (by decide)

end Cert.Gin

end
-- ==== Proof.KMsgLib.lean ====
import proofs.«402997_j6614249635914_3_alg».proof.Proof.Spec
import proofs.«402997_j6614249635914_3_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.Gin

open Idealize.ShloMosaic Idealize.ShloMosaic.ValueIdx Cert.KernelIdeal Cert.KernelIdeal.Gen

theorem onehot_hit (a : BitVec 32) (k : Fin 4) (h : a.toNat = k.val) :
    (((BitVec.setWidth 32 (IntOp.cmpi .eq (BitVec.ofNat 32 k.val) a)).toInt : ℝ) : EReal) = 1 := by
  have hk : BitVec.ofNat 32 k.val = a := by
    apply BitVec.eq_of_toNat_eq
    rw [BitVec.toNat_ofNat, h]
    have := k.isLt
    omega
  rw [hk]
  have hc : IntOp.cmpi .eq a a = 1#1 := by simp [IntOp.cmpi]
  rw [hc]
  have e : (BitVec.setWidth 32 (1#1)).toInt = 1 := by decide
  rw [e]
  simp

theorem onehot_miss (a : BitVec 32) (k : Fin 4) (h : a.toNat ≠ k.val) :
    (((BitVec.setWidth 32 (IntOp.cmpi .eq (BitVec.ofNat 32 k.val) a)).toInt : ℝ) : EReal) = 0 := by
  have hk : ¬ BitVec.ofNat 32 k.val = a := by
    intro hh
    apply h
    rw [← hh, BitVec.toNat_ofNat]
    have := k.isLt
    omega
  have hc : IntOp.cmpi .eq (BitVec.ofNat 32 k.val) a = 0#1 := by
    show BitVec.ofBool (BitVec.ofNat 32 k.val == a) = 0#1
    rw [beq_eq_false_iff_ne.mpr hk]
    rfl
  rw [hc]
  have e : (BitVec.setWidth 32 (0#1)).toInt = 0 := by decide
  rw [e]
  simp

theorem onehot_sum (a : BitVec 32) (ha : a.toNat < 4) (g : Fin 4 → EReal) :
    ∑ k : Fin 4, (((BitVec.setWidth 32 (IntOp.cmpi .eq (BitVec.ofNat 32 k.val) a)).toInt : ℝ) : EReal) * g k
      = g ⟨a.toNat, ha⟩ := by
  rw [Finset.sum_eq_single (⟨a.toNat, ha⟩ : Fin 4)]
  · rw [onehot_hit a ⟨a.toNat, ha⟩ rfl, one_mul]
  · intro k _ hk
    rw [onehot_miss a k (fun h => hk (Fin.ext h.symm)), zero_mul]
  · intro h
    exact absurd (Finset.mem_univ _) h

theorem onehot_lhs_0 (i : S6000x128.Idx) (q : dot_S6000x4_S4x128_S6000x128_1_0_0_1_n_n.contr.Idx) :
    (dot_S6000x4_S4x128_S6000x128_1_0_0_1_n_n.lhsIdx i q 0).val = (i 0).val := by
  unfold DotDims.lhsIdx
  rw [dif_neg (show ¬(0 : Fin S6000x4.rank) ∈ dot_S6000x4_S4x128_S6000x128_1_0_0_1_n_n.lhsBatch by decide), dif_pos (show (0 : Fin S6000x4.rank) ∈ dot_S6000x4_S4x128_S6000x128_1_0_0_1_n_n.lhsNonContracting by decide)]
  rfl
theorem onehot_lhs_1 (i : S6000x128.Idx) (q : dot_S6000x4_S4x128_S6000x128_1_0_0_1_n_n.contr.Idx) :
    (dot_S6000x4_S4x128_S6000x128_1_0_0_1_n_n.lhsIdx i q 1).val = (q ⟨0, by decide⟩).val :=
  dot_S6000x4_S4x128_S6000x128_1_0_0_1_n_n.lhsIdx_val_of_single rfl i q
theorem onehot_rhs_0 (i : S6000x128.Idx) (q : dot_S6000x4_S4x128_S6000x128_1_0_0_1_n_n.contr.Idx) :
    (dot_S6000x4_S4x128_S6000x128_1_0_0_1_n_n.rhsIdx i q 0).val = (q ⟨0, by decide⟩).val :=
  dot_S6000x4_S4x128_S6000x128_1_0_0_1_n_n.rhsIdx_val_of_single rfl i q
theorem onehot_rhs_1 (i : S6000x128.Idx) (q : dot_S6000x4_S4x128_S6000x128_1_0_0_1_n_n.contr.Idx) :
    (dot_S6000x4_S4x128_S6000x128_1_0_0_1_n_n.rhsIdx i q 1).val = (i 1).val := by
  unfold DotDims.rhsIdx
  rw [dif_neg (show ¬(1 : Fin S4x128.rank) ∈ dot_S6000x4_S4x128_S6000x128_1_0_0_1_n_n.rhsBatch by decide), dif_pos (show (1 : Fin S4x128.rank) ∈ dot_S6000x4_S4x128_S6000x128_1_0_0_1_n_n.rhsNonContracting by decide)]
  rfl

def attrRow (T : FVec Ideal S3x4x128 .f32) (a : IVec S6000x1 32) (o : Nat) (hsl : S3x4x128.Slices ![o, 0, 0] S1x4x128) :
    FVec Ideal S6000x128 .f32 :=
  matmul (F := Ideal) dot_S6000x4_S4x128_S6000x128_1_0_0_1_n_n none
    (truncf .bf16 (sitofp (F := Ideal) .f32 (extui 32 (cmpi .eq (iota .tc S6000x4 32 [1] iota_S6000x4_d1_w32) (broadcastTo S6000x4 a broadcasts_S6000x1_S6000x4)) natLt_1_32)) bitsLt_bf16_f32)
    (shapeCast S4x128 (extractStridedSlice S1x4x128 ![o, 0, 0] (truncf .bf16 (shapeCast S3x4x128 T shapeCasts_S3x4x128_S3x4x128) bitsLt_bf16_f32) hsl) shapeCasts_S1x4x128_S4x128)
    (constant (F := Ideal) S6000x128 .f32 0x00000000#32)

theorem attrRow_apply (T : FVec Ideal S3x4x128 .f32) (a : IVec S6000x1 32) (o : Nat) (ho : o < 3)
    (hsl : S3x4x128.Slices ![o, 0, 0] S1x4x128) (e : Fin 6000) (j : Fin 128) (ha : (a (ix2 e (0 : Fin 1))).toNat < 4) :
    attrRow T a o hsl (ix2 e j) = T (ix3 (⟨o, ho⟩ : Fin 3) (⟨(a (ix2 e (0 : Fin 1))).toNat, ha⟩ : Fin 4) j) := by
  refine (Ideal.matmul_constant_zero_apply _ none _ _ (ix2 e j)).trans ?_
  rw [← Equiv.sum_comp (contrEquiv1 dot_S6000x4_S4x128_S6000x128_1_0_0_1_n_n 4 rfl rfl).symm]
  refine Eq.trans (Finset.sum_congr rfl fun k _ => ?_)
    (onehot_sum (a (ix2 e (0 : Fin 1))) ha (fun k => T (ix3 (⟨o, ho⟩ : Fin 3) k j)))
  have hk := contrEquiv1_symm_val dot_S6000x4_S4x128_S6000x128_1_0_0_1_n_n 4 rfl rfl k
  have el : dot_S6000x4_S4x128_S6000x128_1_0_0_1_n_n.lhsIdx (ix2 e j) ((contrEquiv1 dot_S6000x4_S4x128_S6000x128_1_0_0_1_n_n 4 rfl rfl).symm k) = ix2 e k := funext fun x => Fin.ext (by
    match x with
    | ⟨0, _⟩ => exact onehot_lhs_0 _ _
    | ⟨1, _⟩ => exact (onehot_lhs_1 _ _).trans hk)
  have er : dot_S6000x4_S4x128_S6000x128_1_0_0_1_n_n.rhsIdx (ix2 e j) ((contrEquiv1 dot_S6000x4_S4x128_S6000x128_1_0_0_1_n_n 4 rfl rfl).symm k) = ix2 k j := funext fun x => Fin.ext (by
    match x with
    | ⟨0, _⟩ => exact (onehot_rhs_0 _ _).trans hk
    | ⟨1, _⟩ => exact onehot_rhs_1 _ _)
  rw [el, er]
  refine congrArg₂ (· * ·) ?_ ?_
  · show (((BitVec.setWidth 32 (IntOp.cmpi .eq (iota .tc S6000x4 32 [1] iota_S6000x4_d1_w32 (ix2 e k)) (broadcastTo S6000x4 a broadcasts_S6000x1_S6000x4 (ix2 e k)))).toInt : ℝ) : EReal) = _
    rw [iota_single_apply, broadcastTo_apply a broadcasts_S6000x1_S6000x4 (ix2 e k) (ix2 e (0 : Fin 1)) (fun x => match x with
      | ⟨0, _⟩ => rfl
      | ⟨1, _⟩ => rfl)]
  · refine (shapeCast_apply _ shapeCasts_S1x4x128_S4x128 (ix2 k j) (ix3 (0 : Fin 1) k j) ?_).trans ?_
    · rw [Shape.rowMajor_val_three, Shape.rowMajor_val_two]
      show (0 * 4 + k.val) * 128 + j.val = k.val * 128 + j.val
      omega
    refine (extractStridedSlice_apply ![o, 0, 0] _ hsl (ix3 (0 : Fin 1) k j) (ix3 (⟨o, ho⟩ : Fin 3) k j) (fun x => match x with
      | ⟨0, _⟩ => by show o = o + 0; omega
      | ⟨1, _⟩ => by show k.val = 0 + k.val; omega
      | ⟨2, _⟩ => by show j.val = 0 + j.val; omega)).trans ?_
    show shapeCast S3x4x128 T shapeCasts_S3x4x128_S3x4x128 (ix3 (⟨o, ho⟩ : Fin 3) k j) = _
    rw [shapeCast_self]

theorem kmsg_zeros2 : (![0, 0] : Fin 2 → Nat) = fun _ => 0 := funext fun a => by fin_cases a <;> rfl
theorem kmsg_zeros3 : (![0, 0, 0] : Fin 3 → Nat) = fun _ => 0 := funext fun a => by fin_cases a <;> rfl

theorem kmsg_col (x0 : Vec Ideal S6000x3 .i32) (k : Nat) (hk : k < 3)
    (inb : ∀ a, (![0, k] : Fin 2 → Nat) a + S6000x1.size a ≤ S6000x3.size a) (e : Fin 6000) :
    View.ld (Val := Elt Ideal) (e' := .i32) x0 (Rect.unit (s := S6000x3) ![0, k] S6000x1.size inb) (ix2 e (0 : Fin 1))
      = x0 (ix2 e (⟨k, hk⟩ : Fin 3)) :=
  congrArg x0 (funext fun a => Fin.ext (by
    match a with
    | ⟨0, _⟩ => show 0 + 1 * e.val = e.val; omega
    | ⟨1, _⟩ => show k + 1 * 0 = k; omega))

theorem vocab_eq (a : BitVec 32) (h : a.toNat < 4) : vocab a = (⟨a.toNat, h⟩ : Fin 4) :=
  Fin.ext (Nat.mod_eq_of_lt h)

end Cert.Gin

end
-- ==== Proof.KMsg0.lean ====
import proofs.«402997_j6614249635914_3_alg».proof.Proof.Gen.KernelIdeal.Frame
import proofs.«402997_j6614249635914_3_alg».proof.Proof.Spec
import proofs.«402997_j6614249635914_3_alg».proof.Proof.KMsgLib
import Idealize.ShloMosaic.Lib.Pipeline.Value
import Idealize.ShloMosaic.Lib.ValueIdx
import Idealize.ShloMosaic.PureOps.Ideal.Laws

noncomputable section

open scoped BigOperators

namespace Cert.Gin

open Idealize.ShloMosaic Idealize.ShloMosaic.ValueIdx Idealize.ShloMosaic.TcCoe Cert.KernelIdeal Cert.KernelIdeal.Gen
open Idealize.ShloMosaic.Pipeline (Dat)

theorem k0_pay1_shape (T : FVec Ideal S3x4x128 .f32) (a0 a1 a2 : IVec S6000x1 32) (hs : FVec Ideal S6000x128 .bf16)
    (i : S6000x128.Idx) :
    (k0_pay1 (F := Ideal) T a0 a1 a2 hs) i
      = max (shapeCast S6000x128 hs shapeCasts_S6000x128_S6000x128 i
          + (Ideal.ofBits .f32 0x00000000#32 + attrRow T a0 0 slices_S3x4x128_o0_0_0_S1x4x128 i
              + attrRow T a1 1 slices_S3x4x128_o1_0_0_S1x4x128 i + attrRow T a2 2 slices_S3x4x128_o2_0_0_S1x4x128 i))
        (Ideal.ofBits .f32 0x00000000#32) := rfl

theorem k0_pay1_apply (T : FVec Ideal S3x4x128 .f32) (a0 a1 a2 : IVec S6000x1 32) (hs : FVec Ideal S6000x128 .bf16)
    (e : Fin 6000) (j : Fin 128) (h0 : (a0 (ix2 e (0 : Fin 1))).toNat < 4) (h1 : (a1 (ix2 e (0 : Fin 1))).toNat < 4)
    (h2 : (a2 (ix2 e (0 : Fin 1))).toNat < 4) :
    (k0_pay1 (F := Ideal) T a0 a1 a2 hs) (ix2 e j)
      = max (hs (ix2 e j) + (T (ix3 (0 : Fin 3) (vocab (a0 (ix2 e (0 : Fin 1)))) j)
          + T (ix3 (1 : Fin 3) (vocab (a1 (ix2 e (0 : Fin 1)))) j) + T (ix3 (2 : Fin 3) (vocab (a2 (ix2 e (0 : Fin 1)))) j))) 0 := by
  rw [k0_pay1_shape, attrRow_apply T a0 0 (by decide) _ e j h0, attrRow_apply T a1 1 (by decide) _ e j h1,
    attrRow_apply T a2 2 (by decide) _ e j h2, shapeCast_self, Ideal.ofBits_zero_f32, zero_add,
    vocab_eq _ h0, vocab_eq _ h1, vocab_eq _ h2]
  rfl

-- Each loaded column is a column of the attribute block, so the body's value at a row is that row's edge's message.
theorem kmsg_block (ea : IVec S600000x3 32) (hsA : Arr S600000x128) (tbl : Arr S3x4x128)
    (x0 : Vec Ideal S6000x3 .i32) (x1 : Vec Ideal S6000x128 .bf16) (e : Fin 6000) (n : Fin 600000) (j : Fin 128)
    (hx0 : ∀ f : Fin 3, x0 (ix2 e f) = ea (ix2 n f)) (hx1 : x1 (ix2 e j) = hsA (ix2 n j)) (hea : ∀ i, (ea i).toNat < 4) :
    (k0_pay1 (F := Ideal) tbl (View.ld x0 r0_1) (View.ld x0 r0_2) (View.ld x0 r0_3) x1) (ix2 e j) = msgF ea hsA tbl (ix2 n j) := by
  have c0 : View.ld x0 r0_1 (ix2 e (0 : Fin 1)) = x0 (ix2 e (⟨0, by decide⟩ : Fin 3)) := kmsg_col x0 0 (by decide) inb_S6000x3_S6000x1_0_0 e
  have c1 : View.ld x0 r0_2 (ix2 e (0 : Fin 1)) = x0 (ix2 e (⟨1, by decide⟩ : Fin 3)) := kmsg_col x0 1 (by decide) inb_S6000x3_S6000x1_0_1 e
  have c2 : View.ld x0 r0_3 (ix2 e (0 : Fin 1)) = x0 (ix2 e (⟨2, by decide⟩ : Fin 3)) := kmsg_col x0 2 (by decide) inb_S6000x3_S6000x1_0_2 e
  have h0 : ((View.ld x0 r0_1 : IVec S6000x1 32) (ix2 e (0 : Fin 1))).toNat < 4 := by rw [c0, hx0]; exact hea _
  have h1 : ((View.ld x0 r0_2 : IVec S6000x1 32) (ix2 e (0 : Fin 1))).toNat < 4 := by rw [c1, hx0]; exact hea _
  have h2 : ((View.ld x0 r0_3 : IVec S6000x1 32) (ix2 e (0 : Fin 1))).toNat < 4 := by rw [c2, hx0]; exact hea _
  refine (k0_pay1_apply tbl (View.ld x0 r0_1) (View.ld x0 r0_2) (View.ld x0 r0_3) x1 e j h0 h1 h2).trans ?_
  rw [c0, c1, c2, hx0, hx0, hx0, hx1]
  show _ = max (hsA (ix2 n j) + ∑ f : Fin 3, tbl (ix3 f (vocab (ea (ix2 n f))) j)) 0
  rw [Fin.sum_univ_three]
  rfl

-- The table's window is the whole table; the attribute, feature and result windows sit at the same block row.
theorem kmsg_flushed (ea : IVec S600000x3 32) (hsA : Arr S600000x128) (tbl : Arr S3x4x128) (hea : ∀ i, (ea i).toNat < 4)
    (t : Fin cfg0.N) :
    (cfg0.win 3).cut (grid0.coords t) (out0_3 (F := Ideal) (((cfg0.win 0).blk t).view.read (Elt Ideal) ea)
        (((cfg0.win 1).blk t).view.read (Elt Ideal) hsA) (((cfg0.win 2).blk t).view.read (Elt Ideal) tbl))
      = ((cfg0.win 3).blk t).view.read (Elt Ideal) (msgF ea hsA tbl) := by
  have h2 : (((cfg0.win 2).blk t).view.read (Elt Ideal) tbl) = tbl := funext fun y => congrArg tbl (funext fun a => Fin.ext (by
    match a with
    | ⟨0, _⟩ => show 0 * 3 + 1 * (y 0).val = (y 0).val; omega
    | ⟨1, _⟩ => show 0 * 4 + 1 * (y 1).val = (y 1).val; omega
    | ⟨2, _⟩ => show 0 * 128 + 1 * (y 2).val = (y 2).val; omega))
  rw [h2]
  unfold out0_3
  rw [View.canon_unit_zero kmsg_zeros2]
  simp only [View.ld_unit_zero (S := S6000x128) kmsg_zeros2, View.ld_unit_zero (S := S3x4x128) kmsg_zeros3]
  funext y
  obtain ⟨e, j, rfl⟩ : ∃ (e : Fin 6000) (j : Fin 128), y = ix2 e j := ⟨y 0, y 1, eq_ix2 y⟩
  obtain ⟨n, hi, e0, e1⟩ : ∃ n : Fin 600000, (((cfg0.win 3).blk t).view.emb (ix2 e j) : S600000x128.Idx) = ix2 n j
      ∧ (∀ f : Fin 3, (((cfg0.win 0).blk t).view.read (Elt Ideal) ea) (ix2 e f) = ea (ix2 n f))
      ∧ (((cfg0.win 1).blk t).view.read (Elt Ideal) hsA) (ix2 e j) = hsA (ix2 n j) :=
    ⟨(((cfg0.win 3).blk t).view.emb (ix2 e j) : S600000x128.Idx) 0,
      Shape.idx_ext₂ rfl (by show 0 * 128 + 1 * j.val = j.val; omega),
      fun f => congrArg ea (Shape.idx_ext₂ rfl (by show 0 * 3 + 1 * f.val = f.val; omega)),
      congrArg hsA (Shape.idx_ext₂ rfl (by show 0 * 128 + 1 * j.val = j.val; omega))⟩
  show k0_pay1 (F := Ideal) tbl _ _ _ _ (ix2 e j) = msgF ea hsA tbl (((cfg0.win 3).blk t).view.emb (ix2 e j))
  rw [hi]
  exact kmsg_block ea hsA tbl _ _ e n j e0 e1 hea

theorem kmsg_index : ∀ t : Fin grid0.N, (BitVec.ofNat 32 ((grid0.coords t) 0).val).toNat = t.val := by decide +kernel

-- Row `r` lies in the block of point `r / 6000`.
theorem kmsg_cover (i : S600000x128.Idx) :
    ∃ t : Fin cfg0.N, (cfg0.win 3).flush t = true ∧ i ∈ ((cfg0.win 3).blk t).view.set := by
  have hi0 : (i 0).val < 600000 := (i 0).isLt
  have hi1 : (i 1).val < 128 := (i 1).isLt
  have hq : (i 0).val / 6000 < grid0.N := by rw [N_0]; omega
  have e0 : win0_3.index ⟨(i 0).val / 6000, hq⟩ (0 : Fin 2) = (i 0).val / 6000 := kmsg_index _
  refine ⟨⟨(i 0).val / 6000, hq⟩, flush0_3 _, ?_⟩
  show i ∈ ((View.whole main_v32).slice (win0_3.rect ⟨(i 0).val / 6000, hq⟩)).set
  rw [View.set_slice_whole, Rect.mem_set_unit]
  refine Fin.forall_fin_two.2 ⟨?_, ?_⟩
  · show win0_3.index ⟨(i 0).val / 6000, hq⟩ (0 : Fin 2) * 6000 ≤ (i 0).val
      ∧ (i 0).val < win0_3.index ⟨(i 0).val / 6000, hq⟩ (0 : Fin 2) * 6000 + 6000
    omega
  · show 0 * 128 ≤ (i 1).val ∧ (i 1).val < 0 * 128 + 128
    omega

theorem kmsg0 (V : (c : Dev nD) → (b : Ref sig .tc) → Buf (Elt Ideal) ((c : Thread nD τ).loc b)) (c : Dev nD)
    (hea : ∀ i, (V c main_arg2 i).toNat < 4) :
    (dat0 (F := Ideal) V c).arrAt 3 cfg0.N = msgF (V c main_arg2) (V c main_v29) (V c main_v31) :=
  (dat0 (F := Ideal) V c).arrAt_eq_of_cover 3 (msgF (V c main_arg2) (V c main_v29) (V c main_v31))
    (fun t _ => by
      show (cfg0.win 3).cut (grid0.coords t) ((dat0 (F := Ideal) V c).after 3 t) = _
      rw [after0_3]
      exact kmsg_flushed (V c main_arg2) (V c main_v29) (V c main_v31) hea t) kmsg_cover

end Cert.Gin

end
-- ==== Proof.NodeRow.lean ====
import proofs.«402997_j6614249635914_3_alg».proof.Proof.Gen.KernelIdeal
import proofs.«402997_j6614249635914_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gin

open Idealize.ShloMosaic Idealize.ShloMosaic.ValueIdx Cert.KernelIdeal Cert.KernelIdeal.Gen
open Cert.KernelIdeal.Facts₀ Cert.KernelIdeal.Facts

def rowVec (v : Arr S1x128) : Arr S128 := fun i => v (ix2 0 (i 0))

def affineRow (z : Fin 128 → EReal) (W : Arr S128x128) (b : Arr S128) : Fin 128 → EReal :=
  fun j => (∑ k : Fin 128, z k * W (ix2 k j)) + b (ix1 j)

def bnormRow (x : Fin 128 → EReal) (g bb mu v : Arr S128) : Fin 128 → EReal :=
  fun j => (x j - mu (ix1 j)) * (g (ix1 j) * Ideal.rsqrt (v (ix1 j) + bnEps)) + bb (ix1 j)

def rectRow (x : Fin 128 → EReal) : Fin 128 → EReal := fun j => max (x j) 0

def halfRow (s : EReal) (hr ar : Fin 128 → EReal) (W1 : Arr S128x128) (b1 g1 bb1 m1 v1 : Arr S128) : Fin 128 → EReal :=
  rectRow (bnormRow (affineRow (fun k => s * hr k + ar k) W1 b1) g1 bb1 m1 v1)

def nodeRow (last : Bool) (s : EReal) (hr ar : Fin 128 → EReal) (W1 : Arr S128x128) (b1 g1 bb1 m1 v1 : Arr S128)
    (W2 : Arr S128x128) (b2 g2 bb2 m2 v2 : Arr S128) : Fin 128 → EReal :=
  let y := bnormRow (rectRow (affineRow (halfRow s hr ar W1 b1 g1 bb1 m1 v1) W2 b2)) g2 bb2 m2 v2
  if last then y else rectRow y

theorem nodeF_row (last : Bool) (s : EReal) (h a : Arr S50000x128) (W1 : Arr S128x128) (b1 g1 bb1 m1 v1 : Arr S128)
    (W2 : Arr S128x128) (b2 g2 bb2 m2 v2 : Arr S128) (n : Fin 50000) (j : Fin 128) :
    nodeF last s h a W1 b1 g1 bb1 m1 v1 W2 b2 g2 bb2 m2 v2 (ix2 n j)
      = nodeRow last s (fun k => h (ix2 n k)) (fun k => a (ix2 n k)) W1 b1 g1 bb1 m1 v1 W2 b2 g2 bb2 m2 v2 j := by
  cases last <;> rfl

theorem lhs_contr_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_contr_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul_block_apply (A : FVec Ideal S5000x128 .bf16) (B : FVec Ideal S128x128 .bf16) (r : Fin 5000) (j : Fin 128) :
    matmul dot_S5000x128_S128x128_S5000x128_1_0_0_1_n_n none A B (constant (F := Ideal) S5000x128 .f32 0x00000000#32) (ix2 r j)
      = ∑ k : Fin 128, A (ix2 r k) * B (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_contr_0 _ _
    | ⟨1, _⟩ => exact (lhs_contr_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_contr_0 _ _).trans hk
    | ⟨1, _⟩ => exact rhs_contr_1 _ _)
  rw [el, er]

theorem broadcast_scalar_apply (v : FVec Ideal S1x1 .f32) (hb : S1x1.Broadcasts S5000x128) (r : Fin 5000) (j : Fin 128) :
    broadcastTo S5000x128 v hb (ix2 r j) = v (ix2 0 0) := by
  refine broadcastTo_apply v hb (ix2 r j) (ix2 (0 : Fin 1) (0 : Fin 1)) fun ax => ?_
  match ax with
  | ⟨0, _⟩ => rfl
  | ⟨1, _⟩ => rfl

theorem broadcast_row_apply (v : FVec Ideal S1x128 .f32) (hb : S1x128.Broadcasts S5000x128) (r : Fin 5000) (j : Fin 128) :
    broadcastTo S5000x128 v hb (ix2 r j) = v (ix2 0 j) :=
  broadcastTo_1b_ab_apply v hb r j

theorem zero_offsets : (![0, 0] : Fin 2 → Nat) = fun _ => 0 :=
  funext fun a => by match a with | ⟨0, _⟩ => rfl | ⟨1, _⟩ => rfl

end Cert.Gin

end
-- ==== Proof.KNode1.lean ====
import proofs.«402997_j6614249635914_3_alg».proof.Proof.Gen.KernelIdeal.Frame
import proofs.«402997_j6614249635914_3_alg».proof.Proof.NodeRow
import proofs.«402997_j6614249635914_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gin

open Idealize.ShloMosaic Idealize.ShloMosaic.ValueIdx Idealize.ShloMosaic.TcCoe Cert.KernelIdeal Cert.KernelIdeal.Gen
open Cert.KernelIdeal.Facts₀ Cert.KernelIdeal.Facts
open Idealize.ShloMosaic.Pipeline (Dat)

theorem first1_apply (v0 : FVec Ideal S1x1 .f32) (v2 v6 : FVec Ideal S5000x128 .f32) (v10 : FVec Ideal S128x128 .f32)
    (v14 v18 v23 v27 v32 : FVec Ideal S1x128 .f32) (r : Fin 5000) (j : Fin 128) :
    k1_pay2 (F := Ideal) v0 v2 v6 v10 v14 v18 v23 v27 v32 (ix2 r j)
      = halfRow (v0 (ix2 0 0)) (fun k => v2 (ix2 r k)) (fun k => v6 (ix2 r k)) v10
          (rowVec v14) (rowVec v27) (rowVec v32) (rowVec v23) (rowVec v18) j := by
  unfold k1_pay2
  simp only [shapeCast_self, maximumf_apply, addf_apply, subf_apply, mulf_apply, matmul_block_apply, broadcast_row_apply,
    broadcast_scalar_apply, truncf_apply, broadcast_apply, Ideal.ofBits_def, Ideal.ofBits_zero_f32]
  rfl

theorem second1_apply (u : FVec Ideal S5000x128 .f32) (v39 : FVec Ideal S128x128 .f32)
    (v43 v49 v54 v58 v63 : FVec Ideal S1x128 .f32) (r : Fin 5000) (j : Fin 128) :
    k1_pay1 (F := Ideal) u v39 v43 v49 v54 v58 v63 (ix2 r j)
      = rectRow (bnormRow (rectRow (affineRow (fun k => u (ix2 r k)) v39 (rowVec v43)))
          (rowVec v58) (rowVec v63) (rowVec v54) (rowVec v49)) j := by
  unfold k1_pay1
  simp only [shapeCast_self, maximumf_apply, addf_apply, subf_apply, mulf_apply, matmul_block_apply, broadcast_row_apply,
    truncf_apply, broadcast_apply, Ideal.ofBits_def, Ideal.ofBits_zero_f32]
  rfl

abbrev NodeBody : Type :=
  FVec Ideal S5000x128 .f32 → FVec Ideal S5000x128 .f32 → FVec Ideal S1x1 .f32 → FVec Ideal S128x128 .f32
    → FVec Ideal S1x128 .f32 → FVec Ideal S1x128 .f32 → FVec Ideal S1x128 .f32 → FVec Ideal S1x128 .f32 → FVec Ideal S1x128 .f32
    → FVec Ideal S128x128 .f32
    → FVec Ideal S1x128 .f32 → FVec Ideal S1x128 .f32 → FVec Ideal S1x128 .f32 → FVec Ideal S1x128 .f32 → FVec Ideal S1x128 .f32
    → FVec Ideal S5000x128 .f32

-- A body that computes the row update of each row of its blocks.
def RowBody (last : Bool) (out : NodeBody) : Prop :=
  ∀ (x0 x1 : FVec Ideal S5000x128 .f32) (x2 : FVec Ideal S1x1 .f32) (x3 : FVec Ideal S128x128 .f32)
    (x4 x5 x6 x7 x8 : FVec Ideal S1x128 .f32) (x9 : FVec Ideal S128x128 .f32) (x10 x11 x12 x13 x14 : FVec Ideal S1x128 .f32) (r : Fin 5000) (j : Fin 128),
    out x0 x1 x2 x3 x4 x5 x6 x7 x8 x9 x10 x11 x12 x13 x14 (ix2 r j) = nodeRow last (x2 (ix2 0 0)) (fun k => x0 (ix2 r k)) (fun k => x1 (ix2 r k)) x3
          (rowVec x4) (rowVec x5) (rowVec x6) (rowVec x7) (rowVec x8) x9
          (rowVec x10) (rowVec x11) (rowVec x12) (rowVec x13) (rowVec x14) j

theorem out1_apply : RowBody false (out1_15 (F := Ideal)) := by
  intro x0 x1 x2 x3 x4 x5 x6 x7 x8 x9 x10 x11 x12 x13 x14 r j
  unfold out1_15
  rw [View.canon_unit_zero zero_offsets]
  simp only [View.ld_unit_zero (S := S5000x128) zero_offsets, View.ld_unit_zero (S := S1x1) zero_offsets,
    View.ld_unit_zero (S := S128x128) zero_offsets, View.ld_unit_zero (S := S1x128) zero_offsets]
  rw [second1_apply]
  simp only [first1_apply]
  rfl

-- A block at block index zero of an array of its own shape is the array.
theorem ld_zero2 {m n : ℕ} {α : Type} (A : (⟨2, ![m, n]⟩ : Shape).Idx → α)
    (emb : (⟨2, ![m, n]⟩ : Shape).Idx → (⟨2, ![m, n]⟩ : Shape).Idx)
    (h0 : ∀ y, ((emb y) 0 : ℕ) = 0 * m + 1 * (y 0 : ℕ)) (h1 : ∀ y, ((emb y) 1 : ℕ) = 0 * n + 1 * (y 1 : ℕ)) :
    (fun y => A (emb y)) = A :=
  funext fun y => congrArg A (Shape.idx_ext₂ ((h0 y).trans (by omega)) ((h1 y).trans (by omega)))

-- The parameter windows are whole arrays; the feature, message and result windows sit at the same block row.
theorem node_flushed (last : Bool) (out : NodeBody) (hout : RowBody last out) (A0 A1 : Arr S50000x128) (A2 : Arr S1x1)
    (A3 : Arr S128x128) (A4 A5 A6 A7 A8 : Arr S1x128) (A9 : Arr S128x128) (A10 A11 A12 A13 A14 : Arr S1x128) (t : Fin cfg1.N) :
    (cfg1.win 15).cut (grid1.coords t) (out (((cfg1.win 0).blk t).view.read (Elt Ideal) A0)
        (((cfg1.win 1).blk t).view.read (Elt Ideal) A1)
        (((cfg1.win 2).blk t).view.read (Elt Ideal) A2)
        (((cfg1.win 3).blk t).view.read (Elt Ideal) A3)
        (((cfg1.win 4).blk t).view.read (Elt Ideal) A4)
        (((cfg1.win 5).blk t).view.read (Elt Ideal) A5)
        (((cfg1.win 6).blk t).view.read (Elt Ideal) A6)
        (((cfg1.win 7).blk t).view.read (Elt Ideal) A7)
        (((cfg1.win 8).blk t).view.read (Elt Ideal) A8)
        (((cfg1.win 9).blk t).view.read (Elt Ideal) A9)
        (((cfg1.win 10).blk t).view.read (Elt Ideal) A10)
        (((cfg1.win 11).blk t).view.read (Elt Ideal) A11)
        (((cfg1.win 12).blk t).view.read (Elt Ideal) A12)
        (((cfg1.win 13).blk t).view.read (Elt Ideal) A13)
        (((cfg1.win 14).blk t).view.read (Elt Ideal) A14))
      = ((cfg1.win 15).blk t).view.read (Elt Ideal) (nodeF last (A2 (ix2 0 0)) A0 A1 A3
        (fun i => A4 (ix2 0 (i 0))) (fun i => A5 (ix2 0 (i 0))) (fun i => A6 (ix2 0 (i 0))) (fun i => A7 (ix2 0 (i 0))) (fun i => A8 (ix2 0 (i 0)))
        A9 (fun i => A10 (ix2 0 (i 0))) (fun i => A11 (ix2 0 (i 0))) (fun i => A12 (ix2 0 (i 0))) (fun i => A13 (ix2 0 (i 0))) (fun i => A14 (ix2 0 (i 0)))) := by
  have h2 : (((cfg1.win 2).blk t).view.read (Elt Ideal) A2) = A2 := ld_zero2 A2 _ (fun _ => rfl) (fun _ => rfl)
  have h3 : (((cfg1.win 3).blk t).view.read (Elt Ideal) A3) = A3 := ld_zero2 A3 _ (fun _ => rfl) (fun _ => rfl)
  have h4 : (((cfg1.win 4).blk t).view.read (Elt Ideal) A4) = A4 := ld_zero2 A4 _ (fun _ => rfl) (fun _ => rfl)
  have h5 : (((cfg1.win 5).blk t).view.read (Elt Ideal) A5) = A5 := ld_zero2 A5 _ (fun _ => rfl) (fun _ => rfl)
  have h6 : (((cfg1.win 6).blk t).view.read (Elt Ideal) A6) = A6 := ld_zero2 A6 _ (fun _ => rfl) (fun _ => rfl)
  have h7 : (((cfg1.win 7).blk t).view.read (Elt Ideal) A7) = A7 := ld_zero2 A7 _ (fun _ => rfl) (fun _ => rfl)
  have h8 : (((cfg1.win 8).blk t).view.read (Elt Ideal) A8) = A8 := ld_zero2 A8 _ (fun _ => rfl) (fun _ => rfl)
  have h9 : (((cfg1.win 9).blk t).view.read (Elt Ideal) A9) = A9 := ld_zero2 A9 _ (fun _ => rfl) (fun _ => rfl)
  have h10 : (((cfg1.win 10).blk t).view.read (Elt Ideal) A10) = A10 := ld_zero2 A10 _ (fun _ => rfl) (fun _ => rfl)
  have h11 : (((cfg1.win 11).blk t).view.read (Elt Ideal) A11) = A11 := ld_zero2 A11 _ (fun _ => rfl) (fun _ => rfl)
  have h12 : (((cfg1.win 12).blk t).view.read (Elt Ideal) A12) = A12 := ld_zero2 A12 _ (fun _ => rfl) (fun _ => rfl)
  have h13 : (((cfg1.win 13).blk t).view.read (Elt Ideal) A13) = A13 := ld_zero2 A13 _ (fun _ => rfl) (fun _ => rfl)
  have h14 : (((cfg1.win 14).blk t).view.read (Elt Ideal) A14) = A14 := ld_zero2 A14 _ (fun _ => rfl) (fun _ => rfl)
  rw [h2, h3, h4, h5, h6, h7, h8, h9, h10, h11, h12, h13, h14]
  funext y
  obtain ⟨r, j, rfl⟩ : ∃ (r : Fin 5000) (j : Fin 128), y = ix2 r j := ⟨y 0, y 1, eq_ix2 y⟩
  obtain ⟨n, hi, e0, e1⟩ : ∃ n : Fin 50000, (((cfg1.win 15).blk t).view.emb (ix2 r j) : S50000x128.Idx) = ix2 n j
      ∧ (fun k => (((cfg1.win 0).blk t).view.read (Elt Ideal) A0) (ix2 r k)) = (fun k => A0 (ix2 n k))
      ∧ (fun k => (((cfg1.win 1).blk t).view.read (Elt Ideal) A1) (ix2 r k)) = fun k => A1 (ix2 n k) :=
    ⟨(((cfg1.win 15).blk t).view.emb (ix2 r j) : S50000x128.Idx) 0,
      Shape.idx_ext₂ rfl (by show 0 * 128 + 1 * j.val = j.val; omega),
      funext fun k => congrArg A0 (Shape.idx_ext₂ rfl (by show 0 * 128 + 1 * k.val = k.val; omega)),
      funext fun k => congrArg A1 (Shape.idx_ext₂ rfl (by show 0 * 128 + 1 * k.val = k.val; omega))⟩
  show out _ _ A2 A3 A4 A5 A6 A7 A8 A9 A10 A11 A12 A13 A14 (ix2 r j)
    = nodeF last (A2 (ix2 0 0)) A0 A1 A3 (rowVec A4) (rowVec A5) (rowVec A6) (rowVec A7) (rowVec A8)
      A9 (rowVec A10) (rowVec A11) (rowVec A12) (rowVec A13) (rowVec A14) (((cfg1.win 15).blk t).view.emb (ix2 r j))
  rw [hi, hout, nodeF_row, e0, e1]

theorem node_index : ∀ t : Fin grid1.N, (BitVec.ofNat 32 ((grid1.coords t) 0).val).toNat = t.val := by decide +kernel

-- Row `n` lies in the block of point `n / 5000`.
theorem node_cover (i : S50000x128.Idx) :
    ∃ t : Fin cfg1.N, (cfg1.win 15).flush t = true ∧ i ∈ ((cfg1.win 15).blk t).view.set := by
  have hi0 : (i 0).val < 50000 := (i 0).isLt
  have hi1 : (i 1).val < 128 := (i 1).isLt
  have hN : (i 0).val / 5000 < grid1.N := by rw [N_1]; omega
  have o0 : win1_15.index ⟨(i 0).val / 5000, hN⟩ (0 : Fin 2) = (i 0).val / 5000 := node_index _
  refine ⟨⟨(i 0).val / 5000, hN⟩, flush1_15 _, ?_⟩
  show i ∈ ((View.whole main_v75).slice (win1_15.rect ⟨(i 0).val / 5000, hN⟩)).set
  rw [View.set_slice_whole, Rect.mem_set_unit]
  refine Fin.forall_fin_two.2 ⟨?_, ?_⟩
  · show win1_15.index ⟨(i 0).val / 5000, hN⟩ (0 : Fin 2) * 5000 ≤ (i 0).val
      ∧ (i 0).val < win1_15.index ⟨(i 0).val / 5000, hN⟩ (0 : Fin 2) * 5000 + 5000
    omega
  · show 0 * 128 ≤ (i 1).val ∧ (i 1).val < 0 * 128 + 128
    omega

variable (V : (c : Dev nD) → (b : Ref sig .tc) → Buf (Elt Ideal) ((c : Thread nD τ).loc b))

theorem knode1 (c : Dev nD) :
    (dat1 (F := Ideal) V c).arrAt 15 cfg1.N =
      nodeF false (V c main_v40 (ix2 0 0)) (V c main_v21) (V c main_v36) (V c main_v42)
        (fun i => V c main_v45 (ix2 0 (i 0))) (fun i => V c main_v48 (ix2 0 (i 0))) (fun i => V c main_v51 (ix2 0 (i 0))) (fun i => V c main_v54 (ix2 0 (i 0))) (fun i => V c main_v57 (ix2 0 (i 0)))
        (V c main_v59) (fun i => V c main_v62 (ix2 0 (i 0))) (fun i => V c main_v65 (ix2 0 (i 0))) (fun i => V c main_v68 (ix2 0 (i 0))) (fun i => V c main_v71 (ix2 0 (i 0))) (fun i => V c main_v74 (ix2 0 (i 0))) :=
  (dat1 (F := Ideal) V c).arrAt_eq_of_cover 15 _
    (fun t _ => by
      show (cfg1.win 15).cut (grid1.coords t) ((dat1 (F := Ideal) V c).after 15 t) = _
      rw [after1_15]
      exact node_flushed false (out1_15 (F := Ideal)) out1_apply (V c main_v21) (V c main_v36) (V c main_v40) (V c main_v42)
        (V c main_v45) (V c main_v48) (V c main_v51) (V c main_v54) (V c main_v57) (V c main_v59)
        (V c main_v62) (V c main_v65) (V c main_v68) (V c main_v71) (V c main_v74) t) node_cover

end Cert.Gin

end
-- ==== Proof.KLayer0.lean ====
import proofs.«402997_j6614249635914_3_alg».proof.Proof.KKept
import proofs.«402997_j6614249635914_3_alg».proof.Proof.KMsg0
import proofs.«402997_j6614249635914_3_alg».proof.Proof.KNode1

set_option maxRecDepth 16384

noncomputable section

namespace Cert.Gin

open Idealize.ShloMosaic Idealize.ShloMosaic.TcCoe Idealize.ShloMosaic.StableHlo Idealize.ShloMosaic.ValueIdx Cert.KernelIdeal Cert.KernelIdeal.Gen

section Host

variable (X : Valuation τ sig (Elt Ideal))

theorem l0_in :
    msgF (StableHlo.after hostOps0 X (Proc.devRef .tc main_arg2)) (StableHlo.after hostOps0 X (Proc.devRef .tc main_v29)) (StableHlo.after hostOps0 X (Proc.devRef .tc main_v31))
      = msgF (X (Proc.devRef .tc main_arg2)) (gathOp (atomOp (X (Proc.devRef .tc main_arg0)) (X (Proc.devRef .tc main_arg3))) (srcOf (X (Proc.devRef .tc main_arg1)))) (tbl0 (X (Proc.devRef .tc main_arg4))) := by
  after_results_simp
  rfl

theorem l0_node (Xf : Dev nD → Valuation τ sig (Elt Ideal)) (c : Dev nD) :
    (dat1 (F := Ideal) (fun c b => StableHlo.after hostOps1 (Xf c) (Proc.devRef .tc b)) c).arrAt 15 cfg1.N
      = nodeF false (sc0 (Xf c (Proc.devRef .tc main_arg5)) ix0) (Xf c (Proc.devRef .tc main_v21)) (aggOp (Xf c (Proc.devRef .tc main_v3)) (Xf c (Proc.devRef .tc main_v32))) (mat0 (Xf c (Proc.devRef .tc main_arg6)))
        (row0 (Xf c (Proc.devRef .tc main_arg7))) (row0 (Xf c (Proc.devRef .tc main_arg8))) (row0 (Xf c (Proc.devRef .tc main_arg9))) (row0 (Xf c (Proc.devRef .tc main_arg10))) (row0 (Xf c (Proc.devRef .tc main_arg11)))
        (mat0 (Xf c (Proc.devRef .tc main_arg12))) (row0 (Xf c (Proc.devRef .tc main_arg13))) (row0 (Xf c (Proc.devRef .tc main_arg14))) (row0 (Xf c (Proc.devRef .tc main_arg15))) (row0 (Xf c (Proc.devRef .tc main_arg16))) (row0 (Xf c (Proc.devRef .tc main_arg17))) := by
  refine (knode1 _ c).trans (Eq.trans ?_ (nodeF_casts false _ _ _ _ _ _ _ _ _ _ _ _ _ _ _ shapeCasts_S_S1x1 shapeCasts_S128_S1x128))
  after_results_simp
  rfl

end Host

variable (m : (ℓ : Loc nD τ sig) → Buf (Elt Ideal) ℓ) (ρ : Dev nD → PrngReg)

theorem layer0_value (c : Dev nD) (hea : ∀ i, (m ((c : Thread nD τ).loc main_arg2) i).toNat < 4) :
    W4 m ρ c (Proc.devRef .tc main_v75)
      = lyr0 (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
          (atomOp (m ((c : Thread nD τ).loc main_arg0)) (m ((c : Thread nD τ).loc main_arg3))) := by
  have hu : W2 m ρ c (Proc.devRef .tc main_v32) = _ :=
    (W2_arr m ρ c 3).trans ((kmsg0 (V1 m ρ) c ((inv1 m ρ c).ea_lt hea)).trans (l0_in (W0 m ρ c)))
  have hh : W2 m ρ c (Proc.devRef .tc main_v21) = _ := (W2_of_ne m ρ c main_v21 (by decide)).trans (base_atom m ρ c)
  refine (W4_arr m ρ c 15).trans ((l0_node (W2 m ρ) c).trans ?_)
  rw [hu, hh]
  exact layer_of_kept (inv2 m ρ c) false tbl0 sc0 mat0 row0 _

end Cert.Gin

end
-- ==== Proof.KMsg2.lean ====
import proofs.«402997_j6614249635914_3_alg».proof.Proof.KMsg0

noncomputable section

namespace Cert.Gin

open Idealize.ShloMosaic Idealize.ShloMosaic.ValueIdx Idealize.ShloMosaic.TcCoe Cert.KernelIdeal Cert.KernelIdeal.Gen
open Idealize.ShloMosaic.Pipeline (Dat)

-- By definition the region's grid, windows and body are region 0's; only the arrays differ.
theorem kmsg2 (V : (c : Dev nD) → (b : Ref sig .tc) → Buf (Elt Ideal) ((c : Thread nD τ).loc b)) (c : Dev nD)
    (hea : ∀ i, (V c main_arg2 i).toNat < 4) :
    (dat2 (F := Ideal) V c).arrAt 3 cfg2.N = msgF (V c main_arg2) (V c main_v83) (V c main_v85) :=
  (dat2 (F := Ideal) V c).arrAt_eq_of_cover 3 (msgF (V c main_arg2) (V c main_v83) (V c main_v85))
    (fun t _ => by
      show (cfg2.win 3).cut (grid2.coords t) ((dat2 (F := Ideal) V c).after 3 t) = _
      rw [after2_3]
      exact kmsg_flushed (V c main_arg2) (V c main_v83) (V c main_v85) hea t) kmsg_cover

end Cert.Gin

end
-- ==== Proof.KNode3.lean ====
import proofs.«402997_j6614249635914_3_alg».proof.Proof.KNode1

noncomputable section

namespace Cert.Gin

open Idealize.ShloMosaic Idealize.ShloMosaic.ValueIdx Idealize.ShloMosaic.TcCoe Cert.KernelIdeal Cert.KernelIdeal.Gen
open Cert.KernelIdeal.Facts₀ Cert.KernelIdeal.Facts
open Idealize.ShloMosaic.Pipeline (Dat)

variable (V : (c : Dev nD) → (b : Ref sig .tc) → Buf (Elt Ideal) ((c : Thread nD τ).loc b))

-- By definition the region's grid, windows and body are region 1's; only the arrays differ.
theorem knode3 (c : Dev nD) :
    (dat3 (F := Ideal) V c).arrAt 15 cfg3.N =
      nodeF false (V c main_v94 (ix2 0 0)) (V c main_v75) (V c main_v90) (V c main_v96)
        (fun i => V c main_v99 (ix2 0 (i 0))) (fun i => V c main_v102 (ix2 0 (i 0))) (fun i => V c main_v105 (ix2 0 (i 0))) (fun i => V c main_v108 (ix2 0 (i 0))) (fun i => V c main_v111 (ix2 0 (i 0)))
        (V c main_v113) (fun i => V c main_v116 (ix2 0 (i 0))) (fun i => V c main_v119 (ix2 0 (i 0))) (fun i => V c main_v122 (ix2 0 (i 0))) (fun i => V c main_v125 (ix2 0 (i 0))) (fun i => V c main_v128 (ix2 0 (i 0))) :=
  (dat3 (F := Ideal) V c).arrAt_eq_of_cover 15 _
    (fun t _ => by
      show (cfg3.win 15).cut (grid3.coords t) ((dat3 (F := Ideal) V c).after 15 t) = _
      rw [after3_15]
      exact node_flushed false (out1_15 (F := Ideal)) out1_apply (V c main_v75) (V c main_v90) (V c main_v94) (V c main_v96)
        (V c main_v99) (V c main_v102) (V c main_v105) (V c main_v108) (V c main_v111) (V c main_v113)
        (V c main_v116) (V c main_v119) (V c main_v122) (V c main_v125) (V c main_v128) t) node_cover

end Cert.Gin

end
-- ==== Proof.KLayer1.lean ====
import proofs.«402997_j6614249635914_3_alg».proof.Proof.KKept
import proofs.«402997_j6614249635914_3_alg».proof.Proof.KMsg2
import proofs.«402997_j6614249635914_3_alg».proof.Proof.KNode3

set_option maxRecDepth 16384

noncomputable section

namespace Cert.Gin

open Idealize.ShloMosaic Idealize.ShloMosaic.TcCoe Idealize.ShloMosaic.StableHlo Idealize.ShloMosaic.ValueIdx Cert.KernelIdeal Cert.KernelIdeal.Gen

section Host

variable (X : Valuation τ sig (Elt Ideal))

theorem l1_in :
    msgF (StableHlo.after hostOps2 X (Proc.devRef .tc main_arg2)) (StableHlo.after hostOps2 X (Proc.devRef .tc main_v83)) (StableHlo.after hostOps2 X (Proc.devRef .tc main_v85))
        = msgF (X (Proc.devRef .tc main_arg2)) (gathOp (X (Proc.devRef .tc main_v75)) (X (Proc.devRef .tc main_v1))) (tbl1 (X (Proc.devRef .tc main_arg4)))
      ∧ StableHlo.after hostOps2 X (Proc.devRef .tc main_v75) = X (Proc.devRef .tc main_v75) :=
  ⟨by after_results_simp; rfl, by after_results_simp⟩

theorem l1_node (Xf : Dev nD → Valuation τ sig (Elt Ideal)) (c : Dev nD) :
    (dat3 (F := Ideal) (fun c b => StableHlo.after hostOps3 (Xf c) (Proc.devRef .tc b)) c).arrAt 15 cfg3.N
      = nodeF false (sc1 (Xf c (Proc.devRef .tc main_arg5)) ix0) (Xf c (Proc.devRef .tc main_v75)) (aggOp (Xf c (Proc.devRef .tc main_v3)) (Xf c (Proc.devRef .tc main_v86))) (mat1 (Xf c (Proc.devRef .tc main_arg6)))
        (row1 (Xf c (Proc.devRef .tc main_arg7))) (row1 (Xf c (Proc.devRef .tc main_arg8))) (row1 (Xf c (Proc.devRef .tc main_arg9))) (row1 (Xf c (Proc.devRef .tc main_arg10))) (row1 (Xf c (Proc.devRef .tc main_arg11)))
        (mat1 (Xf c (Proc.devRef .tc main_arg12))) (row1 (Xf c (Proc.devRef .tc main_arg13))) (row1 (Xf c (Proc.devRef .tc main_arg14))) (row1 (Xf c (Proc.devRef .tc main_arg15))) (row1 (Xf c (Proc.devRef .tc main_arg16))) (row1 (Xf c (Proc.devRef .tc main_arg17))) := by
  refine (knode3 _ c).trans (Eq.trans ?_ (nodeF_casts false _ _ _ _ _ _ _ _ _ _ _ _ _ _ _ shapeCasts_S_S1x1 shapeCasts_S128_S1x128))
  after_results_simp
  rfl

end Host

variable (m : (ℓ : Loc nD τ sig) → Buf (Elt Ideal) ℓ) (ρ : Dev nD → PrngReg)

theorem layer1_value (c : Dev nD) (hea : ∀ i, (m ((c : Thread nD τ).loc main_arg2) i).toNat < 4) :
    W8 m ρ c (Proc.devRef .tc main_v129)
      = lyr1 (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
          (W4 m ρ c (Proc.devRef .tc main_v75)) := by
  have hu : W6 m ρ c (Proc.devRef .tc main_v86) = _ :=
    (W6_arr m ρ c 3).trans ((kmsg2 (V5 m ρ) c ((inv5 m ρ c).ea_lt hea)).trans
      ((l1_in (W4 m ρ c)).1.trans (msg_of_kept (inv4 m ρ c) tbl1 _)))
  have hh : W6 m ρ c (Proc.devRef .tc main_v75) = _ := (W6_of_ne m ρ c main_v75 (by decide)).trans (l1_in (W4 m ρ c)).2
  refine (W8_arr m ρ c 15).trans ((l1_node (W6 m ρ) c).trans ?_)
  rw [hu, hh]
  exact layer_of_kept (inv6 m ρ c) false tbl1 sc1 mat1 row1 _

end Cert.Gin

end
-- ==== Proof.KMsg4.lean ====
import proofs.«402997_j6614249635914_3_alg».proof.Proof.KMsg0

noncomputable section

namespace Cert.Gin

open Idealize.ShloMosaic Idealize.ShloMosaic.ValueIdx Idealize.ShloMosaic.TcCoe Cert.KernelIdeal Cert.KernelIdeal.Gen
open Idealize.ShloMosaic.Pipeline (Dat)

-- By definition the region's grid, windows and body are region 0's; only the arrays differ.
theorem kmsg4 (V : (c : Dev nD) → (b : Ref sig .tc) → Buf (Elt Ideal) ((c : Thread nD τ).loc b)) (c : Dev nD)
    (hea : ∀ i, (V c main_arg2 i).toNat < 4) :
    (dat4 (F := Ideal) V c).arrAt 3 cfg4.N = msgF (V c main_arg2) (V c main_v137) (V c main_v139) :=
  (dat4 (F := Ideal) V c).arrAt_eq_of_cover 3 (msgF (V c main_arg2) (V c main_v137) (V c main_v139))
    (fun t _ => by
      show (cfg4.win 3).cut (grid4.coords t) ((dat4 (F := Ideal) V c).after 3 t) = _
      rw [after4_3]
      exact kmsg_flushed (V c main_arg2) (V c main_v137) (V c main_v139) hea t) kmsg_cover

end Cert.Gin

end
-- ==== Proof.KNode5.lean ====
import proofs.«402997_j6614249635914_3_alg».proof.Proof.KNode1

noncomputable section

namespace Cert.Gin

open Idealize.ShloMosaic Idealize.ShloMosaic.ValueIdx Idealize.ShloMosaic.TcCoe Cert.KernelIdeal Cert.KernelIdeal.Gen
open Cert.KernelIdeal.Facts₀ Cert.KernelIdeal.Facts
open Idealize.ShloMosaic.Pipeline (Dat)

variable (V : (c : Dev nD) → (b : Ref sig .tc) → Buf (Elt Ideal) ((c : Thread nD τ).loc b))

-- By definition the region's grid, windows and body are region 1's; only the arrays differ.
theorem knode5 (c : Dev nD) :
    (dat5 (F := Ideal) V c).arrAt 15 cfg5.N =
      nodeF false (V c main_v148 (ix2 0 0)) (V c main_v129) (V c main_v144) (V c main_v150)
        (fun i => V c main_v153 (ix2 0 (i 0))) (fun i => V c main_v156 (ix2 0 (i 0))) (fun i => V c main_v159 (ix2 0 (i 0))) (fun i => V c main_v162 (ix2 0 (i 0))) (fun i => V c main_v165 (ix2 0 (i 0)))
        (V c main_v167) (fun i => V c main_v170 (ix2 0 (i 0))) (fun i => V c main_v173 (ix2 0 (i 0))) (fun i => V c main_v176 (ix2 0 (i 0))) (fun i => V c main_v179 (ix2 0 (i 0))) (fun i => V c main_v182 (ix2 0 (i 0))) :=
  (dat5 (F := Ideal) V c).arrAt_eq_of_cover 15 _
    (fun t _ => by
      show (cfg5.win 15).cut (grid5.coords t) ((dat5 (F := Ideal) V c).after 15 t) = _
      rw [after5_15]
      exact node_flushed false (out1_15 (F := Ideal)) out1_apply (V c main_v129) (V c main_v144) (V c main_v148) (V c main_v150)
        (V c main_v153) (V c main_v156) (V c main_v159) (V c main_v162) (V c main_v165) (V c main_v167)
        (V c main_v170) (V c main_v173) (V c main_v176) (V c main_v179) (V c main_v182) t) node_cover

end Cert.Gin

end
-- ==== Proof.KLayer2.lean ====
import proofs.«402997_j6614249635914_3_alg».proof.Proof.KKept
import proofs.«402997_j6614249635914_3_alg».proof.Proof.KMsg4
import proofs.«402997_j6614249635914_3_alg».proof.Proof.KNode5

set_option maxRecDepth 16384

noncomputable section

namespace Cert.Gin

open Idealize.ShloMosaic Idealize.ShloMosaic.TcCoe Idealize.ShloMosaic.StableHlo Idealize.ShloMosaic.ValueIdx Cert.KernelIdeal Cert.KernelIdeal.Gen

section Host

variable (X : Valuation τ sig (Elt Ideal))

theorem l2_in :
    msgF (StableHlo.after hostOps4 X (Proc.devRef .tc main_arg2)) (StableHlo.after hostOps4 X (Proc.devRef .tc main_v137)) (StableHlo.after hostOps4 X (Proc.devRef .tc main_v139))
        = msgF (X (Proc.devRef .tc main_arg2)) (gathOp (X (Proc.devRef .tc main_v129)) (X (Proc.devRef .tc main_v1))) (tbl2 (X (Proc.devRef .tc main_arg4)))
      ∧ StableHlo.after hostOps4 X (Proc.devRef .tc main_v129) = X (Proc.devRef .tc main_v129) :=
  ⟨by after_results_simp; rfl, by after_results_simp⟩

theorem l2_node (Xf : Dev nD → Valuation τ sig (Elt Ideal)) (c : Dev nD) :
    (dat5 (F := Ideal) (fun c b => StableHlo.after hostOps5 (Xf c) (Proc.devRef .tc b)) c).arrAt 15 cfg5.N
      = nodeF false (sc2 (Xf c (Proc.devRef .tc main_arg5)) ix0) (Xf c (Proc.devRef .tc main_v129)) (aggOp (Xf c (Proc.devRef .tc main_v3)) (Xf c (Proc.devRef .tc main_v140))) (mat2 (Xf c (Proc.devRef .tc main_arg6)))
        (row2 (Xf c (Proc.devRef .tc main_arg7))) (row2 (Xf c (Proc.devRef .tc main_arg8))) (row2 (Xf c (Proc.devRef .tc main_arg9))) (row2 (Xf c (Proc.devRef .tc main_arg10))) (row2 (Xf c (Proc.devRef .tc main_arg11)))
        (mat2 (Xf c (Proc.devRef .tc main_arg12))) (row2 (Xf c (Proc.devRef .tc main_arg13))) (row2 (Xf c (Proc.devRef .tc main_arg14))) (row2 (Xf c (Proc.devRef .tc main_arg15))) (row2 (Xf c (Proc.devRef .tc main_arg16))) (row2 (Xf c (Proc.devRef .tc main_arg17))) := by
  refine (knode5 _ c).trans (Eq.trans ?_ (nodeF_casts false _ _ _ _ _ _ _ _ _ _ _ _ _ _ _ shapeCasts_S_S1x1 shapeCasts_S128_S1x128))
  after_results_simp
  rfl

end Host

variable (m : (ℓ : Loc nD τ sig) → Buf (Elt Ideal) ℓ) (ρ : Dev nD → PrngReg)

theorem layer2_value (c : Dev nD) (hea : ∀ i, (m ((c : Thread nD τ).loc main_arg2) i).toNat < 4) :
    W12 m ρ c (Proc.devRef .tc main_v183)
      = lyr2 (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
          (W8 m ρ c (Proc.devRef .tc main_v129)) := by
  have hu : W10 m ρ c (Proc.devRef .tc main_v140) = _ :=
    (W10_arr m ρ c 3).trans ((kmsg4 (V9 m ρ) c ((inv9 m ρ c).ea_lt hea)).trans
      ((l2_in (W8 m ρ c)).1.trans (msg_of_kept (inv8 m ρ c) tbl2 _)))
  have hh : W10 m ρ c (Proc.devRef .tc main_v129) = _ := (W10_of_ne m ρ c main_v129 (by decide)).trans (l2_in (W8 m ρ c)).2
  refine (W12_arr m ρ c 15).trans ((l2_node (W10 m ρ) c).trans ?_)
  rw [hu, hh]
  exact layer_of_kept (inv10 m ρ c) false tbl2 sc2 mat2 row2 _

end Cert.Gin

end
-- ==== Proof.KMsg6.lean ====
import proofs.«402997_j6614249635914_3_alg».proof.Proof.KMsg0

noncomputable section

namespace Cert.Gin

open Idealize.ShloMosaic Idealize.ShloMosaic.ValueIdx Idealize.ShloMosaic.TcCoe Cert.KernelIdeal Cert.KernelIdeal.Gen
open Idealize.ShloMosaic.Pipeline (Dat)

-- By definition the region's grid, windows and body are region 0's; only the arrays differ.
theorem kmsg6 (V : (c : Dev nD) → (b : Ref sig .tc) → Buf (Elt Ideal) ((c : Thread nD τ).loc b)) (c : Dev nD)
    (hea : ∀ i, (V c main_arg2 i).toNat < 4) :
    (dat6 (F := Ideal) V c).arrAt 3 cfg6.N = msgF (V c main_arg2) (V c main_v191) (V c main_v193) :=
  (dat6 (F := Ideal) V c).arrAt_eq_of_cover 3 (msgF (V c main_arg2) (V c main_v191) (V c main_v193))
    (fun t _ => by
      show (cfg6.win 3).cut (grid6.coords t) ((dat6 (F := Ideal) V c).after 3 t) = _
      rw [after6_3]
      exact kmsg_flushed (V c main_arg2) (V c main_v191) (V c main_v193) hea t) kmsg_cover

end Cert.Gin

end
-- ==== Proof.KNode7.lean ====
import proofs.«402997_j6614249635914_3_alg».proof.Proof.KNode1

noncomputable section

namespace Cert.Gin

open Idealize.ShloMosaic Idealize.ShloMosaic.ValueIdx Idealize.ShloMosaic.TcCoe Cert.KernelIdeal Cert.KernelIdeal.Gen
open Cert.KernelIdeal.Facts₀ Cert.KernelIdeal.Facts
open Idealize.ShloMosaic.Pipeline (Dat)

variable (V : (c : Dev nD) → (b : Ref sig .tc) → Buf (Elt Ideal) ((c : Thread nD τ).loc b))

-- By definition the region's grid, windows and body are region 1's; only the arrays differ.
theorem knode7 (c : Dev nD) :
    (dat7 (F := Ideal) V c).arrAt 15 cfg7.N =
      nodeF false (V c main_v202 (ix2 0 0)) (V c main_v183) (V c main_v198) (V c main_v204)
        (fun i => V c main_v207 (ix2 0 (i 0))) (fun i => V c main_v210 (ix2 0 (i 0))) (fun i => V c main_v213 (ix2 0 (i 0))) (fun i => V c main_v216 (ix2 0 (i 0))) (fun i => V c main_v219 (ix2 0 (i 0)))
        (V c main_v221) (fun i => V c main_v224 (ix2 0 (i 0))) (fun i => V c main_v227 (ix2 0 (i 0))) (fun i => V c main_v230 (ix2 0 (i 0))) (fun i => V c main_v233 (ix2 0 (i 0))) (fun i => V c main_v236 (ix2 0 (i 0))) :=
  (dat7 (F := Ideal) V c).arrAt_eq_of_cover 15 _
    (fun t _ => by
      show (cfg7.win 15).cut (grid7.coords t) ((dat7 (F := Ideal) V c).after 15 t) = _
      rw [after7_15]
      exact node_flushed false (out1_15 (F := Ideal)) out1_apply (V c main_v183) (V c main_v198) (V c main_v202) (V c main_v204)
        (V c main_v207) (V c main_v210) (V c main_v213) (V c main_v216) (V c main_v219) (V c main_v221)
        (V c main_v224) (V c main_v227) (V c main_v230) (V c main_v233) (V c main_v236) t) node_cover

end Cert.Gin

end
-- ==== Proof.KLayer3.lean ====
import proofs.«402997_j6614249635914_3_alg».proof.Proof.KKept
import proofs.«402997_j6614249635914_3_alg».proof.Proof.KMsg6
import proofs.«402997_j6614249635914_3_alg».proof.Proof.KNode7

set_option maxRecDepth 16384

noncomputable section

namespace Cert.Gin

open Idealize.ShloMosaic Idealize.ShloMosaic.TcCoe Idealize.ShloMosaic.StableHlo Idealize.ShloMosaic.ValueIdx Cert.KernelIdeal Cert.KernelIdeal.Gen

section Host

variable (X : Valuation τ sig (Elt Ideal))

theorem l3_in :
    msgF (StableHlo.after hostOps6 X (Proc.devRef .tc main_arg2)) (StableHlo.after hostOps6 X (Proc.devRef .tc main_v191)) (StableHlo.after hostOps6 X (Proc.devRef .tc main_v193))
        = msgF (X (Proc.devRef .tc main_arg2)) (gathOp (X (Proc.devRef .tc main_v183)) (X (Proc.devRef .tc main_v1))) (tbl3 (X (Proc.devRef .tc main_arg4)))
      ∧ StableHlo.after hostOps6 X (Proc.devRef .tc main_v183) = X (Proc.devRef .tc main_v183) :=
  ⟨by after_results_simp; rfl, by after_results_simp⟩

theorem l3_node (Xf : Dev nD → Valuation τ sig (Elt Ideal)) (c : Dev nD) :
    (dat7 (F := Ideal) (fun c b => StableHlo.after hostOps7 (Xf c) (Proc.devRef .tc b)) c).arrAt 15 cfg7.N
      = nodeF false (sc3 (Xf c (Proc.devRef .tc main_arg5)) ix0) (Xf c (Proc.devRef .tc main_v183)) (aggOp (Xf c (Proc.devRef .tc main_v3)) (Xf c (Proc.devRef .tc main_v194))) (mat3 (Xf c (Proc.devRef .tc main_arg6)))
        (row3 (Xf c (Proc.devRef .tc main_arg7))) (row3 (Xf c (Proc.devRef .tc main_arg8))) (row3 (Xf c (Proc.devRef .tc main_arg9))) (row3 (Xf c (Proc.devRef .tc main_arg10))) (row3 (Xf c (Proc.devRef .tc main_arg11)))
        (mat3 (Xf c (Proc.devRef .tc main_arg12))) (row3 (Xf c (Proc.devRef .tc main_arg13))) (row3 (Xf c (Proc.devRef .tc main_arg14))) (row3 (Xf c (Proc.devRef .tc main_arg15))) (row3 (Xf c (Proc.devRef .tc main_arg16))) (row3 (Xf c (Proc.devRef .tc main_arg17))) := by
  refine (knode7 _ c).trans (Eq.trans ?_ (nodeF_casts false _ _ _ _ _ _ _ _ _ _ _ _ _ _ _ shapeCasts_S_S1x1 shapeCasts_S128_S1x128))
  after_results_simp
  rfl

end Host

variable (m : (ℓ : Loc nD τ sig) → Buf (Elt Ideal) ℓ) (ρ : Dev nD → PrngReg)

theorem layer3_value (c : Dev nD) (hea : ∀ i, (m ((c : Thread nD τ).loc main_arg2) i).toNat < 4) :
    W16 m ρ c (Proc.devRef .tc main_v237)
      = lyr3 (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
          (W12 m ρ c (Proc.devRef .tc main_v183)) := by
  have hu : W14 m ρ c (Proc.devRef .tc main_v194) = _ :=
    (W14_arr m ρ c 3).trans ((kmsg6 (V13 m ρ) c ((inv13 m ρ c).ea_lt hea)).trans
      ((l3_in (W12 m ρ c)).1.trans (msg_of_kept (inv12 m ρ c) tbl3 _)))
  have hh : W14 m ρ c (Proc.devRef .tc main_v183) = _ := (W14_of_ne m ρ c main_v183 (by decide)).trans (l3_in (W12 m ρ c)).2
  refine (W16_arr m ρ c 15).trans ((l3_node (W14 m ρ) c).trans ?_)
  rw [hu, hh]
  exact layer_of_kept (inv14 m ρ c) false tbl3 sc3 mat3 row3 _

end Cert.Gin

end
-- ==== Proof.KMsg8.lean ====
import proofs.«402997_j6614249635914_3_alg».proof.Proof.KMsg0

noncomputable section

namespace Cert.Gin

open Idealize.ShloMosaic Idealize.ShloMosaic.ValueIdx Idealize.ShloMosaic.TcCoe Cert.KernelIdeal Cert.KernelIdeal.Gen
open Idealize.ShloMosaic.Pipeline (Dat)

-- By definition the region's grid, windows and body are region 0's; only the arrays differ.
theorem kmsg8 (V : (c : Dev nD) → (b : Ref sig .tc) → Buf (Elt Ideal) ((c : Thread nD τ).loc b)) (c : Dev nD)
    (hea : ∀ i, (V c main_arg2 i).toNat < 4) :
    (dat8 (F := Ideal) V c).arrAt 3 cfg8.N = msgF (V c main_arg2) (V c main_v245) (V c main_v247) :=
  (dat8 (F := Ideal) V c).arrAt_eq_of_cover 3 (msgF (V c main_arg2) (V c main_v245) (V c main_v247))
    (fun t _ => by
      show (cfg8.win 3).cut (grid8.coords t) ((dat8 (F := Ideal) V c).after 3 t) = _
      rw [after8_3]
      exact kmsg_flushed (V c main_arg2) (V c main_v245) (V c main_v247) hea t) kmsg_cover

end Cert.Gin

end
-- ==== Proof.KNode9.lean ====
import proofs.«402997_j6614249635914_3_alg».proof.Proof.KNode1

noncomputable section

namespace Cert.Gin

open Idealize.ShloMosaic Idealize.ShloMosaic.ValueIdx Idealize.ShloMosaic.TcCoe Cert.KernelIdeal Cert.KernelIdeal.Gen
open Cert.KernelIdeal.Facts₀ Cert.KernelIdeal.Facts
open Idealize.ShloMosaic.Pipeline (Dat)

theorem second9_apply (u : FVec Ideal S5000x128 .f32) (v39 : FVec Ideal S128x128 .f32)
    (v43 v49 v54 v58 v63 : FVec Ideal S1x128 .f32) (r : Fin 5000) (j : Fin 128) :
    k9_pay1 (F := Ideal) u v39 v43 v49 v54 v58 v63 (ix2 r j)
      = bnormRow (rectRow (affineRow (fun k => u (ix2 r k)) v39 (rowVec v43)))
          (rowVec v58) (rowVec v63) (rowVec v54) (rowVec v49) j := by
  unfold k9_pay1
  simp only [shapeCast_self, maximumf_apply, addf_apply, subf_apply, mulf_apply, matmul_block_apply, broadcast_row_apply,
    truncf_apply, broadcast_apply, Ideal.ofBits_def, Ideal.ofBits_zero_f32]
  rfl

-- The last layer's body: its first half is region 1's by definition, its second half has no closing rectifier.
theorem out9_apply : RowBody true (out9_15 (F := Ideal)) := by
  intro x0 x1 x2 x3 x4 x5 x6 x7 x8 x9 x10 x11 x12 x13 x14 r j
  unfold out9_15
  rw [View.canon_unit_zero zero_offsets]
  simp only [View.ld_unit_zero (S := S5000x128) zero_offsets, View.ld_unit_zero (S := S1x1) zero_offsets,
    View.ld_unit_zero (S := S128x128) zero_offsets, View.ld_unit_zero (S := S1x128) zero_offsets]
  rw [second9_apply]
  simp only [show ∀ v0 v2 v6 v10 v14 v18 v23 v27 v32 (r : Fin 5000) (j : Fin 128),
    k9_pay2 (F := Ideal) v0 v2 v6 v10 v14 v18 v23 v27 v32 (ix2 r j) = _ from first1_apply]
  rfl

variable (V : (c : Dev nD) → (b : Ref sig .tc) → Buf (Elt Ideal) ((c : Thread nD τ).loc b))

-- By definition the region's grid and windows are region 1's; only the arrays and the body differ.
theorem knode9 (c : Dev nD) :
    (dat9 (F := Ideal) V c).arrAt 15 cfg9.N =
      nodeF true (V c main_v256 (ix2 0 0)) (V c main_v237) (V c main_v252) (V c main_v258)
        (fun i => V c main_v261 (ix2 0 (i 0))) (fun i => V c main_v264 (ix2 0 (i 0))) (fun i => V c main_v267 (ix2 0 (i 0))) (fun i => V c main_v270 (ix2 0 (i 0))) (fun i => V c main_v273 (ix2 0 (i 0)))
        (V c main_v275) (fun i => V c main_v278 (ix2 0 (i 0))) (fun i => V c main_v281 (ix2 0 (i 0))) (fun i => V c main_v284 (ix2 0 (i 0))) (fun i => V c main_v287 (ix2 0 (i 0))) (fun i => V c main_v290 (ix2 0 (i 0))) :=
  (dat9 (F := Ideal) V c).arrAt_eq_of_cover 15 _
    (fun t _ => by
      show (cfg9.win 15).cut (grid9.coords t) ((dat9 (F := Ideal) V c).after 15 t) = _
      rw [after9_15]
      exact node_flushed true (out9_15 (F := Ideal)) out9_apply (V c main_v237) (V c main_v252) (V c main_v256) (V c main_v258)
        (V c main_v261) (V c main_v264) (V c main_v267) (V c main_v270) (V c main_v273) (V c main_v275)
        (V c main_v278) (V c main_v281) (V c main_v284) (V c main_v287) (V c main_v290) t) node_cover

end Cert.Gin

end
-- ==== Proof.KLayer4.lean ====
import proofs.«402997_j6614249635914_3_alg».proof.Proof.KKept
import proofs.«402997_j6614249635914_3_alg».proof.Proof.KMsg8
import proofs.«402997_j6614249635914_3_alg».proof.Proof.KNode9

set_option maxRecDepth 16384

noncomputable section

namespace Cert.Gin

open Idealize.ShloMosaic Idealize.ShloMosaic.TcCoe Idealize.ShloMosaic.StableHlo Idealize.ShloMosaic.ValueIdx Cert.KernelIdeal Cert.KernelIdeal.Gen

section Host

variable (X : Valuation τ sig (Elt Ideal))

theorem l4_in :
    msgF (StableHlo.after hostOps8 X (Proc.devRef .tc main_arg2)) (StableHlo.after hostOps8 X (Proc.devRef .tc main_v245)) (StableHlo.after hostOps8 X (Proc.devRef .tc main_v247))
        = msgF (X (Proc.devRef .tc main_arg2)) (gathOp (X (Proc.devRef .tc main_v237)) (X (Proc.devRef .tc main_v1))) (tbl4 (X (Proc.devRef .tc main_arg4)))
      ∧ StableHlo.after hostOps8 X (Proc.devRef .tc main_v237) = X (Proc.devRef .tc main_v237) :=
  ⟨by after_results_simp; rfl, by after_results_simp⟩

theorem l4_node (Xf : Dev nD → Valuation τ sig (Elt Ideal)) (c : Dev nD) :
    (dat9 (F := Ideal) (fun c b => StableHlo.after hostOps9 (Xf c) (Proc.devRef .tc b)) c).arrAt 15 cfg9.N
      = nodeF true (sc4 (Xf c (Proc.devRef .tc main_arg5)) ix0) (Xf c (Proc.devRef .tc main_v237)) (aggOp (Xf c (Proc.devRef .tc main_v3)) (Xf c (Proc.devRef .tc main_v248))) (mat4 (Xf c (Proc.devRef .tc main_arg6)))
        (row4 (Xf c (Proc.devRef .tc main_arg7))) (row4 (Xf c (Proc.devRef .tc main_arg8))) (row4 (Xf c (Proc.devRef .tc main_arg9))) (row4 (Xf c (Proc.devRef .tc main_arg10))) (row4 (Xf c (Proc.devRef .tc main_arg11)))
        (mat4 (Xf c (Proc.devRef .tc main_arg12))) (row4 (Xf c (Proc.devRef .tc main_arg13))) (row4 (Xf c (Proc.devRef .tc main_arg14))) (row4 (Xf c (Proc.devRef .tc main_arg15))) (row4 (Xf c (Proc.devRef .tc main_arg16))) (row4 (Xf c (Proc.devRef .tc main_arg17))) := by
  refine (knode9 _ c).trans (Eq.trans ?_ (nodeF_casts true _ _ _ _ _ _ _ _ _ _ _ _ _ _ _ shapeCasts_S_S1x1 shapeCasts_S128_S1x128))
  after_results_simp
  rfl

end Host

variable (m : (ℓ : Loc nD τ sig) → Buf (Elt Ideal) ℓ) (ρ : Dev nD → PrngReg)

theorem layer4_value (c : Dev nD) (hea : ∀ i, (m ((c : Thread nD τ).loc main_arg2) i).toNat < 4) :
    W20 m ρ c (Proc.devRef .tc main_v291)
      = lyr4 (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
          (W16 m ρ c (Proc.devRef .tc main_v237)) := by
  have hu : W18 m ρ c (Proc.devRef .tc main_v248) = _ :=
    (W18_arr m ρ c 3).trans ((kmsg8 (V17 m ρ) c ((inv17 m ρ c).ea_lt hea)).trans
      ((l4_in (W16 m ρ c)).1.trans (msg_of_kept (inv16 m ρ c) tbl4 _)))
  have hh : W18 m ρ c (Proc.devRef .tc main_v237) = _ := (W18_of_ne m ρ c main_v237 (by decide)).trans (l4_in (W16 m ρ c)).2
  refine (W20_arr m ρ c 15).trans ((l4_node (W18 m ρ) c).trans ?_)
  rw [hu, hh]
  exact layer_of_kept (inv18 m ρ c) true tbl4 sc4 mat4 row4 _

end Cert.Gin

end
-- ==== Proof.KChain.lean ====
import proofs.«402997_j6614249635914_3_alg».proof.Proof.KLayer0
import proofs.«402997_j6614249635914_3_alg».proof.Proof.KLayer1
import proofs.«402997_j6614249635914_3_alg».proof.Proof.KLayer2
import proofs.«402997_j6614249635914_3_alg».proof.Proof.KLayer3
import proofs.«402997_j6614249635914_3_alg».proof.Proof.KLayer4

set_option maxRecDepth 16384

noncomputable section

namespace Cert.Gin

open Idealize.ShloMosaic Idealize.ShloMosaic.TcCoe Idealize.ShloMosaic.StableHlo Idealize.ShloMosaic.ValueIdx Cert.KernelIdeal Cert.KernelIdeal.Gen

variable (m : (ℓ : Loc nD τ sig) → Buf (Elt Ideal) ℓ) (ρ : Dev nD → PrngReg)

theorem kernel_value (c : Dev nD) (hea : ∀ i, (m ((c : Thread nD τ).loc main_arg2) i).toNat < 4) :
    W20 m ρ c (Proc.devRef .tc main_v291)
      = model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  rw [layer4_value m ρ c hea]
  rw [layer3_value m ρ c hea]
  rw [layer2_value m ρ c hea]
  rw [layer1_value m ρ c hea]
  rw [layer0_value m ρ c hea]
  rfl

end Cert.Gin

end
-- ==== Proof.RROps0.lean ====
import proofs.«402997_j6614249635914_3_alg».proof.Proof.Gen.ReferenceIdeal
import Idealize.ShloMosaic.Lib.StableHlo.Run

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

-- The stretch's operations, in program order (a called function's operations stand in its call's place).
abbrev rops0 : List (HloOp τ sig (Elt F)) :=
  [ nullary main_v0 (iotaInDim S9 32 0),
    unary main_v0 main_v1 (broadcastInDim S1x9 ![1] bcast_S9_S1x9_1),
    nullary main_c (constantI S_ 32 0#32),
    unary main_c main_v2 (broadcastInDim S1x9 ![] bcast_S_S1x9),
    binary main_v1 main_v2 main_v3 (cmpi .slt),
    nullary main_c_0 (constantI S_ 32 9#32),
    unary main_c_0 main_v4 (broadcastInDim S1x9 ![] bcast_S_S1x9),
    binary main_v1 main_v4 main_v5 addi,
    ternary main_v3 main_v5 main_v1 main_v6 select,
    nullary main_c_1 (constantI S_ 32 0#32),
    unary main_c_1 main_v7 (broadcastInDim S50000x9 ![] bcast_S_S50000x9),
    binary main_arg0 main_v7 main_v8 (cmpi .slt),
    nullary main_c_2 (constantI S_ 32 4#32),
    unary main_c_2 main_v9 (broadcastInDim S50000x9 ![] bcast_S_S50000x9),
    binary main_arg0 main_v9 main_v10 addi,
    ternary main_v8 main_v10 main_arg0 main_v11 select,
    unary main_v6 main_v12 (broadcastInDim S50000x9 ![0, 1] bcast_S1x9_S50000x9_0_1),
    unary main_v12 main_v13 (broadcastInDim S50000x9x1 ![0, 1] bcast_S50000x9_S50000x9x1_0_1),
    unary main_v11 main_v14 (broadcastInDim S50000x9x1 ![0, 1] bcast_S50000x9_S50000x9x1_0_1),
    binary main_v13 main_v14 main_v15 (fun a b => concatenate S50000x9x2 2 [⟨S50000x9x1, a⟩, ⟨S50000x9x1, b⟩] concatenates_S50000x9x1_S50000x9x1_S50000x9x2_d2),
    binary main_arg3 main_v15 main_v16 (fun x i => Host.gather gather_S9x4x128_S50000x9x2_S50000x9x128_2_01_n_n_01_2_11128 x i),
    nullary main_cst (constant S_ .f32 0x00000000#32),
    binary main_v16 main_cst main_v17 (fun x v => Host.reduceAdd x v reducesTo_S50000x9x128_S50000x128_d1 h_S_),
    unary main_arg1 main_v18 (extractStridedSlice S1x600000 ![0, 0] · slices_S2x600000_S1x600000_0_0),
    reshape main_v18 main_v19 rfl shapeCasts_S1x600000_S600000,
    unary main_arg1 main_v20 (extractStridedSlice S1x600000 ![1, 0] · slices_S2x600000_S1x600000_1_0),
    reshape main_v20 main_v21 rfl shapeCasts_S1x600000_S600000,
    unary main_arg4 main_v22 (extractStridedSlice S1x3x4x128 ![0, 0, 0, 0] · slices_S5x3x4x128_S1x3x4x128_0_0_0_0),
    reshape main_v22 main_v23 rfl shapeCasts_S1x3x4x128_S3x4x128,
    nullary main_v24 (iotaInDim S3 32 0),
    unary main_v24 main_v25 (broadcastInDim S1x3 ![1] bcast_S3_S1x3_1),
    nullary main_c_3 (constantI S_ 32 0#32),
    unary main_c_3 main_v26 (broadcastInDim S1x3 ![] bcast_S_S1x3),
    binary main_v25 main_v26 main_v27 (cmpi .slt),
    nullary main_c_4 (constantI S_ 32 3#32),
    unary main_c_4 main_v28 (broadcastInDim S1x3 ![] bcast_S_S1x3),
    binary main_v25 main_v28 main_v29 addi,
    ternary main_v27 main_v29 main_v25 main_v30 select,
    nullary main_c_5 (constantI S_ 32 0#32),
    unary main_c_5 main_v31 (broadcastInDim S600000x3 ![] bcast_S_S600000x3),
    binary main_arg2 main_v31 main_v32 (cmpi .slt),
    nullary main_c_6 (constantI S_ 32 4#32),
    unary main_c_6 main_v33 (broadcastInDim S600000x3 ![] bcast_S_S600000x3),
    binary main_arg2 main_v33 main_v34 addi,
    ternary main_v32 main_v34 main_arg2 main_v35 select,
    unary main_v30 main_v36 (broadcastInDim S600000x3 ![0, 1] bcast_S1x3_S600000x3_0_1),
    unary main_v36 main_v37 (broadcastInDim S600000x3x1 ![0, 1] bcast_S600000x3_S600000x3x1_0_1),
    unary main_v35 main_v38 (broadcastInDim S600000x3x1 ![0, 1] bcast_S600000x3_S600000x3x1_0_1),
    binary main_v37 main_v38 main_v39 (fun a b => concatenate S600000x3x2 2 [⟨S600000x3x1, a⟩, ⟨S600000x3x1, b⟩] concatenates_S600000x3x1_S600000x3x1_S600000x3x2_d2),
    binary main_v23 main_v39 main_v40 (fun x i => Host.gather gather_S3x4x128_S600000x3x2_S600000x3x128_2_01_n_n_01_2_11128 x i),
    nullary main_cst_7 (constant S_ .f32 0x00000000#32),
    binary main_v40 main_cst_7 main_v41 (fun x v => Host.reduceAdd x v reducesTo_S600000x3x128_S600000x128_d1 h_S_),
    nullary main_c_8 (constantI S_ 32 0#32),
    unary main_c_8 main_v42 (broadcastInDim S600000 ![] bcast_S_S600000),
    binary main_v19 main_v42 main_v43 (cmpi .slt),
    nullary main_c_9 (constantI S_ 32 50000#32),
    unary main_c_9 main_v44 (broadcastInDim S600000 ![] bcast_S_S600000),
    binary main_v19 main_v44 main_v45 addi,
    ternary main_v43 main_v45 main_v19 main_v46 select,
    unary main_v46 main_v47 (broadcastInDim S600000x1 ![0] bcast_S600000_S600000x1_0) ]

end Cert.Gin

end
-- ==== Proof.RRun0.lean ====
import proofs.«402997_j6614249635914_3_alg».proof.Proof.Gen.ReferenceIdeal
import Idealize.ShloMosaic.Lib.StableHlo.Run
import proofs.«402997_j6614249635914_3_alg».proof.Proof.RROps0

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem rpart0_eq (c : Dev nD) : main_part0 (F := F) c = seq rops0 := rfl

set_option maxRecDepth 8192 in
theorem rops0_sub : (rops0 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., unary_bufs_sub .., reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub ..⟩

-- No operation of the stretch allocates: each determines its results.
set_option maxRecDepth 8192 in
theorem rops0_fresh : ∀ op ∈ (rops0 : List (HloOp τ sig (Elt F))), op.fresh = ∅ :=
  List.forall_iff_forall_mem.1 (by
    simp only [rops0, List.Forall]
    repeat' apply And.intro
    all_goals rfl)

end Cert.Gin

end
-- ==== Proof.RROps1.lean ====
import proofs.«402997_j6614249635914_3_alg».proof.Proof.Gen.ReferenceIdeal
import Idealize.ShloMosaic.Lib.StableHlo.Run

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

-- The stretch's operations, in program order (a called function's operations stand in its call's place).
abbrev rops1 : List (HloOp τ sig (Elt F)) :=
  [ binary main_v17 main_v47 main_v48 (fun x i => Host.gather gather_S50000x128_S600000x1_S600000x128_1_0_n_n_0_1_1128 x i),
    binary main_v48 main_v41 main_v49 addf,
    TRef.nullary (TRef.of (T := ⟨S_, .f32⟩) main_call0_cst) (constant S_ .f32 0x00000000#32),
    TRef.unary (TRef.of (T := ⟨S_, .f32⟩) main_call0_cst) (TRef.of (T := ⟨S600000x128, .f32⟩) main_call0_v0) (broadcastInDim S600000x128 ![] bcast_S_S600000x128),
    TRef.binary (TRef.of (T := ⟨S600000x128, .f32⟩) main_v49) (TRef.of (T := ⟨S600000x128, .f32⟩) main_call0_v0) (TRef.of (T := ⟨S600000x128, .f32⟩) main_v50) maximumf,
    nullary main_cst_10 (constant S_ .f32 0x00000000#32),
    unary main_cst_10 main_v51 (broadcastInDim S50000x128 ![] bcast_S_S50000x128),
    unary main_v21 main_v52 (broadcastInDim S600000x1 ![0] bcast_S600000_S600000x1_0),
    ternary main_v51 main_v52 main_v50 main_v53 (fun x i u => Host.scatterAdd scatter_S50000x128_S600000x1_S600000x128_1_0_0_1 x i u),
    unary main_arg5 main_v54 (extractStridedSlice S1 ![0] · slices_S5_S1_0),
    reshape main_v54 main_v55 rfl shapeCasts_S1_S_,
    nullary main_cst_11 (constant S_ .f32 0x3F800000#32),
    binary main_cst_11 main_v55 main_v56 addf,
    unary main_v56 main_v57 (broadcastInDim S50000x128 ![] bcast_S_S50000x128),
    binary main_v57 main_v17 main_v58 mulf,
    binary main_v58 main_v53 main_v59 addf,
    unary main_arg6 main_v60 (extractStridedSlice S1x128x128 ![0, 0, 0] · slices_S5x128x128_S1x128x128_0_0_0),
    reshape main_v60 main_v61 rfl shapeCasts_S1x128x128_S128x128,
    binary main_v59 main_v61 main_v62 (fun l r => Host.dotGeneral dot_S50000x128_S128x128_S50000x128_1_0_0_1_n_n none l r),
    unary main_arg7 main_v63 (extractStridedSlice S1x128 ![0, 0] · slices_S5x128_S1x128_0_0),
    reshape main_v63 main_v64 rfl shapeCasts_S1x128_S128,
    unary main_v64 main_v65 (broadcastInDim S1x128 ![1] bcast_S128_S1x128_1),
    unary main_v65 main_v66 (broadcastInDim S50000x128 ![0, 1] bcast_S1x128_S50000x128_0_1),
    binary main_v62 main_v66 main_v67 addf,
    unary main_arg8 main_v68 (extractStridedSlice S1x128 ![0, 0] · slices_S5x128_S1x128_0_0),
    reshape main_v68 main_v69 rfl shapeCasts_S1x128_S128,
    unary main_arg9 main_v70 (extractStridedSlice S1x128 ![0, 0] · slices_S5x128_S1x128_0_0),
    reshape main_v70 main_v71 rfl shapeCasts_S1x128_S128,
    unary main_arg10 main_v72 (extractStridedSlice S1x128 ![0, 0] · slices_S5x128_S1x128_0_0),
    reshape main_v72 main_v73 rfl shapeCasts_S1x128_S128,
    unary main_arg11 main_v74 (extractStridedSlice S1x128 ![0, 0] · slices_S5x128_S1x128_0_0),
    reshape main_v74 main_v75 rfl shapeCasts_S1x128_S128,
    unary main_v73 main_v76 (broadcastInDim S1x128 ![1] bcast_S128_S1x128_1),
    unary main_v76 main_v77 (broadcastInDim S50000x128 ![0, 1] bcast_S1x128_S50000x128_0_1),
    binary main_v67 main_v77 main_v78 subf,
    nullary main_cst_12 (constant S_ .f32 0x3727C5AC#32),
    unary main_cst_12 main_v79 (broadcastInDim S128 ![] bcast_S_S128),
    binary main_v75 main_v79 main_v80 addf,
    unary main_v80 main_v81 Host.rsqrt,
    binary main_v69 main_v81 main_v82 mulf,
    unary main_v82 main_v83 (broadcastInDim S1x128 ![1] bcast_S128_S1x128_1),
    unary main_v83 main_v84 (broadcastInDim S50000x128 ![0, 1] bcast_S1x128_S50000x128_0_1),
    binary main_v78 main_v84 main_v85 mulf,
    unary main_v71 main_v86 (broadcastInDim S1x128 ![1] bcast_S128_S1x128_1),
    unary main_v86 main_v87 (broadcastInDim S50000x128 ![0, 1] bcast_S1x128_S50000x128_0_1),
    binary main_v85 main_v87 main_v88 addf,
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v88) (TRef.of (T := ⟨S50000x128, .f32⟩) main_call1_v0) (TRef.of (T := ⟨S50000x128, .f32⟩) main_v89) maximumf,
    unary main_arg12 main_v90 (extractStridedSlice S1x128x128 ![0, 0, 0] · slices_S5x128x128_S1x128x128_0_0_0),
    reshape main_v90 main_v91 rfl shapeCasts_S1x128x128_S128x128,
    binary main_v89 main_v91 main_v92 (fun l r => Host.dotGeneral dot_S50000x128_S128x128_S50000x128_1_0_0_1_n_n none l r),
    unary main_arg13 main_v93 (extractStridedSlice S1x128 ![0, 0] · slices_S5x128_S1x128_0_0),
    reshape main_v93 main_v94 rfl shapeCasts_S1x128_S128,
    unary main_v94 main_v95 (broadcastInDim S1x128 ![1] bcast_S128_S1x128_1),
    unary main_v95 main_v96 (broadcastInDim S50000x128 ![0, 1] bcast_S1x128_S50000x128_0_1),
    binary main_v92 main_v96 main_v97 addf,
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v97) (TRef.of (T := ⟨S50000x128, .f32⟩) main_call2_v0) (TRef.of (T := ⟨S50000x128, .f32⟩) main_v98) maximumf,
    unary main_arg14 main_v99 (extractStridedSlice S1x128 ![0, 0] · slices_S5x128_S1x128_0_0),
    reshape main_v99 main_v100 rfl shapeCasts_S1x128_S128,
    unary main_arg15 main_v101 (extractStridedSlice S1x128 ![0, 0] · slices_S5x128_S1x128_0_0),
    reshape main_v101 main_v102 rfl shapeCasts_S1x128_S128,
    unary main_arg16 main_v103 (extractStridedSlice S1x128 ![0, 0] · slices_S5x128_S1x128_0_0),
    reshape main_v103 main_v104 rfl shapeCasts_S1x128_S128 ]

end Cert.Gin

end
-- ==== Proof.RRun1.lean ====
import proofs.«402997_j6614249635914_3_alg».proof.Proof.Gen.ReferenceIdeal
import Idealize.ShloMosaic.Lib.StableHlo.Run
import proofs.«402997_j6614249635914_3_alg».proof.Proof.RROps1

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem rpart1_eq (c : Dev nD) : main_part1 (F := F) c = seq rops1 := rfl

set_option maxRecDepth 8192 in
theorem rops1_sub : (rops1 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub ..⟩

-- No operation of the stretch allocates: each determines its results.
set_option maxRecDepth 8192 in
theorem rops1_fresh : ∀ op ∈ (rops1 : List (HloOp τ sig (Elt F))), op.fresh = ∅ :=
  List.forall_iff_forall_mem.1 (by
    simp only [rops1, List.Forall]
    repeat' apply And.intro
    all_goals rfl)

end Cert.Gin

end
-- ==== Proof.RROps2.lean ====
import proofs.«402997_j6614249635914_3_alg».proof.Proof.Gen.ReferenceIdeal
import Idealize.ShloMosaic.Lib.StableHlo.Run

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

-- The stretch's operations, in program order (a called function's operations stand in its call's place).
abbrev rops2 : List (HloOp τ sig (Elt F)) :=
  [ unary main_arg17 main_v105 (extractStridedSlice S1x128 ![0, 0] · slices_S5x128_S1x128_0_0),
    reshape main_v105 main_v106 rfl shapeCasts_S1x128_S128,
    unary main_v104 main_v107 (broadcastInDim S1x128 ![1] bcast_S128_S1x128_1),
    unary main_v107 main_v108 (broadcastInDim S50000x128 ![0, 1] bcast_S1x128_S50000x128_0_1),
    binary main_v98 main_v108 main_v109 subf,
    nullary main_cst_13 (constant S_ .f32 0x3727C5AC#32),
    unary main_cst_13 main_v110 (broadcastInDim S128 ![] bcast_S_S128),
    binary main_v106 main_v110 main_v111 addf,
    unary main_v111 main_v112 Host.rsqrt,
    binary main_v100 main_v112 main_v113 mulf,
    unary main_v113 main_v114 (broadcastInDim S1x128 ![1] bcast_S128_S1x128_1),
    unary main_v114 main_v115 (broadcastInDim S50000x128 ![0, 1] bcast_S1x128_S50000x128_0_1),
    binary main_v109 main_v115 main_v116 mulf,
    unary main_v102 main_v117 (broadcastInDim S1x128 ![1] bcast_S128_S1x128_1),
    unary main_v117 main_v118 (broadcastInDim S50000x128 ![0, 1] bcast_S1x128_S50000x128_0_1),
    binary main_v116 main_v118 main_v119 addf,
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v119) (TRef.of (T := ⟨S50000x128, .f32⟩) main_call3_v0) (TRef.of (T := ⟨S50000x128, .f32⟩) main_v120) maximumf,
    unary main_arg4 main_v121 (extractStridedSlice S1x3x4x128 ![1, 0, 0, 0] · slices_S5x3x4x128_S1x3x4x128_1_0_0_0),
    reshape main_v121 main_v122 rfl shapeCasts_S1x3x4x128_S3x4x128,
    nullary main_v123 (iotaInDim S3 32 0),
    unary main_v123 main_v124 (broadcastInDim S1x3 ![1] bcast_S3_S1x3_1),
    nullary main_c_14 (constantI S_ 32 0#32),
    unary main_c_14 main_v125 (broadcastInDim S1x3 ![] bcast_S_S1x3),
    binary main_v124 main_v125 main_v126 (cmpi .slt),
    nullary main_c_15 (constantI S_ 32 3#32),
    unary main_c_15 main_v127 (broadcastInDim S1x3 ![] bcast_S_S1x3),
    binary main_v124 main_v127 main_v128 addi,
    ternary main_v126 main_v128 main_v124 main_v129 select,
    nullary main_c_16 (constantI S_ 32 0#32),
    unary main_c_16 main_v130 (broadcastInDim S600000x3 ![] bcast_S_S600000x3),
    binary main_arg2 main_v130 main_v131 (cmpi .slt),
    nullary main_c_17 (constantI S_ 32 4#32),
    unary main_c_17 main_v132 (broadcastInDim S600000x3 ![] bcast_S_S600000x3),
    binary main_arg2 main_v132 main_v133 addi,
    ternary main_v131 main_v133 main_arg2 main_v134 select,
    unary main_v129 main_v135 (broadcastInDim S600000x3 ![0, 1] bcast_S1x3_S600000x3_0_1),
    unary main_v135 main_v136 (broadcastInDim S600000x3x1 ![0, 1] bcast_S600000x3_S600000x3x1_0_1),
    unary main_v134 main_v137 (broadcastInDim S600000x3x1 ![0, 1] bcast_S600000x3_S600000x3x1_0_1),
    binary main_v136 main_v137 main_v138 (fun a b => concatenate S600000x3x2 2 [⟨S600000x3x1, a⟩, ⟨S600000x3x1, b⟩] concatenates_S600000x3x1_S600000x3x1_S600000x3x2_d2),
    binary main_v122 main_v138 main_v139 (fun x i => Host.gather gather_S3x4x128_S600000x3x2_S600000x3x128_2_01_n_n_01_2_11128 x i),
    nullary main_cst_18 (constant S_ .f32 0x00000000#32),
    binary main_v139 main_cst_18 main_v140 (fun x v => Host.reduceAdd x v reducesTo_S600000x3x128_S600000x128_d1 h_S_),
    nullary main_c_19 (constantI S_ 32 0#32),
    unary main_c_19 main_v141 (broadcastInDim S600000 ![] bcast_S_S600000),
    binary main_v19 main_v141 main_v142 (cmpi .slt),
    nullary main_c_20 (constantI S_ 32 50000#32),
    unary main_c_20 main_v143 (broadcastInDim S600000 ![] bcast_S_S600000),
    binary main_v19 main_v143 main_v144 addi,
    ternary main_v142 main_v144 main_v19 main_v145 select,
    unary main_v145 main_v146 (broadcastInDim S600000x1 ![0] bcast_S600000_S600000x1_0),
    binary main_v120 main_v146 main_v147 (fun x i => Host.gather gather_S50000x128_S600000x1_S600000x128_1_0_n_n_0_1_1128 x i),
    binary main_v147 main_v140 main_v148 addf,
    TRef.nullary (TRef.of (T := ⟨S_, .f32⟩) main_call4_cst) (constant S_ .f32 0x00000000#32),
    TRef.unary (TRef.of (T := ⟨S_, .f32⟩) main_call4_cst) (TRef.of (T := ⟨S600000x128, .f32⟩) main_call4_v0) (broadcastInDim S600000x128 ![] bcast_S_S600000x128),
    TRef.binary (TRef.of (T := ⟨S600000x128, .f32⟩) main_v148) (TRef.of (T := ⟨S600000x128, .f32⟩) main_call4_v0) (TRef.of (T := ⟨S600000x128, .f32⟩) main_v149) maximumf,
    nullary main_cst_21 (constant S_ .f32 0x00000000#32),
    unary main_cst_21 main_v150 (broadcastInDim S50000x128 ![] bcast_S_S50000x128),
    unary main_v21 main_v151 (broadcastInDim S600000x1 ![0] bcast_S600000_S600000x1_0),
    ternary main_v150 main_v151 main_v149 main_v152 (fun x i u => Host.scatterAdd scatter_S50000x128_S600000x1_S600000x128_1_0_0_1 x i u),
    unary main_arg5 main_v153 (extractStridedSlice S1 ![1] · slices_S5_S1_1),
    reshape main_v153 main_v154 rfl shapeCasts_S1_S_,
    nullary main_cst_22 (constant S_ .f32 0x3F800000#32) ]

end Cert.Gin

end
-- ==== Proof.RRun2.lean ====
import proofs.«402997_j6614249635914_3_alg».proof.Proof.Gen.ReferenceIdeal
import Idealize.ShloMosaic.Lib.StableHlo.Run
import proofs.«402997_j6614249635914_3_alg».proof.Proof.RROps2

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem rpart2_eq (c : Dev nD) : main_part2 (F := F) c = seq rops2 := rfl

set_option maxRecDepth 8192 in
theorem rops2_sub : (rops2 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub ..⟩

-- No operation of the stretch allocates: each determines its results.
set_option maxRecDepth 8192 in
theorem rops2_fresh : ∀ op ∈ (rops2 : List (HloOp τ sig (Elt F))), op.fresh = ∅ :=
  List.forall_iff_forall_mem.1 (by
    simp only [rops2, List.Forall]
    repeat' apply And.intro
    all_goals rfl)

end Cert.Gin

end
-- ==== Proof.RROps3.lean ====
import proofs.«402997_j6614249635914_3_alg».proof.Proof.Gen.ReferenceIdeal
import Idealize.ShloMosaic.Lib.StableHlo.Run

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

-- The stretch's operations, in program order (a called function's operations stand in its call's place).
abbrev rops3 : List (HloOp τ sig (Elt F)) :=
  [ binary main_cst_22 main_v154 main_v155 addf,
    unary main_v155 main_v156 (broadcastInDim S50000x128 ![] bcast_S_S50000x128),
    binary main_v156 main_v120 main_v157 mulf,
    binary main_v157 main_v152 main_v158 addf,
    unary main_arg6 main_v159 (extractStridedSlice S1x128x128 ![1, 0, 0] · slices_S5x128x128_S1x128x128_1_0_0),
    reshape main_v159 main_v160 rfl shapeCasts_S1x128x128_S128x128,
    binary main_v158 main_v160 main_v161 (fun l r => Host.dotGeneral dot_S50000x128_S128x128_S50000x128_1_0_0_1_n_n none l r),
    unary main_arg7 main_v162 (extractStridedSlice S1x128 ![1, 0] · slices_S5x128_S1x128_1_0),
    reshape main_v162 main_v163 rfl shapeCasts_S1x128_S128,
    unary main_v163 main_v164 (broadcastInDim S1x128 ![1] bcast_S128_S1x128_1),
    unary main_v164 main_v165 (broadcastInDim S50000x128 ![0, 1] bcast_S1x128_S50000x128_0_1),
    binary main_v161 main_v165 main_v166 addf,
    unary main_arg8 main_v167 (extractStridedSlice S1x128 ![1, 0] · slices_S5x128_S1x128_1_0),
    reshape main_v167 main_v168 rfl shapeCasts_S1x128_S128,
    unary main_arg9 main_v169 (extractStridedSlice S1x128 ![1, 0] · slices_S5x128_S1x128_1_0),
    reshape main_v169 main_v170 rfl shapeCasts_S1x128_S128,
    unary main_arg10 main_v171 (extractStridedSlice S1x128 ![1, 0] · slices_S5x128_S1x128_1_0),
    reshape main_v171 main_v172 rfl shapeCasts_S1x128_S128,
    unary main_arg11 main_v173 (extractStridedSlice S1x128 ![1, 0] · slices_S5x128_S1x128_1_0),
    reshape main_v173 main_v174 rfl shapeCasts_S1x128_S128,
    unary main_v172 main_v175 (broadcastInDim S1x128 ![1] bcast_S128_S1x128_1),
    unary main_v175 main_v176 (broadcastInDim S50000x128 ![0, 1] bcast_S1x128_S50000x128_0_1),
    binary main_v166 main_v176 main_v177 subf,
    nullary main_cst_23 (constant S_ .f32 0x3727C5AC#32),
    unary main_cst_23 main_v178 (broadcastInDim S128 ![] bcast_S_S128),
    binary main_v174 main_v178 main_v179 addf,
    unary main_v179 main_v180 Host.rsqrt,
    binary main_v168 main_v180 main_v181 mulf,
    unary main_v181 main_v182 (broadcastInDim S1x128 ![1] bcast_S128_S1x128_1),
    unary main_v182 main_v183 (broadcastInDim S50000x128 ![0, 1] bcast_S1x128_S50000x128_0_1),
    binary main_v177 main_v183 main_v184 mulf,
    unary main_v170 main_v185 (broadcastInDim S1x128 ![1] bcast_S128_S1x128_1),
    unary main_v185 main_v186 (broadcastInDim S50000x128 ![0, 1] bcast_S1x128_S50000x128_0_1),
    binary main_v184 main_v186 main_v187 addf,
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v187) (TRef.of (T := ⟨S50000x128, .f32⟩) main_call5_v0) (TRef.of (T := ⟨S50000x128, .f32⟩) main_v188) maximumf,
    unary main_arg12 main_v189 (extractStridedSlice S1x128x128 ![1, 0, 0] · slices_S5x128x128_S1x128x128_1_0_0),
    reshape main_v189 main_v190 rfl shapeCasts_S1x128x128_S128x128,
    binary main_v188 main_v190 main_v191 (fun l r => Host.dotGeneral dot_S50000x128_S128x128_S50000x128_1_0_0_1_n_n none l r),
    unary main_arg13 main_v192 (extractStridedSlice S1x128 ![1, 0] · slices_S5x128_S1x128_1_0),
    reshape main_v192 main_v193 rfl shapeCasts_S1x128_S128,
    unary main_v193 main_v194 (broadcastInDim S1x128 ![1] bcast_S128_S1x128_1),
    unary main_v194 main_v195 (broadcastInDim S50000x128 ![0, 1] bcast_S1x128_S50000x128_0_1),
    binary main_v191 main_v195 main_v196 addf,
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v196) (TRef.of (T := ⟨S50000x128, .f32⟩) main_call6_v0) (TRef.of (T := ⟨S50000x128, .f32⟩) main_v197) maximumf,
    unary main_arg14 main_v198 (extractStridedSlice S1x128 ![1, 0] · slices_S5x128_S1x128_1_0),
    reshape main_v198 main_v199 rfl shapeCasts_S1x128_S128,
    unary main_arg15 main_v200 (extractStridedSlice S1x128 ![1, 0] · slices_S5x128_S1x128_1_0),
    reshape main_v200 main_v201 rfl shapeCasts_S1x128_S128,
    unary main_arg16 main_v202 (extractStridedSlice S1x128 ![1, 0] · slices_S5x128_S1x128_1_0),
    reshape main_v202 main_v203 rfl shapeCasts_S1x128_S128,
    unary main_arg17 main_v204 (extractStridedSlice S1x128 ![1, 0] · slices_S5x128_S1x128_1_0),
    reshape main_v204 main_v205 rfl shapeCasts_S1x128_S128,
    unary main_v203 main_v206 (broadcastInDim S1x128 ![1] bcast_S128_S1x128_1),
    unary main_v206 main_v207 (broadcastInDim S50000x128 ![0, 1] bcast_S1x128_S50000x128_0_1),
    binary main_v197 main_v207 main_v208 subf,
    nullary main_cst_24 (constant S_ .f32 0x3727C5AC#32),
    unary main_cst_24 main_v209 (broadcastInDim S128 ![] bcast_S_S128),
    binary main_v205 main_v209 main_v210 addf,
    unary main_v210 main_v211 Host.rsqrt,
    binary main_v199 main_v211 main_v212 mulf ]

end Cert.Gin

end
-- ==== Proof.RRun3.lean ====
import proofs.«402997_j6614249635914_3_alg».proof.Proof.Gen.ReferenceIdeal
import Idealize.ShloMosaic.Lib.StableHlo.Run
import proofs.«402997_j6614249635914_3_alg».proof.Proof.RROps3

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem rpart3_eq (c : Dev nD) : main_part3 (F := F) c = seq rops3 := rfl

set_option maxRecDepth 8192 in
theorem rops3_sub : (rops3 : List (HloOp τ sig (Elt F))).Forall fun op => op.bufs ⊆ tcRefs τ sig :=
  ⟨binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub ..⟩

-- No operation of the stretch allocates: each determines its results.
set_option maxRecDepth 8192 in
theorem rops3_fresh : ∀ op ∈ (rops3 : List (HloOp τ sig (Elt F))), op.fresh = ∅ :=
  List.forall_iff_forall_mem.1 (by
    simp only [rops3, List.Forall]
    repeat' apply And.intro
    all_goals rfl)

end Cert.Gin

end
-- ==== Proof.RROps4.lean ====
import proofs.«402997_j6614249635914_3_alg».proof.Proof.Gen.ReferenceIdeal
import Idealize.ShloMosaic.Lib.StableHlo.Run

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

-- The stretch's operations, in program order (a called function's operations stand in its call's place).
abbrev rops4 : List (HloOp τ sig (Elt F)) :=
  [ unary main_v212 main_v213 (broadcastInDim S1x128 ![1] bcast_S128_S1x128_1),
    unary main_v213 main_v214 (broadcastInDim S50000x128 ![0, 1] bcast_S1x128_S50000x128_0_1),
    binary main_v208 main_v214 main_v215 mulf,
    unary main_v201 main_v216 (broadcastInDim S1x128 ![1] bcast_S128_S1x128_1),
    unary main_v216 main_v217 (broadcastInDim S50000x128 ![0, 1] bcast_S1x128_S50000x128_0_1),
    binary main_v215 main_v217 main_v218 addf,
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v218) (TRef.of (T := ⟨S50000x128, .f32⟩) main_call7_v0) (TRef.of (T := ⟨S50000x128, .f32⟩) main_v219) maximumf,
    unary main_arg4 main_v220 (extractStridedSlice S1x3x4x128 ![2, 0, 0, 0] · slices_S5x3x4x128_S1x3x4x128_2_0_0_0),
    reshape main_v220 main_v221 rfl shapeCasts_S1x3x4x128_S3x4x128,
    nullary main_v222 (iotaInDim S3 32 0),
    unary main_v222 main_v223 (broadcastInDim S1x3 ![1] bcast_S3_S1x3_1),
    nullary main_c_25 (constantI S_ 32 0#32),
    unary main_c_25 main_v224 (broadcastInDim S1x3 ![] bcast_S_S1x3),
    binary main_v223 main_v224 main_v225 (cmpi .slt),
    nullary main_c_26 (constantI S_ 32 3#32),
    unary main_c_26 main_v226 (broadcastInDim S1x3 ![] bcast_S_S1x3),
    binary main_v223 main_v226 main_v227 addi,
    ternary main_v225 main_v227 main_v223 main_v228 select,
    nullary main_c_27 (constantI S_ 32 0#32),
    unary main_c_27 main_v229 (broadcastInDim S600000x3 ![] bcast_S_S600000x3),
    binary main_arg2 main_v229 main_v230 (cmpi .slt),
    nullary main_c_28 (constantI S_ 32 4#32),
    unary main_c_28 main_v231 (broadcastInDim S600000x3 ![] bcast_S_S600000x3),
    binary main_arg2 main_v231 main_v232 addi,
    ternary main_v230 main_v232 main_arg2 main_v233 select,
    unary main_v228 main_v234 (broadcastInDim S600000x3 ![0, 1] bcast_S1x3_S600000x3_0_1),
    unary main_v234 main_v235 (broadcastInDim S600000x3x1 ![0, 1] bcast_S600000x3_S600000x3x1_0_1),
    unary main_v233 main_v236 (broadcastInDim S600000x3x1 ![0, 1] bcast_S600000x3_S600000x3x1_0_1),
    binary main_v235 main_v236 main_v237 (fun a b => concatenate S600000x3x2 2 [⟨S600000x3x1, a⟩, ⟨S600000x3x1, b⟩] concatenates_S600000x3x1_S600000x3x1_S600000x3x2_d2),
    binary main_v221 main_v237 main_v238 (fun x i => Host.gather gather_S3x4x128_S600000x3x2_S600000x3x128_2_01_n_n_01_2_11128 x i),
    nullary main_cst_29 (constant S_ .f32 0x00000000#32),
    binary main_v238 main_cst_29 main_v239 (fun x v => Host.reduceAdd x v reducesTo_S600000x3x128_S600000x128_d1 h_S_),
    nullary main_c_30 (constantI S_ 32 0#32),
    unary main_c_30 main_v240 (broadcastInDim S600000 ![] bcast_S_S600000),
    binary main_v19 main_v240 main_v241 (cmpi .slt),
    nullary main_c_31 (constantI S_ 32 50000#32),
    unary main_c_31 main_v242 (broadcastInDim S600000 ![] bcast_S_S600000),
    binary main_v19 main_v242 main_v243 addi,
    ternary main_v241 main_v243 main_v19 main_v244 select,
    unary main_v244 main_v245 (broadcastInDim S600000x1 ![0] bcast_S600000_S600000x1_0),
    binary main_v219 main_v245 main_v246 (fun x i => Host.gather gather_S50000x128_S600000x1_S600000x128_1_0_n_n_0_1_1128 x i),
    binary main_v246 main_v239 main_v247 addf,
    TRef.nullary (TRef.of (T := ⟨S_, .f32⟩) main_call8_cst) (constant S_ .f32 0x00000000#32),
    TRef.unary (TRef.of (T := ⟨S_, .f32⟩) main_call8_cst) (TRef.of (T := ⟨S600000x128, .f32⟩) main_call8_v0) (broadcastInDim S600000x128 ![] bcast_S_S600000x128),
    TRef.binary (TRef.of (T := ⟨S600000x128, .f32⟩) main_v247) (TRef.of (T := ⟨S600000x128, .f32⟩) main_call8_v0) (TRef.of (T := ⟨S600000x128, .f32⟩) main_v248) maximumf,
    nullary main_cst_32 (constant S_ .f32 0x00000000#32),
    unary main_cst_32 main_v249 (broadcastInDim S50000x128 ![] bcast_S_S50000x128),
    unary main_v21 main_v250 (broadcastInDim S600000x1 ![0] bcast_S600000_S600000x1_0),
    ternary main_v249 main_v250 main_v248 main_v251 (fun x i u => Host.scatterAdd scatter_S50000x128_S600000x1_S600000x128_1_0_0_1 x i u),
    unary main_arg5 main_v252 (extractStridedSlice S1 ![2] · slices_S5_S1_2),
    reshape main_v252 main_v253 rfl shapeCasts_S1_S_,
    nullary main_cst_33 (constant S_ .f32 0x3F800000#32),
    binary main_cst_33 main_v253 main_v254 addf,
    unary main_v254 main_v255 (broadcastInDim S50000x128 ![] bcast_S_S50000x128),
    binary main_v255 main_v219 main_v256 mulf,
    binary main_v256 main_v251 main_v257 addf,
    unary main_arg6 main_v258 (extractStridedSlice S1x128x128 ![2, 0, 0] · slices_S5x128x128_S1x128x128_2_0_0),
    reshape main_v258 main_v259 rfl shapeCasts_S1x128x128_S128x128,
    binary main_v257 main_v259 main_v260 (fun l r => Host.dotGeneral dot_S50000x128_S128x128_S50000x128_1_0_0_1_n_n none l r),
    unary main_arg7 main_v261 (extractStridedSlice S1x128 ![2, 0] · slices_S5x128_S1x128_2_0),
    reshape main_v261 main_v262 rfl shapeCasts_S1x128_S128,
    unary main_v262 main_v263 (broadcastInDim S1x128 ![1] bcast_S128_S1x128_1) ]

end Cert.Gin

end
-- ==== Proof.RRun4.lean ====
import proofs.«402997_j6614249635914_3_alg».proof.Proof.Gen.ReferenceIdeal
import Idealize.ShloMosaic.Lib.StableHlo.Run
import proofs.«402997_j6614249635914_3_alg».proof.Proof.RROps4

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem rpart4_eq (c : Dev nD) : main_part4 (F := F) c = seq rops4 := rfl

set_option maxRecDepth 8192 in
theorem rops4_sub : (rops4 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub ..⟩

-- No operation of the stretch allocates: each determines its results.
set_option maxRecDepth 8192 in
theorem rops4_fresh : ∀ op ∈ (rops4 : List (HloOp τ sig (Elt F))), op.fresh = ∅ :=
  List.forall_iff_forall_mem.1 (by
    simp only [rops4, List.Forall]
    repeat' apply And.intro
    all_goals rfl)

end Cert.Gin

end
-- ==== Proof.RROps5.lean ====
import proofs.«402997_j6614249635914_3_alg».proof.Proof.Gen.ReferenceIdeal
import Idealize.ShloMosaic.Lib.StableHlo.Run

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

-- The stretch's operations, in program order (a called function's operations stand in its call's place).
abbrev rops5 : List (HloOp τ sig (Elt F)) :=
  [ unary main_v263 main_v264 (broadcastInDim S50000x128 ![0, 1] bcast_S1x128_S50000x128_0_1),
    binary main_v260 main_v264 main_v265 addf,
    unary main_arg8 main_v266 (extractStridedSlice S1x128 ![2, 0] · slices_S5x128_S1x128_2_0),
    reshape main_v266 main_v267 rfl shapeCasts_S1x128_S128,
    unary main_arg9 main_v268 (extractStridedSlice S1x128 ![2, 0] · slices_S5x128_S1x128_2_0),
    reshape main_v268 main_v269 rfl shapeCasts_S1x128_S128,
    unary main_arg10 main_v270 (extractStridedSlice S1x128 ![2, 0] · slices_S5x128_S1x128_2_0),
    reshape main_v270 main_v271 rfl shapeCasts_S1x128_S128,
    unary main_arg11 main_v272 (extractStridedSlice S1x128 ![2, 0] · slices_S5x128_S1x128_2_0),
    reshape main_v272 main_v273 rfl shapeCasts_S1x128_S128,
    unary main_v271 main_v274 (broadcastInDim S1x128 ![1] bcast_S128_S1x128_1),
    unary main_v274 main_v275 (broadcastInDim S50000x128 ![0, 1] bcast_S1x128_S50000x128_0_1),
    binary main_v265 main_v275 main_v276 subf,
    nullary main_cst_34 (constant S_ .f32 0x3727C5AC#32),
    unary main_cst_34 main_v277 (broadcastInDim S128 ![] bcast_S_S128),
    binary main_v273 main_v277 main_v278 addf,
    unary main_v278 main_v279 Host.rsqrt,
    binary main_v267 main_v279 main_v280 mulf,
    unary main_v280 main_v281 (broadcastInDim S1x128 ![1] bcast_S128_S1x128_1),
    unary main_v281 main_v282 (broadcastInDim S50000x128 ![0, 1] bcast_S1x128_S50000x128_0_1),
    binary main_v276 main_v282 main_v283 mulf,
    unary main_v269 main_v284 (broadcastInDim S1x128 ![1] bcast_S128_S1x128_1),
    unary main_v284 main_v285 (broadcastInDim S50000x128 ![0, 1] bcast_S1x128_S50000x128_0_1),
    binary main_v283 main_v285 main_v286 addf,
    TRef.nullary (TRef.of (T := ⟨S_, .f32⟩) main_call9_cst) (constant S_ .f32 0x00000000#32),
    TRef.unary (TRef.of (T := ⟨S_, .f32⟩) main_call9_cst) (TRef.of (T := ⟨S50000x128, .f32⟩) main_call9_v0) (broadcastInDim S50000x128 ![] bcast_S_S50000x128),
    TRef.binary (TRef.of (T := ⟨S50000x128, .f32⟩) main_v286) (TRef.of (T := ⟨S50000x128, .f32⟩) main_call9_v0) (TRef.of (T := ⟨S50000x128, .f32⟩) main_v287) maximumf,
    unary main_arg12 main_v288 (extractStridedSlice S1x128x128 ![2, 0, 0] · slices_S5x128x128_S1x128x128_2_0_0),
    reshape main_v288 main_v289 rfl shapeCasts_S1x128x128_S128x128,
    binary main_v287 main_v289 main_v290 (fun l r => Host.dotGeneral dot_S50000x128_S128x128_S50000x128_1_0_0_1_n_n none l r),
    unary main_arg13 main_v291 (extractStridedSlice S1x128 ![2, 0] · slices_S5x128_S1x128_2_0),
    reshape main_v291 main_v292 rfl shapeCasts_S1x128_S128,
    unary main_v292 main_v293 (broadcastInDim S1x128 ![1] bcast_S128_S1x128_1),
    unary main_v293 main_v294 (broadcastInDim S50000x128 ![0, 1] bcast_S1x128_S50000x128_0_1),
    binary main_v290 main_v294 main_v295 addf,
    TRef.nullary (TRef.of (T := ⟨S_, .f32⟩) main_call10_cst) (constant S_ .f32 0x00000000#32),
    TRef.unary (TRef.of (T := ⟨S_, .f32⟩) main_call10_cst) (TRef.of (T := ⟨S50000x128, .f32⟩) main_call10_v0) (broadcastInDim S50000x128 ![] bcast_S_S50000x128),
    TRef.binary (TRef.of (T := ⟨S50000x128, .f32⟩) main_v295) (TRef.of (T := ⟨S50000x128, .f32⟩) main_call10_v0) (TRef.of (T := ⟨S50000x128, .f32⟩) main_v296) maximumf,
    unary main_arg14 main_v297 (extractStridedSlice S1x128 ![2, 0] · slices_S5x128_S1x128_2_0),
    reshape main_v297 main_v298 rfl shapeCasts_S1x128_S128,
    unary main_arg15 main_v299 (extractStridedSlice S1x128 ![2, 0] · slices_S5x128_S1x128_2_0),
    reshape main_v299 main_v300 rfl shapeCasts_S1x128_S128,
    unary main_arg16 main_v301 (extractStridedSlice S1x128 ![2, 0] · slices_S5x128_S1x128_2_0),
    reshape main_v301 main_v302 rfl shapeCasts_S1x128_S128,
    unary main_arg17 main_v303 (extractStridedSlice S1x128 ![2, 0] · slices_S5x128_S1x128_2_0),
    reshape main_v303 main_v304 rfl shapeCasts_S1x128_S128,
    unary main_v302 main_v305 (broadcastInDim S1x128 ![1] bcast_S128_S1x128_1),
    unary main_v305 main_v306 (broadcastInDim S50000x128 ![0, 1] bcast_S1x128_S50000x128_0_1),
    binary main_v296 main_v306 main_v307 subf,
    nullary main_cst_35 (constant S_ .f32 0x3727C5AC#32),
    unary main_cst_35 main_v308 (broadcastInDim S128 ![] bcast_S_S128),
    binary main_v304 main_v308 main_v309 addf,
    unary main_v309 main_v310 Host.rsqrt,
    binary main_v298 main_v310 main_v311 mulf,
    unary main_v311 main_v312 (broadcastInDim S1x128 ![1] bcast_S128_S1x128_1),
    unary main_v312 main_v313 (broadcastInDim S50000x128 ![0, 1] bcast_S1x128_S50000x128_0_1),
    binary main_v307 main_v313 main_v314 mulf,
    unary main_v300 main_v315 (broadcastInDim S1x128 ![1] bcast_S128_S1x128_1),
    unary main_v315 main_v316 (broadcastInDim S50000x128 ![0, 1] bcast_S1x128_S50000x128_0_1),
    binary main_v314 main_v316 main_v317 addf,
    TRef.nullary (TRef.of (T := ⟨S_, .f32⟩) main_call11_cst) (constant S_ .f32 0x00000000#32),
    TRef.unary (TRef.of (T := ⟨S_, .f32⟩) main_call11_cst) (TRef.of (T := ⟨S50000x128, .f32⟩) main_call11_v0) (broadcastInDim S50000x128 ![] bcast_S_S50000x128),
    TRef.binary (TRef.of (T := ⟨S50000x128, .f32⟩) main_v317) (TRef.of (T := ⟨S50000x128, .f32⟩) main_call11_v0) (TRef.of (T := ⟨S50000x128, .f32⟩) main_v318) maximumf,
    unary main_arg4 main_v319 (extractStridedSlice S1x3x4x128 ![3, 0, 0, 0] · slices_S5x3x4x128_S1x3x4x128_3_0_0_0),
    reshape main_v319 main_v320 rfl shapeCasts_S1x3x4x128_S3x4x128,
    nullary main_v321 (iotaInDim S3 32 0) ]

end Cert.Gin

end
-- ==== Proof.RRun5.lean ====
import proofs.«402997_j6614249635914_3_alg».proof.Proof.Gen.ReferenceIdeal
import Idealize.ShloMosaic.Lib.StableHlo.Run
import proofs.«402997_j6614249635914_3_alg».proof.Proof.RROps5

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem rpart5_eq (c : Dev nD) : main_part5 (F := F) c = seq rops5 := rfl

set_option maxRecDepth 8192 in
theorem rops5_sub : (rops5 : List (HloOp τ sig (Elt F))).Forall fun op => op.bufs ⊆ tcRefs τ sig :=
  ⟨unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., nullary_bufs_sub ..⟩

-- No operation of the stretch allocates: each determines its results.
set_option maxRecDepth 8192 in
theorem rops5_fresh : ∀ op ∈ (rops5 : List (HloOp τ sig (Elt F))), op.fresh = ∅ :=
  List.forall_iff_forall_mem.1 (by
    simp only [rops5, List.Forall]
    repeat' apply And.intro
    all_goals rfl)

end Cert.Gin

end
-- ==== Proof.RROps6.lean ====
import proofs.«402997_j6614249635914_3_alg».proof.Proof.Gen.ReferenceIdeal
import Idealize.ShloMosaic.Lib.StableHlo.Run

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

-- The stretch's operations, in program order (a called function's operations stand in its call's place).
abbrev rops6 : List (HloOp τ sig (Elt F)) :=
  [ unary main_v321 main_v322 (broadcastInDim S1x3 ![1] bcast_S3_S1x3_1),
    nullary main_c_36 (constantI S_ 32 0#32),
    unary main_c_36 main_v323 (broadcastInDim S1x3 ![] bcast_S_S1x3),
    binary main_v322 main_v323 main_v324 (cmpi .slt),
    nullary main_c_37 (constantI S_ 32 3#32),
    unary main_c_37 main_v325 (broadcastInDim S1x3 ![] bcast_S_S1x3),
    binary main_v322 main_v325 main_v326 addi,
    ternary main_v324 main_v326 main_v322 main_v327 select,
    nullary main_c_38 (constantI S_ 32 0#32),
    unary main_c_38 main_v328 (broadcastInDim S600000x3 ![] bcast_S_S600000x3),
    binary main_arg2 main_v328 main_v329 (cmpi .slt),
    nullary main_c_39 (constantI S_ 32 4#32),
    unary main_c_39 main_v330 (broadcastInDim S600000x3 ![] bcast_S_S600000x3),
    binary main_arg2 main_v330 main_v331 addi,
    ternary main_v329 main_v331 main_arg2 main_v332 select,
    unary main_v327 main_v333 (broadcastInDim S600000x3 ![0, 1] bcast_S1x3_S600000x3_0_1),
    unary main_v333 main_v334 (broadcastInDim S600000x3x1 ![0, 1] bcast_S600000x3_S600000x3x1_0_1),
    unary main_v332 main_v335 (broadcastInDim S600000x3x1 ![0, 1] bcast_S600000x3_S600000x3x1_0_1),
    binary main_v334 main_v335 main_v336 (fun a b => concatenate S600000x3x2 2 [⟨S600000x3x1, a⟩, ⟨S600000x3x1, b⟩] concatenates_S600000x3x1_S600000x3x1_S600000x3x2_d2),
    binary main_v320 main_v336 main_v337 (fun x i => Host.gather gather_S3x4x128_S600000x3x2_S600000x3x128_2_01_n_n_01_2_11128 x i),
    nullary main_cst_40 (constant S_ .f32 0x00000000#32),
    binary main_v337 main_cst_40 main_v338 (fun x v => Host.reduceAdd x v reducesTo_S600000x3x128_S600000x128_d1 h_S_),
    nullary main_c_41 (constantI S_ 32 0#32),
    unary main_c_41 main_v339 (broadcastInDim S600000 ![] bcast_S_S600000),
    binary main_v19 main_v339 main_v340 (cmpi .slt),
    nullary main_c_42 (constantI S_ 32 50000#32),
    unary main_c_42 main_v341 (broadcastInDim S600000 ![] bcast_S_S600000),
    binary main_v19 main_v341 main_v342 addi,
    ternary main_v340 main_v342 main_v19 main_v343 select,
    unary main_v343 main_v344 (broadcastInDim S600000x1 ![0] bcast_S600000_S600000x1_0),
    binary main_v318 main_v344 main_v345 (fun x i => Host.gather gather_S50000x128_S600000x1_S600000x128_1_0_n_n_0_1_1128 x i),
    binary main_v345 main_v338 main_v346 addf,
    TRef.nullary (TRef.of (T := ⟨S_, .f32⟩) main_call12_cst) (constant S_ .f32 0x00000000#32),
    TRef.unary (TRef.of (T := ⟨S_, .f32⟩) main_call12_cst) (TRef.of (T := ⟨S600000x128, .f32⟩) main_call12_v0) (broadcastInDim S600000x128 ![] bcast_S_S600000x128),
    TRef.binary (TRef.of (T := ⟨S600000x128, .f32⟩) main_v346) (TRef.of (T := ⟨S600000x128, .f32⟩) main_call12_v0) (TRef.of (T := ⟨S600000x128, .f32⟩) main_v347) maximumf,
    nullary main_cst_43 (constant S_ .f32 0x00000000#32),
    unary main_cst_43 main_v348 (broadcastInDim S50000x128 ![] bcast_S_S50000x128),
    unary main_v21 main_v349 (broadcastInDim S600000x1 ![0] bcast_S600000_S600000x1_0),
    ternary main_v348 main_v349 main_v347 main_v350 (fun x i u => Host.scatterAdd scatter_S50000x128_S600000x1_S600000x128_1_0_0_1 x i u),
    unary main_arg5 main_v351 (extractStridedSlice S1 ![3] · slices_S5_S1_3),
    reshape main_v351 main_v352 rfl shapeCasts_S1_S_,
    nullary main_cst_44 (constant S_ .f32 0x3F800000#32),
    binary main_cst_44 main_v352 main_v353 addf,
    unary main_v353 main_v354 (broadcastInDim S50000x128 ![] bcast_S_S50000x128),
    binary main_v354 main_v318 main_v355 mulf,
    binary main_v355 main_v350 main_v356 addf,
    unary main_arg6 main_v357 (extractStridedSlice S1x128x128 ![3, 0, 0] · slices_S5x128x128_S1x128x128_3_0_0),
    reshape main_v357 main_v358 rfl shapeCasts_S1x128x128_S128x128,
    binary main_v356 main_v358 main_v359 (fun l r => Host.dotGeneral dot_S50000x128_S128x128_S50000x128_1_0_0_1_n_n none l r),
    unary main_arg7 main_v360 (extractStridedSlice S1x128 ![3, 0] · slices_S5x128_S1x128_3_0),
    reshape main_v360 main_v361 rfl shapeCasts_S1x128_S128,
    unary main_v361 main_v362 (broadcastInDim S1x128 ![1] bcast_S128_S1x128_1),
    unary main_v362 main_v363 (broadcastInDim S50000x128 ![0, 1] bcast_S1x128_S50000x128_0_1),
    binary main_v359 main_v363 main_v364 addf,
    unary main_arg8 main_v365 (extractStridedSlice S1x128 ![3, 0] · slices_S5x128_S1x128_3_0),
    reshape main_v365 main_v366 rfl shapeCasts_S1x128_S128,
    unary main_arg9 main_v367 (extractStridedSlice S1x128 ![3, 0] · slices_S5x128_S1x128_3_0),
    reshape main_v367 main_v368 rfl shapeCasts_S1x128_S128,
    unary main_arg10 main_v369 (extractStridedSlice S1x128 ![3, 0] · slices_S5x128_S1x128_3_0),
    reshape main_v369 main_v370 rfl shapeCasts_S1x128_S128,
    unary main_arg11 main_v371 (extractStridedSlice S1x128 ![3, 0] · slices_S5x128_S1x128_3_0),
    reshape main_v371 main_v372 rfl shapeCasts_S1x128_S128 ]

end Cert.Gin

end
-- ==== Proof.RRun6.lean ====
import proofs.«402997_j6614249635914_3_alg».proof.Proof.Gen.ReferenceIdeal
import Idealize.ShloMosaic.Lib.StableHlo.Run
import proofs.«402997_j6614249635914_3_alg».proof.Proof.RROps6

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem rpart6_eq (c : Dev nD) : main_part6 (F := F) c = seq rops6 := rfl

set_option maxRecDepth 8192 in
theorem rops6_sub : (rops6 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub ..⟩

-- No operation of the stretch allocates: each determines its results.
set_option maxRecDepth 8192 in
theorem rops6_fresh : ∀ op ∈ (rops6 : List (HloOp τ sig (Elt F))), op.fresh = ∅ :=
  List.forall_iff_forall_mem.1 (by
    simp only [rops6, List.Forall]
    repeat' apply And.intro
    all_goals rfl)

end Cert.Gin

end
-- ==== Proof.RROps7.lean ====
import proofs.«402997_j6614249635914_3_alg».proof.Proof.Gen.ReferenceIdeal
import Idealize.ShloMosaic.Lib.StableHlo.Run

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

-- The stretch's operations, in program order (a called function's operations stand in its call's place).
abbrev rops7 : List (HloOp τ sig (Elt F)) :=
  [ unary main_v370 main_v373 (broadcastInDim S1x128 ![1] bcast_S128_S1x128_1),
    unary main_v373 main_v374 (broadcastInDim S50000x128 ![0, 1] bcast_S1x128_S50000x128_0_1),
    binary main_v364 main_v374 main_v375 subf,
    nullary main_cst_45 (constant S_ .f32 0x3727C5AC#32),
    unary main_cst_45 main_v376 (broadcastInDim S128 ![] bcast_S_S128),
    binary main_v372 main_v376 main_v377 addf,
    unary main_v377 main_v378 Host.rsqrt,
    binary main_v366 main_v378 main_v379 mulf,
    unary main_v379 main_v380 (broadcastInDim S1x128 ![1] bcast_S128_S1x128_1),
    unary main_v380 main_v381 (broadcastInDim S50000x128 ![0, 1] bcast_S1x128_S50000x128_0_1),
    binary main_v375 main_v381 main_v382 mulf,
    unary main_v368 main_v383 (broadcastInDim S1x128 ![1] bcast_S128_S1x128_1),
    unary main_v383 main_v384 (broadcastInDim S50000x128 ![0, 1] bcast_S1x128_S50000x128_0_1),
    binary main_v382 main_v384 main_v385 addf,
    TRef.nullary (TRef.of (T := ⟨S_, .f32⟩) main_call13_cst) (constant S_ .f32 0x00000000#32),
    TRef.unary (TRef.of (T := ⟨S_, .f32⟩) main_call13_cst) (TRef.of (T := ⟨S50000x128, .f32⟩) main_call13_v0) (broadcastInDim S50000x128 ![] bcast_S_S50000x128),
    TRef.binary (TRef.of (T := ⟨S50000x128, .f32⟩) main_v385) (TRef.of (T := ⟨S50000x128, .f32⟩) main_call13_v0) (TRef.of (T := ⟨S50000x128, .f32⟩) main_v386) maximumf,
    unary main_arg12 main_v387 (extractStridedSlice S1x128x128 ![3, 0, 0] · slices_S5x128x128_S1x128x128_3_0_0),
    reshape main_v387 main_v388 rfl shapeCasts_S1x128x128_S128x128,
    binary main_v386 main_v388 main_v389 (fun l r => Host.dotGeneral dot_S50000x128_S128x128_S50000x128_1_0_0_1_n_n none l r),
    unary main_arg13 main_v390 (extractStridedSlice S1x128 ![3, 0] · slices_S5x128_S1x128_3_0),
    reshape main_v390 main_v391 rfl shapeCasts_S1x128_S128,
    unary main_v391 main_v392 (broadcastInDim S1x128 ![1] bcast_S128_S1x128_1),
    unary main_v392 main_v393 (broadcastInDim S50000x128 ![0, 1] bcast_S1x128_S50000x128_0_1),
    binary main_v389 main_v393 main_v394 addf,
    TRef.nullary (TRef.of (T := ⟨S_, .f32⟩) main_call14_cst) (constant S_ .f32 0x00000000#32),
    TRef.unary (TRef.of (T := ⟨S_, .f32⟩) main_call14_cst) (TRef.of (T := ⟨S50000x128, .f32⟩) main_call14_v0) (broadcastInDim S50000x128 ![] bcast_S_S50000x128),
    TRef.binary (TRef.of (T := ⟨S50000x128, .f32⟩) main_v394) (TRef.of (T := ⟨S50000x128, .f32⟩) main_call14_v0) (TRef.of (T := ⟨S50000x128, .f32⟩) main_v395) maximumf,
    unary main_arg14 main_v396 (extractStridedSlice S1x128 ![3, 0] · slices_S5x128_S1x128_3_0),
    reshape main_v396 main_v397 rfl shapeCasts_S1x128_S128,
    unary main_arg15 main_v398 (extractStridedSlice S1x128 ![3, 0] · slices_S5x128_S1x128_3_0),
    reshape main_v398 main_v399 rfl shapeCasts_S1x128_S128,
    unary main_arg16 main_v400 (extractStridedSlice S1x128 ![3, 0] · slices_S5x128_S1x128_3_0),
    reshape main_v400 main_v401 rfl shapeCasts_S1x128_S128,
    unary main_arg17 main_v402 (extractStridedSlice S1x128 ![3, 0] · slices_S5x128_S1x128_3_0),
    reshape main_v402 main_v403 rfl shapeCasts_S1x128_S128,
    unary main_v401 main_v404 (broadcastInDim S1x128 ![1] bcast_S128_S1x128_1),
    unary main_v404 main_v405 (broadcastInDim S50000x128 ![0, 1] bcast_S1x128_S50000x128_0_1),
    binary main_v395 main_v405 main_v406 subf,
    nullary main_cst_46 (constant S_ .f32 0x3727C5AC#32),
    unary main_cst_46 main_v407 (broadcastInDim S128 ![] bcast_S_S128),
    binary main_v403 main_v407 main_v408 addf,
    unary main_v408 main_v409 Host.rsqrt,
    binary main_v397 main_v409 main_v410 mulf,
    unary main_v410 main_v411 (broadcastInDim S1x128 ![1] bcast_S128_S1x128_1),
    unary main_v411 main_v412 (broadcastInDim S50000x128 ![0, 1] bcast_S1x128_S50000x128_0_1),
    binary main_v406 main_v412 main_v413 mulf,
    unary main_v399 main_v414 (broadcastInDim S1x128 ![1] bcast_S128_S1x128_1),
    unary main_v414 main_v415 (broadcastInDim S50000x128 ![0, 1] bcast_S1x128_S50000x128_0_1),
    binary main_v413 main_v415 main_v416 addf,
    TRef.nullary (TRef.of (T := ⟨S_, .f32⟩) main_call15_cst) (constant S_ .f32 0x00000000#32),
    TRef.unary (TRef.of (T := ⟨S_, .f32⟩) main_call15_cst) (TRef.of (T := ⟨S50000x128, .f32⟩) main_call15_v0) (broadcastInDim S50000x128 ![] bcast_S_S50000x128),
    TRef.binary (TRef.of (T := ⟨S50000x128, .f32⟩) main_v416) (TRef.of (T := ⟨S50000x128, .f32⟩) main_call15_v0) (TRef.of (T := ⟨S50000x128, .f32⟩) main_v417) maximumf,
    unary main_arg4 main_v418 (extractStridedSlice S1x3x4x128 ![4, 0, 0, 0] · slices_S5x3x4x128_S1x3x4x128_4_0_0_0),
    reshape main_v418 main_v419 rfl shapeCasts_S1x3x4x128_S3x4x128,
    nullary main_v420 (iotaInDim S3 32 0),
    unary main_v420 main_v421 (broadcastInDim S1x3 ![1] bcast_S3_S1x3_1),
    nullary main_c_47 (constantI S_ 32 0#32),
    unary main_c_47 main_v422 (broadcastInDim S1x3 ![] bcast_S_S1x3),
    binary main_v421 main_v422 main_v423 (cmpi .slt),
    nullary main_c_48 (constantI S_ 32 3#32),
    unary main_c_48 main_v424 (broadcastInDim S1x3 ![] bcast_S_S1x3),
    binary main_v421 main_v424 main_v425 addi,
    ternary main_v423 main_v425 main_v421 main_v426 select,
    nullary main_c_49 (constantI S_ 32 0#32),
    unary main_c_49 main_v427 (broadcastInDim S600000x3 ![] bcast_S_S600000x3) ]

end Cert.Gin

end
-- ==== Proof.RRun7.lean ====
import proofs.«402997_j6614249635914_3_alg».proof.Proof.Gen.ReferenceIdeal
import Idealize.ShloMosaic.Lib.StableHlo.Run
import proofs.«402997_j6614249635914_3_alg».proof.Proof.RROps7

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem rpart7_eq (c : Dev nD) : main_part7 (F := F) c = seq rops7 := rfl

set_option maxRecDepth 8192 in
theorem rops7_sub : (rops7 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub ..⟩

-- No operation of the stretch allocates: each determines its results.
set_option maxRecDepth 8192 in
theorem rops7_fresh : ∀ op ∈ (rops7 : List (HloOp τ sig (Elt F))), op.fresh = ∅ :=
  List.forall_iff_forall_mem.1 (by
    simp only [rops7, List.Forall]
    repeat' apply And.intro
    all_goals rfl)

end Cert.Gin

end
-- ==== Proof.RROps8.lean ====
import proofs.«402997_j6614249635914_3_alg».proof.Proof.Gen.ReferenceIdeal
import Idealize.ShloMosaic.Lib.StableHlo.Run

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

-- The stretch's operations, in program order (a called function's operations stand in its call's place).
abbrev rops8 : List (HloOp τ sig (Elt F)) :=
  [ binary main_arg2 main_v427 main_v428 (cmpi .slt),
    nullary main_c_50 (constantI S_ 32 4#32),
    unary main_c_50 main_v429 (broadcastInDim S600000x3 ![] bcast_S_S600000x3),
    binary main_arg2 main_v429 main_v430 addi,
    ternary main_v428 main_v430 main_arg2 main_v431 select,
    unary main_v426 main_v432 (broadcastInDim S600000x3 ![0, 1] bcast_S1x3_S600000x3_0_1),
    unary main_v432 main_v433 (broadcastInDim S600000x3x1 ![0, 1] bcast_S600000x3_S600000x3x1_0_1),
    unary main_v431 main_v434 (broadcastInDim S600000x3x1 ![0, 1] bcast_S600000x3_S600000x3x1_0_1),
    binary main_v433 main_v434 main_v435 (fun a b => concatenate S600000x3x2 2 [⟨S600000x3x1, a⟩, ⟨S600000x3x1, b⟩] concatenates_S600000x3x1_S600000x3x1_S600000x3x2_d2),
    binary main_v419 main_v435 main_v436 (fun x i => Host.gather gather_S3x4x128_S600000x3x2_S600000x3x128_2_01_n_n_01_2_11128 x i),
    nullary main_cst_51 (constant S_ .f32 0x00000000#32),
    binary main_v436 main_cst_51 main_v437 (fun x v => Host.reduceAdd x v reducesTo_S600000x3x128_S600000x128_d1 h_S_),
    nullary main_c_52 (constantI S_ 32 0#32),
    unary main_c_52 main_v438 (broadcastInDim S600000 ![] bcast_S_S600000),
    binary main_v19 main_v438 main_v439 (cmpi .slt),
    nullary main_c_53 (constantI S_ 32 50000#32),
    unary main_c_53 main_v440 (broadcastInDim S600000 ![] bcast_S_S600000),
    binary main_v19 main_v440 main_v441 addi,
    ternary main_v439 main_v441 main_v19 main_v442 select,
    unary main_v442 main_v443 (broadcastInDim S600000x1 ![0] bcast_S600000_S600000x1_0),
    binary main_v417 main_v443 main_v444 (fun x i => Host.gather gather_S50000x128_S600000x1_S600000x128_1_0_n_n_0_1_1128 x i),
    binary main_v444 main_v437 main_v445 addf,
    TRef.nullary (TRef.of (T := ⟨S_, .f32⟩) main_call16_cst) (constant S_ .f32 0x00000000#32),
    TRef.unary (TRef.of (T := ⟨S_, .f32⟩) main_call16_cst) (TRef.of (T := ⟨S600000x128, .f32⟩) main_call16_v0) (broadcastInDim S600000x128 ![] bcast_S_S600000x128),
    TRef.binary (TRef.of (T := ⟨S600000x128, .f32⟩) main_v445) (TRef.of (T := ⟨S600000x128, .f32⟩) main_call16_v0) (TRef.of (T := ⟨S600000x128, .f32⟩) main_v446) maximumf,
    nullary main_cst_54 (constant S_ .f32 0x00000000#32),
    unary main_cst_54 main_v447 (broadcastInDim S50000x128 ![] bcast_S_S50000x128),
    unary main_v21 main_v448 (broadcastInDim S600000x1 ![0] bcast_S600000_S600000x1_0),
    ternary main_v447 main_v448 main_v446 main_v449 (fun x i u => Host.scatterAdd scatter_S50000x128_S600000x1_S600000x128_1_0_0_1 x i u),
    unary main_arg5 main_v450 (extractStridedSlice S1 ![4] · slices_S5_S1_4),
    reshape main_v450 main_v451 rfl shapeCasts_S1_S_,
    nullary main_cst_55 (constant S_ .f32 0x3F800000#32),
    binary main_cst_55 main_v451 main_v452 addf,
    unary main_v452 main_v453 (broadcastInDim S50000x128 ![] bcast_S_S50000x128),
    binary main_v453 main_v417 main_v454 mulf,
    binary main_v454 main_v449 main_v455 addf,
    unary main_arg6 main_v456 (extractStridedSlice S1x128x128 ![4, 0, 0] · slices_S5x128x128_S1x128x128_4_0_0),
    reshape main_v456 main_v457 rfl shapeCasts_S1x128x128_S128x128,
    binary main_v455 main_v457 main_v458 (fun l r => Host.dotGeneral dot_S50000x128_S128x128_S50000x128_1_0_0_1_n_n none l r),
    unary main_arg7 main_v459 (extractStridedSlice S1x128 ![4, 0] · slices_S5x128_S1x128_4_0),
    reshape main_v459 main_v460 rfl shapeCasts_S1x128_S128,
    unary main_v460 main_v461 (broadcastInDim S1x128 ![1] bcast_S128_S1x128_1),
    unary main_v461 main_v462 (broadcastInDim S50000x128 ![0, 1] bcast_S1x128_S50000x128_0_1),
    binary main_v458 main_v462 main_v463 addf,
    unary main_arg8 main_v464 (extractStridedSlice S1x128 ![4, 0] · slices_S5x128_S1x128_4_0),
    reshape main_v464 main_v465 rfl shapeCasts_S1x128_S128,
    unary main_arg9 main_v466 (extractStridedSlice S1x128 ![4, 0] · slices_S5x128_S1x128_4_0),
    reshape main_v466 main_v467 rfl shapeCasts_S1x128_S128,
    unary main_arg10 main_v468 (extractStridedSlice S1x128 ![4, 0] · slices_S5x128_S1x128_4_0),
    reshape main_v468 main_v469 rfl shapeCasts_S1x128_S128,
    unary main_arg11 main_v470 (extractStridedSlice S1x128 ![4, 0] · slices_S5x128_S1x128_4_0),
    reshape main_v470 main_v471 rfl shapeCasts_S1x128_S128,
    unary main_v469 main_v472 (broadcastInDim S1x128 ![1] bcast_S128_S1x128_1),
    unary main_v472 main_v473 (broadcastInDim S50000x128 ![0, 1] bcast_S1x128_S50000x128_0_1),
    binary main_v463 main_v473 main_v474 subf,
    nullary main_cst_56 (constant S_ .f32 0x3727C5AC#32),
    unary main_cst_56 main_v475 (broadcastInDim S128 ![] bcast_S_S128),
    binary main_v471 main_v475 main_v476 addf,
    unary main_v476 main_v477 Host.rsqrt,
    binary main_v465 main_v477 main_v478 mulf,
    unary main_v478 main_v479 (broadcastInDim S1x128 ![1] bcast_S128_S1x128_1),
    unary main_v479 main_v480 (broadcastInDim S50000x128 ![0, 1] bcast_S1x128_S50000x128_0_1) ]

end Cert.Gin

end
-- ==== Proof.RRun8.lean ====
import proofs.«402997_j6614249635914_3_alg».proof.Proof.Gen.ReferenceIdeal
import Idealize.ShloMosaic.Lib.StableHlo.Run
import proofs.«402997_j6614249635914_3_alg».proof.Proof.RROps8

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem rpart8_eq (c : Dev nD) : main_part8 (F := F) c = seq rops8 := rfl

set_option maxRecDepth 8192 in
theorem rops8_sub : (rops8 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub ..⟩

-- No operation of the stretch allocates: each determines its results.
set_option maxRecDepth 8192 in
theorem rops8_fresh : ∀ op ∈ (rops8 : List (HloOp τ sig (Elt F))), op.fresh = ∅ :=
  List.forall_iff_forall_mem.1 (by
    simp only [rops8, List.Forall]
    repeat' apply And.intro
    all_goals rfl)

end Cert.Gin

end
-- ==== Proof.RROps9.lean ====
import proofs.«402997_j6614249635914_3_alg».proof.Proof.Gen.ReferenceIdeal
import Idealize.ShloMosaic.Lib.StableHlo.Run

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

-- The stretch's operations, in program order (a called function's operations stand in its call's place).
abbrev rops9 : List (HloOp τ sig (Elt F)) :=
  [ binary main_v474 main_v480 main_v481 mulf,
    unary main_v467 main_v482 (broadcastInDim S1x128 ![1] bcast_S128_S1x128_1),
    unary main_v482 main_v483 (broadcastInDim S50000x128 ![0, 1] bcast_S1x128_S50000x128_0_1),
    binary main_v481 main_v483 main_v484 addf,
    TRef.nullary (TRef.of (T := ⟨S_, .f32⟩) main_call17_cst) (constant S_ .f32 0x00000000#32),
    TRef.unary (TRef.of (T := ⟨S_, .f32⟩) main_call17_cst) (TRef.of (T := ⟨S50000x128, .f32⟩) main_call17_v0) (broadcastInDim S50000x128 ![] bcast_S_S50000x128),
    TRef.binary (TRef.of (T := ⟨S50000x128, .f32⟩) main_v484) (TRef.of (T := ⟨S50000x128, .f32⟩) main_call17_v0) (TRef.of (T := ⟨S50000x128, .f32⟩) main_v485) maximumf,
    unary main_arg12 main_v486 (extractStridedSlice S1x128x128 ![4, 0, 0] · slices_S5x128x128_S1x128x128_4_0_0),
    reshape main_v486 main_v487 rfl shapeCasts_S1x128x128_S128x128,
    binary main_v485 main_v487 main_v488 (fun l r => Host.dotGeneral dot_S50000x128_S128x128_S50000x128_1_0_0_1_n_n none l r),
    unary main_arg13 main_v489 (extractStridedSlice S1x128 ![4, 0] · slices_S5x128_S1x128_4_0),
    reshape main_v489 main_v490 rfl shapeCasts_S1x128_S128,
    unary main_v490 main_v491 (broadcastInDim S1x128 ![1] bcast_S128_S1x128_1),
    unary main_v491 main_v492 (broadcastInDim S50000x128 ![0, 1] bcast_S1x128_S50000x128_0_1),
    binary main_v488 main_v492 main_v493 addf,
    TRef.nullary (TRef.of (T := ⟨S_, .f32⟩) main_call18_cst) (constant S_ .f32 0x00000000#32),
    TRef.unary (TRef.of (T := ⟨S_, .f32⟩) main_call18_cst) (TRef.of (T := ⟨S50000x128, .f32⟩) main_call18_v0) (broadcastInDim S50000x128 ![] bcast_S_S50000x128),
    TRef.binary (TRef.of (T := ⟨S50000x128, .f32⟩) main_v493) (TRef.of (T := ⟨S50000x128, .f32⟩) main_call18_v0) (TRef.of (T := ⟨S50000x128, .f32⟩) main_v494) maximumf,
    unary main_arg14 main_v495 (extractStridedSlice S1x128 ![4, 0] · slices_S5x128_S1x128_4_0),
    reshape main_v495 main_v496 rfl shapeCasts_S1x128_S128,
    unary main_arg15 main_v497 (extractStridedSlice S1x128 ![4, 0] · slices_S5x128_S1x128_4_0),
    reshape main_v497 main_v498 rfl shapeCasts_S1x128_S128,
    unary main_arg16 main_v499 (extractStridedSlice S1x128 ![4, 0] · slices_S5x128_S1x128_4_0),
    reshape main_v499 main_v500 rfl shapeCasts_S1x128_S128,
    unary main_arg17 main_v501 (extractStridedSlice S1x128 ![4, 0] · slices_S5x128_S1x128_4_0),
    reshape main_v501 main_v502 rfl shapeCasts_S1x128_S128,
    unary main_v500 main_v503 (broadcastInDim S1x128 ![1] bcast_S128_S1x128_1),
    unary main_v503 main_v504 (broadcastInDim S50000x128 ![0, 1] bcast_S1x128_S50000x128_0_1),
    binary main_v494 main_v504 main_v505 subf,
    nullary main_cst_57 (constant S_ .f32 0x3727C5AC#32),
    unary main_cst_57 main_v506 (broadcastInDim S128 ![] bcast_S_S128),
    binary main_v502 main_v506 main_v507 addf,
    unary main_v507 main_v508 Host.rsqrt,
    binary main_v496 main_v508 main_v509 mulf,
    unary main_v509 main_v510 (broadcastInDim S1x128 ![1] bcast_S128_S1x128_1),
    unary main_v510 main_v511 (broadcastInDim S50000x128 ![0, 1] bcast_S1x128_S50000x128_0_1),
    binary main_v505 main_v511 main_v512 mulf,
    unary main_v498 main_v513 (broadcastInDim S1x128 ![1] bcast_S128_S1x128_1),
    unary main_v513 main_v514 (broadcastInDim S50000x128 ![0, 1] bcast_S1x128_S50000x128_0_1),
    binary main_v512 main_v514 main_v515 addf ]

end Cert.Gin

end
-- ==== Proof.RRun9.lean ====
import proofs.«402997_j6614249635914_3_alg».proof.Proof.Gen.ReferenceIdeal
import Idealize.ShloMosaic.Lib.StableHlo.Run
import proofs.«402997_j6614249635914_3_alg».proof.Proof.RROps9

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem rpart9_eq (c : Dev nD) : main_part9 (F := F) c = seq rops9 := rfl

set_option maxRecDepth 8192 in
theorem rops9_sub : (rops9 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub ..⟩

-- No operation of the stretch allocates: each determines its results.
set_option maxRecDepth 8192 in
theorem rops9_fresh : ∀ op ∈ (rops9 : List (HloOp τ sig (Elt F))), op.fresh = ∅ :=
  List.forall_iff_forall_mem.1 (by
    simp only [rops9, List.Forall]
    repeat' apply And.intro
    all_goals rfl)

end Cert.Gin

end
-- ==== Proof.RRun.lean ====
import proofs.«402997_j6614249635914_3_alg».proof.Proof.RRun0
import proofs.«402997_j6614249635914_3_alg».proof.Proof.RRun1
import proofs.«402997_j6614249635914_3_alg».proof.Proof.RRun2
import proofs.«402997_j6614249635914_3_alg».proof.Proof.RRun3
import proofs.«402997_j6614249635914_3_alg».proof.Proof.RRun4
import proofs.«402997_j6614249635914_3_alg».proof.Proof.RRun5
import proofs.«402997_j6614249635914_3_alg».proof.Proof.RRun6
import proofs.«402997_j6614249635914_3_alg».proof.Proof.RRun7
import proofs.«402997_j6614249635914_3_alg».proof.Proof.RRun8
import proofs.«402997_j6614249635914_3_alg».proof.Proof.RRun9
import Idealize.ShloMosaic.Lib.StableHlo.Run

noncomputable section

namespace Cert.Gin

open Cert.ReferenceIdeal Cert.ReferenceIdeal.Gen Idealize.ShloMosaic Idealize.ShloMosaic.TcCoe Idealize.SL.Sem Idealize.ShloMosaic.StableHlo

variable {F : FTy → Type} [FloatOps F]

theorem rmain_eq (c : Dev nD) :
    main (F := F) c = seq (rops0 ++ (rops1 ++ (rops2 ++ (rops3 ++ (rops4 ++ (rops5 ++ (rops6 ++ (rops7 ++ (rops8 ++ rops9))))))))) := by
  rw [seq_append, seq_append, seq_append, seq_append, seq_append, seq_append, seq_append, seq_append, seq_append,
    ← rpart0_eq c, ← rpart1_eq c, ← rpart2_eq c, ← rpart3_eq c, ← rpart4_eq c, ← rpart5_eq c, ← rpart6_eq c,
    ← rpart7_eq c, ← rpart8_eq c, ← rpart9_eq c]
  rfl

theorem rscopedRefs_eq : (Finset.univ.filter fun b : Ref sig .tc => b.isScoped) = ∅ := by decide

theorem rscopedSems_eq : (Finset.univ.filter fun sm : SemLoc sig => sm.isScoped .tc) = ∅ := by decide

theorem rops_sub :
    (rops0 ++ (rops1 ++ (rops2 ++ (rops3 ++ (rops4 ++ (rops5 ++ (rops6 ++ (rops7 ++ (rops8 ++ rops9)))))))) : List (HloOp τ sig (Elt F))).Forall fun op => op.bufs ⊆ tcRefs τ sig :=
  List.forall_append.2 ⟨rops0_sub, List.forall_append.2 ⟨rops1_sub, List.forall_append.2 ⟨rops2_sub,
    List.forall_append.2 ⟨rops3_sub, List.forall_append.2 ⟨rops4_sub, List.forall_append.2 ⟨rops5_sub,
      List.forall_append.2 ⟨rops6_sub, List.forall_append.2 ⟨rops7_sub, List.forall_append.2 ⟨rops8_sub, rops9_sub⟩⟩⟩⟩⟩⟩⟩⟩⟩

theorem rfresh :
    ∀ op ∈ (rops0 ++ (rops1 ++ (rops2 ++ (rops3 ++ (rops4 ++ (rops5 ++ (rops6 ++ (rops7 ++ (rops8 ++ rops9)))))))) : List (HloOp τ sig (Elt F))), op.fresh = ∅ := by
  intro op h
  rcases List.mem_append.1 h with h | h
  · exact rops0_fresh op h
  rcases List.mem_append.1 h with h | h
  · exact rops1_fresh op h
  rcases List.mem_append.1 h with h | h
  · exact rops2_fresh op h
  rcases List.mem_append.1 h with h | h
  · exact rops3_fresh op h
  rcases List.mem_append.1 h with h | h
  · exact rops4_fresh op h
  rcases List.mem_append.1 h with h | h
  · exact rops5_fresh op h
  rcases List.mem_append.1 h with h | h
  · exact rops6_fresh op h
  rcases List.mem_append.1 h with h | h
  · exact rops7_fresh op h
  rcases List.mem_append.1 h with h | h
  · exact rops8_fresh op h
  exact rops9_fresh op h

theorem rrun (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = after (rops0 ++ (rops1 ++ (rops2 ++ (rops3 ++ (rops4 ++ (rops5 ++ (rops6 ++ (rops7 ++ (rops8 ++ rops9))))))))) (launchContents m d) (Proc.devRef .tc b) :=
  run_seq rscopedRefs_eq rscopedSems_eq defs main (fun _ => _) rmain_eq (fun _ => rops_sub) m ρ (fun _ => rfresh)

end Cert.Gin

end
-- ==== Proof.RVal.lean ====
import proofs.«402997_j6614249635914_3_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
-- The eighteen argument arrays. Each stage below is one operation of the reference applied to the stages of its operands.
variable (x0 : (⟨S50000x9, .i32⟩ : BufTy).Contents (Elt F)) (x1 : (⟨S2x600000, .i32⟩ : BufTy).Contents (Elt F)) (x2 : (⟨S600000x3, .i32⟩ : BufTy).Contents (Elt F)) (x3 : (⟨S9x4x128, .f32⟩ : BufTy).Contents (Elt F)) (x4 : (⟨S5x3x4x128, .f32⟩ : BufTy).Contents (Elt F)) (x5 : (⟨S5, .f32⟩ : BufTy).Contents (Elt F)) (x6 : (⟨S5x128x128, .f32⟩ : BufTy).Contents (Elt F)) (x7 : (⟨S5x128, .f32⟩ : BufTy).Contents (Elt F)) (x8 : (⟨S5x128, .f32⟩ : BufTy).Contents (Elt F)) (x9 : (⟨S5x128, .f32⟩ : BufTy).Contents (Elt F)) (x10 : (⟨S5x128, .f32⟩ : BufTy).Contents (Elt F)) (x11 : (⟨S5x128, .f32⟩ : BufTy).Contents (Elt F)) (x12 : (⟨S5x128x128, .f32⟩ : BufTy).Contents (Elt F)) (x13 : (⟨S5x128, .f32⟩ : BufTy).Contents (Elt F)) (x14 : (⟨S5x128, .f32⟩ : BufTy).Contents (Elt F)) (x15 : (⟨S5x128, .f32⟩ : BufTy).Contents (Elt F)) (x16 : (⟨S5x128, .f32⟩ : BufTy).Contents (Elt F)) (x17 : (⟨S5x128, .f32⟩ : BufTy).Contents (Elt F))

def val_main_v0 : (⟨S9, .i32⟩ : BufTy).Contents (Elt F) :=
  iotaInDim S9 32 0

def val_main_v1 : (⟨S1x9, .i32⟩ : BufTy).Contents (Elt F) :=
  broadcastInDim S1x9 ![1] bcast_S9_S1x9_1 (val_main_v0 (F := F))

def val_main_c : (⟨S_, .i32⟩ : BufTy).Contents (Elt F) :=
  constantI S_ 32 0#32

def val_main_v2 : (⟨S1x9, .i32⟩ : BufTy).Contents (Elt F) :=
  broadcastInDim S1x9 ![] bcast_S_S1x9 (val_main_c (F := F))

def val_main_v3 : (⟨S1x9, .i1⟩ : BufTy).Contents (Elt F) :=
  cmpi .slt (val_main_v1 (F := F)) (val_main_v2 (F := F))

def val_main_c_0 : (⟨S_, .i32⟩ : BufTy).Contents (Elt F) :=
  constantI S_ 32 9#32

def val_main_v4 : (⟨S1x9, .i32⟩ : BufTy).Contents (Elt F) :=
  broadcastInDim S1x9 ![] bcast_S_S1x9 (val_main_c_0 (F := F))

def val_main_v5 : (⟨S1x9, .i32⟩ : BufTy).Contents (Elt F) :=
  addi (val_main_v1 (F := F)) (val_main_v4 (F := F))

def val_main_v6 : (⟨S1x9, .i32⟩ : BufTy).Contents (Elt F) :=
  select (val_main_v3 (F := F)) (val_main_v5 (F := F)) (val_main_v1 (F := F))

def val_main_c_1 : (⟨S_, .i32⟩ : BufTy).Contents (Elt F) :=
  constantI S_ 32 0#32

def val_main_v7 : (⟨S50000x9, .i32⟩ : BufTy).Contents (Elt F) :=
  broadcastInDim S50000x9 ![] bcast_S_S50000x9 (val_main_c_1 (F := F))

def val_main_v8 : (⟨S50000x9, .i1⟩ : BufTy).Contents (Elt F) :=
  cmpi .slt (x0) (val_main_v7 (F := F))

def val_main_c_2 : (⟨S_, .i32⟩ : BufTy).Contents (Elt F) :=
  constantI S_ 32 4#32

def val_main_v9 : (⟨S50000x9, .i32⟩ : BufTy).Contents (Elt F) :=
  broadcastInDim S50000x9 ![] bcast_S_S50000x9 (val_main_c_2 (F := F))

def val_main_v10 : (⟨S50000x9, .i32⟩ : BufTy).Contents (Elt F) :=
  addi (x0) (val_main_v9 (F := F))

def val_main_v11 : (⟨S50000x9, .i32⟩ : BufTy).Contents (Elt F) :=
  select (val_main_v8 (F := F) x0) (val_main_v10 (F := F) x0) (x0)

def val_main_v12 : (⟨S50000x9, .i32⟩ : BufTy).Contents (Elt F) :=
  broadcastInDim S50000x9 ![0, 1] bcast_S1x9_S50000x9_0_1 (val_main_v6 (F := F))

def val_main_v13 : (⟨S50000x9x1, .i32⟩ : BufTy).Contents (Elt F) :=
  broadcastInDim S50000x9x1 ![0, 1] bcast_S50000x9_S50000x9x1_0_1 (val_main_v12 (F := F))

def val_main_v14 : (⟨S50000x9x1, .i32⟩ : BufTy).Contents (Elt F) :=
  broadcastInDim S50000x9x1 ![0, 1] bcast_S50000x9_S50000x9x1_0_1 (val_main_v11 (F := F) x0)

def val_main_v15 : (⟨S50000x9x2, .i32⟩ : BufTy).Contents (Elt F) :=
  concatenate S50000x9x2 2 [⟨S50000x9x1, (val_main_v13 (F := F))⟩, ⟨S50000x9x1, (val_main_v14 (F := F) x0)⟩] concatenates_S50000x9x1_S50000x9x1_S50000x9x2_d2

def val_main_v16 : (⟨S50000x9x128, .f32⟩ : BufTy).Contents (Elt F) :=
  Host.gather gather_S9x4x128_S50000x9x2_S50000x9x128_2_01_n_n_01_2_11128 (x3) (val_main_v15 (F := F) x0)

def val_main_cst : (⟨S_, .f32⟩ : BufTy).Contents (Elt F) :=
  constant S_ .f32 0x00000000#32

def val_main_v17 : (⟨S50000x128, .f32⟩ : BufTy).Contents (Elt F) :=
  Host.reduceAdd (val_main_v16 (F := F) x0 x3) (val_main_cst (F := F)) reducesTo_S50000x9x128_S50000x128_d1 h_S_

def val_main_v18 : (⟨S1x600000, .i32⟩ : BufTy).Contents (Elt F) :=
  extractStridedSlice S1x600000 ![0, 0] (x1) slices_S2x600000_S1x600000_0_0

def val_main_v19 : (⟨S600000, .i32⟩ : BufTy).Contents (Elt F) :=
  shapeCast _ (val_main_v18 (F := F) x1) shapeCasts_S1x600000_S600000

def val_main_v20 : (⟨S1x600000, .i32⟩ : BufTy).Contents (Elt F) :=
  extractStridedSlice S1x600000 ![1, 0] (x1) slices_S2x600000_S1x600000_1_0

def val_main_v21 : (⟨S600000, .i32⟩ : BufTy).Contents (Elt F) :=
  shapeCast _ (val_main_v20 (F := F) x1) shapeCasts_S1x600000_S600000

def val_main_v22 : (⟨S1x3x4x128, .f32⟩ : BufTy).Contents (Elt F) :=
  extractStridedSlice S1x3x4x128 ![0, 0, 0, 0] (x4) slices_S5x3x4x128_S1x3x4x128_0_0_0_0

def val_main_v23 : (⟨S3x4x128, .f32⟩ : BufTy).Contents (Elt F) :=
  shapeCast _ (val_main_v22 (F := F) x4) shapeCasts_S1x3x4x128_S3x4x128

def val_main_v24 : (⟨S3, .i32⟩ : BufTy).Contents (Elt F) :=
  iotaInDim S3 32 0

def val_main_v25 : (⟨S1x3, .i32⟩ : BufTy).Contents (Elt F) :=
  broadcastInDim S1x3 ![1] bcast_S3_S1x3_1 (val_main_v24 (F := F))

def val_main_c_3 : (⟨S_, .i32⟩ : BufTy).Contents (Elt F) :=
  constantI S_ 32 0#32

def val_main_v26 : (⟨S1x3, .i32⟩ : BufTy).Contents (Elt F) :=
  broadcastInDim S1x3 ![] bcast_S_S1x3 (val_main_c_3 (F := F))

def val_main_v27 : (⟨S1x3, .i1⟩ : BufTy).Contents (Elt F) :=
  cmpi .slt (val_main_v25 (F := F)) (val_main_v26 (F := F))

def val_main_c_4 : (⟨S_, .i32⟩ : BufTy).Contents (Elt F) :=
  constantI S_ 32 3#32

def val_main_v28 : (⟨S1x3, .i32⟩ : BufTy).Contents (Elt F) :=
  broadcastInDim S1x3 ![] bcast_S_S1x3 (val_main_c_4 (F := F))

def val_main_v29 : (⟨S1x3, .i32⟩ : BufTy).Contents (Elt F) :=
  addi (val_main_v25 (F := F)) (val_main_v28 (F := F))

def val_main_v30 : (⟨S1x3, .i32⟩ : BufTy).Contents (Elt F) :=
  select (val_main_v27 (F := F)) (val_main_v29 (F := F)) (val_main_v25 (F := F))

def val_main_c_5 : (⟨S_, .i32⟩ : BufTy).Contents (Elt F) :=
  constantI S_ 32 0#32

def val_main_v31 : (⟨S600000x3, .i32⟩ : BufTy).Contents (Elt F) :=
  broadcastInDim S600000x3 ![] bcast_S_S600000x3 (val_main_c_5 (F := F))

def val_main_v32 : (⟨S600000x3, .i1⟩ : BufTy).Contents (Elt F) :=
  cmpi .slt (x2) (val_main_v31 (F := F))

def val_main_c_6 : (⟨S_, .i32⟩ : BufTy).Contents (Elt F) :=
  constantI S_ 32 4#32

def val_main_v33 : (⟨S600000x3, .i32⟩ : BufTy).Contents (Elt F) :=
  broadcastInDim S600000x3 ![] bcast_S_S600000x3 (val_main_c_6 (F := F))

def val_main_v34 : (⟨S600000x3, .i32⟩ : BufTy).Contents (Elt F) :=
  addi (x2) (val_main_v33 (F := F))

def val_main_v35 : (⟨S600000x3, .i32⟩ : BufTy).Contents (Elt F) :=
  select (val_main_v32 (F := F) x2) (val_main_v34 (F := F) x2) (x2)

def val_main_v36 : (⟨S600000x3, .i32⟩ : BufTy).Contents (Elt F) :=
  broadcastInDim S600000x3 ![0, 1] bcast_S1x3_S600000x3_0_1 (val_main_v30 (F := F))

def val_main_v37 : (⟨S600000x3x1, .i32⟩ : BufTy).Contents (Elt F) :=
  broadcastInDim S600000x3x1 ![0, 1] bcast_S600000x3_S600000x3x1_0_1 (val_main_v36 (F := F))

def val_main_v38 : (⟨S600000x3x1, .i32⟩ : BufTy).Contents (Elt F) :=
  broadcastInDim S600000x3x1 ![0, 1] bcast_S600000x3_S600000x3x1_0_1 (val_main_v35 (F := F) x2)

def val_main_v39 : (⟨S600000x3x2, .i32⟩ : BufTy).Contents (Elt F) :=
  concatenate S600000x3x2 2 [⟨S600000x3x1, (val_main_v37 (F := F))⟩, ⟨S600000x3x1, (val_main_v38 (F := F) x2)⟩] concatenates_S600000x3x1_S600000x3x1_S600000x3x2_d2

def val_main_v40 : (⟨S600000x3x128, .f32⟩ : BufTy).Contents (Elt F) :=
  Host.gather gather_S3x4x128_S600000x3x2_S600000x3x128_2_01_n_n_01_2_11128 (val_main_v23 (F := F) x4) (val_main_v39 (F := F) x2)

def val_main_cst_7 : (⟨S_, .f32⟩ : BufTy).Contents (Elt F) :=
  constant S_ .f32 0x00000000#32

def val_main_v41 : (⟨S600000x128, .f32⟩ : BufTy).Contents (Elt F) :=
  Host.reduceAdd (val_main_v40 (F := F) x2 x4) (val_main_cst_7 (F := F)) reducesTo_S600000x3x128_S600000x128_d1 h_S_

def val_main_c_8 : (⟨S_, .i32⟩ : BufTy).Contents (Elt F) :=
  constantI S_ 32 0#32

def val_main_v42 : (⟨S600000, .i32⟩ : BufTy).Contents (Elt F) :=
  broadcastInDim S600000 ![] bcast_S_S600000 (val_main_c_8 (F := F))

def val_main_v43 : (⟨S600000, .i1⟩ : BufTy).Contents (Elt F) :=
  cmpi .slt (val_main_v19 (F := F) x1) (val_main_v42 (F := F))

def val_main_c_9 : (⟨S_, .i32⟩ : BufTy).Contents (Elt F) :=
  constantI S_ 32 50000#32

def val_main_v44 : (⟨S600000, .i32⟩ : BufTy).Contents (Elt F) :=
  broadcastInDim S600000 ![] bcast_S_S600000 (val_main_c_9 (F := F))

def val_main_v45 : (⟨S600000, .i32⟩ : BufTy).Contents (Elt F) :=
  addi (val_main_v19 (F := F) x1) (val_main_v44 (F := F))

def val_main_v46 : (⟨S600000, .i32⟩ : BufTy).Contents (Elt F) :=
  select (val_main_v43 (F := F) x1) (val_main_v45 (F := F) x1) (val_main_v19 (F := F) x1)

def val_main_v47 : (⟨S600000x1, .i32⟩ : BufTy).Contents (Elt F) :=
  broadcastInDim S600000x1 ![0] bcast_S600000_S600000x1_0 (val_main_v46 (F := F) x1)

def val_main_v48 : (⟨S600000x128, .f32⟩ : BufTy).Contents (Elt F) :=
  Host.gather gather_S50000x128_S600000x1_S600000x128_1_0_n_n_0_1_1128 (val_main_v17 (F := F) x0 x3) (val_main_v47 (F := F) x1)

def val_main_v49 : (⟨S600000x128, .f32⟩ : BufTy).Contents (Elt F) :=
  addf (val_main_v48 (F := F) x0 x1 x3) (val_main_v41 (F := F) x2 x4)

def val_main_call0_cst : (⟨S_, .f32⟩ : BufTy).Contents (Elt F) :=
  constant S_ .f32 0x00000000#32

def val_main_call0_v0 : (⟨S600000x128, .f32⟩ : BufTy).Contents (Elt F) :=
  broadcastInDim S600000x128 ![] bcast_S_S600000x128 (val_main_call0_cst (F := F))

def val_main_v50 : (⟨S600000x128, .f32⟩ : BufTy).Contents (Elt F) :=
  maximumf (val_main_v49 (F := F) x0 x1 x2 x3 x4) (val_main_call0_v0 (F := F))

def val_main_cst_10 : (⟨S_, .f32⟩ : BufTy).Contents (Elt F) :=
  constant S_ .f32 0x00000000#32

def val_main_v51 : (⟨S50000x128, .f32⟩ : BufTy).Contents (Elt F) :=
  broadcastInDim S50000x128 ![] bcast_S_S50000x128 (val_main_cst_10 (F := F))

def val_main_v52 : (⟨S600000x1, .i32⟩ : BufTy).Contents (Elt F) :=
  broadcastInDim S600000x1 ![0] bcast_S600000_S600000x1_0 (val_main_v21 (F := F) x1)

def val_main_v53 : (⟨S50000x128, .f32⟩ : BufTy).Contents (Elt F) :=
  Host.scatterAdd scatter_S50000x128_S600000x1_S600000x128_1_0_0_1 (val_main_v51 (F := F)) (val_main_v52 (F := F) x1) (val_main_v50 (F := F) x0 x1 x2 x3 x4)

def val_main_v54 : (⟨S1, .f32⟩ : BufTy).Contents (Elt F) :=
  extractStridedSlice S1 ![0] (x5) slices_S5_S1_0

def val_main_v55 : (⟨S_, .f32⟩ : BufTy).Contents (Elt F) :=
  shapeCast _ (val_main_v54 (F := F) x5) shapeCasts_S1_S_

def val_main_cst_11 : (⟨S_, .f32⟩ : BufTy).Contents (Elt F) :=
  constant S_ .f32 0x3F800000#32

def val_main_v56 : (⟨S_, .f32⟩ : BufTy).Contents (Elt F) :=
  addf (val_main_cst_11 (F := F)) (val_main_v55 (F := F) x5)

def val_main_v57 : (⟨S50000x128, .f32⟩ : BufTy).Contents (Elt F) :=
  broadcastInDim S50000x128 ![] bcast_S_S50000x128 (val_main_v56 (F := F) x5)

def val_main_v58 : (⟨S50000x128, .f32⟩ : BufTy).Contents (Elt F) :=
  mulf (val_main_v57 (F := F) x5) (val_main_v17 (F := F) x0 x3)

def val_main_v59 : (⟨S50000x128, .f32⟩ : BufTy).Contents (Elt F) :=
  addf (val_main_v58 (F := F) x0 x3 x5) (val_main_v53 (F := F) x0 x1 x2 x3 x4)

def val_main_v60 : (⟨S1x128x128, .f32⟩ : BufTy).Contents (Elt F) :=
  extractStridedSlice S1x128x128 ![0, 0, 0] (x6) slices_S5x128x128_S1x128x128_0_0_0

def val_main_v61 : (⟨S128x128, .f32⟩ : BufTy).Contents (Elt F) :=
  shapeCast _ (val_main_v60 (F := F) x6) shapeCasts_S1x128x128_S128x128

def val_main_v62 : (⟨S50000x128, .f32⟩ : BufTy).Contents (Elt F) :=
  Host.dotGeneral dot_S50000x128_S128x128_S50000x128_1_0_0_1_n_n none (val_main_v59 (F := F) x0 x1 x2 x3 x4 x5) (val_main_v61 (F := F) x6)

def val_main_v63 : (⟨S1x128, .f32⟩ : BufTy).Contents (Elt F) :=
  extractStridedSlice S1x128 ![0, 0] (x7) slices_S5x128_S1x128_0_0

def val_main_v64 : (⟨S128, .f32⟩ : BufTy).Contents (Elt F) :=
  shapeCast _ (val_main_v63 (F := F) x7) shapeCasts_S1x128_S128

def val_main_v65 : (⟨S1x128, .f32⟩ : BufTy).Contents (Elt F) :=
  broadcastInDim S1x128 ![1] bcast_S128_S1x128_1 (val_main_v64 (F := F) x7)

def val_main_v66 : (⟨S50000x128, .f32⟩ : BufTy).Contents (Elt F) :=
  broadcastInDim S50000x128 ![0, 1] bcast_S1x128_S50000x128_0_1 (val_main_v65 (F := F) x7)

def val_main_v67 : (⟨S50000x128, .f32⟩ : BufTy).Contents (Elt F) :=
  addf (val_main_v62 (F := F) x0 x1 x2 x3 x4 x5 x6) (val_main_v66 (F := F) x7)

def val_main_v68 : (⟨S1x128, .f32⟩ : BufTy).Contents (Elt F) :=
  extractStridedSlice S1x128 ![0, 0] (x8) slices_S5x128_S1x128_0_0

def val_main_v69 : (⟨S128, .f32⟩ : BufTy).Contents (Elt F) :=
  shapeCast _ (val_main_v68 (F := F) x8) shapeCasts_S1x128_S128

def val_main_v70 : (⟨S1x128, .f32⟩ : BufTy).Contents (Elt F) :=
  extractStridedSlice S1x128 ![0, 0] (x9) slices_S5x128_S1x128_0_0

def val_main_v71 : (⟨S128, .f32⟩ : BufTy).Contents (Elt F) :=
  shapeCast _ (val_main_v70 (F := F) x9) shapeCasts_S1x128_S128

def val_main_v72 : (⟨S1x128, .f32⟩ : BufTy).Contents (Elt F) :=
  extractStridedSlice S1x128 ![0, 0] (x10) slices_S5x128_S1x128_0_0

def val_main_v73 : (⟨S128, .f32⟩ : BufTy).Contents (Elt F) :=
  shapeCast _ (val_main_v72 (F := F) x10) shapeCasts_S1x128_S128

def val_main_v74 : (⟨S1x128, .f32⟩ : BufTy).Contents (Elt F) :=
  extractStridedSlice S1x128 ![0, 0] (x11) slices_S5x128_S1x128_0_0

def val_main_v75 : (⟨S128, .f32⟩ : BufTy).Contents (Elt F) :=
  shapeCast _ (val_main_v74 (F := F) x11) shapeCasts_S1x128_S128

def val_main_v76 : (⟨S1x128, .f32⟩ : BufTy).Contents (Elt F) :=
  broadcastInDim S1x128 ![1] bcast_S128_S1x128_1 (val_main_v73 (F := F) x10)

def val_main_v77 : (⟨S50000x128, .f32⟩ : BufTy).Contents (Elt F) :=
  broadcastInDim S50000x128 ![0, 1] bcast_S1x128_S50000x128_0_1 (val_main_v76 (F := F) x10)

def val_main_v78 : (⟨S50000x128, .f32⟩ : BufTy).Contents (Elt F) :=
  subf (val_main_v67 (F := F) x0 x1 x2 x3 x4 x5 x6 x7) (val_main_v77 (F := F) x10)

def val_main_cst_12 : (⟨S_, .f32⟩ : BufTy).Contents (Elt F) :=
  constant S_ .f32 0x3727C5AC#32

def val_main_v79 : (⟨S128, .f32⟩ : BufTy).Contents (Elt F) :=
  broadcastInDim S128 ![] bcast_S_S128 (val_main_cst_12 (F := F))

def val_main_v80 : (⟨S128, .f32⟩ : BufTy).Contents (Elt F) :=
  addf (val_main_v75 (F := F) x11) (val_main_v79 (F := F))

def val_main_v81 : (⟨S128, .f32⟩ : BufTy).Contents (Elt F) :=
  Host.rsqrt (val_main_v80 (F := F) x11)

def val_main_v82 : (⟨S128, .f32⟩ : BufTy).Contents (Elt F) :=
  mulf (val_main_v69 (F := F) x8) (val_main_v81 (F := F) x11)

def val_main_v83 : (⟨S1x128, .f32⟩ : BufTy).Contents (Elt F) :=
  broadcastInDim S1x128 ![1] bcast_S128_S1x128_1 (val_main_v82 (F := F) x8 x11)

def val_main_v84 : (⟨S50000x128, .f32⟩ : BufTy).Contents (Elt F) :=
  broadcastInDim S50000x128 ![0, 1] bcast_S1x128_S50000x128_0_1 (val_main_v83 (F := F) x8 x11)

def val_main_v85 : (⟨S50000x128, .f32⟩ : BufTy).Contents (Elt F) :=
  mulf (val_main_v78 (F := F) x0 x1 x2 x3 x4 x5 x6 x7 x10) (val_main_v84 (F := F) x8 x11)

def val_main_v86 : (⟨S1x128, .f32⟩ : BufTy).Contents (Elt F) :=
  broadcastInDim S1x128 ![1] bcast_S128_S1x128_1 (val_main_v71 (F := F) x9)

def val_main_v87 : (⟨S50000x128, .f32⟩ : BufTy).Contents (Elt F) :=
  broadcastInDim S50000x128 ![0, 1] bcast_S1x128_S50000x128_0_1 (val_main_v86 (F := F) x9)

def val_main_v88 : (⟨S50000x128, .f32⟩ : BufTy).Contents (Elt F) :=
  addf (val_main_v85 (F := F) x0 x1 x2 x3 x4 x5 x6 x7 x8 x10 x11) (val_main_v87 (F := F) x9)

def val_main_call1_cst : (⟨S_, .f32⟩ : BufTy).Contents (Elt F) :=
  constant S_ .f32 0x00000000#32

def val_main_call1_v0 : (⟨S50000x128, .f32⟩ : BufTy).Contents (Elt F) :=
  broadcastInDim S50000x128 ![] bcast_S_S50000x128 (val_main_call1_cst (F := F))

def val_main_v89 : (⟨S50000x128, .f32⟩ : BufTy).Contents (Elt F) :=
  maximumf (val_main_v88 (F := F) x0 x1 x2 x3 x4 x5 x6 x7 x8 x9 x10 x11) (val_main_call1_v0 (F := F))

def val_main_v90 : (⟨S1x128x128, .f32⟩ : BufTy).Contents (Elt F) :=
  extractStridedSlice S1x128x128 ![0, 0, 0] (x12) slices_S5x128x128_S1x128x128_0_0_0

def val_main_v91 : (⟨S128x128, .f32⟩ : BufTy).Contents (Elt F) :=
  shapeCast _ (val_main_v90 (F := F) x12) shapeCasts_S1x128x128_S128x128

def val_main_v92 : (⟨S50000x128, .f32⟩ : BufTy).Contents (Elt F) :=
  Host.dotGeneral dot_S50000x128_S128x128_S50000x128_1_0_0_1_n_n none (val_main_v89 (F := F) x0 x1 x2 x3 x4 x5 x6 x7 x8 x9 x10 x11) (val_main_v91 (F := F) x12)

def val_main_v93 : (⟨S1x128, .f32⟩ : BufTy).Contents (Elt F) :=
  extractStridedSlice S1x128 ![0, 0] (x13) slices_S5x128_S1x128_0_0

def val_main_v94 : (⟨S128, .f32⟩ : BufTy).Contents (Elt F) :=
  shapeCast _ (val_main_v93 (F := F) x13) shapeCasts_S1x128_S128

def val_main_v95 : (⟨S1x128, .f32⟩ : BufTy).Contents (Elt F) :=
  broadcastInDim S1x128 ![1] bcast_S128_S1x128_1 (val_main_v94 (F := F) x13)

def val_main_v96 : (⟨S50000x128, .f32⟩ : BufTy).Contents (Elt F) :=
  broadcastInDim S50000x128 ![0, 1] bcast_S1x128_S50000x128_0_1 (val_main_v95 (F := F) x13)

def val_main_v97 : (⟨S50000x128, .f32⟩ : BufTy).Contents (Elt F) :=
  addf (val_main_v92 (F := F) x0 x1 x2 x3 x4 x5 x6 x7 x8 x9 x10 x11 x12) (val_main_v96 (F := F) x13)

def val_main_call2_cst : (⟨S_, .f32⟩ : BufTy).Contents (Elt F) :=
  constant S_ .f32 0x00000000#32

def val_main_call2_v0 : (⟨S50000x128, .f32⟩ : BufTy).Contents (Elt F) :=
  broadcastInDim S50000x128 ![] bcast_S_S50000x128 (val_main_call2_cst (F := F))

def val_main_v98 : (⟨S50000x128, .f32⟩ : BufTy).Contents (Elt F) :=
  maximumf (val_main_v97 (F := F) x0 x1 x2 x3 x4 x5 x6 x7 x8 x9 x10 x11 x12 x13) (val_main_call2_v0 (F := F))

def val_main_v99 : (⟨S1x128, .f32⟩ : BufTy).Contents (Elt F) :=
  extractStridedSlice S1x128 ![0, 0] (x14) slices_S5x128_S1x128_0_0

def val_main_v100 : (⟨S128, .f32⟩ : BufTy).Contents (Elt F) :=
  shapeCast _ (val_main_v99 (F := F) x14) shapeCasts_S1x128_S128

def val_main_v101 : (⟨S1x128, .f32⟩ : BufTy).Contents (Elt F) :=
  extractStridedSlice S1x128 ![0, 0] (x15) slices_S5x128_S1x128_0_0

def val_main_v102 : (⟨S128, .f32⟩ : BufTy).Contents (Elt F) :=
  shapeCast _ (val_main_v101 (F := F) x15) shapeCasts_S1x128_S128

def val_main_v103 : (⟨S1x128, .f32⟩ : BufTy).Contents (Elt F) :=
  extractStridedSlice S1x128 ![0, 0] (x16) slices_S5x128_S1x128_0_0

def val_main_v104 : (⟨S128, .f32⟩ : BufTy).Contents (Elt F) :=
  shapeCast _ (val_main_v103 (F := F) x16) shapeCasts_S1x128_S128

def val_main_v105 : (⟨S1x128, .f32⟩ : BufTy).Contents (Elt F) :=
  extractStridedSlice S1x128 ![0, 0] (x17) slices_S5x128_S1x128_0_0

def val_main_v106 : (⟨S128, .f32⟩ : BufTy).Contents (Elt F) :=
  shapeCast _ (val_main_v105 (F := F) x17) shapeCasts_S1x128_S128

def val_main_v107 : (⟨S1x128, .f32⟩ : BufTy).Contents (Elt F) :=
  broadcastInDim S1x128 ![1] bcast_S128_S1x128_1 (val_main_v104 (F := F) x16)

def val_main_v108 : (⟨S50000x128, .f32⟩ : BufTy).Contents (Elt F) :=
  broadcastInDim S50000x128 ![0, 1] bcast_S1x128_S50000x128_0_1 (val_main_v107 (F := F) x16)

def val_main_v109 : (⟨S50000x128, .f32⟩ : BufTy).Contents (Elt F) :=
  subf (val_main_v98 (F := F) x0 x1 x2 x3 x4 x5 x6 x7 x8 x9 x10 x11 x12 x13) (val_main_v108 (F := F) x16)

def val_main_cst_13 : (⟨S_, .f32⟩ : BufTy).Contents (Elt F) :=
  constant S_ .f32 0x3727C5AC#32

def val_main_v110 : (⟨S128, .f32⟩ : BufTy).Contents (Elt F) :=
  broadcastInDim S128 ![] bcast_S_S128 (val_main_cst_13 (F := F))

def val_main_v111 : (⟨S128, .f32⟩ : BufTy).Contents (Elt F) :=
  addf (val_main_v106 (F := F) x17) (val_main_v110 (F := F))

def val_main_v112 : (⟨S128, .f32⟩ : BufTy).Contents (Elt F) :=
  Host.rsqrt (val_main_v111 (F := F) x17)

def val_main_v113 : (⟨S128, .f32⟩ : BufTy).Contents (Elt F) :=
  mulf (val_main_v100 (F := F) x14) (val_main_v112 (F := F) x17)

def val_main_v114 : (⟨S1x128, .f32⟩ : BufTy).Contents (Elt F) :=
  broadcastInDim S1x128 ![1] bcast_S128_S1x128_1 (val_main_v113 (F := F) x14 x17)

def val_main_v115 : (⟨S50000x128, .f32⟩ : BufTy).Contents (Elt F) :=
  broadcastInDim S50000x128 ![0, 1] bcast_S1x128_S50000x128_0_1 (val_main_v114 (F := F) x14 x17)

def val_main_v116 : (⟨S50000x128, .f32⟩ : BufTy).Contents (Elt F) :=
  mulf (val_main_v109 (F := F) x0 x1 x2 x3 x4 x5 x6 x7 x8 x9 x10 x11 x12 x13 x16) (val_main_v115 (F := F) x14 x17)

def val_main_v117 : (⟨S1x128, .f32⟩ : BufTy).Contents (Elt F) :=
  broadcastInDim S1x128 ![1] bcast_S128_S1x128_1 (val_main_v102 (F := F) x15)

def val_main_v118 : (⟨S50000x128, .f32⟩ : BufTy).Contents (Elt F) :=
  broadcastInDim S50000x128 ![0, 1] bcast_S1x128_S50000x128_0_1 (val_main_v117 (F := F) x15)

def val_main_v119 : (⟨S50000x128, .f32⟩ : BufTy).Contents (Elt F) :=
  addf (val_main_v116 (F := F) x0 x1 x2 x3 x4 x5 x6 x7 x8 x9 x10 x11 x12 x13 x14 x16 x17) (val_main_v118 (F := F) x15)

def val_main_call3_cst : (⟨S_, .f32⟩ : BufTy).Contents (Elt F) :=
  constant S_ .f32 0x00000000#32

def val_main_call3_v0 : (⟨S50000x128, .f32⟩ : BufTy).Contents (Elt F) :=
  broadcastInDim S50000x128 ![] bcast_S_S50000x128 (val_main_call3_cst (F := F))

def val_main_v120 : (⟨S50000x128, .f32⟩ : BufTy).Contents (Elt F) :=
  maximumf (val_main_v119 (F := F) x0 x1 x2 x3 x4 x5 x6 x7 x8 x9 x10 x11 x12 x13 x14 x15 x16 x17) (val_main_call3_v0 (F := F))

def val_main_v121 : (⟨S1x3x4x128, .f32⟩ : BufTy).Contents (Elt F) :=
  extractStridedSlice S1x3x4x128 ![1, 0, 0, 0] (x4) slices_S5x3x4x128_S1x3x4x128_1_0_0_0

def val_main_v122 : (⟨S3x4x128, .f32⟩ : BufTy).Contents (Elt F) :=
  shapeCast _ (val_main_v121 (F := F) x4) shapeCasts_S1x3x4x128_S3x4x128

def val_main_v123 : (⟨S3, .i32⟩ : BufTy).Contents (Elt F) :=
  iotaInDim S3 32 0

def val_main_v124 : (⟨S1x3, .i32⟩ : BufTy).Contents (Elt F) :=
  broadcastInDim S1x3 ![1] bcast_S3_S1x3_1 (val_main_v123 (F := F))

def val_main_c_14 : (⟨S_, .i32⟩ : BufTy).Contents (Elt F) :=
  constantI S_ 32 0#32

def val_main_v125 : (⟨S1x3, .i32⟩ : BufTy).Contents (Elt F) :=
  broadcastInDim S1x3 ![] bcast_S_S1x3 (val_main_c_14 (F := F))

def val_main_v126 : (⟨S1x3, .i1⟩ : BufTy).Contents (Elt F) :=
  cmpi .slt (val_main_v124 (F := F)) (val_main_v125 (F := F))

def val_main_c_15 : (⟨S_, .i32⟩ : BufTy).Contents (Elt F) :=
  constantI S_ 32 3#32

def val_main_v127 : (⟨S1x3, .i32⟩ : BufTy).Contents (Elt F) :=
  broadcastInDim S1x3 ![] bcast_S_S1x3 (val_main_c_15 (F := F))

def val_main_v128 : (⟨S1x3, .i32⟩ : BufTy).Contents (Elt F) :=
  addi (val_main_v124 (F := F)) (val_main_v127 (F := F))

def val_main_v129 : (⟨S1x3, .i32⟩ : BufTy).Contents (Elt F) :=
  select (val_main_v126 (F := F)) (val_main_v128 (F := F)) (val_main_v124 (F := F))

def val_main_c_16 : (⟨S_, .i32⟩ : BufTy).Contents (Elt F) :=
  constantI S_ 32 0#32

def val_main_v130 : (⟨S600000x3, .i32⟩ : BufTy).Contents (Elt F) :=
  broadcastInDim S600000x3 ![] bcast_S_S600000x3 (val_main_c_16 (F := F))

def val_main_v131 : (⟨S600000x3, .i1⟩ : BufTy).Contents (Elt F) :=
  cmpi .slt (x2) (val_main_v130 (F := F))

def val_main_c_17 : (⟨S_, .i32⟩ : BufTy).Contents (Elt F) :=
  constantI S_ 32 4#32

def val_main_v132 : (⟨S600000x3, .i32⟩ : BufTy).Contents (Elt F) :=
  broadcastInDim S600000x3 ![] bcast_S_S600000x3 (val_main_c_17 (F := F))

def val_main_v133 : (⟨S600000x3, .i32⟩ : BufTy).Contents (Elt F) :=
  addi (x2) (val_main_v132 (F := F))

def val_main_v134 : (⟨S600000x3, .i32⟩ : BufTy).Contents (Elt F) :=
  select (val_main_v131 (F := F) x2) (val_main_v133 (F := F) x2) (x2)

def val_main_v135 : (⟨S600000x3, .i32⟩ : BufTy).Contents (Elt F) :=
  broadcastInDim S600000x3 ![0, 1] bcast_S1x3_S600000x3_0_1 (val_main_v129 (F := F))

def val_main_v136 : (⟨S600000x3x1, .i32⟩ : BufTy).Contents (Elt F) :=
  broadcastInDim S600000x3x1 ![0, 1] bcast_S600000x3_S600000x3x1_0_1 (val_main_v135 (F := F))

def val_main_v137 : (⟨S600000x3x1, .i32⟩ : BufTy).Contents (Elt F) :=
  broadcastInDim S600000x3x1 ![0, 1] bcast_S600000x3_S600000x3x1_0_1 (val_main_v134 (F := F) x2)

def val_main_v138 : (⟨S600000x3x2, .i32⟩ : BufTy).Contents (Elt F) :=
  concatenate S600000x3x2 2 [⟨S600000x3x1, (val_main_v136 (F := F))⟩, ⟨S600000x3x1, (val_main_v137 (F := F) x2)⟩] concatenates_S600000x3x1_S600000x3x1_S600000x3x2_d2

def val_main_v139 : (⟨S600000x3x128, .f32⟩ : BufTy).Contents (Elt F) :=
  Host.gather gather_S3x4x128_S600000x3x2_S600000x3x128_2_01_n_n_01_2_11128 (val_main_v122 (F := F) x4) (val_main_v138 (F := F) x2)

def val_main_cst_18 : (⟨S_, .f32⟩ : BufTy).Contents (Elt F) :=
  constant S_ .f32 0x00000000#32

def val_main_v140 : (⟨S600000x128, .f32⟩ : BufTy).Contents (Elt F) :=
  Host.reduceAdd (val_main_v139 (F := F) x2 x4) (val_main_cst_18 (F := F)) reducesTo_S600000x3x128_S600000x128_d1 h_S_

def val_main_c_19 : (⟨S_, .i32⟩ : BufTy).Contents (Elt F) :=
  constantI S_ 32 0#32

def val_main_v141 : (⟨S600000, .i32⟩ : BufTy).Contents (Elt F) :=
  broadcastInDim S600000 ![] bcast_S_S600000 (val_main_c_19 (F := F))

def val_main_v142 : (⟨S600000, .i1⟩ : BufTy).Contents (Elt F) :=
  cmpi .slt (val_main_v19 (F := F) x1) (val_main_v141 (F := F))

def val_main_c_20 : (⟨S_, .i32⟩ : BufTy).Contents (Elt F) :=
  constantI S_ 32 50000#32

def val_main_v143 : (⟨S600000, .i32⟩ : BufTy).Contents (Elt F) :=
  broadcastInDim S600000 ![] bcast_S_S600000 (val_main_c_20 (F := F))

def val_main_v144 : (⟨S600000, .i32⟩ : BufTy).Contents (Elt F) :=
  addi (val_main_v19 (F := F) x1) (val_main_v143 (F := F))

def val_main_v145 : (⟨S600000, .i32⟩ : BufTy).Contents (Elt F) :=
  select (val_main_v142 (F := F) x1) (val_main_v144 (F := F) x1) (val_main_v19 (F := F) x1)

def val_main_v146 : (⟨S600000x1, .i32⟩ : BufTy).Contents (Elt F) :=
  broadcastInDim S600000x1 ![0] bcast_S600000_S600000x1_0 (val_main_v145 (F := F) x1)

def val_main_v147 : (⟨S600000x128, .f32⟩ : BufTy).Contents (Elt F) :=
  Host.gather gather_S50000x128_S600000x1_S600000x128_1_0_n_n_0_1_1128 (val_main_v120 (F := F) x0 x1 x2 x3 x4 x5 x6 x7 x8 x9 x10 x11 x12 x13 x14 x15 x16 x17) (val_main_v146 (F := F) x1)

def val_main_v148 : (⟨S600000x128, .f32⟩ : BufTy).Contents (Elt F) :=
  addf (val_main_v147 (F := F) x0 x1 x2 x3 x4 x5 x6 x7 x8 x9 x10 x11 x12 x13 x14 x15 x16 x17) (val_main_v140 (F := F) x2 x4)

def val_main_call4_cst : (⟨S_, .f32⟩ : BufTy).Contents (Elt F) :=
  constant S_ .f32 0x00000000#32

def val_main_call4_v0 : (⟨S600000x128, .f32⟩ : BufTy).Contents (Elt F) :=
  broadcastInDim S600000x128 ![] bcast_S_S600000x128 (val_main_call4_cst (F := F))

def val_main_v149 : (⟨S600000x128, .f32⟩ : BufTy).Contents (Elt F) :=
  maximumf (val_main_v148 (F := F) x0 x1 x2 x3 x4 x5 x6 x7 x8 x9 x10 x11 x12 x13 x14 x15 x16 x17) (val_main_call4_v0 (F := F))

def val_main_cst_21 : (⟨S_, .f32⟩ : BufTy).Contents (Elt F) :=
  constant S_ .f32 0x00000000#32

def val_main_v150 : (⟨S50000x128, .f32⟩ : BufTy).Contents (Elt F) :=
  broadcastInDim S50000x128 ![] bcast_S_S50000x128 (val_main_cst_21 (F := F))

def val_main_v151 : (⟨S600000x1, .i32⟩ : BufTy).Contents (Elt F) :=
  broadcastInDim S600000x1 ![0] bcast_S600000_S600000x1_0 (val_main_v21 (F := F) x1)

def val_main_v152 : (⟨S50000x128, .f32⟩ : BufTy).Contents (Elt F) :=
  Host.scatterAdd scatter_S50000x128_S600000x1_S600000x128_1_0_0_1 (val_main_v150 (F := F)) (val_main_v151 (F := F) x1) (val_main_v149 (F := F) x0 x1 x2 x3 x4 x5 x6 x7 x8 x9 x10 x11 x12 x13 x14 x15 x16 x17)

def val_main_v153 : (⟨S1, .f32⟩ : BufTy).Contents (Elt F) :=
  extractStridedSlice S1 ![1] (x5) slices_S5_S1_1

def val_main_v154 : (⟨S_, .f32⟩ : BufTy).Contents (Elt F) :=
  shapeCast _ (val_main_v153 (F := F) x5) shapeCasts_S1_S_

def val_main_cst_22 : (⟨S_, .f32⟩ : BufTy).Contents (Elt F) :=
  constant S_ .f32 0x3F800000#32

def val_main_v155 : (⟨S_, .f32⟩ : BufTy).Contents (Elt F) :=
  addf (val_main_cst_22 (F := F)) (val_main_v154 (F := F) x5)

def val_main_v156 : (⟨S50000x128, .f32⟩ : BufTy).Contents (Elt F) :=
  broadcastInDim S50000x128 ![] bcast_S_S50000x128 (val_main_v155 (F := F) x5)

def val_main_v157 : (⟨S50000x128, .f32⟩ : BufTy).Contents (Elt F) :=
  mulf (val_main_v156 (F := F) x5) (val_main_v120 (F := F) x0 x1 x2 x3 x4 x5 x6 x7 x8 x9 x10 x11 x12 x13 x14 x15 x16 x17)

def val_main_v158 : (⟨S50000x128, .f32⟩ : BufTy).Contents (Elt F) :=
  addf (val_main_v157 (F := F) x0 x1 x2 x3 x4 x5 x6 x7 x8 x9 x10 x11 x12 x13 x14 x15 x16 x17) (val_main_v152 (F := F) x0 x1 x2 x3 x4 x5 x6 x7 x8 x9 x10 x11 x12 x13 x14 x15 x16 x17)

def val_main_v159 : (⟨S1x128x128, .f32⟩ : BufTy).Contents (Elt F) :=
  extractStridedSlice S1x128x128 ![1, 0, 0] (x6) slices_S5x128x128_S1x128x128_1_0_0

def val_main_v160 : (⟨S128x128, .f32⟩ : BufTy).Contents (Elt F) :=
  shapeCast _ (val_main_v159 (F := F) x6) shapeCasts_S1x128x128_S128x128

def val_main_v161 : (⟨S50000x128, .f32⟩ : BufTy).Contents (Elt F) :=
  Host.dotGeneral dot_S50000x128_S128x128_S50000x128_1_0_0_1_n_n none (val_main_v158 (F := F) x0 x1 x2 x3 x4 x5 x6 x7 x8 x9 x10 x11 x12 x13 x14 x15 x16 x17) (val_main_v160 (F := F) x6)

def val_main_v162 : (⟨S1x128, .f32⟩ : BufTy).Contents (Elt F) :=
  extractStridedSlice S1x128 ![1, 0] (x7) slices_S5x128_S1x128_1_0

def val_main_v163 : (⟨S128, .f32⟩ : BufTy).Contents (Elt F) :=
  shapeCast _ (val_main_v162 (F := F) x7) shapeCasts_S1x128_S128

def val_main_v164 : (⟨S1x128, .f32⟩ : BufTy).Contents (Elt F) :=
  broadcastInDim S1x128 ![1] bcast_S128_S1x128_1 (val_main_v163 (F := F) x7)

def val_main_v165 : (⟨S50000x128, .f32⟩ : BufTy).Contents (Elt F) :=
  broadcastInDim S50000x128 ![0, 1] bcast_S1x128_S50000x128_0_1 (val_main_v164 (F := F) x7)

def val_main_v166 : (⟨S50000x128, .f32⟩ : BufTy).Contents (Elt F) :=
  addf (val_main_v161 (F := F) x0 x1 x2 x3 x4 x5 x6 x7 x8 x9 x10 x11 x12 x13 x14 x15 x16 x17) (val_main_v165 (F := F) x7)

def val_main_v167 : (⟨S1x128, .f32⟩ : BufTy).Contents (Elt F) :=
  extractStridedSlice S1x128 ![1, 0] (x8) slices_S5x128_S1x128_1_0

def val_main_v168 : (⟨S128, .f32⟩ : BufTy).Contents (Elt F) :=
  shapeCast _ (val_main_v167 (F := F) x8) shapeCasts_S1x128_S128

def val_main_v169 : (⟨S1x128, .f32⟩ : BufTy).Contents (Elt F) :=
  extractStridedSlice S1x128 ![1, 0] (x9) slices_S5x128_S1x128_1_0

def val_main_v170 : (⟨S128, .f32⟩ : BufTy).Contents (Elt F) :=
  shapeCast _ (val_main_v169 (F := F) x9) shapeCasts_S1x128_S128

def val_main_v171 : (⟨S1x128, .f32⟩ : BufTy).Contents (Elt F) :=
  extractStridedSlice S1x128 ![1, 0] (x10) slices_S5x128_S1x128_1_0

def val_main_v172 : (⟨S128, .f32⟩ : BufTy).Contents (Elt F) :=
  shapeCast _ (val_main_v171 (F := F) x10) shapeCasts_S1x128_S128

def val_main_v173 : (⟨S1x128, .f32⟩ : BufTy).Contents (Elt F) :=
  extractStridedSlice S1x128 ![1, 0] (x11) slices_S5x128_S1x128_1_0

def val_main_v174 : (⟨S128, .f32⟩ : BufTy).Contents (Elt F) :=
  shapeCast _ (val_main_v173 (F := F) x11) shapeCasts_S1x128_S128

def val_main_v175 : (⟨S1x128, .f32⟩ : BufTy).Contents (Elt F) :=
  broadcastInDim S1x128 ![1] bcast_S128_S1x128_1 (val_main_v172 (F := F) x10)

def val_main_v176 : (⟨S50000x128, .f32⟩ : BufTy).Contents (Elt F) :=
  broadcastInDim S50000x128 ![0, 1] bcast_S1x128_S50000x128_0_1 (val_main_v175 (F := F) x10)

def val_main_v177 : (⟨S50000x128, .f32⟩ : BufTy).Contents (Elt F) :=
  subf (val_main_v166 (F := F) x0 x1 x2 x3 x4 x5 x6 x7 x8 x9 x10 x11 x12 x13 x14 x15 x16 x17) (val_main_v176 (F := F) x10)

def val_main_cst_23 : (⟨S_, .f32⟩ : BufTy).Contents (Elt F) :=
  constant S_ .f32 0x3727C5AC#32

def val_main_v178 : (⟨S128, .f32⟩ : BufTy).Contents (Elt F) :=
  broadcastInDim S128 ![] bcast_S_S128 (val_main_cst_23 (F := F))

def val_main_v179 : (⟨S128, .f32⟩ : BufTy).Contents (Elt F) :=
  addf (val_main_v174 (F := F) x11) (val_main_v178 (F := F))

def val_main_v180 : (⟨S128, .f32⟩ : BufTy).Contents (Elt F) :=
  Host.rsqrt (val_main_v179 (F := F) x11)

def val_main_v181 : (⟨S128, .f32⟩ : BufTy).Contents (Elt F) :=
  mulf (val_main_v168 (F := F) x8) (val_main_v180 (F := F) x11)

def val_main_v182 : (⟨S1x128, .f32⟩ : BufTy).Contents (Elt F) :=
  broadcastInDim S1x128 ![1] bcast_S128_S1x128_1 (val_main_v181 (F := F) x8 x11)

def val_main_v183 : (⟨S50000x128, .f32⟩ : BufTy).Contents (Elt F) :=
  broadcastInDim S50000x128 ![0, 1] bcast_S1x128_S50000x128_0_1 (val_main_v182 (F := F) x8 x11)

def val_main_v184 : (⟨S50000x128, .f32⟩ : BufTy).Contents (Elt F) :=
  mulf (val_main_v177 (F := F) x0 x1 x2 x3 x4 x5 x6 x7 x8 x9 x10 x11 x12 x13 x14 x15 x16 x17) (val_main_v183 (F := F) x8 x11)

def val_main_v185 : (⟨S1x128, .f32⟩ : BufTy).Contents (Elt F) :=
  broadcastInDim S1x128 ![1] bcast_S128_S1x128_1 (val_main_v170 (F := F) x9)

def val_main_v186 : (⟨S50000x128, .f32⟩ : BufTy).Contents (Elt F) :=
  broadcastInDim S50000x128 ![0, 1] bcast_S1x128_S50000x128_0_1 (val_main_v185 (F := F) x9)

def val_main_v187 : (⟨S50000x128, .f32⟩ : BufTy).Contents (Elt F) :=
  addf (val_main_v184 (F := F) x0 x1 x2 x3 x4 x5 x6 x7 x8 x9 x10 x11 x12 x13 x14 x15 x16 x17) (val_main_v186 (F := F) x9)

def val_main_call5_cst : (⟨S_, .f32⟩ : BufTy).Contents (Elt F) :=
  constant S_ .f32 0x00000000#32

def val_main_call5_v0 : (⟨S50000x128, .f32⟩ : BufTy).Contents (Elt F) :=
  broadcastInDim S50000x128 ![] bcast_S_S50000x128 (val_main_call5_cst (F := F))

def val_main_v188 : (⟨S50000x128, .f32⟩ : BufTy).Contents (Elt F) :=
  maximumf (val_main_v187 (F := F) x0 x1 x2 x3 x4 x5 x6 x7 x8 x9 x10 x11 x12 x13 x14 x15 x16 x17) (val_main_call5_v0 (F := F))

def val_main_v189 : (⟨S1x128x128, .f32⟩ : BufTy).Contents (Elt F) :=
  extractStridedSlice S1x128x128 ![1, 0, 0] (x12) slices_S5x128x128_S1x128x128_1_0_0

def val_main_v190 : (⟨S128x128, .f32⟩ : BufTy).Contents (Elt F) :=
  shapeCast _ (val_main_v189 (F := F) x12) shapeCasts_S1x128x128_S128x128

def val_main_v191 : (⟨S50000x128, .f32⟩ : BufTy).Contents (Elt F) :=
  Host.dotGeneral dot_S50000x128_S128x128_S50000x128_1_0_0_1_n_n none (val_main_v188 (F := F) x0 x1 x2 x3 x4 x5 x6 x7 x8 x9 x10 x11 x12 x13 x14 x15 x16 x17) (val_main_v190 (F := F) x12)

def val_main_v192 : (⟨S1x128, .f32⟩ : BufTy).Contents (Elt F) :=
  extractStridedSlice S1x128 ![1, 0] (x13) slices_S5x128_S1x128_1_0

def val_main_v193 : (⟨S128, .f32⟩ : BufTy).Contents (Elt F) :=
  shapeCast _ (val_main_v192 (F := F) x13) shapeCasts_S1x128_S128

def val_main_v194 : (⟨S1x128, .f32⟩ : BufTy).Contents (Elt F) :=
  broadcastInDim S1x128 ![1] bcast_S128_S1x128_1 (val_main_v193 (F := F) x13)

def val_main_v195 : (⟨S50000x128, .f32⟩ : BufTy).Contents (Elt F) :=
  broadcastInDim S50000x128 ![0, 1] bcast_S1x128_S50000x128_0_1 (val_main_v194 (F := F) x13)

def val_main_v196 : (⟨S50000x128, .f32⟩ : BufTy).Contents (Elt F) :=
  addf (val_main_v191 (F := F) x0 x1 x2 x3 x4 x5 x6 x7 x8 x9 x10 x11 x12 x13 x14 x15 x16 x17) (val_main_v195 (F := F) x13)

def val_main_call6_cst : (⟨S_, .f32⟩ : BufTy).Contents (Elt F) :=
  constant S_ .f32 0x00000000#32

def val_main_call6_v0 : (⟨S50000x128, .f32⟩ : BufTy).Contents (Elt F) :=
  broadcastInDim S50000x128 ![] bcast_S_S50000x128 (val_main_call6_cst (F := F))

def val_main_v197 : (⟨S50000x128, .f32⟩ : BufTy).Contents (Elt F) :=
  maximumf (val_main_v196 (F := F) x0 x1 x2 x3 x4 x5 x6 x7 x8 x9 x10 x11 x12 x13 x14 x15 x16 x17) (val_main_call6_v0 (F := F))

def val_main_v198 : (⟨S1x128, .f32⟩ : BufTy).Contents (Elt F) :=
  extractStridedSlice S1x128 ![1, 0] (x14) slices_S5x128_S1x128_1_0

def val_main_v199 : (⟨S128, .f32⟩ : BufTy).Contents (Elt F) :=
  shapeCast _ (val_main_v198 (F := F) x14) shapeCasts_S1x128_S128

def val_main_v200 : (⟨S1x128, .f32⟩ : BufTy).Contents (Elt F) :=
  extractStridedSlice S1x128 ![1, 0] (x15) slices_S5x128_S1x128_1_0

def val_main_v201 : (⟨S128, .f32⟩ : BufTy).Contents (Elt F) :=
  shapeCast _ (val_main_v200 (F := F) x15) shapeCasts_S1x128_S128

def val_main_v202 : (⟨S1x128, .f32⟩ : BufTy).Contents (Elt F) :=
  extractStridedSlice S1x128 ![1, 0] (x16) slices_S5x128_S1x128_1_0

def val_main_v203 : (⟨S128, .f32⟩ : BufTy).Contents (Elt F) :=
  shapeCast _ (val_main_v202 (F := F) x16) shapeCasts_S1x128_S128

def val_main_v204 : (⟨S1x128, .f32⟩ : BufTy).Contents (Elt F) :=
  extractStridedSlice S1x128 ![1, 0] (x17) slices_S5x128_S1x128_1_0

def val_main_v205 : (⟨S128, .f32⟩ : BufTy).Contents (Elt F) :=
  shapeCast _ (val_main_v204 (F := F) x17) shapeCasts_S1x128_S128

def val_main_v206 : (⟨S1x128, .f32⟩ : BufTy).Contents (Elt F) :=
  broadcastInDim S1x128 ![1] bcast_S128_S1x128_1 (val_main_v203 (F := F) x16)

def val_main_v207 : (⟨S50000x128, .f32⟩ : BufTy).Contents (Elt F) :=
  broadcastInDim S50000x128 ![0, 1] bcast_S1x128_S50000x128_0_1 (val_main_v206 (F := F) x16)

def val_main_v208 : (⟨S50000x128, .f32⟩ : BufTy).Contents (Elt F) :=
  subf (val_main_v197 (F := F) x0 x1 x2 x3 x4 x5 x6 x7 x8 x9 x10 x11 x12 x13 x14 x15 x16 x17) (val_main_v207 (F := F) x16)

def val_main_cst_24 : (⟨S_, .f32⟩ : BufTy).Contents (Elt F) :=
  constant S_ .f32 0x3727C5AC#32

def val_main_v209 : (⟨S128, .f32⟩ : BufTy).Contents (Elt F) :=
  broadcastInDim S128 ![] bcast_S_S128 (val_main_cst_24 (F := F))

def val_main_v210 : (⟨S128, .f32⟩ : BufTy).Contents (Elt F) :=
  addf (val_main_v205 (F := F) x17) (val_main_v209 (F := F))

def val_main_v211 : (⟨S128, .f32⟩ : BufTy).Contents (Elt F) :=
  Host.rsqrt (val_main_v210 (F := F) x17)

def val_main_v212 : (⟨S128, .f32⟩ : BufTy).Contents (Elt F) :=
  mulf (val_main_v199 (F := F) x14) (val_main_v211 (F := F) x17)

def val_main_v213 : (⟨S1x128, .f32⟩ : BufTy).Contents (Elt F) :=
  broadcastInDim S1x128 ![1] bcast_S128_S1x128_1 (val_main_v212 (F := F) x14 x17)

def val_main_v214 : (⟨S50000x128, .f32⟩ : BufTy).Contents (Elt F) :=
  broadcastInDim S50000x128 ![0, 1] bcast_S1x128_S50000x128_0_1 (val_main_v213 (F := F) x14 x17)

def val_main_v215 : (⟨S50000x128, .f32⟩ : BufTy).Contents (Elt F) :=
  mulf (val_main_v208 (F := F) x0 x1 x2 x3 x4 x5 x6 x7 x8 x9 x10 x11 x12 x13 x14 x15 x16 x17) (val_main_v214 (F := F) x14 x17)

def val_main_v216 : (⟨S1x128, .f32⟩ : BufTy).Contents (Elt F) :=
  broadcastInDim S1x128 ![1] bcast_S128_S1x128_1 (val_main_v201 (F := F) x15)

def val_main_v217 : (⟨S50000x128, .f32⟩ : BufTy).Contents (Elt F) :=
  broadcastInDim S50000x128 ![0, 1] bcast_S1x128_S50000x128_0_1 (val_main_v216 (F := F) x15)

def val_main_v218 : (⟨S50000x128, .f32⟩ : BufTy).Contents (Elt F) :=
  addf (val_main_v215 (F := F) x0 x1 x2 x3 x4 x5 x6 x7 x8 x9 x10 x11 x12 x13 x14 x15 x16 x17) (val_main_v217 (F := F) x15)

def val_main_call7_cst : (⟨S_, .f32⟩ : BufTy).Contents (Elt F) :=
  constant S_ .f32 0x00000000#32

def val_main_call7_v0 : (⟨S50000x128, .f32⟩ : BufTy).Contents (Elt F) :=
  broadcastInDim S50000x128 ![] bcast_S_S50000x128 (val_main_call7_cst (F := F))

def val_main_v219 : (⟨S50000x128, .f32⟩ : BufTy).Contents (Elt F) :=
  maximumf (val_main_v218 (F := F) x0 x1 x2 x3 x4 x5 x6 x7 x8 x9 x10 x11 x12 x13 x14 x15 x16 x17) (val_main_call7_v0 (F := F))

def val_main_v220 : (⟨S1x3x4x128, .f32⟩ : BufTy).Contents (Elt F) :=
  extractStridedSlice S1x3x4x128 ![2, 0, 0, 0] (x4) slices_S5x3x4x128_S1x3x4x128_2_0_0_0

def val_main_v221 : (⟨S3x4x128, .f32⟩ : BufTy).Contents (Elt F) :=
  shapeCast _ (val_main_v220 (F := F) x4) shapeCasts_S1x3x4x128_S3x4x128

def val_main_v222 : (⟨S3, .i32⟩ : BufTy).Contents (Elt F) :=
  iotaInDim S3 32 0

def val_main_v223 : (⟨S1x3, .i32⟩ : BufTy).Contents (Elt F) :=
  broadcastInDim S1x3 ![1] bcast_S3_S1x3_1 (val_main_v222 (F := F))

def val_main_c_25 : (⟨S_, .i32⟩ : BufTy).Contents (Elt F) :=
  constantI S_ 32 0#32

def val_main_v224 : (⟨S1x3, .i32⟩ : BufTy).Contents (Elt F) :=
  broadcastInDim S1x3 ![] bcast_S_S1x3 (val_main_c_25 (F := F))

def val_main_v225 : (⟨S1x3, .i1⟩ : BufTy).Contents (Elt F) :=
  cmpi .slt (val_main_v223 (F := F)) (val_main_v224 (F := F))

def val_main_c_26 : (⟨S_, .i32⟩ : BufTy).Contents (Elt F) :=
  constantI S_ 32 3#32

def val_main_v226 : (⟨S1x3, .i32⟩ : BufTy).Contents (Elt F) :=
  broadcastInDim S1x3 ![] bcast_S_S1x3 (val_main_c_26 (F := F))

def val_main_v227 : (⟨S1x3, .i32⟩ : BufTy).Contents (Elt F) :=
  addi (val_main_v223 (F := F)) (val_main_v226 (F := F))

def val_main_v228 : (⟨S1x3, .i32⟩ : BufTy).Contents (Elt F) :=
  select (val_main_v225 (F := F)) (val_main_v227 (F := F)) (val_main_v223 (F := F))

def val_main_c_27 : (⟨S_, .i32⟩ : BufTy).Contents (Elt F) :=
  constantI S_ 32 0#32

def val_main_v229 : (⟨S600000x3, .i32⟩ : BufTy).Contents (Elt F) :=
  broadcastInDim S600000x3 ![] bcast_S_S600000x3 (val_main_c_27 (F := F))

def val_main_v230 : (⟨S600000x3, .i1⟩ : BufTy).Contents (Elt F) :=
  cmpi .slt (x2) (val_main_v229 (F := F))

def val_main_c_28 : (⟨S_, .i32⟩ : BufTy).Contents (Elt F) :=
  constantI S_ 32 4#32

def val_main_v231 : (⟨S600000x3, .i32⟩ : BufTy).Contents (Elt F) :=
  broadcastInDim S600000x3 ![] bcast_S_S600000x3 (val_main_c_28 (F := F))

def val_main_v232 : (⟨S600000x3, .i32⟩ : BufTy).Contents (Elt F) :=
  addi (x2) (val_main_v231 (F := F))

def val_main_v233 : (⟨S600000x3, .i32⟩ : BufTy).Contents (Elt F) :=
  select (val_main_v230 (F := F) x2) (val_main_v232 (F := F) x2) (x2)

def val_main_v234 : (⟨S600000x3, .i32⟩ : BufTy).Contents (Elt F) :=
  broadcastInDim S600000x3 ![0, 1] bcast_S1x3_S600000x3_0_1 (val_main_v228 (F := F))

def val_main_v235 : (⟨S600000x3x1, .i32⟩ : BufTy).Contents (Elt F) :=
  broadcastInDim S600000x3x1 ![0, 1] bcast_S600000x3_S600000x3x1_0_1 (val_main_v234 (F := F))

def val_main_v236 : (⟨S600000x3x1, .i32⟩ : BufTy).Contents (Elt F) :=
  broadcastInDim S600000x3x1 ![0, 1] bcast_S600000x3_S600000x3x1_0_1 (val_main_v233 (F := F) x2)

def val_main_v237 : (⟨S600000x3x2, .i32⟩ : BufTy).Contents (Elt F) :=
  concatenate S600000x3x2 2 [⟨S600000x3x1, (val_main_v235 (F := F))⟩, ⟨S600000x3x1, (val_main_v236 (F := F) x2)⟩] concatenates_S600000x3x1_S600000x3x1_S600000x3x2_d2

def val_main_v238 : (⟨S600000x3x128, .f32⟩ : BufTy).Contents (Elt F) :=
  Host.gather gather_S3x4x128_S600000x3x2_S600000x3x128_2_01_n_n_01_2_11128 (val_main_v221 (F := F) x4) (val_main_v237 (F := F) x2)

def val_main_cst_29 : (⟨S_, .f32⟩ : BufTy).Contents (Elt F) :=
  constant S_ .f32 0x00000000#32

def val_main_v239 : (⟨S600000x128, .f32⟩ : BufTy).Contents (Elt F) :=
  Host.reduceAdd (val_main_v238 (F := F) x2 x4) (val_main_cst_29 (F := F)) reducesTo_S600000x3x128_S600000x128_d1 h_S_

def val_main_c_30 : (⟨S_, .i32⟩ : BufTy).Contents (Elt F) :=
  constantI S_ 32 0#32

def val_main_v240 : (⟨S600000, .i32⟩ : BufTy).Contents (Elt F) :=
  broadcastInDim S600000 ![] bcast_S_S600000 (val_main_c_30 (F := F))

def val_main_v241 : (⟨S600000, .i1⟩ : BufTy).Contents (Elt F) :=
  cmpi .slt (val_main_v19 (F := F) x1) (val_main_v240 (F := F))

def val_main_c_31 : (⟨S_, .i32⟩ : BufTy).Contents (Elt F) :=
  constantI S_ 32 50000#32

def val_main_v242 : (⟨S600000, .i32⟩ : BufTy).Contents (Elt F) :=
  broadcastInDim S600000 ![] bcast_S_S600000 (val_main_c_31 (F := F))

def val_main_v243 : (⟨S600000, .i32⟩ : BufTy).Contents (Elt F) :=
  addi (val_main_v19 (F := F) x1) (val_main_v242 (F := F))

def val_main_v244 : (⟨S600000, .i32⟩ : BufTy).Contents (Elt F) :=
  select (val_main_v241 (F := F) x1) (val_main_v243 (F := F) x1) (val_main_v19 (F := F) x1)

def val_main_v245 : (⟨S600000x1, .i32⟩ : BufTy).Contents (Elt F) :=
  broadcastInDim S600000x1 ![0] bcast_S600000_S600000x1_0 (val_main_v244 (F := F) x1)

def val_main_v246 : (⟨S600000x128, .f32⟩ : BufTy).Contents (Elt F) :=
  Host.gather gather_S50000x128_S600000x1_S600000x128_1_0_n_n_0_1_1128 (val_main_v219 (F := F) x0 x1 x2 x3 x4 x5 x6 x7 x8 x9 x10 x11 x12 x13 x14 x15 x16 x17) (val_main_v245 (F := F) x1)

def val_main_v247 : (⟨S600000x128, .f32⟩ : BufTy).Contents (Elt F) :=
  addf (val_main_v246 (F := F) x0 x1 x2 x3 x4 x5 x6 x7 x8 x9 x10 x11 x12 x13 x14 x15 x16 x17) (val_main_v239 (F := F) x2 x4)

def val_main_call8_cst : (⟨S_, .f32⟩ : BufTy).Contents (Elt F) :=
  constant S_ .f32 0x00000000#32

def val_main_call8_v0 : (⟨S600000x128, .f32⟩ : BufTy).Contents (Elt F) :=
  broadcastInDim S600000x128 ![] bcast_S_S600000x128 (val_main_call8_cst (F := F))

def val_main_v248 : (⟨S600000x128, .f32⟩ : BufTy).Contents (Elt F) :=
  maximumf (val_main_v247 (F := F) x0 x1 x2 x3 x4 x5 x6 x7 x8 x9 x10 x11 x12 x13 x14 x15 x16 x17) (val_main_call8_v0 (F := F))

def val_main_cst_32 : (⟨S_, .f32⟩ : BufTy).Contents (Elt F) :=
  constant S_ .f32 0x00000000#32

def val_main_v249 : (⟨S50000x128, .f32⟩ : BufTy).Contents (Elt F) :=
  broadcastInDim S50000x128 ![] bcast_S_S50000x128 (val_main_cst_32 (F := F))

def val_main_v250 : (⟨S600000x1, .i32⟩ : BufTy).Contents (Elt F) :=
  broadcastInDim S600000x1 ![0] bcast_S600000_S600000x1_0 (val_main_v21 (F := F) x1)

def val_main_v251 : (⟨S50000x128, .f32⟩ : BufTy).Contents (Elt F) :=
  Host.scatterAdd scatter_S50000x128_S600000x1_S600000x128_1_0_0_1 (val_main_v249 (F := F)) (val_main_v250 (F := F) x1) (val_main_v248 (F := F) x0 x1 x2 x3 x4 x5 x6 x7 x8 x9 x10 x11 x12 x13 x14 x15 x16 x17)

def val_main_v252 : (⟨S1, .f32⟩ : BufTy).Contents (Elt F) :=
  extractStridedSlice S1 ![2] (x5) slices_S5_S1_2

def val_main_v253 : (⟨S_, .f32⟩ : BufTy).Contents (Elt F) :=
  shapeCast _ (val_main_v252 (F := F) x5) shapeCasts_S1_S_

def val_main_cst_33 : (⟨S_, .f32⟩ : BufTy).Contents (Elt F) :=
  constant S_ .f32 0x3F800000#32

def val_main_v254 : (⟨S_, .f32⟩ : BufTy).Contents (Elt F) :=
  addf (val_main_cst_33 (F := F)) (val_main_v253 (F := F) x5)

def val_main_v255 : (⟨S50000x128, .f32⟩ : BufTy).Contents (Elt F) :=
  broadcastInDim S50000x128 ![] bcast_S_S50000x128 (val_main_v254 (F := F) x5)

def val_main_v256 : (⟨S50000x128, .f32⟩ : BufTy).Contents (Elt F) :=
  mulf (val_main_v255 (F := F) x5) (val_main_v219 (F := F) x0 x1 x2 x3 x4 x5 x6 x7 x8 x9 x10 x11 x12 x13 x14 x15 x16 x17)

def val_main_v257 : (⟨S50000x128, .f32⟩ : BufTy).Contents (Elt F) :=
  addf (val_main_v256 (F := F) x0 x1 x2 x3 x4 x5 x6 x7 x8 x9 x10 x11 x12 x13 x14 x15 x16 x17) (val_main_v251 (F := F) x0 x1 x2 x3 x4 x5 x6 x7 x8 x9 x10 x11 x12 x13 x14 x15 x16 x17)

def val_main_v258 : (⟨S1x128x128, .f32⟩ : BufTy).Contents (Elt F) :=
  extractStridedSlice S1x128x128 ![2, 0, 0] (x6) slices_S5x128x128_S1x128x128_2_0_0

def val_main_v259 : (⟨S128x128, .f32⟩ : BufTy).Contents (Elt F) :=
  shapeCast _ (val_main_v258 (F := F) x6) shapeCasts_S1x128x128_S128x128

def val_main_v260 : (⟨S50000x128, .f32⟩ : BufTy).Contents (Elt F) :=
  Host.dotGeneral dot_S50000x128_S128x128_S50000x128_1_0_0_1_n_n none (val_main_v257 (F := F) x0 x1 x2 x3 x4 x5 x6 x7 x8 x9 x10 x11 x12 x13 x14 x15 x16 x17) (val_main_v259 (F := F) x6)

def val_main_v261 : (⟨S1x128, .f32⟩ : BufTy).Contents (Elt F) :=
  extractStridedSlice S1x128 ![2, 0] (x7) slices_S5x128_S1x128_2_0

def val_main_v262 : (⟨S128, .f32⟩ : BufTy).Contents (Elt F) :=
  shapeCast _ (val_main_v261 (F := F) x7) shapeCasts_S1x128_S128

def val_main_v263 : (⟨S1x128, .f32⟩ : BufTy).Contents (Elt F) :=
  broadcastInDim S1x128 ![1] bcast_S128_S1x128_1 (val_main_v262 (F := F) x7)

def val_main_v264 : (⟨S50000x128, .f32⟩ : BufTy).Contents (Elt F) :=
  broadcastInDim S50000x128 ![0, 1] bcast_S1x128_S50000x128_0_1 (val_main_v263 (F := F) x7)

def val_main_v265 : (⟨S50000x128, .f32⟩ : BufTy).Contents (Elt F) :=
  addf (val_main_v260 (F := F) x0 x1 x2 x3 x4 x5 x6 x7 x8 x9 x10 x11 x12 x13 x14 x15 x16 x17) (val_main_v264 (F := F) x7)

def val_main_v266 : (⟨S1x128, .f32⟩ : BufTy).Contents (Elt F) :=
  extractStridedSlice S1x128 ![2, 0] (x8) slices_S5x128_S1x128_2_0

def val_main_v267 : (⟨S128, .f32⟩ : BufTy).Contents (Elt F) :=
  shapeCast _ (val_main_v266 (F := F) x8) shapeCasts_S1x128_S128

def val_main_v268 : (⟨S1x128, .f32⟩ : BufTy).Contents (Elt F) :=
  extractStridedSlice S1x128 ![2, 0] (x9) slices_S5x128_S1x128_2_0

def val_main_v269 : (⟨S128, .f32⟩ : BufTy).Contents (Elt F) :=
  shapeCast _ (val_main_v268 (F := F) x9) shapeCasts_S1x128_S128

def val_main_v270 : (⟨S1x128, .f32⟩ : BufTy).Contents (Elt F) :=
  extractStridedSlice S1x128 ![2, 0] (x10) slices_S5x128_S1x128_2_0

def val_main_v271 : (⟨S128, .f32⟩ : BufTy).Contents (Elt F) :=
  shapeCast _ (val_main_v270 (F := F) x10) shapeCasts_S1x128_S128

def val_main_v272 : (⟨S1x128, .f32⟩ : BufTy).Contents (Elt F) :=
  extractStridedSlice S1x128 ![2, 0] (x11) slices_S5x128_S1x128_2_0

def val_main_v273 : (⟨S128, .f32⟩ : BufTy).Contents (Elt F) :=
  shapeCast _ (val_main_v272 (F := F) x11) shapeCasts_S1x128_S128

def val_main_v274 : (⟨S1x128, .f32⟩ : BufTy).Contents (Elt F) :=
  broadcastInDim S1x128 ![1] bcast_S128_S1x128_1 (val_main_v271 (F := F) x10)

def val_main_v275 : (⟨S50000x128, .f32⟩ : BufTy).Contents (Elt F) :=
  broadcastInDim S50000x128 ![0, 1] bcast_S1x128_S50000x128_0_1 (val_main_v274 (F := F) x10)

def val_main_v276 : (⟨S50000x128, .f32⟩ : BufTy).Contents (Elt F) :=
  subf (val_main_v265 (F := F) x0 x1 x2 x3 x4 x5 x6 x7 x8 x9 x10 x11 x12 x13 x14 x15 x16 x17) (val_main_v275 (F := F) x10)

def val_main_cst_34 : (⟨S_, .f32⟩ : BufTy).Contents (Elt F) :=
  constant S_ .f32 0x3727C5AC#32

def val_main_v277 : (⟨S128, .f32⟩ : BufTy).Contents (Elt F) :=
  broadcastInDim S128 ![] bcast_S_S128 (val_main_cst_34 (F := F))

def val_main_v278 : (⟨S128, .f32⟩ : BufTy).Contents (Elt F) :=
  addf (val_main_v273 (F := F) x11) (val_main_v277 (F := F))

def val_main_v279 : (⟨S128, .f32⟩ : BufTy).Contents (Elt F) :=
  Host.rsqrt (val_main_v278 (F := F) x11)

def val_main_v280 : (⟨S128, .f32⟩ : BufTy).Contents (Elt F) :=
  mulf (val_main_v267 (F := F) x8) (val_main_v279 (F := F) x11)

def val_main_v281 : (⟨S1x128, .f32⟩ : BufTy).Contents (Elt F) :=
  broadcastInDim S1x128 ![1] bcast_S128_S1x128_1 (val_main_v280 (F := F) x8 x11)

def val_main_v282 : (⟨S50000x128, .f32⟩ : BufTy).Contents (Elt F) :=
  broadcastInDim S50000x128 ![0, 1] bcast_S1x128_S50000x128_0_1 (val_main_v281 (F := F) x8 x11)

def val_main_v283 : (⟨S50000x128, .f32⟩ : BufTy).Contents (Elt F) :=
  mulf (val_main_v276 (F := F) x0 x1 x2 x3 x4 x5 x6 x7 x8 x9 x10 x11 x12 x13 x14 x15 x16 x17) (val_main_v282 (F := F) x8 x11)

def val_main_v284 : (⟨S1x128, .f32⟩ : BufTy).Contents (Elt F) :=
  broadcastInDim S1x128 ![1] bcast_S128_S1x128_1 (val_main_v269 (F := F) x9)

def val_main_v285 : (⟨S50000x128, .f32⟩ : BufTy).Contents (Elt F) :=
  broadcastInDim S50000x128 ![0, 1] bcast_S1x128_S50000x128_0_1 (val_main_v284 (F := F) x9)

def val_main_v286 : (⟨S50000x128, .f32⟩ : BufTy).Contents (Elt F) :=
  addf (val_main_v283 (F := F) x0 x1 x2 x3 x4 x5 x6 x7 x8 x9 x10 x11 x12 x13 x14 x15 x16 x17) (val_main_v285 (F := F) x9)

def val_main_call9_cst : (⟨S_, .f32⟩ : BufTy).Contents (Elt F) :=
  constant S_ .f32 0x00000000#32

def val_main_call9_v0 : (⟨S50000x128, .f32⟩ : BufTy).Contents (Elt F) :=
  broadcastInDim S50000x128 ![] bcast_S_S50000x128 (val_main_call9_cst (F := F))

def val_main_v287 : (⟨S50000x128, .f32⟩ : BufTy).Contents (Elt F) :=
  maximumf (val_main_v286 (F := F) x0 x1 x2 x3 x4 x5 x6 x7 x8 x9 x10 x11 x12 x13 x14 x15 x16 x17) (val_main_call9_v0 (F := F))

def val_main_v288 : (⟨S1x128x128, .f32⟩ : BufTy).Contents (Elt F) :=
  extractStridedSlice S1x128x128 ![2, 0, 0] (x12) slices_S5x128x128_S1x128x128_2_0_0

def val_main_v289 : (⟨S128x128, .f32⟩ : BufTy).Contents (Elt F) :=
  shapeCast _ (val_main_v288 (F := F) x12) shapeCasts_S1x128x128_S128x128

def val_main_v290 : (⟨S50000x128, .f32⟩ : BufTy).Contents (Elt F) :=
  Host.dotGeneral dot_S50000x128_S128x128_S50000x128_1_0_0_1_n_n none (val_main_v287 (F := F) x0 x1 x2 x3 x4 x5 x6 x7 x8 x9 x10 x11 x12 x13 x14 x15 x16 x17) (val_main_v289 (F := F) x12)

def val_main_v291 : (⟨S1x128, .f32⟩ : BufTy).Contents (Elt F) :=
  extractStridedSlice S1x128 ![2, 0] (x13) slices_S5x128_S1x128_2_0

def val_main_v292 : (⟨S128, .f32⟩ : BufTy).Contents (Elt F) :=
  shapeCast _ (val_main_v291 (F := F) x13) shapeCasts_S1x128_S128

def val_main_v293 : (⟨S1x128, .f32⟩ : BufTy).Contents (Elt F) :=
  broadcastInDim S1x128 ![1] bcast_S128_S1x128_1 (val_main_v292 (F := F) x13)

def val_main_v294 : (⟨S50000x128, .f32⟩ : BufTy).Contents (Elt F) :=
  broadcastInDim S50000x128 ![0, 1] bcast_S1x128_S50000x128_0_1 (val_main_v293 (F := F) x13)

def val_main_v295 : (⟨S50000x128, .f32⟩ : BufTy).Contents (Elt F) :=
  addf (val_main_v290 (F := F) x0 x1 x2 x3 x4 x5 x6 x7 x8 x9 x10 x11 x12 x13 x14 x15 x16 x17) (val_main_v294 (F := F) x13)

def val_main_call10_cst : (⟨S_, .f32⟩ : BufTy).Contents (Elt F) :=
  constant S_ .f32 0x00000000#32

def val_main_call10_v0 : (⟨S50000x128, .f32⟩ : BufTy).Contents (Elt F) :=
  broadcastInDim S50000x128 ![] bcast_S_S50000x128 (val_main_call10_cst (F := F))

def val_main_v296 : (⟨S50000x128, .f32⟩ : BufTy).Contents (Elt F) :=
  maximumf (val_main_v295 (F := F) x0 x1 x2 x3 x4 x5 x6 x7 x8 x9 x10 x11 x12 x13 x14 x15 x16 x17) (val_main_call10_v0 (F := F))

def val_main_v297 : (⟨S1x128, .f32⟩ : BufTy).Contents (Elt F) :=
  extractStridedSlice S1x128 ![2, 0] (x14) slices_S5x128_S1x128_2_0

def val_main_v298 : (⟨S128, .f32⟩ : BufTy).Contents (Elt F) :=
  shapeCast _ (val_main_v297 (F := F) x14) shapeCasts_S1x128_S128

def val_main_v299 : (⟨S1x128, .f32⟩ : BufTy).Contents (Elt F) :=
  extractStridedSlice S1x128 ![2, 0] (x15) slices_S5x128_S1x128_2_0

def val_main_v300 : (⟨S128, .f32⟩ : BufTy).Contents (Elt F) :=
  shapeCast _ (val_main_v299 (F := F) x15) shapeCasts_S1x128_S128

def val_main_v301 : (⟨S1x128, .f32⟩ : BufTy).Contents (Elt F) :=
  extractStridedSlice S1x128 ![2, 0] (x16) slices_S5x128_S1x128_2_0

def val_main_v302 : (⟨S128, .f32⟩ : BufTy).Contents (Elt F) :=
  shapeCast _ (val_main_v301 (F := F) x16) shapeCasts_S1x128_S128

def val_main_v303 : (⟨S1x128, .f32⟩ : BufTy).Contents (Elt F) :=
  extractStridedSlice S1x128 ![2, 0] (x17) slices_S5x128_S1x128_2_0

def val_main_v304 : (⟨S128, .f32⟩ : BufTy).Contents (Elt F) :=
  shapeCast _ (val_main_v303 (F := F) x17) shapeCasts_S1x128_S128

def val_main_v305 : (⟨S1x128, .f32⟩ : BufTy).Contents (Elt F) :=
  broadcastInDim S1x128 ![1] bcast_S128_S1x128_1 (val_main_v302 (F := F) x16)

def val_main_v306 : (⟨S50000x128, .f32⟩ : BufTy).Contents (Elt F) :=
  broadcastInDim S50000x128 ![0, 1] bcast_S1x128_S50000x128_0_1 (val_main_v305 (F := F) x16)

def val_main_v307 : (⟨S50000x128, .f32⟩ : BufTy).Contents (Elt F) :=
  subf (val_main_v296 (F := F) x0 x1 x2 x3 x4 x5 x6 x7 x8 x9 x10 x11 x12 x13 x14 x15 x16 x17) (val_main_v306 (F := F) x16)

def val_main_cst_35 : (⟨S_, .f32⟩ : BufTy).Contents (Elt F) :=
  constant S_ .f32 0x3727C5AC#32

def val_main_v308 : (⟨S128, .f32⟩ : BufTy).Contents (Elt F) :=
  broadcastInDim S128 ![] bcast_S_S128 (val_main_cst_35 (F := F))

def val_main_v309 : (⟨S128, .f32⟩ : BufTy).Contents (Elt F) :=
  addf (val_main_v304 (F := F) x17) (val_main_v308 (F := F))

def val_main_v310 : (⟨S128, .f32⟩ : BufTy).Contents (Elt F) :=
  Host.rsqrt (val_main_v309 (F := F) x17)

def val_main_v311 : (⟨S128, .f32⟩ : BufTy).Contents (Elt F) :=
  mulf (val_main_v298 (F := F) x14) (val_main_v310 (F := F) x17)

def val_main_v312 : (⟨S1x128, .f32⟩ : BufTy).Contents (Elt F) :=
  broadcastInDim S1x128 ![1] bcast_S128_S1x128_1 (val_main_v311 (F := F) x14 x17)

def val_main_v313 : (⟨S50000x128, .f32⟩ : BufTy).Contents (Elt F) :=
  broadcastInDim S50000x128 ![0, 1] bcast_S1x128_S50000x128_0_1 (val_main_v312 (F := F) x14 x17)

def val_main_v314 : (⟨S50000x128, .f32⟩ : BufTy).Contents (Elt F) :=
  mulf (val_main_v307 (F := F) x0 x1 x2 x3 x4 x5 x6 x7 x8 x9 x10 x11 x12 x13 x14 x15 x16 x17) (val_main_v313 (F := F) x14 x17)

def val_main_v315 : (⟨S1x128, .f32⟩ : BufTy).Contents (Elt F) :=
  broadcastInDim S1x128 ![1] bcast_S128_S1x128_1 (val_main_v300 (F := F) x15)

def val_main_v316 : (⟨S50000x128, .f32⟩ : BufTy).Contents (Elt F) :=
  broadcastInDim S50000x128 ![0, 1] bcast_S1x128_S50000x128_0_1 (val_main_v315 (F := F) x15)

def val_main_v317 : (⟨S50000x128, .f32⟩ : BufTy).Contents (Elt F) :=
  addf (val_main_v314 (F := F) x0 x1 x2 x3 x4 x5 x6 x7 x8 x9 x10 x11 x12 x13 x14 x15 x16 x17) (val_main_v316 (F := F) x15)

def val_main_call11_cst : (⟨S_, .f32⟩ : BufTy).Contents (Elt F) :=
  constant S_ .f32 0x00000000#32

def val_main_call11_v0 : (⟨S50000x128, .f32⟩ : BufTy).Contents (Elt F) :=
  broadcastInDim S50000x128 ![] bcast_S_S50000x128 (val_main_call11_cst (F := F))

def val_main_v318 : (⟨S50000x128, .f32⟩ : BufTy).Contents (Elt F) :=
  maximumf (val_main_v317 (F := F) x0 x1 x2 x3 x4 x5 x6 x7 x8 x9 x10 x11 x12 x13 x14 x15 x16 x17) (val_main_call11_v0 (F := F))

def val_main_v319 : (⟨S1x3x4x128, .f32⟩ : BufTy).Contents (Elt F) :=
  extractStridedSlice S1x3x4x128 ![3, 0, 0, 0] (x4) slices_S5x3x4x128_S1x3x4x128_3_0_0_0

def val_main_v320 : (⟨S3x4x128, .f32⟩ : BufTy).Contents (Elt F) :=
  shapeCast _ (val_main_v319 (F := F) x4) shapeCasts_S1x3x4x128_S3x4x128

def val_main_v321 : (⟨S3, .i32⟩ : BufTy).Contents (Elt F) :=
  iotaInDim S3 32 0

def val_main_v322 : (⟨S1x3, .i32⟩ : BufTy).Contents (Elt F) :=
  broadcastInDim S1x3 ![1] bcast_S3_S1x3_1 (val_main_v321 (F := F))

def val_main_c_36 : (⟨S_, .i32⟩ : BufTy).Contents (Elt F) :=
  constantI S_ 32 0#32

def val_main_v323 : (⟨S1x3, .i32⟩ : BufTy).Contents (Elt F) :=
  broadcastInDim S1x3 ![] bcast_S_S1x3 (val_main_c_36 (F := F))

def val_main_v324 : (⟨S1x3, .i1⟩ : BufTy).Contents (Elt F) :=
  cmpi .slt (val_main_v322 (F := F)) (val_main_v323 (F := F))

def val_main_c_37 : (⟨S_, .i32⟩ : BufTy).Contents (Elt F) :=
  constantI S_ 32 3#32

def val_main_v325 : (⟨S1x3, .i32⟩ : BufTy).Contents (Elt F) :=
  broadcastInDim S1x3 ![] bcast_S_S1x3 (val_main_c_37 (F := F))

def val_main_v326 : (⟨S1x3, .i32⟩ : BufTy).Contents (Elt F) :=
  addi (val_main_v322 (F := F)) (val_main_v325 (F := F))

def val_main_v327 : (⟨S1x3, .i32⟩ : BufTy).Contents (Elt F) :=
  select (val_main_v324 (F := F)) (val_main_v326 (F := F)) (val_main_v322 (F := F))

def val_main_c_38 : (⟨S_, .i32⟩ : BufTy).Contents (Elt F) :=
  constantI S_ 32 0#32

def val_main_v328 : (⟨S600000x3, .i32⟩ : BufTy).Contents (Elt F) :=
  broadcastInDim S600000x3 ![] bcast_S_S600000x3 (val_main_c_38 (F := F))

def val_main_v329 : (⟨S600000x3, .i1⟩ : BufTy).Contents (Elt F) :=
  cmpi .slt (x2) (val_main_v328 (F := F))

def val_main_c_39 : (⟨S_, .i32⟩ : BufTy).Contents (Elt F) :=
  constantI S_ 32 4#32

def val_main_v330 : (⟨S600000x3, .i32⟩ : BufTy).Contents (Elt F) :=
  broadcastInDim S600000x3 ![] bcast_S_S600000x3 (val_main_c_39 (F := F))

def val_main_v331 : (⟨S600000x3, .i32⟩ : BufTy).Contents (Elt F) :=
  addi (x2) (val_main_v330 (F := F))

def val_main_v332 : (⟨S600000x3, .i32⟩ : BufTy).Contents (Elt F) :=
  select (val_main_v329 (F := F) x2) (val_main_v331 (F := F) x2) (x2)

def val_main_v333 : (⟨S600000x3, .i32⟩ : BufTy).Contents (Elt F) :=
  broadcastInDim S600000x3 ![0, 1] bcast_S1x3_S600000x3_0_1 (val_main_v327 (F := F))

def val_main_v334 : (⟨S600000x3x1, .i32⟩ : BufTy).Contents (Elt F) :=
  broadcastInDim S600000x3x1 ![0, 1] bcast_S600000x3_S600000x3x1_0_1 (val_main_v333 (F := F))

def val_main_v335 : (⟨S600000x3x1, .i32⟩ : BufTy).Contents (Elt F) :=
  broadcastInDim S600000x3x1 ![0, 1] bcast_S600000x3_S600000x3x1_0_1 (val_main_v332 (F := F) x2)

def val_main_v336 : (⟨S600000x3x2, .i32⟩ : BufTy).Contents (Elt F) :=
  concatenate S600000x3x2 2 [⟨S600000x3x1, (val_main_v334 (F := F))⟩, ⟨S600000x3x1, (val_main_v335 (F := F) x2)⟩] concatenates_S600000x3x1_S600000x3x1_S600000x3x2_d2

def val_main_v337 : (⟨S600000x3x128, .f32⟩ : BufTy).Contents (Elt F) :=
  Host.gather gather_S3x4x128_S600000x3x2_S600000x3x128_2_01_n_n_01_2_11128 (val_main_v320 (F := F) x4) (val_main_v336 (F := F) x2)

def val_main_cst_40 : (⟨S_, .f32⟩ : BufTy).Contents (Elt F) :=
  constant S_ .f32 0x00000000#32

def val_main_v338 : (⟨S600000x128, .f32⟩ : BufTy).Contents (Elt F) :=
  Host.reduceAdd (val_main_v337 (F := F) x2 x4) (val_main_cst_40 (F := F)) reducesTo_S600000x3x128_S600000x128_d1 h_S_

def val_main_c_41 : (⟨S_, .i32⟩ : BufTy).Contents (Elt F) :=
  constantI S_ 32 0#32

def val_main_v339 : (⟨S600000, .i32⟩ : BufTy).Contents (Elt F) :=
  broadcastInDim S600000 ![] bcast_S_S600000 (val_main_c_41 (F := F))

def val_main_v340 : (⟨S600000, .i1⟩ : BufTy).Contents (Elt F) :=
  cmpi .slt (val_main_v19 (F := F) x1) (val_main_v339 (F := F))

def val_main_c_42 : (⟨S_, .i32⟩ : BufTy).Contents (Elt F) :=
  constantI S_ 32 50000#32

def val_main_v341 : (⟨S600000, .i32⟩ : BufTy).Contents (Elt F) :=
  broadcastInDim S600000 ![] bcast_S_S600000 (val_main_c_42 (F := F))

def val_main_v342 : (⟨S600000, .i32⟩ : BufTy).Contents (Elt F) :=
  addi (val_main_v19 (F := F) x1) (val_main_v341 (F := F))

def val_main_v343 : (⟨S600000, .i32⟩ : BufTy).Contents (Elt F) :=
  select (val_main_v340 (F := F) x1) (val_main_v342 (F := F) x1) (val_main_v19 (F := F) x1)

def val_main_v344 : (⟨S600000x1, .i32⟩ : BufTy).Contents (Elt F) :=
  broadcastInDim S600000x1 ![0] bcast_S600000_S600000x1_0 (val_main_v343 (F := F) x1)

def val_main_v345 : (⟨S600000x128, .f32⟩ : BufTy).Contents (Elt F) :=
  Host.gather gather_S50000x128_S600000x1_S600000x128_1_0_n_n_0_1_1128 (val_main_v318 (F := F) x0 x1 x2 x3 x4 x5 x6 x7 x8 x9 x10 x11 x12 x13 x14 x15 x16 x17) (val_main_v344 (F := F) x1)

def val_main_v346 : (⟨S600000x128, .f32⟩ : BufTy).Contents (Elt F) :=
  addf (val_main_v345 (F := F) x0 x1 x2 x3 x4 x5 x6 x7 x8 x9 x10 x11 x12 x13 x14 x15 x16 x17) (val_main_v338 (F := F) x2 x4)

def val_main_call12_cst : (⟨S_, .f32⟩ : BufTy).Contents (Elt F) :=
  constant S_ .f32 0x00000000#32

def val_main_call12_v0 : (⟨S600000x128, .f32⟩ : BufTy).Contents (Elt F) :=
  broadcastInDim S600000x128 ![] bcast_S_S600000x128 (val_main_call12_cst (F := F))

def val_main_v347 : (⟨S600000x128, .f32⟩ : BufTy).Contents (Elt F) :=
  maximumf (val_main_v346 (F := F) x0 x1 x2 x3 x4 x5 x6 x7 x8 x9 x10 x11 x12 x13 x14 x15 x16 x17) (val_main_call12_v0 (F := F))

def val_main_cst_43 : (⟨S_, .f32⟩ : BufTy).Contents (Elt F) :=
  constant S_ .f32 0x00000000#32

def val_main_v348 : (⟨S50000x128, .f32⟩ : BufTy).Contents (Elt F) :=
  broadcastInDim S50000x128 ![] bcast_S_S50000x128 (val_main_cst_43 (F := F))

def val_main_v349 : (⟨S600000x1, .i32⟩ : BufTy).Contents (Elt F) :=
  broadcastInDim S600000x1 ![0] bcast_S600000_S600000x1_0 (val_main_v21 (F := F) x1)

def val_main_v350 : (⟨S50000x128, .f32⟩ : BufTy).Contents (Elt F) :=
  Host.scatterAdd scatter_S50000x128_S600000x1_S600000x128_1_0_0_1 (val_main_v348 (F := F)) (val_main_v349 (F := F) x1) (val_main_v347 (F := F) x0 x1 x2 x3 x4 x5 x6 x7 x8 x9 x10 x11 x12 x13 x14 x15 x16 x17)

def val_main_v351 : (⟨S1, .f32⟩ : BufTy).Contents (Elt F) :=
  extractStridedSlice S1 ![3] (x5) slices_S5_S1_3

def val_main_v352 : (⟨S_, .f32⟩ : BufTy).Contents (Elt F) :=
  shapeCast _ (val_main_v351 (F := F) x5) shapeCasts_S1_S_

def val_main_cst_44 : (⟨S_, .f32⟩ : BufTy).Contents (Elt F) :=
  constant S_ .f32 0x3F800000#32

def val_main_v353 : (⟨S_, .f32⟩ : BufTy).Contents (Elt F) :=
  addf (val_main_cst_44 (F := F)) (val_main_v352 (F := F) x5)

def val_main_v354 : (⟨S50000x128, .f32⟩ : BufTy).Contents (Elt F) :=
  broadcastInDim S50000x128 ![] bcast_S_S50000x128 (val_main_v353 (F := F) x5)

def val_main_v355 : (⟨S50000x128, .f32⟩ : BufTy).Contents (Elt F) :=
  mulf (val_main_v354 (F := F) x5) (val_main_v318 (F := F) x0 x1 x2 x3 x4 x5 x6 x7 x8 x9 x10 x11 x12 x13 x14 x15 x16 x17)

def val_main_v356 : (⟨S50000x128, .f32⟩ : BufTy).Contents (Elt F) :=
  addf (val_main_v355 (F := F) x0 x1 x2 x3 x4 x5 x6 x7 x8 x9 x10 x11 x12 x13 x14 x15 x16 x17) (val_main_v350 (F := F) x0 x1 x2 x3 x4 x5 x6 x7 x8 x9 x10 x11 x12 x13 x14 x15 x16 x17)

def val_main_v357 : (⟨S1x128x128, .f32⟩ : BufTy).Contents (Elt F) :=
  extractStridedSlice S1x128x128 ![3, 0, 0] (x6) slices_S5x128x128_S1x128x128_3_0_0

def val_main_v358 : (⟨S128x128, .f32⟩ : BufTy).Contents (Elt F) :=
  shapeCast _ (val_main_v357 (F := F) x6) shapeCasts_S1x128x128_S128x128

def val_main_v359 : (⟨S50000x128, .f32⟩ : BufTy).Contents (Elt F) :=
  Host.dotGeneral dot_S50000x128_S128x128_S50000x128_1_0_0_1_n_n none (val_main_v356 (F := F) x0 x1 x2 x3 x4 x5 x6 x7 x8 x9 x10 x11 x12 x13 x14 x15 x16 x17) (val_main_v358 (F := F) x6)

def val_main_v360 : (⟨S1x128, .f32⟩ : BufTy).Contents (Elt F) :=
  extractStridedSlice S1x128 ![3, 0] (x7) slices_S5x128_S1x128_3_0

def val_main_v361 : (⟨S128, .f32⟩ : BufTy).Contents (Elt F) :=
  shapeCast _ (val_main_v360 (F := F) x7) shapeCasts_S1x128_S128

def val_main_v362 : (⟨S1x128, .f32⟩ : BufTy).Contents (Elt F) :=
  broadcastInDim S1x128 ![1] bcast_S128_S1x128_1 (val_main_v361 (F := F) x7)

def val_main_v363 : (⟨S50000x128, .f32⟩ : BufTy).Contents (Elt F) :=
  broadcastInDim S50000x128 ![0, 1] bcast_S1x128_S50000x128_0_1 (val_main_v362 (F := F) x7)

def val_main_v364 : (⟨S50000x128, .f32⟩ : BufTy).Contents (Elt F) :=
  addf (val_main_v359 (F := F) x0 x1 x2 x3 x4 x5 x6 x7 x8 x9 x10 x11 x12 x13 x14 x15 x16 x17) (val_main_v363 (F := F) x7)

def val_main_v365 : (⟨S1x128, .f32⟩ : BufTy).Contents (Elt F) :=
  extractStridedSlice S1x128 ![3, 0] (x8) slices_S5x128_S1x128_3_0

def val_main_v366 : (⟨S128, .f32⟩ : BufTy).Contents (Elt F) :=
  shapeCast _ (val_main_v365 (F := F) x8) shapeCasts_S1x128_S128

def val_main_v367 : (⟨S1x128, .f32⟩ : BufTy).Contents (Elt F) :=
  extractStridedSlice S1x128 ![3, 0] (x9) slices_S5x128_S1x128_3_0

def val_main_v368 : (⟨S128, .f32⟩ : BufTy).Contents (Elt F) :=
  shapeCast _ (val_main_v367 (F := F) x9) shapeCasts_S1x128_S128

def val_main_v369 : (⟨S1x128, .f32⟩ : BufTy).Contents (Elt F) :=
  extractStridedSlice S1x128 ![3, 0] (x10) slices_S5x128_S1x128_3_0

def val_main_v370 : (⟨S128, .f32⟩ : BufTy).Contents (Elt F) :=
  shapeCast _ (val_main_v369 (F := F) x10) shapeCasts_S1x128_S128

def val_main_v371 : (⟨S1x128, .f32⟩ : BufTy).Contents (Elt F) :=
  extractStridedSlice S1x128 ![3, 0] (x11) slices_S5x128_S1x128_3_0

def val_main_v372 : (⟨S128, .f32⟩ : BufTy).Contents (Elt F) :=
  shapeCast _ (val_main_v371 (F := F) x11) shapeCasts_S1x128_S128

def val_main_v373 : (⟨S1x128, .f32⟩ : BufTy).Contents (Elt F) :=
  broadcastInDim S1x128 ![1] bcast_S128_S1x128_1 (val_main_v370 (F := F) x10)

def val_main_v374 : (⟨S50000x128, .f32⟩ : BufTy).Contents (Elt F) :=
  broadcastInDim S50000x128 ![0, 1] bcast_S1x128_S50000x128_0_1 (val_main_v373 (F := F) x10)

def val_main_v375 : (⟨S50000x128, .f32⟩ : BufTy).Contents (Elt F) :=
  subf (val_main_v364 (F := F) x0 x1 x2 x3 x4 x5 x6 x7 x8 x9 x10 x11 x12 x13 x14 x15 x16 x17) (val_main_v374 (F := F) x10)

def val_main_cst_45 : (⟨S_, .f32⟩ : BufTy).Contents (Elt F) :=
  constant S_ .f32 0x3727C5AC#32

def val_main_v376 : (⟨S128, .f32⟩ : BufTy).Contents (Elt F) :=
  broadcastInDim S128 ![] bcast_S_S128 (val_main_cst_45 (F := F))

def val_main_v377 : (⟨S128, .f32⟩ : BufTy).Contents (Elt F) :=
  addf (val_main_v372 (F := F) x11) (val_main_v376 (F := F))

def val_main_v378 : (⟨S128, .f32⟩ : BufTy).Contents (Elt F) :=
  Host.rsqrt (val_main_v377 (F := F) x11)

def val_main_v379 : (⟨S128, .f32⟩ : BufTy).Contents (Elt F) :=
  mulf (val_main_v366 (F := F) x8) (val_main_v378 (F := F) x11)

def val_main_v380 : (⟨S1x128, .f32⟩ : BufTy).Contents (Elt F) :=
  broadcastInDim S1x128 ![1] bcast_S128_S1x128_1 (val_main_v379 (F := F) x8 x11)

def val_main_v381 : (⟨S50000x128, .f32⟩ : BufTy).Contents (Elt F) :=
  broadcastInDim S50000x128 ![0, 1] bcast_S1x128_S50000x128_0_1 (val_main_v380 (F := F) x8 x11)

def val_main_v382 : (⟨S50000x128, .f32⟩ : BufTy).Contents (Elt F) :=
  mulf (val_main_v375 (F := F) x0 x1 x2 x3 x4 x5 x6 x7 x8 x9 x10 x11 x12 x13 x14 x15 x16 x17) (val_main_v381 (F := F) x8 x11)

def val_main_v383 : (⟨S1x128, .f32⟩ : BufTy).Contents (Elt F) :=
  broadcastInDim S1x128 ![1] bcast_S128_S1x128_1 (val_main_v368 (F := F) x9)

def val_main_v384 : (⟨S50000x128, .f32⟩ : BufTy).Contents (Elt F) :=
  broadcastInDim S50000x128 ![0, 1] bcast_S1x128_S50000x128_0_1 (val_main_v383 (F := F) x9)

def val_main_v385 : (⟨S50000x128, .f32⟩ : BufTy).Contents (Elt F) :=
  addf (val_main_v382 (F := F) x0 x1 x2 x3 x4 x5 x6 x7 x8 x9 x10 x11 x12 x13 x14 x15 x16 x17) (val_main_v384 (F := F) x9)

def val_main_call13_cst : (⟨S_, .f32⟩ : BufTy).Contents (Elt F) :=
  constant S_ .f32 0x00000000#32

def val_main_call13_v0 : (⟨S50000x128, .f32⟩ : BufTy).Contents (Elt F) :=
  broadcastInDim S50000x128 ![] bcast_S_S50000x128 (val_main_call13_cst (F := F))

def val_main_v386 : (⟨S50000x128, .f32⟩ : BufTy).Contents (Elt F) :=
  maximumf (val_main_v385 (F := F) x0 x1 x2 x3 x4 x5 x6 x7 x8 x9 x10 x11 x12 x13 x14 x15 x16 x17) (val_main_call13_v0 (F := F))

def val_main_v387 : (⟨S1x128x128, .f32⟩ : BufTy).Contents (Elt F) :=
  extractStridedSlice S1x128x128 ![3, 0, 0] (x12) slices_S5x128x128_S1x128x128_3_0_0

def val_main_v388 : (⟨S128x128, .f32⟩ : BufTy).Contents (Elt F) :=
  shapeCast _ (val_main_v387 (F := F) x12) shapeCasts_S1x128x128_S128x128

def val_main_v389 : (⟨S50000x128, .f32⟩ : BufTy).Contents (Elt F) :=
  Host.dotGeneral dot_S50000x128_S128x128_S50000x128_1_0_0_1_n_n none (val_main_v386 (F := F) x0 x1 x2 x3 x4 x5 x6 x7 x8 x9 x10 x11 x12 x13 x14 x15 x16 x17) (val_main_v388 (F := F) x12)

def val_main_v390 : (⟨S1x128, .f32⟩ : BufTy).Contents (Elt F) :=
  extractStridedSlice S1x128 ![3, 0] (x13) slices_S5x128_S1x128_3_0

def val_main_v391 : (⟨S128, .f32⟩ : BufTy).Contents (Elt F) :=
  shapeCast _ (val_main_v390 (F := F) x13) shapeCasts_S1x128_S128

def val_main_v392 : (⟨S1x128, .f32⟩ : BufTy).Contents (Elt F) :=
  broadcastInDim S1x128 ![1] bcast_S128_S1x128_1 (val_main_v391 (F := F) x13)

def val_main_v393 : (⟨S50000x128, .f32⟩ : BufTy).Contents (Elt F) :=
  broadcastInDim S50000x128 ![0, 1] bcast_S1x128_S50000x128_0_1 (val_main_v392 (F := F) x13)

def val_main_v394 : (⟨S50000x128, .f32⟩ : BufTy).Contents (Elt F) :=
  addf (val_main_v389 (F := F) x0 x1 x2 x3 x4 x5 x6 x7 x8 x9 x10 x11 x12 x13 x14 x15 x16 x17) (val_main_v393 (F := F) x13)

def val_main_call14_cst : (⟨S_, .f32⟩ : BufTy).Contents (Elt F) :=
  constant S_ .f32 0x00000000#32

def val_main_call14_v0 : (⟨S50000x128, .f32⟩ : BufTy).Contents (Elt F) :=
  broadcastInDim S50000x128 ![] bcast_S_S50000x128 (val_main_call14_cst (F := F))

def val_main_v395 : (⟨S50000x128, .f32⟩ : BufTy).Contents (Elt F) :=
  maximumf (val_main_v394 (F := F) x0 x1 x2 x3 x4 x5 x6 x7 x8 x9 x10 x11 x12 x13 x14 x15 x16 x17) (val_main_call14_v0 (F := F))

def val_main_v396 : (⟨S1x128, .f32⟩ : BufTy).Contents (Elt F) :=
  extractStridedSlice S1x128 ![3, 0] (x14) slices_S5x128_S1x128_3_0

def val_main_v397 : (⟨S128, .f32⟩ : BufTy).Contents (Elt F) :=
  shapeCast _ (val_main_v396 (F := F) x14) shapeCasts_S1x128_S128

def val_main_v398 : (⟨S1x128, .f32⟩ : BufTy).Contents (Elt F) :=
  extractStridedSlice S1x128 ![3, 0] (x15) slices_S5x128_S1x128_3_0

def val_main_v399 : (⟨S128, .f32⟩ : BufTy).Contents (Elt F) :=
  shapeCast _ (val_main_v398 (F := F) x15) shapeCasts_S1x128_S128

def val_main_v400 : (⟨S1x128, .f32⟩ : BufTy).Contents (Elt F) :=
  extractStridedSlice S1x128 ![3, 0] (x16) slices_S5x128_S1x128_3_0

def val_main_v401 : (⟨S128, .f32⟩ : BufTy).Contents (Elt F) :=
  shapeCast _ (val_main_v400 (F := F) x16) shapeCasts_S1x128_S128

def val_main_v402 : (⟨S1x128, .f32⟩ : BufTy).Contents (Elt F) :=
  extractStridedSlice S1x128 ![3, 0] (x17) slices_S5x128_S1x128_3_0

def val_main_v403 : (⟨S128, .f32⟩ : BufTy).Contents (Elt F) :=
  shapeCast _ (val_main_v402 (F := F) x17) shapeCasts_S1x128_S128

def val_main_v404 : (⟨S1x128, .f32⟩ : BufTy).Contents (Elt F) :=
  broadcastInDim S1x128 ![1] bcast_S128_S1x128_1 (val_main_v401 (F := F) x16)

def val_main_v405 : (⟨S50000x128, .f32⟩ : BufTy).Contents (Elt F) :=
  broadcastInDim S50000x128 ![0, 1] bcast_S1x128_S50000x128_0_1 (val_main_v404 (F := F) x16)

def val_main_v406 : (⟨S50000x128, .f32⟩ : BufTy).Contents (Elt F) :=
  subf (val_main_v395 (F := F) x0 x1 x2 x3 x4 x5 x6 x7 x8 x9 x10 x11 x12 x13 x14 x15 x16 x17) (val_main_v405 (F := F) x16)

def val_main_cst_46 : (⟨S_, .f32⟩ : BufTy).Contents (Elt F) :=
  constant S_ .f32 0x3727C5AC#32

def val_main_v407 : (⟨S128, .f32⟩ : BufTy).Contents (Elt F) :=
  broadcastInDim S128 ![] bcast_S_S128 (val_main_cst_46 (F := F))

def val_main_v408 : (⟨S128, .f32⟩ : BufTy).Contents (Elt F) :=
  addf (val_main_v403 (F := F) x17) (val_main_v407 (F := F))

def val_main_v409 : (⟨S128, .f32⟩ : BufTy).Contents (Elt F) :=
  Host.rsqrt (val_main_v408 (F := F) x17)

def val_main_v410 : (⟨S128, .f32⟩ : BufTy).Contents (Elt F) :=
  mulf (val_main_v397 (F := F) x14) (val_main_v409 (F := F) x17)

def val_main_v411 : (⟨S1x128, .f32⟩ : BufTy).Contents (Elt F) :=
  broadcastInDim S1x128 ![1] bcast_S128_S1x128_1 (val_main_v410 (F := F) x14 x17)

def val_main_v412 : (⟨S50000x128, .f32⟩ : BufTy).Contents (Elt F) :=
  broadcastInDim S50000x128 ![0, 1] bcast_S1x128_S50000x128_0_1 (val_main_v411 (F := F) x14 x17)

def val_main_v413 : (⟨S50000x128, .f32⟩ : BufTy).Contents (Elt F) :=
  mulf (val_main_v406 (F := F) x0 x1 x2 x3 x4 x5 x6 x7 x8 x9 x10 x11 x12 x13 x14 x15 x16 x17) (val_main_v412 (F := F) x14 x17)

def val_main_v414 : (⟨S1x128, .f32⟩ : BufTy).Contents (Elt F) :=
  broadcastInDim S1x128 ![1] bcast_S128_S1x128_1 (val_main_v399 (F := F) x15)

def val_main_v415 : (⟨S50000x128, .f32⟩ : BufTy).Contents (Elt F) :=
  broadcastInDim S50000x128 ![0, 1] bcast_S1x128_S50000x128_0_1 (val_main_v414 (F := F) x15)

def val_main_v416 : (⟨S50000x128, .f32⟩ : BufTy).Contents (Elt F) :=
  addf (val_main_v413 (F := F) x0 x1 x2 x3 x4 x5 x6 x7 x8 x9 x10 x11 x12 x13 x14 x15 x16 x17) (val_main_v415 (F := F) x15)

def val_main_call15_cst : (⟨S_, .f32⟩ : BufTy).Contents (Elt F) :=
  constant S_ .f32 0x00000000#32

def val_main_call15_v0 : (⟨S50000x128, .f32⟩ : BufTy).Contents (Elt F) :=
  broadcastInDim S50000x128 ![] bcast_S_S50000x128 (val_main_call15_cst (F := F))

def val_main_v417 : (⟨S50000x128, .f32⟩ : BufTy).Contents (Elt F) :=
  maximumf (val_main_v416 (F := F) x0 x1 x2 x3 x4 x5 x6 x7 x8 x9 x10 x11 x12 x13 x14 x15 x16 x17) (val_main_call15_v0 (F := F))

def val_main_v418 : (⟨S1x3x4x128, .f32⟩ : BufTy).Contents (Elt F) :=
  extractStridedSlice S1x3x4x128 ![4, 0, 0, 0] (x4) slices_S5x3x4x128_S1x3x4x128_4_0_0_0

def val_main_v419 : (⟨S3x4x128, .f32⟩ : BufTy).Contents (Elt F) :=
  shapeCast _ (val_main_v418 (F := F) x4) shapeCasts_S1x3x4x128_S3x4x128

def val_main_v420 : (⟨S3, .i32⟩ : BufTy).Contents (Elt F) :=
  iotaInDim S3 32 0

def val_main_v421 : (⟨S1x3, .i32⟩ : BufTy).Contents (Elt F) :=
  broadcastInDim S1x3 ![1] bcast_S3_S1x3_1 (val_main_v420 (F := F))

def val_main_c_47 : (⟨S_, .i32⟩ : BufTy).Contents (Elt F) :=
  constantI S_ 32 0#32

def val_main_v422 : (⟨S1x3, .i32⟩ : BufTy).Contents (Elt F) :=
  broadcastInDim S1x3 ![] bcast_S_S1x3 (val_main_c_47 (F := F))

def val_main_v423 : (⟨S1x3, .i1⟩ : BufTy).Contents (Elt F) :=
  cmpi .slt (val_main_v421 (F := F)) (val_main_v422 (F := F))

def val_main_c_48 : (⟨S_, .i32⟩ : BufTy).Contents (Elt F) :=
  constantI S_ 32 3#32

def val_main_v424 : (⟨S1x3, .i32⟩ : BufTy).Contents (Elt F) :=
  broadcastInDim S1x3 ![] bcast_S_S1x3 (val_main_c_48 (F := F))

def val_main_v425 : (⟨S1x3, .i32⟩ : BufTy).Contents (Elt F) :=
  addi (val_main_v421 (F := F)) (val_main_v424 (F := F))

def val_main_v426 : (⟨S1x3, .i32⟩ : BufTy).Contents (Elt F) :=
  select (val_main_v423 (F := F)) (val_main_v425 (F := F)) (val_main_v421 (F := F))

def val_main_c_49 : (⟨S_, .i32⟩ : BufTy).Contents (Elt F) :=
  constantI S_ 32 0#32

def val_main_v427 : (⟨S600000x3, .i32⟩ : BufTy).Contents (Elt F) :=
  broadcastInDim S600000x3 ![] bcast_S_S600000x3 (val_main_c_49 (F := F))

def val_main_v428 : (⟨S600000x3, .i1⟩ : BufTy).Contents (Elt F) :=
  cmpi .slt (x2) (val_main_v427 (F := F))

def val_main_c_50 : (⟨S_, .i32⟩ : BufTy).Contents (Elt F) :=
  constantI S_ 32 4#32

def val_main_v429 : (⟨S600000x3, .i32⟩ : BufTy).Contents (Elt F) :=
  broadcastInDim S600000x3 ![] bcast_S_S600000x3 (val_main_c_50 (F := F))

def val_main_v430 : (⟨S600000x3, .i32⟩ : BufTy).Contents (Elt F) :=
  addi (x2) (val_main_v429 (F := F))

def val_main_v431 : (⟨S600000x3, .i32⟩ : BufTy).Contents (Elt F) :=
  select (val_main_v428 (F := F) x2) (val_main_v430 (F := F) x2) (x2)

def val_main_v432 : (⟨S600000x3, .i32⟩ : BufTy).Contents (Elt F) :=
  broadcastInDim S600000x3 ![0, 1] bcast_S1x3_S600000x3_0_1 (val_main_v426 (F := F))

def val_main_v433 : (⟨S600000x3x1, .i32⟩ : BufTy).Contents (Elt F) :=
  broadcastInDim S600000x3x1 ![0, 1] bcast_S600000x3_S600000x3x1_0_1 (val_main_v432 (F := F))

def val_main_v434 : (⟨S600000x3x1, .i32⟩ : BufTy).Contents (Elt F) :=
  broadcastInDim S600000x3x1 ![0, 1] bcast_S600000x3_S600000x3x1_0_1 (val_main_v431 (F := F) x2)

def val_main_v435 : (⟨S600000x3x2, .i32⟩ : BufTy).Contents (Elt F) :=
  concatenate S600000x3x2 2 [⟨S600000x3x1, (val_main_v433 (F := F))⟩, ⟨S600000x3x1, (val_main_v434 (F := F) x2)⟩] concatenates_S600000x3x1_S600000x3x1_S600000x3x2_d2

def val_main_v436 : (⟨S600000x3x128, .f32⟩ : BufTy).Contents (Elt F) :=
  Host.gather gather_S3x4x128_S600000x3x2_S600000x3x128_2_01_n_n_01_2_11128 (val_main_v419 (F := F) x4) (val_main_v435 (F := F) x2)

def val_main_cst_51 : (⟨S_, .f32⟩ : BufTy).Contents (Elt F) :=
  constant S_ .f32 0x00000000#32

def val_main_v437 : (⟨S600000x128, .f32⟩ : BufTy).Contents (Elt F) :=
  Host.reduceAdd (val_main_v436 (F := F) x2 x4) (val_main_cst_51 (F := F)) reducesTo_S600000x3x128_S600000x128_d1 h_S_

def val_main_c_52 : (⟨S_, .i32⟩ : BufTy).Contents (Elt F) :=
  constantI S_ 32 0#32

def val_main_v438 : (⟨S600000, .i32⟩ : BufTy).Contents (Elt F) :=
  broadcastInDim S600000 ![] bcast_S_S600000 (val_main_c_52 (F := F))

def val_main_v439 : (⟨S600000, .i1⟩ : BufTy).Contents (Elt F) :=
  cmpi .slt (val_main_v19 (F := F) x1) (val_main_v438 (F := F))

def val_main_c_53 : (⟨S_, .i32⟩ : BufTy).Contents (Elt F) :=
  constantI S_ 32 50000#32

def val_main_v440 : (⟨S600000, .i32⟩ : BufTy).Contents (Elt F) :=
  broadcastInDim S600000 ![] bcast_S_S600000 (val_main_c_53 (F := F))

def val_main_v441 : (⟨S600000, .i32⟩ : BufTy).Contents (Elt F) :=
  addi (val_main_v19 (F := F) x1) (val_main_v440 (F := F))

def val_main_v442 : (⟨S600000, .i32⟩ : BufTy).Contents (Elt F) :=
  select (val_main_v439 (F := F) x1) (val_main_v441 (F := F) x1) (val_main_v19 (F := F) x1)

def val_main_v443 : (⟨S600000x1, .i32⟩ : BufTy).Contents (Elt F) :=
  broadcastInDim S600000x1 ![0] bcast_S600000_S600000x1_0 (val_main_v442 (F := F) x1)

def val_main_v444 : (⟨S600000x128, .f32⟩ : BufTy).Contents (Elt F) :=
  Host.gather gather_S50000x128_S600000x1_S600000x128_1_0_n_n_0_1_1128 (val_main_v417 (F := F) x0 x1 x2 x3 x4 x5 x6 x7 x8 x9 x10 x11 x12 x13 x14 x15 x16 x17) (val_main_v443 (F := F) x1)

def val_main_v445 : (⟨S600000x128, .f32⟩ : BufTy).Contents (Elt F) :=
  addf (val_main_v444 (F := F) x0 x1 x2 x3 x4 x5 x6 x7 x8 x9 x10 x11 x12 x13 x14 x15 x16 x17) (val_main_v437 (F := F) x2 x4)

def val_main_call16_cst : (⟨S_, .f32⟩ : BufTy).Contents (Elt F) :=
  constant S_ .f32 0x00000000#32

def val_main_call16_v0 : (⟨S600000x128, .f32⟩ : BufTy).Contents (Elt F) :=
  broadcastInDim S600000x128 ![] bcast_S_S600000x128 (val_main_call16_cst (F := F))

def val_main_v446 : (⟨S600000x128, .f32⟩ : BufTy).Contents (Elt F) :=
  maximumf (val_main_v445 (F := F) x0 x1 x2 x3 x4 x5 x6 x7 x8 x9 x10 x11 x12 x13 x14 x15 x16 x17) (val_main_call16_v0 (F := F))

def val_main_cst_54 : (⟨S_, .f32⟩ : BufTy).Contents (Elt F) :=
  constant S_ .f32 0x00000000#32

def val_main_v447 : (⟨S50000x128, .f32⟩ : BufTy).Contents (Elt F) :=
  broadcastInDim S50000x128 ![] bcast_S_S50000x128 (val_main_cst_54 (F := F))

def val_main_v448 : (⟨S600000x1, .i32⟩ : BufTy).Contents (Elt F) :=
  broadcastInDim S600000x1 ![0] bcast_S600000_S600000x1_0 (val_main_v21 (F := F) x1)

def val_main_v449 : (⟨S50000x128, .f32⟩ : BufTy).Contents (Elt F) :=
  Host.scatterAdd scatter_S50000x128_S600000x1_S600000x128_1_0_0_1 (val_main_v447 (F := F)) (val_main_v448 (F := F) x1) (val_main_v446 (F := F) x0 x1 x2 x3 x4 x5 x6 x7 x8 x9 x10 x11 x12 x13 x14 x15 x16 x17)

def val_main_v450 : (⟨S1, .f32⟩ : BufTy).Contents (Elt F) :=
  extractStridedSlice S1 ![4] (x5) slices_S5_S1_4

def val_main_v451 : (⟨S_, .f32⟩ : BufTy).Contents (Elt F) :=
  shapeCast _ (val_main_v450 (F := F) x5) shapeCasts_S1_S_

def val_main_cst_55 : (⟨S_, .f32⟩ : BufTy).Contents (Elt F) :=
  constant S_ .f32 0x3F800000#32

def val_main_v452 : (⟨S_, .f32⟩ : BufTy).Contents (Elt F) :=
  addf (val_main_cst_55 (F := F)) (val_main_v451 (F := F) x5)

def val_main_v453 : (⟨S50000x128, .f32⟩ : BufTy).Contents (Elt F) :=
  broadcastInDim S50000x128 ![] bcast_S_S50000x128 (val_main_v452 (F := F) x5)

def val_main_v454 : (⟨S50000x128, .f32⟩ : BufTy).Contents (Elt F) :=
  mulf (val_main_v453 (F := F) x5) (val_main_v417 (F := F) x0 x1 x2 x3 x4 x5 x6 x7 x8 x9 x10 x11 x12 x13 x14 x15 x16 x17)

def val_main_v455 : (⟨S50000x128, .f32⟩ : BufTy).Contents (Elt F) :=
  addf (val_main_v454 (F := F) x0 x1 x2 x3 x4 x5 x6 x7 x8 x9 x10 x11 x12 x13 x14 x15 x16 x17) (val_main_v449 (F := F) x0 x1 x2 x3 x4 x5 x6 x7 x8 x9 x10 x11 x12 x13 x14 x15 x16 x17)

def val_main_v456 : (⟨S1x128x128, .f32⟩ : BufTy).Contents (Elt F) :=
  extractStridedSlice S1x128x128 ![4, 0, 0] (x6) slices_S5x128x128_S1x128x128_4_0_0

def val_main_v457 : (⟨S128x128, .f32⟩ : BufTy).Contents (Elt F) :=
  shapeCast _ (val_main_v456 (F := F) x6) shapeCasts_S1x128x128_S128x128

def val_main_v458 : (⟨S50000x128, .f32⟩ : BufTy).Contents (Elt F) :=
  Host.dotGeneral dot_S50000x128_S128x128_S50000x128_1_0_0_1_n_n none (val_main_v455 (F := F) x0 x1 x2 x3 x4 x5 x6 x7 x8 x9 x10 x11 x12 x13 x14 x15 x16 x17) (val_main_v457 (F := F) x6)

def val_main_v459 : (⟨S1x128, .f32⟩ : BufTy).Contents (Elt F) :=
  extractStridedSlice S1x128 ![4, 0] (x7) slices_S5x128_S1x128_4_0

def val_main_v460 : (⟨S128, .f32⟩ : BufTy).Contents (Elt F) :=
  shapeCast _ (val_main_v459 (F := F) x7) shapeCasts_S1x128_S128

def val_main_v461 : (⟨S1x128, .f32⟩ : BufTy).Contents (Elt F) :=
  broadcastInDim S1x128 ![1] bcast_S128_S1x128_1 (val_main_v460 (F := F) x7)

def val_main_v462 : (⟨S50000x128, .f32⟩ : BufTy).Contents (Elt F) :=
  broadcastInDim S50000x128 ![0, 1] bcast_S1x128_S50000x128_0_1 (val_main_v461 (F := F) x7)

def val_main_v463 : (⟨S50000x128, .f32⟩ : BufTy).Contents (Elt F) :=
  addf (val_main_v458 (F := F) x0 x1 x2 x3 x4 x5 x6 x7 x8 x9 x10 x11 x12 x13 x14 x15 x16 x17) (val_main_v462 (F := F) x7)

def val_main_v464 : (⟨S1x128, .f32⟩ : BufTy).Contents (Elt F) :=
  extractStridedSlice S1x128 ![4, 0] (x8) slices_S5x128_S1x128_4_0

def val_main_v465 : (⟨S128, .f32⟩ : BufTy).Contents (Elt F) :=
  shapeCast _ (val_main_v464 (F := F) x8) shapeCasts_S1x128_S128

def val_main_v466 : (⟨S1x128, .f32⟩ : BufTy).Contents (Elt F) :=
  extractStridedSlice S1x128 ![4, 0] (x9) slices_S5x128_S1x128_4_0

def val_main_v467 : (⟨S128, .f32⟩ : BufTy).Contents (Elt F) :=
  shapeCast _ (val_main_v466 (F := F) x9) shapeCasts_S1x128_S128

def val_main_v468 : (⟨S1x128, .f32⟩ : BufTy).Contents (Elt F) :=
  extractStridedSlice S1x128 ![4, 0] (x10) slices_S5x128_S1x128_4_0

def val_main_v469 : (⟨S128, .f32⟩ : BufTy).Contents (Elt F) :=
  shapeCast _ (val_main_v468 (F := F) x10) shapeCasts_S1x128_S128

def val_main_v470 : (⟨S1x128, .f32⟩ : BufTy).Contents (Elt F) :=
  extractStridedSlice S1x128 ![4, 0] (x11) slices_S5x128_S1x128_4_0

def val_main_v471 : (⟨S128, .f32⟩ : BufTy).Contents (Elt F) :=
  shapeCast _ (val_main_v470 (F := F) x11) shapeCasts_S1x128_S128

def val_main_v472 : (⟨S1x128, .f32⟩ : BufTy).Contents (Elt F) :=
  broadcastInDim S1x128 ![1] bcast_S128_S1x128_1 (val_main_v469 (F := F) x10)

def val_main_v473 : (⟨S50000x128, .f32⟩ : BufTy).Contents (Elt F) :=
  broadcastInDim S50000x128 ![0, 1] bcast_S1x128_S50000x128_0_1 (val_main_v472 (F := F) x10)

def val_main_v474 : (⟨S50000x128, .f32⟩ : BufTy).Contents (Elt F) :=
  subf (val_main_v463 (F := F) x0 x1 x2 x3 x4 x5 x6 x7 x8 x9 x10 x11 x12 x13 x14 x15 x16 x17) (val_main_v473 (F := F) x10)

def val_main_cst_56 : (⟨S_, .f32⟩ : BufTy).Contents (Elt F) :=
  constant S_ .f32 0x3727C5AC#32

def val_main_v475 : (⟨S128, .f32⟩ : BufTy).Contents (Elt F) :=
  broadcastInDim S128 ![] bcast_S_S128 (val_main_cst_56 (F := F))

def val_main_v476 : (⟨S128, .f32⟩ : BufTy).Contents (Elt F) :=
  addf (val_main_v471 (F := F) x11) (val_main_v475 (F := F))

def val_main_v477 : (⟨S128, .f32⟩ : BufTy).Contents (Elt F) :=
  Host.rsqrt (val_main_v476 (F := F) x11)

def val_main_v478 : (⟨S128, .f32⟩ : BufTy).Contents (Elt F) :=
  mulf (val_main_v465 (F := F) x8) (val_main_v477 (F := F) x11)

def val_main_v479 : (⟨S1x128, .f32⟩ : BufTy).Contents (Elt F) :=
  broadcastInDim S1x128 ![1] bcast_S128_S1x128_1 (val_main_v478 (F := F) x8 x11)

def val_main_v480 : (⟨S50000x128, .f32⟩ : BufTy).Contents (Elt F) :=
  broadcastInDim S50000x128 ![0, 1] bcast_S1x128_S50000x128_0_1 (val_main_v479 (F := F) x8 x11)

def val_main_v481 : (⟨S50000x128, .f32⟩ : BufTy).Contents (Elt F) :=
  mulf (val_main_v474 (F := F) x0 x1 x2 x3 x4 x5 x6 x7 x8 x9 x10 x11 x12 x13 x14 x15 x16 x17) (val_main_v480 (F := F) x8 x11)

def val_main_v482 : (⟨S1x128, .f32⟩ : BufTy).Contents (Elt F) :=
  broadcastInDim S1x128 ![1] bcast_S128_S1x128_1 (val_main_v467 (F := F) x9)

def val_main_v483 : (⟨S50000x128, .f32⟩ : BufTy).Contents (Elt F) :=
  broadcastInDim S50000x128 ![0, 1] bcast_S1x128_S50000x128_0_1 (val_main_v482 (F := F) x9)

def val_main_v484 : (⟨S50000x128, .f32⟩ : BufTy).Contents (Elt F) :=
  addf (val_main_v481 (F := F) x0 x1 x2 x3 x4 x5 x6 x7 x8 x9 x10 x11 x12 x13 x14 x15 x16 x17) (val_main_v483 (F := F) x9)

def val_main_call17_cst : (⟨S_, .f32⟩ : BufTy).Contents (Elt F) :=
  constant S_ .f32 0x00000000#32

def val_main_call17_v0 : (⟨S50000x128, .f32⟩ : BufTy).Contents (Elt F) :=
  broadcastInDim S50000x128 ![] bcast_S_S50000x128 (val_main_call17_cst (F := F))

def val_main_v485 : (⟨S50000x128, .f32⟩ : BufTy).Contents (Elt F) :=
  maximumf (val_main_v484 (F := F) x0 x1 x2 x3 x4 x5 x6 x7 x8 x9 x10 x11 x12 x13 x14 x15 x16 x17) (val_main_call17_v0 (F := F))

def val_main_v486 : (⟨S1x128x128, .f32⟩ : BufTy).Contents (Elt F) :=
  extractStridedSlice S1x128x128 ![4, 0, 0] (x12) slices_S5x128x128_S1x128x128_4_0_0

def val_main_v487 : (⟨S128x128, .f32⟩ : BufTy).Contents (Elt F) :=
  shapeCast _ (val_main_v486 (F := F) x12) shapeCasts_S1x128x128_S128x128

def val_main_v488 : (⟨S50000x128, .f32⟩ : BufTy).Contents (Elt F) :=
  Host.dotGeneral dot_S50000x128_S128x128_S50000x128_1_0_0_1_n_n none (val_main_v485 (F := F) x0 x1 x2 x3 x4 x5 x6 x7 x8 x9 x10 x11 x12 x13 x14 x15 x16 x17) (val_main_v487 (F := F) x12)

def val_main_v489 : (⟨S1x128, .f32⟩ : BufTy).Contents (Elt F) :=
  extractStridedSlice S1x128 ![4, 0] (x13) slices_S5x128_S1x128_4_0

def val_main_v490 : (⟨S128, .f32⟩ : BufTy).Contents (Elt F) :=
  shapeCast _ (val_main_v489 (F := F) x13) shapeCasts_S1x128_S128

def val_main_v491 : (⟨S1x128, .f32⟩ : BufTy).Contents (Elt F) :=
  broadcastInDim S1x128 ![1] bcast_S128_S1x128_1 (val_main_v490 (F := F) x13)

def val_main_v492 : (⟨S50000x128, .f32⟩ : BufTy).Contents (Elt F) :=
  broadcastInDim S50000x128 ![0, 1] bcast_S1x128_S50000x128_0_1 (val_main_v491 (F := F) x13)

def val_main_v493 : (⟨S50000x128, .f32⟩ : BufTy).Contents (Elt F) :=
  addf (val_main_v488 (F := F) x0 x1 x2 x3 x4 x5 x6 x7 x8 x9 x10 x11 x12 x13 x14 x15 x16 x17) (val_main_v492 (F := F) x13)

def val_main_call18_cst : (⟨S_, .f32⟩ : BufTy).Contents (Elt F) :=
  constant S_ .f32 0x00000000#32

def val_main_call18_v0 : (⟨S50000x128, .f32⟩ : BufTy).Contents (Elt F) :=
  broadcastInDim S50000x128 ![] bcast_S_S50000x128 (val_main_call18_cst (F := F))

def val_main_v494 : (⟨S50000x128, .f32⟩ : BufTy).Contents (Elt F) :=
  maximumf (val_main_v493 (F := F) x0 x1 x2 x3 x4 x5 x6 x7 x8 x9 x10 x11 x12 x13 x14 x15 x16 x17) (val_main_call18_v0 (F := F))

def val_main_v495 : (⟨S1x128, .f32⟩ : BufTy).Contents (Elt F) :=
  extractStridedSlice S1x128 ![4, 0] (x14) slices_S5x128_S1x128_4_0

def val_main_v496 : (⟨S128, .f32⟩ : BufTy).Contents (Elt F) :=
  shapeCast _ (val_main_v495 (F := F) x14) shapeCasts_S1x128_S128

def val_main_v497 : (⟨S1x128, .f32⟩ : BufTy).Contents (Elt F) :=
  extractStridedSlice S1x128 ![4, 0] (x15) slices_S5x128_S1x128_4_0

def val_main_v498 : (⟨S128, .f32⟩ : BufTy).Contents (Elt F) :=
  shapeCast _ (val_main_v497 (F := F) x15) shapeCasts_S1x128_S128

def val_main_v499 : (⟨S1x128, .f32⟩ : BufTy).Contents (Elt F) :=
  extractStridedSlice S1x128 ![4, 0] (x16) slices_S5x128_S1x128_4_0

def val_main_v500 : (⟨S128, .f32⟩ : BufTy).Contents (Elt F) :=
  shapeCast _ (val_main_v499 (F := F) x16) shapeCasts_S1x128_S128

def val_main_v501 : (⟨S1x128, .f32⟩ : BufTy).Contents (Elt F) :=
  extractStridedSlice S1x128 ![4, 0] (x17) slices_S5x128_S1x128_4_0

def val_main_v502 : (⟨S128, .f32⟩ : BufTy).Contents (Elt F) :=
  shapeCast _ (val_main_v501 (F := F) x17) shapeCasts_S1x128_S128

def val_main_v503 : (⟨S1x128, .f32⟩ : BufTy).Contents (Elt F) :=
  broadcastInDim S1x128 ![1] bcast_S128_S1x128_1 (val_main_v500 (F := F) x16)

def val_main_v504 : (⟨S50000x128, .f32⟩ : BufTy).Contents (Elt F) :=
  broadcastInDim S50000x128 ![0, 1] bcast_S1x128_S50000x128_0_1 (val_main_v503 (F := F) x16)

def val_main_v505 : (⟨S50000x128, .f32⟩ : BufTy).Contents (Elt F) :=
  subf (val_main_v494 (F := F) x0 x1 x2 x3 x4 x5 x6 x7 x8 x9 x10 x11 x12 x13 x14 x15 x16 x17) (val_main_v504 (F := F) x16)

def val_main_cst_57 : (⟨S_, .f32⟩ : BufTy).Contents (Elt F) :=
  constant S_ .f32 0x3727C5AC#32

def val_main_v506 : (⟨S128, .f32⟩ : BufTy).Contents (Elt F) :=
  broadcastInDim S128 ![] bcast_S_S128 (val_main_cst_57 (F := F))

def val_main_v507 : (⟨S128, .f32⟩ : BufTy).Contents (Elt F) :=
  addf (val_main_v502 (F := F) x17) (val_main_v506 (F := F))

def val_main_v508 : (⟨S128, .f32⟩ : BufTy).Contents (Elt F) :=
  Host.rsqrt (val_main_v507 (F := F) x17)

def val_main_v509 : (⟨S128, .f32⟩ : BufTy).Contents (Elt F) :=
  mulf (val_main_v496 (F := F) x14) (val_main_v508 (F := F) x17)

def val_main_v510 : (⟨S1x128, .f32⟩ : BufTy).Contents (Elt F) :=
  broadcastInDim S1x128 ![1] bcast_S128_S1x128_1 (val_main_v509 (F := F) x14 x17)

def val_main_v511 : (⟨S50000x128, .f32⟩ : BufTy).Contents (Elt F) :=
  broadcastInDim S50000x128 ![0, 1] bcast_S1x128_S50000x128_0_1 (val_main_v510 (F := F) x14 x17)

def val_main_v512 : (⟨S50000x128, .f32⟩ : BufTy).Contents (Elt F) :=
  mulf (val_main_v505 (F := F) x0 x1 x2 x3 x4 x5 x6 x7 x8 x9 x10 x11 x12 x13 x14 x15 x16 x17) (val_main_v511 (F := F) x14 x17)

def val_main_v513 : (⟨S1x128, .f32⟩ : BufTy).Contents (Elt F) :=
  broadcastInDim S1x128 ![1] bcast_S128_S1x128_1 (val_main_v498 (F := F) x15)

def val_main_v514 : (⟨S50000x128, .f32⟩ : BufTy).Contents (Elt F) :=
  broadcastInDim S50000x128 ![0, 1] bcast_S1x128_S50000x128_0_1 (val_main_v513 (F := F) x15)

def val_main_v515 : (⟨S50000x128, .f32⟩ : BufTy).Contents (Elt F) :=
  addf (val_main_v512 (F := F) x0 x1 x2 x3 x4 x5 x6 x7 x8 x9 x10 x11 x12 x13 x14 x15 x16 x17) (val_main_v514 (F := F) x15)

end Cert.ReferenceIdeal.Read

end
-- ==== Proof.RLevels0.lean ====
import proofs.«402997_j6614249635914_3_alg».proof.Proof.RVal
import Idealize.ShloMosaic.Lib.StableHlo.Run

noncomputable section

namespace Cert.Gin

open Cert.ReferenceIdeal Cert.ReferenceIdeal.Gen Idealize.ShloMosaic Idealize.ShloMosaic.TcCoe Idealize.SL.Sem Idealize.ShloMosaic.StableHlo

def RL0 (m : (ℓ : Loc nD τ sig) → Buf (Elt Ideal) ℓ) (d : Dev nD) : Valuation τ sig (Elt Ideal) := launchContents m d
-- The argument buffers.
abbrev rargs : List (Ref sig .tc) := [main_arg0, main_arg1, main_arg2, main_arg3, main_arg4, main_arg5, main_arg6, main_arg7, main_arg8, main_arg9, main_arg10, main_arg11, main_arg12, main_arg13, main_arg14, main_arg15, main_arg16, main_arg17]
-- At the launch a buffer holds what the launch memory gives it.
theorem lvl0_arg (m : (ℓ : Loc nD τ sig) → Buf (Elt Ideal) ℓ) (d : Dev nD) (r : Ref sig .tc) (h : r ∈ rargs) : RL0 m d (no_index (Proc.devRef .tc r)) = m ((d.tc : Thread nD τ).loc r) := rfl

end Cert.Gin

end
-- ==== Proof.RLevels1.lean ====
import proofs.«402997_j6614249635914_3_alg».proof.Proof.RROps0
import proofs.«402997_j6614249635914_3_alg».proof.Proof.RLevels0

noncomputable section

namespace Cert.Gin

open Cert.ReferenceIdeal Cert.ReferenceIdeal.Gen Idealize.ShloMosaic Idealize.ShloMosaic.TcCoe Idealize.SL.Sem Idealize.ShloMosaic.StableHlo

-- The buffer contents after the first 1 of the reference's ten stretches of operations.
def RL1 (m : (ℓ : Loc nD τ sig) → Buf (Elt Ideal) ℓ) (d : Dev nD) : Valuation τ sig (Elt Ideal) := after (rops0 (F := Ideal)) (RL0 m d)

abbrev rops0_W : List (Ref sig .tc) := [main_v0, main_v1, main_c, main_v2, main_v3, main_c_0, main_v4, main_v5, main_v6, main_c_1, main_v7, main_v8, main_c_2, main_v9, main_v10, main_v11, main_v12, main_v13, main_v14, main_v15, main_v16, main_cst, main_v17, main_v18, main_v19, main_v20, main_v21, main_v22, main_v23, main_v24, main_v25, main_c_3, main_v26, main_v27, main_c_4, main_v28, main_v29, main_v30, main_c_5, main_v31, main_v32, main_c_6, main_v33, main_v34, main_v35, main_v36, main_v37, main_v38, main_v39, main_v40, main_cst_7, main_v41, main_c_8, main_v42, main_v43, main_c_9, main_v44, main_v45, main_v46, main_v47]

-- Every operation of the stretch writes one of the listed buffers,
theorem rops0_writes : (rops0 (F := Ideal)).Forall fun op => op.writes ⊆ (rops0_W.map (Proc.devRef (τ := τ) .tc)).toFinset := by
  simp only [rops0, List.Forall]
  repeat' apply And.intro
  all_goals (simp only [nullary_writes, unary_writes, binary_writes, ternary_writes, reshape_writes, Finset.singleton_subset_iff, List.mem_toFinset]; exact List.mem_map_of_mem (by decide))

-- so a buffer outside the list keeps its contents through the stretch.
theorem RL1_keep (m : (ℓ : Loc nD τ sig) → Buf (Elt Ideal) ℓ) (d : Dev nD) (r : Ref sig .tc) (h : r ∉ rops0_W) :
    RL1 m d (Proc.devRef .tc r) = RL0 m d (Proc.devRef .tc r) :=
  after_of_writes_sub (rops0 (F := Ideal)) _ rops0_writes h

-- No stretch writes an argument buffer.
theorem lvl1_arg (m : (ℓ : Loc nD τ sig) → Buf (Elt Ideal) ℓ) (d : Dev nD) (r : Ref sig .tc) (h : r ∈ rargs) : RL1 m d (no_index (Proc.devRef .tc r)) = m ((d.tc : Thread nD τ).loc r) :=
  (RL1_keep m d r ((by decide : ∀ r ∈ rargs, r ∉ rops0_W) r h)).trans (lvl0_arg m d r h)
-- A written buffer holds the stretch's operations composed over the previous level: its stage value of the arguments.
set_option maxHeartbeats 2000000 in
theorem lvl1_main_v17 (m : (ℓ : Loc nD τ sig) → Buf (Elt Ideal) ℓ) (d : Dev nD) : RL1 m d (no_index (Proc.devRef .tc main_v17)) = Cert.ReferenceIdeal.Read.val_main_v17 (F := Ideal) (m ((d.tc : Thread nD τ).loc main_arg0)) (m ((d.tc : Thread nD τ).loc main_arg3)) := by
  unfold RL1
  simp only [rops0]
  after_results_simp
  simp (disch := decide) only [lvl0_arg] <;> rfl
set_option maxHeartbeats 2000000 in
theorem lvl1_main_v19 (m : (ℓ : Loc nD τ sig) → Buf (Elt Ideal) ℓ) (d : Dev nD) : RL1 m d (no_index (Proc.devRef .tc main_v19)) = Cert.ReferenceIdeal.Read.val_main_v19 (F := Ideal) (m ((d.tc : Thread nD τ).loc main_arg1)) := by
  unfold RL1
  simp only [rops0]
  after_results_simp
  simp (disch := decide) only [lvl0_arg] <;> rfl
set_option maxHeartbeats 2000000 in
theorem lvl1_main_v21 (m : (ℓ : Loc nD τ sig) → Buf (Elt Ideal) ℓ) (d : Dev nD) : RL1 m d (no_index (Proc.devRef .tc main_v21)) = Cert.ReferenceIdeal.Read.val_main_v21 (F := Ideal) (m ((d.tc : Thread nD τ).loc main_arg1)) := by
  unfold RL1
  simp only [rops0]
  after_results_simp
  simp (disch := decide) only [lvl0_arg] <;> rfl
set_option maxHeartbeats 2000000 in
theorem lvl1_main_v41 (m : (ℓ : Loc nD τ sig) → Buf (Elt Ideal) ℓ) (d : Dev nD) : RL1 m d (no_index (Proc.devRef .tc main_v41)) = Cert.ReferenceIdeal.Read.val_main_v41 (F := Ideal) (m ((d.tc : Thread nD τ).loc main_arg2)) (m ((d.tc : Thread nD τ).loc main_arg4)) := by
  unfold RL1
  simp only [rops0]
  after_results_simp
  simp (disch := decide) only [lvl0_arg] <;> rfl
set_option maxHeartbeats 2000000 in
theorem lvl1_main_v47 (m : (ℓ : Loc nD τ sig) → Buf (Elt Ideal) ℓ) (d : Dev nD) : RL1 m d (no_index (Proc.devRef .tc main_v47)) = Cert.ReferenceIdeal.Read.val_main_v47 (F := Ideal) (m ((d.tc : Thread nD τ).loc main_arg1)) := by
  unfold RL1
  simp only [rops0]
  after_results_simp
  simp (disch := decide) only [lvl0_arg] <;> rfl
end Cert.Gin

end
-- ==== Proof.RLevels2.lean ====
import proofs.«402997_j6614249635914_3_alg».proof.Proof.RROps1
import proofs.«402997_j6614249635914_3_alg».proof.Proof.RLevels1

noncomputable section

namespace Cert.Gin

open Cert.ReferenceIdeal Cert.ReferenceIdeal.Gen Idealize.ShloMosaic Idealize.ShloMosaic.TcCoe Idealize.SL.Sem Idealize.ShloMosaic.StableHlo

-- The buffer contents after the first 2 of the reference's ten stretches of operations.
def RL2 (m : (ℓ : Loc nD τ sig) → Buf (Elt Ideal) ℓ) (d : Dev nD) : Valuation τ sig (Elt Ideal) := after (rops1 (F := Ideal)) (RL1 m d)

abbrev rops1_W : List (Ref sig .tc) := [main_v48, main_v49, main_call0_cst, main_call0_v0, main_v50, main_cst_10, main_v51, main_v52, main_v53, main_v54, main_v55, main_cst_11, main_v56, main_v57, main_v58, main_v59, main_v60, main_v61, main_v62, main_v63, main_v64, main_v65, main_v66, main_v67, main_v68, main_v69, main_v70, main_v71, main_v72, main_v73, main_v74, main_v75, main_v76, main_v77, main_v78, main_cst_12, main_v79, main_v80, main_v81, main_v82, main_v83, main_v84, main_v85, main_v86, main_v87, main_v88, main_call1_cst, main_call1_v0, main_v89, main_v90, main_v91, main_v92, main_v93, main_v94, main_v95, main_v96, main_v97, main_call2_cst, main_call2_v0, main_v98, main_v99, main_v100, main_v101, main_v102, main_v103, main_v104]

-- Every operation of the stretch writes one of the listed buffers,
theorem rops1_writes : (rops1 (F := Ideal)).Forall fun op => op.writes ⊆ (rops1_W.map (Proc.devRef (τ := τ) .tc)).toFinset := by
  simp only [rops1, List.Forall]
  repeat' apply And.intro
  all_goals (simp only [nullary_writes, unary_writes, binary_writes, ternary_writes, reshape_writes, Finset.singleton_subset_iff, List.mem_toFinset]; exact List.mem_map_of_mem (by decide))

-- so a buffer outside the list keeps its contents through the stretch.
theorem RL2_keep (m : (ℓ : Loc nD τ sig) → Buf (Elt Ideal) ℓ) (d : Dev nD) (r : Ref sig .tc) (h : r ∉ rops1_W) :
    RL2 m d (Proc.devRef .tc r) = RL1 m d (Proc.devRef .tc r) :=
  after_of_writes_sub (rops1 (F := Ideal)) _ rops1_writes h

-- No stretch writes an argument buffer.
theorem lvl2_arg (m : (ℓ : Loc nD τ sig) → Buf (Elt Ideal) ℓ) (d : Dev nD) (r : Ref sig .tc) (h : r ∈ rargs) : RL2 m d (no_index (Proc.devRef .tc r)) = m ((d.tc : Thread nD τ).loc r) :=
  (RL2_keep m d r ((by decide : ∀ r ∈ rargs, r ∉ rops1_W) r h)).trans (lvl1_arg m d r h)
theorem lvl2_main_v19 (m : (ℓ : Loc nD τ sig) → Buf (Elt Ideal) ℓ) (d : Dev nD) : RL2 m d (no_index (Proc.devRef .tc main_v19)) = Cert.ReferenceIdeal.Read.val_main_v19 (F := Ideal) (m ((d.tc : Thread nD τ).loc main_arg1)) :=
  (RL2_keep m d main_v19 (by decide)).trans (lvl1_main_v19 m d)
theorem lvl2_main_v21 (m : (ℓ : Loc nD τ sig) → Buf (Elt Ideal) ℓ) (d : Dev nD) : RL2 m d (no_index (Proc.devRef .tc main_v21)) = Cert.ReferenceIdeal.Read.val_main_v21 (F := Ideal) (m ((d.tc : Thread nD τ).loc main_arg1)) :=
  (RL2_keep m d main_v21 (by decide)).trans (lvl1_main_v21 m d)
-- A written buffer holds the stretch's operations composed over the previous level: its stage value of the arguments.
set_option maxHeartbeats 2000000 in
theorem lvl2_main_v98 (m : (ℓ : Loc nD τ sig) → Buf (Elt Ideal) ℓ) (d : Dev nD) : RL2 m d (no_index (Proc.devRef .tc main_v98)) = Cert.ReferenceIdeal.Read.val_main_v98 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) := by
  unfold RL2
  simp only [rops1]
  after_results_simp
  simp (disch := decide) only [lvl1_arg, lvl1_main_v41, lvl1_main_v47, lvl1_main_v17, lvl1_main_v21] <;> rfl
set_option maxHeartbeats 2000000 in
theorem lvl2_main_v100 (m : (ℓ : Loc nD τ sig) → Buf (Elt Ideal) ℓ) (d : Dev nD) : RL2 m d (no_index (Proc.devRef .tc main_v100)) = Cert.ReferenceIdeal.Read.val_main_v100 (F := Ideal) (m ((d.tc : Thread nD τ).loc main_arg14)) := by
  unfold RL2
  simp only [rops1]
  after_results_simp
  simp (disch := decide) only [lvl1_arg] <;> rfl
set_option maxHeartbeats 2000000 in
theorem lvl2_main_v102 (m : (ℓ : Loc nD τ sig) → Buf (Elt Ideal) ℓ) (d : Dev nD) : RL2 m d (no_index (Proc.devRef .tc main_v102)) = Cert.ReferenceIdeal.Read.val_main_v102 (F := Ideal) (m ((d.tc : Thread nD τ).loc main_arg15)) := by
  unfold RL2
  simp only [rops1]
  after_results_simp
  simp (disch := decide) only [lvl1_arg] <;> rfl
set_option maxHeartbeats 2000000 in
theorem lvl2_main_v104 (m : (ℓ : Loc nD τ sig) → Buf (Elt Ideal) ℓ) (d : Dev nD) : RL2 m d (no_index (Proc.devRef .tc main_v104)) = Cert.ReferenceIdeal.Read.val_main_v104 (F := Ideal) (m ((d.tc : Thread nD τ).loc main_arg16)) := by
  unfold RL2
  simp only [rops1]
  after_results_simp
  simp (disch := decide) only [lvl1_arg] <;> rfl
end Cert.Gin

end
-- ==== Proof.RLevels3.lean ====
import proofs.«402997_j6614249635914_3_alg».proof.Proof.RROps2
import proofs.«402997_j6614249635914_3_alg».proof.Proof.RLevels2

noncomputable section

namespace Cert.Gin

open Cert.ReferenceIdeal Cert.ReferenceIdeal.Gen Idealize.ShloMosaic Idealize.ShloMosaic.TcCoe Idealize.SL.Sem Idealize.ShloMosaic.StableHlo

-- The buffer contents after the first 3 of the reference's ten stretches of operations.
def RL3 (m : (ℓ : Loc nD τ sig) → Buf (Elt Ideal) ℓ) (d : Dev nD) : Valuation τ sig (Elt Ideal) := after (rops2 (F := Ideal)) (RL2 m d)

abbrev rops2_W : List (Ref sig .tc) := [main_v105, main_v106, main_v107, main_v108, main_v109, main_cst_13, main_v110, main_v111, main_v112, main_v113, main_v114, main_v115, main_v116, main_v117, main_v118, main_v119, main_call3_cst, main_call3_v0, main_v120, main_v121, main_v122, main_v123, main_v124, main_c_14, main_v125, main_v126, main_c_15, main_v127, main_v128, main_v129, main_c_16, main_v130, main_v131, main_c_17, main_v132, main_v133, main_v134, main_v135, main_v136, main_v137, main_v138, main_v139, main_cst_18, main_v140, main_c_19, main_v141, main_v142, main_c_20, main_v143, main_v144, main_v145, main_v146, main_v147, main_v148, main_call4_cst, main_call4_v0, main_v149, main_cst_21, main_v150, main_v151, main_v152, main_v153, main_v154, main_cst_22]

-- Every operation of the stretch writes one of the listed buffers,
theorem rops2_writes : (rops2 (F := Ideal)).Forall fun op => op.writes ⊆ (rops2_W.map (Proc.devRef (τ := τ) .tc)).toFinset := by
  simp only [rops2, List.Forall]
  repeat' apply And.intro
  all_goals (simp only [nullary_writes, unary_writes, binary_writes, ternary_writes, reshape_writes, Finset.singleton_subset_iff, List.mem_toFinset]; exact List.mem_map_of_mem (by decide))

-- so a buffer outside the list keeps its contents through the stretch.
theorem RL3_keep (m : (ℓ : Loc nD τ sig) → Buf (Elt Ideal) ℓ) (d : Dev nD) (r : Ref sig .tc) (h : r ∉ rops2_W) :
    RL3 m d (Proc.devRef .tc r) = RL2 m d (Proc.devRef .tc r) :=
  after_of_writes_sub (rops2 (F := Ideal)) _ rops2_writes h

-- No stretch writes an argument buffer.
theorem lvl3_arg (m : (ℓ : Loc nD τ sig) → Buf (Elt Ideal) ℓ) (d : Dev nD) (r : Ref sig .tc) (h : r ∈ rargs) : RL3 m d (no_index (Proc.devRef .tc r)) = m ((d.tc : Thread nD τ).loc r) :=
  (RL3_keep m d r ((by decide : ∀ r ∈ rargs, r ∉ rops2_W) r h)).trans (lvl2_arg m d r h)
theorem lvl3_main_v19 (m : (ℓ : Loc nD τ sig) → Buf (Elt Ideal) ℓ) (d : Dev nD) : RL3 m d (no_index (Proc.devRef .tc main_v19)) = Cert.ReferenceIdeal.Read.val_main_v19 (F := Ideal) (m ((d.tc : Thread nD τ).loc main_arg1)) :=
  (RL3_keep m d main_v19 (by decide)).trans (lvl2_main_v19 m d)
theorem lvl3_main_v21 (m : (ℓ : Loc nD τ sig) → Buf (Elt Ideal) ℓ) (d : Dev nD) : RL3 m d (no_index (Proc.devRef .tc main_v21)) = Cert.ReferenceIdeal.Read.val_main_v21 (F := Ideal) (m ((d.tc : Thread nD τ).loc main_arg1)) :=
  (RL3_keep m d main_v21 (by decide)).trans (lvl2_main_v21 m d)
-- A written buffer holds the stretch's operations composed over the previous level: its stage value of the arguments.
set_option maxHeartbeats 2000000 in
theorem lvl3_main_v120 (m : (ℓ : Loc nD τ sig) → Buf (Elt Ideal) ℓ) (d : Dev nD) : RL3 m d (no_index (Proc.devRef .tc main_v120)) = Cert.ReferenceIdeal.Read.val_main_v120 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) := by
  unfold RL3
  simp only [rops2]
  after_results_simp
  simp (disch := decide) only [lvl2_arg, lvl2_main_v102, lvl2_main_v100, lvl2_main_v104, lvl2_main_v98] <;> rfl
set_option maxHeartbeats 2000000 in
theorem lvl3_main_v152 (m : (ℓ : Loc nD τ sig) → Buf (Elt Ideal) ℓ) (d : Dev nD) : RL3 m d (no_index (Proc.devRef .tc main_v152)) = Cert.ReferenceIdeal.Read.val_main_v152 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) := by
  unfold RL3
  simp only [rops2]
  after_results_simp
  simp (disch := decide) only [lvl2_arg, lvl2_main_v19, lvl2_main_v102, lvl2_main_v100, lvl2_main_v104, lvl2_main_v98, lvl2_main_v21] <;> rfl
set_option maxHeartbeats 2000000 in
theorem lvl3_main_v154 (m : (ℓ : Loc nD τ sig) → Buf (Elt Ideal) ℓ) (d : Dev nD) : RL3 m d (no_index (Proc.devRef .tc main_v154)) = Cert.ReferenceIdeal.Read.val_main_v154 (F := Ideal) (m ((d.tc : Thread nD τ).loc main_arg5)) := by
  unfold RL3
  simp only [rops2]
  after_results_simp
  simp (disch := decide) only [lvl2_arg] <;> rfl
set_option maxHeartbeats 2000000 in
theorem lvl3_main_cst_22 (m : (ℓ : Loc nD τ sig) → Buf (Elt Ideal) ℓ) (d : Dev nD) : RL3 m d (no_index (Proc.devRef .tc main_cst_22)) = Cert.ReferenceIdeal.Read.val_main_cst_22 (F := Ideal) := by
  unfold RL3
  simp only [rops2]
  after_results_simp
  all_goals rfl
end Cert.Gin

end
-- ==== Proof.RLevels4.lean ====
import proofs.«402997_j6614249635914_3_alg».proof.Proof.RROps3
import proofs.«402997_j6614249635914_3_alg».proof.Proof.RLevels3

noncomputable section

namespace Cert.Gin

open Cert.ReferenceIdeal Cert.ReferenceIdeal.Gen Idealize.ShloMosaic Idealize.ShloMosaic.TcCoe Idealize.SL.Sem Idealize.ShloMosaic.StableHlo

-- The buffer contents after the first 4 of the reference's ten stretches of operations.
def RL4 (m : (ℓ : Loc nD τ sig) → Buf (Elt Ideal) ℓ) (d : Dev nD) : Valuation τ sig (Elt Ideal) := after (rops3 (F := Ideal)) (RL3 m d)

abbrev rops3_W : List (Ref sig .tc) := [main_v155, main_v156, main_v157, main_v158, main_v159, main_v160, main_v161, main_v162, main_v163, main_v164, main_v165, main_v166, main_v167, main_v168, main_v169, main_v170, main_v171, main_v172, main_v173, main_v174, main_v175, main_v176, main_v177, main_cst_23, main_v178, main_v179, main_v180, main_v181, main_v182, main_v183, main_v184, main_v185, main_v186, main_v187, main_call5_cst, main_call5_v0, main_v188, main_v189, main_v190, main_v191, main_v192, main_v193, main_v194, main_v195, main_v196, main_call6_cst, main_call6_v0, main_v197, main_v198, main_v199, main_v200, main_v201, main_v202, main_v203, main_v204, main_v205, main_v206, main_v207, main_v208, main_cst_24, main_v209, main_v210, main_v211, main_v212]

-- Every operation of the stretch writes one of the listed buffers,
theorem rops3_writes : (rops3 (F := Ideal)).Forall fun op => op.writes ⊆ (rops3_W.map (Proc.devRef (τ := τ) .tc)).toFinset := by
  simp only [rops3, List.Forall]
  repeat' apply And.intro
  all_goals (simp only [nullary_writes, unary_writes, binary_writes, ternary_writes, reshape_writes, Finset.singleton_subset_iff, List.mem_toFinset]; exact List.mem_map_of_mem (by decide))

-- so a buffer outside the list keeps its contents through the stretch.
theorem RL4_keep (m : (ℓ : Loc nD τ sig) → Buf (Elt Ideal) ℓ) (d : Dev nD) (r : Ref sig .tc) (h : r ∉ rops3_W) :
    RL4 m d (Proc.devRef .tc r) = RL3 m d (Proc.devRef .tc r) :=
  after_of_writes_sub (rops3 (F := Ideal)) _ rops3_writes h

-- No stretch writes an argument buffer.
theorem lvl4_arg (m : (ℓ : Loc nD τ sig) → Buf (Elt Ideal) ℓ) (d : Dev nD) (r : Ref sig .tc) (h : r ∈ rargs) : RL4 m d (no_index (Proc.devRef .tc r)) = m ((d.tc : Thread nD τ).loc r) :=
  (RL4_keep m d r ((by decide : ∀ r ∈ rargs, r ∉ rops3_W) r h)).trans (lvl3_arg m d r h)
theorem lvl4_main_v19 (m : (ℓ : Loc nD τ sig) → Buf (Elt Ideal) ℓ) (d : Dev nD) : RL4 m d (no_index (Proc.devRef .tc main_v19)) = Cert.ReferenceIdeal.Read.val_main_v19 (F := Ideal) (m ((d.tc : Thread nD τ).loc main_arg1)) :=
  (RL4_keep m d main_v19 (by decide)).trans (lvl3_main_v19 m d)
theorem lvl4_main_v21 (m : (ℓ : Loc nD τ sig) → Buf (Elt Ideal) ℓ) (d : Dev nD) : RL4 m d (no_index (Proc.devRef .tc main_v21)) = Cert.ReferenceIdeal.Read.val_main_v21 (F := Ideal) (m ((d.tc : Thread nD τ).loc main_arg1)) :=
  (RL4_keep m d main_v21 (by decide)).trans (lvl3_main_v21 m d)
-- A written buffer holds the stretch's operations composed over the previous level: its stage value of the arguments.
set_option maxHeartbeats 2000000 in
theorem lvl4_main_v201 (m : (ℓ : Loc nD τ sig) → Buf (Elt Ideal) ℓ) (d : Dev nD) : RL4 m d (no_index (Proc.devRef .tc main_v201)) = Cert.ReferenceIdeal.Read.val_main_v201 (F := Ideal) (m ((d.tc : Thread nD τ).loc main_arg15)) := by
  unfold RL4
  simp only [rops3]
  after_results_simp
  simp (disch := decide) only [lvl3_arg] <;> rfl
set_option maxHeartbeats 2000000 in
theorem lvl4_main_v208 (m : (ℓ : Loc nD τ sig) → Buf (Elt Ideal) ℓ) (d : Dev nD) : RL4 m d (no_index (Proc.devRef .tc main_v208)) = Cert.ReferenceIdeal.Read.val_main_v208 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) := by
  unfold RL4
  simp only [rops3]
  after_results_simp
  simp (disch := decide) only [lvl3_arg, lvl3_main_v152, lvl3_main_v120, lvl3_main_v154, lvl3_main_cst_22] <;> rfl
set_option maxHeartbeats 2000000 in
theorem lvl4_main_v212 (m : (ℓ : Loc nD τ sig) → Buf (Elt Ideal) ℓ) (d : Dev nD) : RL4 m d (no_index (Proc.devRef .tc main_v212)) = Cert.ReferenceIdeal.Read.val_main_v212 (F := Ideal) (m ((d.tc : Thread nD τ).loc main_arg14)) (m ((d.tc : Thread nD τ).loc main_arg17)) := by
  unfold RL4
  simp only [rops3]
  after_results_simp
  simp (disch := decide) only [lvl3_arg] <;> rfl
end Cert.Gin

end
-- ==== Proof.RLevels5.lean ====
import proofs.«402997_j6614249635914_3_alg».proof.Proof.RROps4
import proofs.«402997_j6614249635914_3_alg».proof.Proof.RLevels4

noncomputable section

namespace Cert.Gin

open Cert.ReferenceIdeal Cert.ReferenceIdeal.Gen Idealize.ShloMosaic Idealize.ShloMosaic.TcCoe Idealize.SL.Sem Idealize.ShloMosaic.StableHlo

-- The buffer contents after the first 5 of the reference's ten stretches of operations.
def RL5 (m : (ℓ : Loc nD τ sig) → Buf (Elt Ideal) ℓ) (d : Dev nD) : Valuation τ sig (Elt Ideal) := after (rops4 (F := Ideal)) (RL4 m d)

abbrev rops4_W : List (Ref sig .tc) := [main_v213, main_v214, main_v215, main_v216, main_v217, main_v218, main_call7_cst, main_call7_v0, main_v219, main_v220, main_v221, main_v222, main_v223, main_c_25, main_v224, main_v225, main_c_26, main_v226, main_v227, main_v228, main_c_27, main_v229, main_v230, main_c_28, main_v231, main_v232, main_v233, main_v234, main_v235, main_v236, main_v237, main_v238, main_cst_29, main_v239, main_c_30, main_v240, main_v241, main_c_31, main_v242, main_v243, main_v244, main_v245, main_v246, main_v247, main_call8_cst, main_call8_v0, main_v248, main_cst_32, main_v249, main_v250, main_v251, main_v252, main_v253, main_cst_33, main_v254, main_v255, main_v256, main_v257, main_v258, main_v259, main_v260, main_v261, main_v262, main_v263]

-- Every operation of the stretch writes one of the listed buffers,
theorem rops4_writes : (rops4 (F := Ideal)).Forall fun op => op.writes ⊆ (rops4_W.map (Proc.devRef (τ := τ) .tc)).toFinset := by
  simp only [rops4, List.Forall]
  repeat' apply And.intro
  all_goals (simp only [nullary_writes, unary_writes, binary_writes, ternary_writes, reshape_writes, Finset.singleton_subset_iff, List.mem_toFinset]; exact List.mem_map_of_mem (by decide))

-- so a buffer outside the list keeps its contents through the stretch.
theorem RL5_keep (m : (ℓ : Loc nD τ sig) → Buf (Elt Ideal) ℓ) (d : Dev nD) (r : Ref sig .tc) (h : r ∉ rops4_W) :
    RL5 m d (Proc.devRef .tc r) = RL4 m d (Proc.devRef .tc r) :=
  after_of_writes_sub (rops4 (F := Ideal)) _ rops4_writes h

-- No stretch writes an argument buffer.
theorem lvl5_arg (m : (ℓ : Loc nD τ sig) → Buf (Elt Ideal) ℓ) (d : Dev nD) (r : Ref sig .tc) (h : r ∈ rargs) : RL5 m d (no_index (Proc.devRef .tc r)) = m ((d.tc : Thread nD τ).loc r) :=
  (RL5_keep m d r ((by decide : ∀ r ∈ rargs, r ∉ rops4_W) r h)).trans (lvl4_arg m d r h)
theorem lvl5_main_v19 (m : (ℓ : Loc nD τ sig) → Buf (Elt Ideal) ℓ) (d : Dev nD) : RL5 m d (no_index (Proc.devRef .tc main_v19)) = Cert.ReferenceIdeal.Read.val_main_v19 (F := Ideal) (m ((d.tc : Thread nD τ).loc main_arg1)) :=
  (RL5_keep m d main_v19 (by decide)).trans (lvl4_main_v19 m d)
theorem lvl5_main_v21 (m : (ℓ : Loc nD τ sig) → Buf (Elt Ideal) ℓ) (d : Dev nD) : RL5 m d (no_index (Proc.devRef .tc main_v21)) = Cert.ReferenceIdeal.Read.val_main_v21 (F := Ideal) (m ((d.tc : Thread nD τ).loc main_arg1)) :=
  (RL5_keep m d main_v21 (by decide)).trans (lvl4_main_v21 m d)
-- A written buffer holds the stretch's operations composed over the previous level: its stage value of the arguments.
set_option maxHeartbeats 2000000 in
theorem lvl5_main_v260 (m : (ℓ : Loc nD τ sig) → Buf (Elt Ideal) ℓ) (d : Dev nD) : RL5 m d (no_index (Proc.devRef .tc main_v260)) = Cert.ReferenceIdeal.Read.val_main_v260 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) := by
  unfold RL5
  simp only [rops4]
  after_results_simp
  simp (disch := decide) only [lvl4_arg, lvl4_main_v19, lvl4_main_v201, lvl4_main_v212, lvl4_main_v208, lvl4_main_v21] <;> rfl
set_option maxHeartbeats 2000000 in
theorem lvl5_main_v263 (m : (ℓ : Loc nD τ sig) → Buf (Elt Ideal) ℓ) (d : Dev nD) : RL5 m d (no_index (Proc.devRef .tc main_v263)) = Cert.ReferenceIdeal.Read.val_main_v263 (F := Ideal) (m ((d.tc : Thread nD τ).loc main_arg7)) := by
  unfold RL5
  simp only [rops4]
  after_results_simp
  simp (disch := decide) only [lvl4_arg] <;> rfl
end Cert.Gin

end
-- ==== Proof.RLevels6.lean ====
import proofs.«402997_j6614249635914_3_alg».proof.Proof.RROps5
import proofs.«402997_j6614249635914_3_alg».proof.Proof.RLevels5

noncomputable section

namespace Cert.Gin

open Cert.ReferenceIdeal Cert.ReferenceIdeal.Gen Idealize.ShloMosaic Idealize.ShloMosaic.TcCoe Idealize.SL.Sem Idealize.ShloMosaic.StableHlo

-- The buffer contents after the first 6 of the reference's ten stretches of operations.
def RL6 (m : (ℓ : Loc nD τ sig) → Buf (Elt Ideal) ℓ) (d : Dev nD) : Valuation τ sig (Elt Ideal) := after (rops5 (F := Ideal)) (RL5 m d)

abbrev rops5_W : List (Ref sig .tc) := [main_v264, main_v265, main_v266, main_v267, main_v268, main_v269, main_v270, main_v271, main_v272, main_v273, main_v274, main_v275, main_v276, main_cst_34, main_v277, main_v278, main_v279, main_v280, main_v281, main_v282, main_v283, main_v284, main_v285, main_v286, main_call9_cst, main_call9_v0, main_v287, main_v288, main_v289, main_v290, main_v291, main_v292, main_v293, main_v294, main_v295, main_call10_cst, main_call10_v0, main_v296, main_v297, main_v298, main_v299, main_v300, main_v301, main_v302, main_v303, main_v304, main_v305, main_v306, main_v307, main_cst_35, main_v308, main_v309, main_v310, main_v311, main_v312, main_v313, main_v314, main_v315, main_v316, main_v317, main_call11_cst, main_call11_v0, main_v318, main_v319, main_v320, main_v321]

-- Every operation of the stretch writes one of the listed buffers,
theorem rops5_writes : (rops5 (F := Ideal)).Forall fun op => op.writes ⊆ (rops5_W.map (Proc.devRef (τ := τ) .tc)).toFinset := by
  simp only [rops5, List.Forall]
  repeat' apply And.intro
  all_goals (simp only [nullary_writes, unary_writes, binary_writes, ternary_writes, reshape_writes, Finset.singleton_subset_iff, List.mem_toFinset]; exact List.mem_map_of_mem (by decide))

-- so a buffer outside the list keeps its contents through the stretch.
theorem RL6_keep (m : (ℓ : Loc nD τ sig) → Buf (Elt Ideal) ℓ) (d : Dev nD) (r : Ref sig .tc) (h : r ∉ rops5_W) :
    RL6 m d (Proc.devRef .tc r) = RL5 m d (Proc.devRef .tc r) :=
  after_of_writes_sub (rops5 (F := Ideal)) _ rops5_writes h

-- No stretch writes an argument buffer.
theorem lvl6_arg (m : (ℓ : Loc nD τ sig) → Buf (Elt Ideal) ℓ) (d : Dev nD) (r : Ref sig .tc) (h : r ∈ rargs) : RL6 m d (no_index (Proc.devRef .tc r)) = m ((d.tc : Thread nD τ).loc r) :=
  (RL6_keep m d r ((by decide : ∀ r ∈ rargs, r ∉ rops5_W) r h)).trans (lvl5_arg m d r h)
theorem lvl6_main_v19 (m : (ℓ : Loc nD τ sig) → Buf (Elt Ideal) ℓ) (d : Dev nD) : RL6 m d (no_index (Proc.devRef .tc main_v19)) = Cert.ReferenceIdeal.Read.val_main_v19 (F := Ideal) (m ((d.tc : Thread nD τ).loc main_arg1)) :=
  (RL6_keep m d main_v19 (by decide)).trans (lvl5_main_v19 m d)
theorem lvl6_main_v21 (m : (ℓ : Loc nD τ sig) → Buf (Elt Ideal) ℓ) (d : Dev nD) : RL6 m d (no_index (Proc.devRef .tc main_v21)) = Cert.ReferenceIdeal.Read.val_main_v21 (F := Ideal) (m ((d.tc : Thread nD τ).loc main_arg1)) :=
  (RL6_keep m d main_v21 (by decide)).trans (lvl5_main_v21 m d)
-- A written buffer holds the stretch's operations composed over the previous level: its stage value of the arguments.
set_option maxHeartbeats 2000000 in
theorem lvl6_main_v318 (m : (ℓ : Loc nD τ sig) → Buf (Elt Ideal) ℓ) (d : Dev nD) : RL6 m d (no_index (Proc.devRef .tc main_v318)) = Cert.ReferenceIdeal.Read.val_main_v318 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) := by
  unfold RL6
  simp only [rops5]
  after_results_simp
  simp (disch := decide) only [lvl5_arg, lvl5_main_v263, lvl5_main_v260] <;> rfl
set_option maxHeartbeats 2000000 in
theorem lvl6_main_v320 (m : (ℓ : Loc nD τ sig) → Buf (Elt Ideal) ℓ) (d : Dev nD) : RL6 m d (no_index (Proc.devRef .tc main_v320)) = Cert.ReferenceIdeal.Read.val_main_v320 (F := Ideal) (m ((d.tc : Thread nD τ).loc main_arg4)) := by
  unfold RL6
  simp only [rops5]
  after_results_simp
  simp (disch := decide) only [lvl5_arg] <;> rfl
set_option maxHeartbeats 2000000 in
theorem lvl6_main_v321 (m : (ℓ : Loc nD τ sig) → Buf (Elt Ideal) ℓ) (d : Dev nD) : RL6 m d (no_index (Proc.devRef .tc main_v321)) = Cert.ReferenceIdeal.Read.val_main_v321 (F := Ideal) := by
  unfold RL6
  simp only [rops5]
  after_results_simp
  all_goals rfl
end Cert.Gin

end
-- ==== Proof.RLevels7.lean ====
import proofs.«402997_j6614249635914_3_alg».proof.Proof.RROps6
import proofs.«402997_j6614249635914_3_alg».proof.Proof.RLevels6

noncomputable section

namespace Cert.Gin

open Cert.ReferenceIdeal Cert.ReferenceIdeal.Gen Idealize.ShloMosaic Idealize.ShloMosaic.TcCoe Idealize.SL.Sem Idealize.ShloMosaic.StableHlo

-- The buffer contents after the first 7 of the reference's ten stretches of operations.
def RL7 (m : (ℓ : Loc nD τ sig) → Buf (Elt Ideal) ℓ) (d : Dev nD) : Valuation τ sig (Elt Ideal) := after (rops6 (F := Ideal)) (RL6 m d)

abbrev rops6_W : List (Ref sig .tc) := [main_v322, main_c_36, main_v323, main_v324, main_c_37, main_v325, main_v326, main_v327, main_c_38, main_v328, main_v329, main_c_39, main_v330, main_v331, main_v332, main_v333, main_v334, main_v335, main_v336, main_v337, main_cst_40, main_v338, main_c_41, main_v339, main_v340, main_c_42, main_v341, main_v342, main_v343, main_v344, main_v345, main_v346, main_call12_cst, main_call12_v0, main_v347, main_cst_43, main_v348, main_v349, main_v350, main_v351, main_v352, main_cst_44, main_v353, main_v354, main_v355, main_v356, main_v357, main_v358, main_v359, main_v360, main_v361, main_v362, main_v363, main_v364, main_v365, main_v366, main_v367, main_v368, main_v369, main_v370, main_v371, main_v372]

-- Every operation of the stretch writes one of the listed buffers,
theorem rops6_writes : (rops6 (F := Ideal)).Forall fun op => op.writes ⊆ (rops6_W.map (Proc.devRef (τ := τ) .tc)).toFinset := by
  simp only [rops6, List.Forall]
  repeat' apply And.intro
  all_goals (simp only [nullary_writes, unary_writes, binary_writes, ternary_writes, reshape_writes, Finset.singleton_subset_iff, List.mem_toFinset]; exact List.mem_map_of_mem (by decide))

-- so a buffer outside the list keeps its contents through the stretch.
theorem RL7_keep (m : (ℓ : Loc nD τ sig) → Buf (Elt Ideal) ℓ) (d : Dev nD) (r : Ref sig .tc) (h : r ∉ rops6_W) :
    RL7 m d (Proc.devRef .tc r) = RL6 m d (Proc.devRef .tc r) :=
  after_of_writes_sub (rops6 (F := Ideal)) _ rops6_writes h

-- No stretch writes an argument buffer.
theorem lvl7_arg (m : (ℓ : Loc nD τ sig) → Buf (Elt Ideal) ℓ) (d : Dev nD) (r : Ref sig .tc) (h : r ∈ rargs) : RL7 m d (no_index (Proc.devRef .tc r)) = m ((d.tc : Thread nD τ).loc r) :=
  (RL7_keep m d r ((by decide : ∀ r ∈ rargs, r ∉ rops6_W) r h)).trans (lvl6_arg m d r h)
theorem lvl7_main_v19 (m : (ℓ : Loc nD τ sig) → Buf (Elt Ideal) ℓ) (d : Dev nD) : RL7 m d (no_index (Proc.devRef .tc main_v19)) = Cert.ReferenceIdeal.Read.val_main_v19 (F := Ideal) (m ((d.tc : Thread nD τ).loc main_arg1)) :=
  (RL7_keep m d main_v19 (by decide)).trans (lvl6_main_v19 m d)
theorem lvl7_main_v21 (m : (ℓ : Loc nD τ sig) → Buf (Elt Ideal) ℓ) (d : Dev nD) : RL7 m d (no_index (Proc.devRef .tc main_v21)) = Cert.ReferenceIdeal.Read.val_main_v21 (F := Ideal) (m ((d.tc : Thread nD τ).loc main_arg1)) :=
  (RL7_keep m d main_v21 (by decide)).trans (lvl6_main_v21 m d)
-- A written buffer holds the stretch's operations composed over the previous level: its stage value of the arguments.
set_option maxHeartbeats 2000000 in
theorem lvl7_main_v364 (m : (ℓ : Loc nD τ sig) → Buf (Elt Ideal) ℓ) (d : Dev nD) : RL7 m d (no_index (Proc.devRef .tc main_v364)) = Cert.ReferenceIdeal.Read.val_main_v364 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) := by
  unfold RL7
  simp only [rops6]
  after_results_simp
  simp (disch := decide) only [lvl6_arg, lvl6_main_v321, lvl6_main_v320, lvl6_main_v19, lvl6_main_v318, lvl6_main_v21] <;> rfl
set_option maxHeartbeats 2000000 in
theorem lvl7_main_v366 (m : (ℓ : Loc nD τ sig) → Buf (Elt Ideal) ℓ) (d : Dev nD) : RL7 m d (no_index (Proc.devRef .tc main_v366)) = Cert.ReferenceIdeal.Read.val_main_v366 (F := Ideal) (m ((d.tc : Thread nD τ).loc main_arg8)) := by
  unfold RL7
  simp only [rops6]
  after_results_simp
  simp (disch := decide) only [lvl6_arg] <;> rfl
set_option maxHeartbeats 2000000 in
theorem lvl7_main_v368 (m : (ℓ : Loc nD τ sig) → Buf (Elt Ideal) ℓ) (d : Dev nD) : RL7 m d (no_index (Proc.devRef .tc main_v368)) = Cert.ReferenceIdeal.Read.val_main_v368 (F := Ideal) (m ((d.tc : Thread nD τ).loc main_arg9)) := by
  unfold RL7
  simp only [rops6]
  after_results_simp
  simp (disch := decide) only [lvl6_arg] <;> rfl
set_option maxHeartbeats 2000000 in
theorem lvl7_main_v370 (m : (ℓ : Loc nD τ sig) → Buf (Elt Ideal) ℓ) (d : Dev nD) : RL7 m d (no_index (Proc.devRef .tc main_v370)) = Cert.ReferenceIdeal.Read.val_main_v370 (F := Ideal) (m ((d.tc : Thread nD τ).loc main_arg10)) := by
  unfold RL7
  simp only [rops6]
  after_results_simp
  simp (disch := decide) only [lvl6_arg] <;> rfl
set_option maxHeartbeats 2000000 in
theorem lvl7_main_v372 (m : (ℓ : Loc nD τ sig) → Buf (Elt Ideal) ℓ) (d : Dev nD) : RL7 m d (no_index (Proc.devRef .tc main_v372)) = Cert.ReferenceIdeal.Read.val_main_v372 (F := Ideal) (m ((d.tc : Thread nD τ).loc main_arg11)) := by
  unfold RL7
  simp only [rops6]
  after_results_simp
  simp (disch := decide) only [lvl6_arg] <;> rfl
end Cert.Gin

end
-- ==== Proof.RLevels8.lean ====
import proofs.«402997_j6614249635914_3_alg».proof.Proof.RROps7
import proofs.«402997_j6614249635914_3_alg».proof.Proof.RLevels7

noncomputable section

namespace Cert.Gin

open Cert.ReferenceIdeal Cert.ReferenceIdeal.Gen Idealize.ShloMosaic Idealize.ShloMosaic.TcCoe Idealize.SL.Sem Idealize.ShloMosaic.StableHlo

-- The buffer contents after the first 8 of the reference's ten stretches of operations.
def RL8 (m : (ℓ : Loc nD τ sig) → Buf (Elt Ideal) ℓ) (d : Dev nD) : Valuation τ sig (Elt Ideal) := after (rops7 (F := Ideal)) (RL7 m d)

abbrev rops7_W : List (Ref sig .tc) := [main_v373, main_v374, main_v375, main_cst_45, main_v376, main_v377, main_v378, main_v379, main_v380, main_v381, main_v382, main_v383, main_v384, main_v385, main_call13_cst, main_call13_v0, main_v386, main_v387, main_v388, main_v389, main_v390, main_v391, main_v392, main_v393, main_v394, main_call14_cst, main_call14_v0, main_v395, main_v396, main_v397, main_v398, main_v399, main_v400, main_v401, main_v402, main_v403, main_v404, main_v405, main_v406, main_cst_46, main_v407, main_v408, main_v409, main_v410, main_v411, main_v412, main_v413, main_v414, main_v415, main_v416, main_call15_cst, main_call15_v0, main_v417, main_v418, main_v419, main_v420, main_v421, main_c_47, main_v422, main_v423, main_c_48, main_v424, main_v425, main_v426, main_c_49, main_v427]

-- Every operation of the stretch writes one of the listed buffers,
theorem rops7_writes : (rops7 (F := Ideal)).Forall fun op => op.writes ⊆ (rops7_W.map (Proc.devRef (τ := τ) .tc)).toFinset := by
  simp only [rops7, List.Forall]
  repeat' apply And.intro
  all_goals (simp only [nullary_writes, unary_writes, binary_writes, ternary_writes, reshape_writes, Finset.singleton_subset_iff, List.mem_toFinset]; exact List.mem_map_of_mem (by decide))

-- so a buffer outside the list keeps its contents through the stretch.
theorem RL8_keep (m : (ℓ : Loc nD τ sig) → Buf (Elt Ideal) ℓ) (d : Dev nD) (r : Ref sig .tc) (h : r ∉ rops7_W) :
    RL8 m d (Proc.devRef .tc r) = RL7 m d (Proc.devRef .tc r) :=
  after_of_writes_sub (rops7 (F := Ideal)) _ rops7_writes h

-- No stretch writes an argument buffer.
theorem lvl8_arg (m : (ℓ : Loc nD τ sig) → Buf (Elt Ideal) ℓ) (d : Dev nD) (r : Ref sig .tc) (h : r ∈ rargs) : RL8 m d (no_index (Proc.devRef .tc r)) = m ((d.tc : Thread nD τ).loc r) :=
  (RL8_keep m d r ((by decide : ∀ r ∈ rargs, r ∉ rops7_W) r h)).trans (lvl7_arg m d r h)
theorem lvl8_main_v19 (m : (ℓ : Loc nD τ sig) → Buf (Elt Ideal) ℓ) (d : Dev nD) : RL8 m d (no_index (Proc.devRef .tc main_v19)) = Cert.ReferenceIdeal.Read.val_main_v19 (F := Ideal) (m ((d.tc : Thread nD τ).loc main_arg1)) :=
  (RL8_keep m d main_v19 (by decide)).trans (lvl7_main_v19 m d)
theorem lvl8_main_v21 (m : (ℓ : Loc nD τ sig) → Buf (Elt Ideal) ℓ) (d : Dev nD) : RL8 m d (no_index (Proc.devRef .tc main_v21)) = Cert.ReferenceIdeal.Read.val_main_v21 (F := Ideal) (m ((d.tc : Thread nD τ).loc main_arg1)) :=
  (RL8_keep m d main_v21 (by decide)).trans (lvl7_main_v21 m d)
-- A written buffer holds the stretch's operations composed over the previous level: its stage value of the arguments.
set_option maxHeartbeats 2000000 in
theorem lvl8_main_v417 (m : (ℓ : Loc nD τ sig) → Buf (Elt Ideal) ℓ) (d : Dev nD) : RL8 m d (no_index (Proc.devRef .tc main_v417)) = Cert.ReferenceIdeal.Read.val_main_v417 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) := by
  unfold RL8
  simp only [rops7]
  after_results_simp
  simp (disch := decide) only [lvl7_arg, lvl7_main_v368, lvl7_main_v372, lvl7_main_v366, lvl7_main_v370, lvl7_main_v364] <;> rfl
set_option maxHeartbeats 2000000 in
theorem lvl8_main_v419 (m : (ℓ : Loc nD τ sig) → Buf (Elt Ideal) ℓ) (d : Dev nD) : RL8 m d (no_index (Proc.devRef .tc main_v419)) = Cert.ReferenceIdeal.Read.val_main_v419 (F := Ideal) (m ((d.tc : Thread nD τ).loc main_arg4)) := by
  unfold RL8
  simp only [rops7]
  after_results_simp
  simp (disch := decide) only [lvl7_arg] <;> rfl
set_option maxHeartbeats 2000000 in
theorem lvl8_main_v426 (m : (ℓ : Loc nD τ sig) → Buf (Elt Ideal) ℓ) (d : Dev nD) : RL8 m d (no_index (Proc.devRef .tc main_v426)) = Cert.ReferenceIdeal.Read.val_main_v426 (F := Ideal) := by
  unfold RL8
  simp only [rops7]
  after_results_simp
  all_goals rfl
set_option maxHeartbeats 2000000 in
theorem lvl8_main_v427 (m : (ℓ : Loc nD τ sig) → Buf (Elt Ideal) ℓ) (d : Dev nD) : RL8 m d (no_index (Proc.devRef .tc main_v427)) = Cert.ReferenceIdeal.Read.val_main_v427 (F := Ideal) := by
  unfold RL8
  simp only [rops7]
  after_results_simp
  all_goals rfl
end Cert.Gin

end
-- ==== Proof.RLevels9.lean ====
import proofs.«402997_j6614249635914_3_alg».proof.Proof.RROps8
import proofs.«402997_j6614249635914_3_alg».proof.Proof.RLevels8

noncomputable section

namespace Cert.Gin

open Cert.ReferenceIdeal Cert.ReferenceIdeal.Gen Idealize.ShloMosaic Idealize.ShloMosaic.TcCoe Idealize.SL.Sem Idealize.ShloMosaic.StableHlo

-- The buffer contents after the first 9 of the reference's ten stretches of operations.
def RL9 (m : (ℓ : Loc nD τ sig) → Buf (Elt Ideal) ℓ) (d : Dev nD) : Valuation τ sig (Elt Ideal) := after (rops8 (F := Ideal)) (RL8 m d)

abbrev rops8_W : List (Ref sig .tc) := [main_v428, main_c_50, main_v429, main_v430, main_v431, main_v432, main_v433, main_v434, main_v435, main_v436, main_cst_51, main_v437, main_c_52, main_v438, main_v439, main_c_53, main_v440, main_v441, main_v442, main_v443, main_v444, main_v445, main_call16_cst, main_call16_v0, main_v446, main_cst_54, main_v447, main_v448, main_v449, main_v450, main_v451, main_cst_55, main_v452, main_v453, main_v454, main_v455, main_v456, main_v457, main_v458, main_v459, main_v460, main_v461, main_v462, main_v463, main_v464, main_v465, main_v466, main_v467, main_v468, main_v469, main_v470, main_v471, main_v472, main_v473, main_v474, main_cst_56, main_v475, main_v476, main_v477, main_v478, main_v479, main_v480]

-- Every operation of the stretch writes one of the listed buffers,
theorem rops8_writes : (rops8 (F := Ideal)).Forall fun op => op.writes ⊆ (rops8_W.map (Proc.devRef (τ := τ) .tc)).toFinset := by
  simp only [rops8, List.Forall]
  repeat' apply And.intro
  all_goals (simp only [nullary_writes, unary_writes, binary_writes, ternary_writes, reshape_writes, Finset.singleton_subset_iff, List.mem_toFinset]; exact List.mem_map_of_mem (by decide))

-- so a buffer outside the list keeps its contents through the stretch.
theorem RL9_keep (m : (ℓ : Loc nD τ sig) → Buf (Elt Ideal) ℓ) (d : Dev nD) (r : Ref sig .tc) (h : r ∉ rops8_W) :
    RL9 m d (Proc.devRef .tc r) = RL8 m d (Proc.devRef .tc r) :=
  after_of_writes_sub (rops8 (F := Ideal)) _ rops8_writes h

-- No stretch writes an argument buffer.
theorem lvl9_arg (m : (ℓ : Loc nD τ sig) → Buf (Elt Ideal) ℓ) (d : Dev nD) (r : Ref sig .tc) (h : r ∈ rargs) : RL9 m d (no_index (Proc.devRef .tc r)) = m ((d.tc : Thread nD τ).loc r) :=
  (RL9_keep m d r ((by decide : ∀ r ∈ rargs, r ∉ rops8_W) r h)).trans (lvl8_arg m d r h)
-- A written buffer holds the stretch's operations composed over the previous level: its stage value of the arguments.
set_option maxHeartbeats 2000000 in
theorem lvl9_main_v467 (m : (ℓ : Loc nD τ sig) → Buf (Elt Ideal) ℓ) (d : Dev nD) : RL9 m d (no_index (Proc.devRef .tc main_v467)) = Cert.ReferenceIdeal.Read.val_main_v467 (F := Ideal) (m ((d.tc : Thread nD τ).loc main_arg9)) := by
  unfold RL9
  simp only [rops8]
  after_results_simp
  simp (disch := decide) only [lvl8_arg] <;> rfl
set_option maxHeartbeats 2000000 in
theorem lvl9_main_v474 (m : (ℓ : Loc nD τ sig) → Buf (Elt Ideal) ℓ) (d : Dev nD) : RL9 m d (no_index (Proc.devRef .tc main_v474)) = Cert.ReferenceIdeal.Read.val_main_v474 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) := by
  unfold RL9
  simp only [rops8]
  after_results_simp
  simp (disch := decide) only [lvl8_arg, lvl8_main_v427, lvl8_main_v426, lvl8_main_v419, lvl8_main_v19, lvl8_main_v417, lvl8_main_v21] <;> rfl
set_option maxHeartbeats 2000000 in
theorem lvl9_main_v480 (m : (ℓ : Loc nD τ sig) → Buf (Elt Ideal) ℓ) (d : Dev nD) : RL9 m d (no_index (Proc.devRef .tc main_v480)) = Cert.ReferenceIdeal.Read.val_main_v480 (F := Ideal) (m ((d.tc : Thread nD τ).loc main_arg8)) (m ((d.tc : Thread nD τ).loc main_arg11)) := by
  unfold RL9
  simp only [rops8]
  after_results_simp
  simp (disch := decide) only [lvl8_arg] <;> rfl
end Cert.Gin

end
-- ==== Proof.RLevels10.lean ====
import proofs.«402997_j6614249635914_3_alg».proof.Proof.RROps9
import proofs.«402997_j6614249635914_3_alg».proof.Proof.RLevels9

noncomputable section

namespace Cert.Gin

open Cert.ReferenceIdeal Cert.ReferenceIdeal.Gen Idealize.ShloMosaic Idealize.ShloMosaic.TcCoe Idealize.SL.Sem Idealize.ShloMosaic.StableHlo

-- The buffer contents after the first 10 of the reference's ten stretches of operations.
def RL10 (m : (ℓ : Loc nD τ sig) → Buf (Elt Ideal) ℓ) (d : Dev nD) : Valuation τ sig (Elt Ideal) := after (rops9 (F := Ideal)) (RL9 m d)

abbrev rops9_W : List (Ref sig .tc) := [main_v481, main_v482, main_v483, main_v484, main_call17_cst, main_call17_v0, main_v485, main_v486, main_v487, main_v488, main_v489, main_v490, main_v491, main_v492, main_v493, main_call18_cst, main_call18_v0, main_v494, main_v495, main_v496, main_v497, main_v498, main_v499, main_v500, main_v501, main_v502, main_v503, main_v504, main_v505, main_cst_57, main_v506, main_v507, main_v508, main_v509, main_v510, main_v511, main_v512, main_v513, main_v514, main_v515]

-- Every operation of the stretch writes one of the listed buffers,
theorem rops9_writes : (rops9 (F := Ideal)).Forall fun op => op.writes ⊆ (rops9_W.map (Proc.devRef (τ := τ) .tc)).toFinset := by
  simp only [rops9, List.Forall]
  repeat' apply And.intro
  all_goals (simp only [nullary_writes, unary_writes, binary_writes, ternary_writes, reshape_writes, Finset.singleton_subset_iff, List.mem_toFinset]; exact List.mem_map_of_mem (by decide))

-- so a buffer outside the list keeps its contents through the stretch.
theorem RL10_keep (m : (ℓ : Loc nD τ sig) → Buf (Elt Ideal) ℓ) (d : Dev nD) (r : Ref sig .tc) (h : r ∉ rops9_W) :
    RL10 m d (Proc.devRef .tc r) = RL9 m d (Proc.devRef .tc r) :=
  after_of_writes_sub (rops9 (F := Ideal)) _ rops9_writes h

-- No stretch writes an argument buffer.
theorem lvl10_arg (m : (ℓ : Loc nD τ sig) → Buf (Elt Ideal) ℓ) (d : Dev nD) (r : Ref sig .tc) (h : r ∈ rargs) : RL10 m d (no_index (Proc.devRef .tc r)) = m ((d.tc : Thread nD τ).loc r) :=
  (RL10_keep m d r ((by decide : ∀ r ∈ rargs, r ∉ rops9_W) r h)).trans (lvl9_arg m d r h)
-- A written buffer holds the stretch's operations composed over the previous level: its stage value of the arguments.
set_option maxHeartbeats 2000000 in
theorem lvl10_main_v515 (m : (ℓ : Loc nD τ sig) → Buf (Elt Ideal) ℓ) (d : Dev nD) : RL10 m d (no_index (Proc.devRef .tc main_v515)) = Cert.ReferenceIdeal.Read.val_main_v515 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) := by
  unfold RL10
  simp only [rops9]
  after_results_simp
  simp (disch := decide) only [lvl9_arg, lvl9_main_v467, lvl9_main_v480, lvl9_main_v474] <;> rfl
end Cert.Gin

end
-- ==== Proof.RLevels.lean ====
import proofs.«402997_j6614249635914_3_alg».proof.Proof.RLevels10

noncomputable section

namespace Cert.Gin

open Cert.ReferenceIdeal Cert.ReferenceIdeal.Gen Idealize.ShloMosaic Idealize.ShloMosaic.TcCoe Idealize.SL.Sem Idealize.ShloMosaic.StableHlo

-- Two lines of operations run one after the other are their concatenation run as one,
theorem after_app {Val : EltTy → Type} : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

-- so the whole line of operations leaves the last level.
theorem after_all (m : (ℓ : Loc nD τ sig) → Buf (Elt Ideal) ℓ) (d : Dev nD) : after (rops0 (F := Ideal) ++ (rops1 (F := Ideal) ++ (rops2 (F := Ideal) ++ (rops3 (F := Ideal) ++ (rops4 (F := Ideal) ++ (rops5 (F := Ideal) ++ (rops6 (F := Ideal) ++ (rops7 (F := Ideal) ++ (rops8 (F := Ideal) ++ (rops9 (F := Ideal))))))))))) (launchContents m d) = RL10 m d := by
  simp only [after_app]
  rfl

theorem ref_after_value (m : (ℓ : Loc nD τ sig) → Buf (Elt Ideal) ℓ) (d : Dev nD) :
    after (rops0 (F := Ideal) ++ (rops1 (F := Ideal) ++ (rops2 (F := Ideal) ++ (rops3 (F := Ideal) ++ (rops4 (F := Ideal) ++ (rops5 (F := Ideal) ++ (rops6 (F := Ideal) ++ (rops7 (F := Ideal) ++ (rops8 (F := Ideal) ++ (rops9 (F := Ideal))))))))))) (launchContents m d) (Proc.devRef .tc main_v515) = Cert.ReferenceIdeal.Read.val_main_v515 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) := by
  rw [after_all]; exact lvl10_main_v515 m d

theorem ref_after_arg (m : (ℓ : Loc nD τ sig) → Buf (Elt Ideal) ℓ) (d : Dev nD) (r : Ref sig .tc) (h : r ∈ rargs) :
    after (rops0 (F := Ideal) ++ (rops1 (F := Ideal) ++ (rops2 (F := Ideal) ++ (rops3 (F := Ideal) ++ (rops4 (F := Ideal) ++ (rops5 (F := Ideal) ++ (rops6 (F := Ideal) ++ (rops7 (F := Ideal) ++ (rops8 (F := Ideal) ++ (rops9 (F := Ideal))))))))))) (launchContents m d) (Proc.devRef .tc r) = m ((d.tc : Thread nD τ).loc r) := by
  rw [after_all]; exact lvl10_arg m d r h

end Cert.Gin

end
-- ==== Proof.RNodeDef.lean ====
import proofs.«402997_j6614249635914_3_alg».proof.ReferenceIdeal
import proofs.«402997_j6614249635914_3_alg».proof.Proof.Spec

noncomputable section

open scoped BigOperators

namespace Cert.Gin

open Idealize.ShloMosaic Idealize.ShloMosaic.ValueIdx Cert.ReferenceIdeal
open Cert.ReferenceIdeal.Facts₀ Cert.ReferenceIdeal.Facts

variable [Cert.ReferenceIdeal.Facts]

def RNODE_mid (sc : Arr S_) (h a : Arr S50000x128) (W1 : Arr S128x128) (b1 g1 bb1 m1 v1 : Arr S128)
    (W2 : Arr S128x128) (b2 g2 bb2 m2 v2 : Arr S128) : Arr S50000x128 :=
  addf (F := Ideal) (φ := .f32)
    (mulf (F := Ideal) (φ := .f32)
      (subf (F := Ideal) (φ := .f32)
        (maximumf (F := Ideal) (φ := .f32)
          (addf (F := Ideal) (φ := .f32)
            (Host.dotGeneral (F := Ideal) (φ₁ := .f32) (φ₂ := .f32) dot_S50000x128_S128x128_S50000x128_1_0_0_1_n_n none
              (maximumf (F := Ideal) (φ := .f32)
                (addf (F := Ideal) (φ := .f32)
                  (mulf (F := Ideal) (φ := .f32)
                    (subf (F := Ideal) (φ := .f32)
                      (addf (F := Ideal) (φ := .f32)
                        (Host.dotGeneral (F := Ideal) (φ₁ := .f32) (φ₂ := .f32) dot_S50000x128_S128x128_S50000x128_1_0_0_1_n_n none
                          (addf (F := Ideal) (φ := .f32)
                            (mulf (F := Ideal) (φ := .f32) (broadcastInDim S50000x128 ![] bcast_S_S50000x128 sc) h)
                            a)
                          W1)
                        (broadcastInDim S50000x128 ![0, 1] bcast_S1x128_S50000x128_0_1
                          (broadcastInDim S1x128 ![1] bcast_S128_S1x128_1 b1)))
                      (broadcastInDim S50000x128 ![0, 1] bcast_S1x128_S50000x128_0_1
                        (broadcastInDim S1x128 ![1] bcast_S128_S1x128_1 m1)))
                    (broadcastInDim S50000x128 ![0, 1] bcast_S1x128_S50000x128_0_1
                      (broadcastInDim S1x128 ![1] bcast_S128_S1x128_1
                        (mulf (F := Ideal) (φ := .f32) g1
                          (Host.rsqrt (F := Ideal) (φ := .f32)
                            (addf (F := Ideal) (φ := .f32) v1
                              (broadcastInDim S128 ![] bcast_S_S128 (constant (F := Ideal) S_ .f32 0x3727C5AC#32))))))))
                  (broadcastInDim S50000x128 ![0, 1] bcast_S1x128_S50000x128_0_1
                    (broadcastInDim S1x128 ![1] bcast_S128_S1x128_1 bb1)))
                (broadcastInDim S50000x128 ![] bcast_S_S50000x128 (constant (F := Ideal) S_ .f32 0x00000000#32)))
              W2)
            (broadcastInDim S50000x128 ![0, 1] bcast_S1x128_S50000x128_0_1
              (broadcastInDim S1x128 ![1] bcast_S128_S1x128_1 b2)))
          (broadcastInDim S50000x128 ![] bcast_S_S50000x128 (constant (F := Ideal) S_ .f32 0x00000000#32)))
        (broadcastInDim S50000x128 ![0, 1] bcast_S1x128_S50000x128_0_1
          (broadcastInDim S1x128 ![1] bcast_S128_S1x128_1 m2)))
      (broadcastInDim S50000x128 ![0, 1] bcast_S1x128_S50000x128_0_1
        (broadcastInDim S1x128 ![1] bcast_S128_S1x128_1
          (mulf (F := Ideal) (φ := .f32) g2
            (Host.rsqrt (F := Ideal) (φ := .f32)
              (addf (F := Ideal) (φ := .f32) v2
                (broadcastInDim S128 ![] bcast_S_S128 (constant (F := Ideal) S_ .f32 0x3727C5AC#32))))))))
    (broadcastInDim S50000x128 ![0, 1] bcast_S1x128_S50000x128_0_1
      (broadcastInDim S1x128 ![1] bcast_S128_S1x128_1 bb2))

def RNODE (last : Bool) (sc : Arr S_) (h a : Arr S50000x128) (W1 : Arr S128x128) (b1 g1 bb1 m1 v1 : Arr S128)
    (W2 : Arr S128x128) (b2 g2 bb2 m2 v2 : Arr S128) : Arr S50000x128 :=
  match last with
  | true => RNODE_mid sc h a W1 b1 g1 bb1 m1 v1 W2 b2 g2 bb2 m2 v2
  | false =>
    maximumf (F := Ideal) (φ := .f32) (RNODE_mid sc h a W1 b1 g1 bb1 m1 v1 W2 b2 g2 bb2 m2 v2)
      (broadcastInDim S50000x128 ![] bcast_S_S50000x128 (constant (F := Ideal) S_ .f32 0x00000000#32))

end Cert.Gin

end
-- ==== Proof.RNode.lean ====
import proofs.«402997_j6614249635914_3_alg».proof.ReferenceIdeal
import proofs.«402997_j6614249635914_3_alg».proof.Proof.Spec
import proofs.«402997_j6614249635914_3_alg».proof.Proof.RNodeDef
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Gin

open Idealize.ShloMosaic Idealize.ShloMosaic.ValueIdx Cert.ReferenceIdeal
open Cert.ReferenceIdeal.Facts₀ Cert.ReferenceIdeal.Facts

variable [Cert.ReferenceIdeal.Facts]

theorem bcastScalar_apply (c : Arr S_) (i : S50000x128.Idx) :
    broadcastInDim S50000x128 ![] bcast_S_S50000x128 c i = c ix0 :=
  broadcastInDim_apply _ bcast_S_S50000x128 c i ix0 (fun a => a.elim0)

theorem bcastScalarRow_apply (c : Arr S_) (i : S128.Idx) :
    broadcastInDim S128 ![] bcast_S_S128 c i = c ix0 :=
  broadcastInDim_apply _ bcast_S_S128 c i ix0 (fun a => a.elim0)

theorem bcastRow_apply (r : Arr S128) (i : S50000x128.Idx) :
    broadcastInDim S50000x128 ![0, 1] bcast_S1x128_S50000x128_0_1 (broadcastInDim S1x128 ![1] bcast_S128_S1x128_1 r) i
      = r (ix1 (i 1)) := by
  rw [broadcastInDim_apply _ bcast_S1x128_S50000x128_0_1 (broadcastInDim S1x128 ![1] bcast_S128_S1x128_1 r) i
    (ix2 (n0 := 1) (n1 := 128) ⟨0, Nat.one_pos⟩ (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])]
  exact broadcastInDim_apply _ bcast_S128_S1x128_1 r _ (ix1 (i 1)) (fun a => match a with
      | ⟨0, _⟩ => by show (i 1).val = if (128 : Nat) = 1 then 0 else (i 1).val; rw [if_neg (by decide)])

theorem dotLhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from
      List.mem_singleton.2 rfl)]
  rfl

theorem dotLhs_1 (i : S50000x128.Idx) (q : dot_S50000x128_S128x128_S50000x128_1_0_0_1_n_n.contr.Idx) :
    (dot_S50000x128_S128x128_S50000x128_1_0_0_1_n_n.lhsIdx i q 1).val = (q ⟨0, Nat.one_pos⟩).val :=
  dot_S50000x128_S128x128_S50000x128_1_0_0_1_n_n.lhsIdx_val_of_single rfl i q

theorem dotRhs_0 (i : S50000x128.Idx) (q : dot_S50000x128_S128x128_S50000x128_1_0_0_1_n_n.contr.Idx) :
    (dot_S50000x128_S128x128_S50000x128_1_0_0_1_n_n.rhsIdx i q 0).val = (q ⟨0, Nat.one_pos⟩).val :=
  dot_S50000x128_S128x128_S50000x128_1_0_0_1_n_n.rhsIdx_val_of_single rfl i q

theorem dotRhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from
      List.mem_singleton.2 rfl)]
  rfl

theorem dot_apply (z : Arr S50000x128) (W : Arr S128x128) (i : S50000x128.Idx) :
    Host.dotGeneral (F := Ideal) (φ₁ := .f32) (φ₂ := .f32) dot_S50000x128_S128x128_S50000x128_1_0_0_1_n_n none z W i
      = ∑ k : Fin 128, z (ix2 (i 0) k) * W (ix2 k (i 1)) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i
      ((contrEquiv1 dot_S50000x128_S128x128_S50000x128_1_0_0_1_n_n 128 rfl rfl).symm k) = ix2 (i 0) k :=
    funext fun a => Fin.ext (by
      match a with
      | ⟨0, _⟩ => exact dotLhs_0 _ _
      | ⟨1, _⟩ => exact (dotLhs_1 _ _).trans hk)
  have er : dot_S50000x128_S128x128_S50000x128_1_0_0_1_n_n.rhsIdx i
      ((contrEquiv1 dot_S50000x128_S128x128_S50000x128_1_0_0_1_n_n 128 rfl rfl).symm k) = ix2 k (i 1) :=
    funext fun a => Fin.ext (by
      match a with
      | ⟨0, _⟩ => exact (dotRhs_0 _ _).trans hk
      | ⟨1, _⟩ => exact dotRhs_1 _ _)
  rw [el, er]
  rfl

theorem affine_stage (z : Arr S50000x128) (W : Arr S128x128) (b : Arr S128) :
    addf (F := Ideal) (φ := .f32)
      (Host.dotGeneral (F := Ideal) (φ₁ := .f32) (φ₂ := .f32) dot_S50000x128_S128x128_S50000x128_1_0_0_1_n_n none z W)
      (broadcastInDim S50000x128 ![0, 1] bcast_S1x128_S50000x128_0_1 (broadcastInDim S1x128 ![1] bcast_S128_S1x128_1 b))
      = affine z W b := by
  funext i
  rw [addf_apply, dot_apply, bcastRow_apply]
  rfl

theorem bnorm_stage (x : Arr S50000x128) (g bb mu v : Arr S128) :
    addf (F := Ideal) (φ := .f32)
      (mulf (F := Ideal) (φ := .f32)
        (subf (F := Ideal) (φ := .f32) x
          (broadcastInDim S50000x128 ![0, 1] bcast_S1x128_S50000x128_0_1 (broadcastInDim S1x128 ![1] bcast_S128_S1x128_1 mu)))
        (broadcastInDim S50000x128 ![0, 1] bcast_S1x128_S50000x128_0_1
          (broadcastInDim S1x128 ![1] bcast_S128_S1x128_1
            (mulf (F := Ideal) (φ := .f32) g
              (Host.rsqrt (F := Ideal) (φ := .f32)
                (addf (F := Ideal) (φ := .f32) v
                  (broadcastInDim S128 ![] bcast_S_S128 (constant (F := Ideal) S_ .f32 0x3727C5AC#32))))))))
      (broadcastInDim S50000x128 ![0, 1] bcast_S1x128_S50000x128_0_1 (broadcastInDim S1x128 ![1] bcast_S128_S1x128_1 bb))
      = bnorm x g bb mu v := by
  funext i
  rw [addf_apply, mulf_apply, subf_apply, bcastRow_apply, bcastRow_apply, bcastRow_apply, mulf_apply]
  show (x i - mu (ix1 (i 1))) * (g (ix1 (i 1)) * Ideal.rsqrt (addf (F := Ideal) (φ := .f32) v
      (broadcastInDim S128 ![] bcast_S_S128 (constant (F := Ideal) S_ .f32 0x3727C5AC#32)) (ix1 (i 1)))) + bb (ix1 (i 1)) = _
  rw [addf_apply, bcastScalarRow_apply, constant_apply]
  rfl

theorem rect_stage (x : Arr S50000x128) :
    maximumf (F := Ideal) (φ := .f32) x
      (broadcastInDim S50000x128 ![] bcast_S_S50000x128 (constant (F := Ideal) S_ .f32 0x00000000#32))
      = rect x := by
  funext i
  rw [maximumf_apply, bcastScalar_apply, constant_apply, Ideal.ofBits_zero_f32]
  rfl

theorem mix_stage (sc : Arr S_) (h a : Arr S50000x128) :
    addf (F := Ideal) (φ := .f32)
      (mulf (F := Ideal) (φ := .f32) (broadcastInDim S50000x128 ![] bcast_S_S50000x128 sc) h) a
      = fun i => sc ix0 * h i + a i := by
  funext i
  rw [addf_apply, mulf_apply, bcastScalar_apply]

theorem rnode_mid_eq (sc : Arr S_) (h a : Arr S50000x128) (W1 : Arr S128x128) (b1 g1 bb1 m1 v1 : Arr S128)
    (W2 : Arr S128x128) (b2 g2 bb2 m2 v2 : Arr S128) :
    RNODE_mid sc h a W1 b1 g1 bb1 m1 v1 W2 b2 g2 bb2 m2 v2
      = bnorm (rect (affine (rect (bnorm (affine (fun i => sc ix0 * h i + a i) W1 b1) g1 bb1 m1 v1)) W2 b2)) g2 bb2 m2 v2 := by
  unfold RNODE_mid
  rw [mix_stage, affine_stage, bnorm_stage, rect_stage, affine_stage, rect_stage, bnorm_stage]

theorem rnode_eq (last : Bool) (sc : Arr S_) (h a : Arr S50000x128) (W1 : Arr S128x128) (b1 g1 bb1 m1 v1 : Arr S128)
    (W2 : Arr S128x128) (b2 g2 bb2 m2 v2 : Arr S128) :
    RNODE last sc h a W1 b1 g1 bb1 m1 v1 W2 b2 g2 bb2 m2 v2
      = nodeF last (sc ix0) h a W1 b1 g1 bb1 m1 v1 W2 b2 g2 bb2 m2 v2 := by
  cases last
  · show maximumf (F := Ideal) (φ := .f32) (RNODE_mid sc h a W1 b1 g1 bb1 m1 v1 W2 b2 g2 bb2 m2 v2)
        (broadcastInDim S50000x128 ![] bcast_S_S50000x128 (constant (F := Ideal) S_ .f32 0x00000000#32)) = _
    rw [rect_stage, rnode_mid_eq]
    rfl
  · show RNODE_mid sc h a W1 b1 g1 bb1 m1 v1 W2 b2 g2 bb2 m2 v2 = _
    rw [rnode_mid_eq]
    rfl

end Cert.Gin

end
-- ==== Proof.RMsgDef.lean ====
import proofs.«402997_j6614249635914_3_alg».proof.ReferenceIdeal
import proofs.«402997_j6614249635914_3_alg».proof.Proof.Spec

noncomputable section

namespace Cert.Gin

open Idealize.ShloMosaic Cert.ReferenceIdeal
open Cert.ReferenceIdeal.Facts₀ Cert.ReferenceIdeal.Facts

variable [Cert.ReferenceIdeal.Facts]

abbrev RPOS : IVec S1x3 32 :=
  select
    (cmpi .slt (broadcastInDim S1x3 ![1] bcast_S3_S1x3_1 (iotaInDim S3 32 0))
      (broadcastInDim S1x3 ![] bcast_S_S1x3 (constantI S_ 32 0#32)))
    (addi (broadcastInDim S1x3 ![1] bcast_S3_S1x3_1 (iotaInDim S3 32 0))
      (broadcastInDim S1x3 ![] bcast_S_S1x3 (constantI S_ 32 3#32)))
    (broadcastInDim S1x3 ![1] bcast_S3_S1x3_1 (iotaInDim S3 32 0))

abbrev RATTR (ea : IVec S600000x3 32) : IVec S600000x3 32 :=
  select
    (cmpi .slt ea (broadcastInDim S600000x3 ![] bcast_S_S600000x3 (constantI S_ 32 0#32)))
    (addi ea (broadcastInDim S600000x3 ![] bcast_S_S600000x3 (constantI S_ 32 4#32)))
    ea

abbrev RSTART (ea : IVec S600000x3 32) : IVec S600000x3x2 32 :=
  concatenate S600000x3x2 2
    [⟨S600000x3x1, broadcastInDim S600000x3x1 ![0, 1] bcast_S600000x3_S600000x3x1_0_1
        (broadcastInDim S600000x3 ![0, 1] bcast_S1x3_S600000x3_0_1 RPOS)⟩,
     ⟨S600000x3x1, broadcastInDim S600000x3x1 ![0, 1] bcast_S600000x3_S600000x3x1_0_1 (RATTR ea)⟩]
    concatenates_S600000x3x1_S600000x3x1_S600000x3x2_d2

def RBOND (ea : IVec S600000x3 32) (tbl : Arr S3x4x128) : Arr S600000x128 :=
  Host.reduceAdd (F := Ideal)
    (Host.gather gather_S3x4x128_S600000x3x2_S600000x3x128_2_01_n_n_01_2_11128 tbl (RSTART ea))
    (constant (F := Ideal) S_ .f32 0x00000000#32)
    reducesTo_S600000x3x128_S600000x128_d1 h_S_

def RMSG (ea : IVec S600000x3 32) (hs : Arr S600000x128) (tbl : Arr S3x4x128) : Arr S600000x128 :=
  maximumf (F := Ideal) (φ := .f32) (addf (F := Ideal) (φ := .f32) hs (RBOND ea tbl))
    (broadcastInDim S600000x128 ![] bcast_S_S600000x128 (constant (F := Ideal) S_ .f32 0x00000000#32))

end Cert.Gin

end
-- ==== Proof.RMsg.lean ====
import proofs.«402997_j6614249635914_3_alg».proof.Proof.RMsgDef
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.Gin

open Idealize.ShloMosaic Idealize.ShloMosaic.ValueIdx Cert.ReferenceIdeal
open Cert.ReferenceIdeal.Facts₀ Cert.ReferenceIdeal.Facts

variable [Cert.ReferenceIdeal.Facts]

open Idealize.ShloMosaic.StableHlo.Predicate

theorem wrap_pos (f : Fin 3) :
    Scalar.select (IntOp.cmpi .slt (BitVec.ofNat 32 f.val) 0#32) (IntOp.addi (BitVec.ofNat 32 f.val) 3#32)
      (BitVec.ofNat 32 f.val) = BitVec.ofNat 32 f.val := by
  revert f; decide

theorem clamp_pos (f : Fin 3) : min (BitVec.ofNat 32 f.val).toInt.toNat 2 = f.val := by
  revert f; decide

theorem wrap_attr (a : BitVec 32) (ha : a.toNat < 4) :
    Scalar.select (IntOp.cmpi .slt a 0#32) (IntOp.addi a 4#32) a = a := by
  have h0 : IntOp.cmpi .slt a 0#32 = 0#1 :=
    eq_zero_of_ne_one fun h => by
      have := (slt_iff_toNat (a := a) (b := 0#32) (by omega) (by decide)).mp h
      simp at this
  rw [h0, select_zero]

theorem clamp_attr (a : BitVec 32) (ha : a.toNat < 4) : min a.toInt.toNat 3 = (vocab a).val := by
  rw [toInt_eq_toNat_of_lt (a := a) (by omega)]
  show min (a.toNat : Int).toNat 3 = a.toNat % 4
  rw [Int.toNat_natCast, Nat.mod_eq_of_lt ha]; omega

theorem rpos_apply (f : Fin 3) : RPOS (ix2 (0 : Fin 1) f) = BitVec.ofNat 32 f.val := by
  have hP : broadcastInDim S1x3 ![1] bcast_S3_S1x3_1 (iotaInDim S3 32 0) (ix2 (0 : Fin 1) f) = BitVec.ofNat 32 f.val :=
    broadcastInDim_apply _ bcast_S3_S1x3_1 (iotaInDim S3 32 0) (ix2 (0 : Fin 1) f) (ix1 f) (fun a => match a with
      | ⟨0, _⟩ => by show f.val = if (3 : Nat) = 1 then 0 else f.val; rw [if_neg (by decide)])
  have hZ : ∀ b : BitVec 32, broadcastInDim S1x3 ![] bcast_S_S1x3 (constantI S_ 32 b) (ix2 (0 : Fin 1) f) = b := fun b =>
    broadcastInDim_apply _ bcast_S_S1x3 (constantI S_ 32 b) (ix2 (0 : Fin 1) f) ix0 (fun a => a.elim0)
  dsimp only [RPOS, select, cmpi, addi]
  rw [hP, hZ, hZ]
  exact wrap_pos f

theorem rattr_apply (ea : IVec S600000x3 32) (i : S600000x3.Idx) (ha : (ea i).toNat < 4) : RATTR ea i = ea i := by
  have hZ : ∀ b : BitVec 32, broadcastInDim S600000x3 ![] bcast_S_S600000x3 (constantI S_ 32 b) i = b := fun b =>
    broadcastInDim_apply _ bcast_S_S600000x3 (constantI S_ 32 b) i ix0 (fun a => a.elim0)
  dsimp only [RATTR, select, cmpi, addi]
  rw [hZ, hZ]
  exact wrap_attr _ ha

theorem rstart_zero (ea : IVec S600000x3 32) (e : Fin 600000) (f : Fin 3) :
    RSTART ea (ix3 e f (0 : Fin 2)) = BitVec.ofNat 32 f.val := by
  unfold RSTART
  rw [concatenate_pair_apply_left (t := S600000x3x2) (s₁ := S600000x3x1) (s₂ := S600000x3x1) 2 _ _
        concatenates_S600000x3x1_S600000x3x1_S600000x3x2_d2 (ix3 e f (0 : Fin 2)) rfl (ix3 e f (0 : Fin 1))
        (fun b => match b with | ⟨0, _⟩ => rfl | ⟨1, _⟩ => rfl | ⟨2, _⟩ => rfl),
    broadcastInDim_apply _ bcast_S600000x3_S600000x3x1_0_1 _ (ix3 e f (0 : Fin 1)) (ix2 e f) (fun a => match a with
        | ⟨0, _⟩ => by show e.val = if (600000 : Nat) = 1 then 0 else e.val; rw [if_neg (by decide)]
        | ⟨1, _⟩ => by show f.val = if (3 : Nat) = 1 then 0 else f.val; rw [if_neg (by decide)]),
    broadcastInDim_apply _ bcast_S1x3_S600000x3_0_1 _ (ix2 e f) (ix2 (0 : Fin 1) f) (fun a => match a with
        | ⟨0, _⟩ => by show (0 : Nat) = if (1 : Nat) = 1 then 0 else e.val; rw [if_pos rfl]
        | ⟨1, _⟩ => by show f.val = if (3 : Nat) = 1 then 0 else f.val; rw [if_neg (by decide)])]
  exact rpos_apply f

theorem rstart_one (ea : IVec S600000x3 32) (e : Fin 600000) (f : Fin 3) :
    RSTART ea (ix3 e f (1 : Fin 2)) = RATTR ea (ix2 e f) := by
  unfold RSTART
  rw [concatenate_pair_apply_right (t := S600000x3x2) (s₁ := S600000x3x1) (s₂ := S600000x3x1) 2 _ _
        concatenates_S600000x3x1_S600000x3x1_S600000x3x2_d2 (ix3 e f (1 : Fin 2)) rfl rfl (ix3 e f (0 : Fin 1))
        (fun b hb => match b, hb with
          | ⟨0, _⟩, _ => rfl
          | ⟨1, _⟩, _ => rfl
          | ⟨2, _⟩, hb => absurd rfl hb) rfl,
    broadcastInDim_apply _ bcast_S600000x3_S600000x3x1_0_1 _ (ix3 e f (0 : Fin 1)) (ix2 e f) (fun a => match a with
        | ⟨0, _⟩ => by show e.val = if (600000 : Nat) = 1 then 0 else e.val; rw [if_neg (by decide)]
        | ⟨1, _⟩ => by show f.val = if (3 : Nat) = 1 then 0 else f.val; rw [if_neg (by decide)])]

theorem bond_sim0 : (0 : Fin 3) ∈ gather_S3x4x128_S600000x3x2_S600000x3x128_2_01_n_n_01_2_11128.startIndexMap :=
  (by decide : (0 : Fin 3) ∈ ([0, 1] : List (Fin 3)))
theorem bond_sim1 : (1 : Fin 3) ∈ gather_S3x4x128_S600000x3x2_S600000x3x128_2_01_n_n_01_2_11128.startIndexMap :=
  (by decide : (1 : Fin 3) ∈ ([0, 1] : List (Fin 3)))
theorem bond_sim2 : (2 : Fin 3) ∉ gather_S3x4x128_S600000x3x2_S600000x3x128_2_01_n_n_01_2_11128.startIndexMap :=
  (by decide : (2 : Fin 3) ∉ ([0, 1] : List (Fin 3)))
theorem bond_col0 : (0 : Fin 3) ∈ gather_S3x4x128_S600000x3x2_S600000x3x128_2_01_n_n_01_2_11128.collapsedSliceDims :=
  (by decide : (0 : Fin 3) ∈ ([0, 1] : List (Fin 3)))
theorem bond_col1 : (1 : Fin 3) ∈ gather_S3x4x128_S600000x3x2_S600000x3x128_2_01_n_n_01_2_11128.collapsedSliceDims :=
  (by decide : (1 : Fin 3) ∈ ([0, 1] : List (Fin 3)))
theorem bond_kept2 : (2 : Fin 3) ∈ gather_S3x4x128_S600000x3x2_S600000x3x128_2_01_n_n_01_2_11128.sKept :=
  (GatherDims.mem_sKept _ _).mpr ⟨(by decide : (2 : Fin 3) ∉ ([0, 1] : List (Fin 3))), List.not_mem_nil⟩

theorem gather_bond_apply (tbl : Arr S3x4x128) (idx : IVec S600000x3x2 32) (e : Fin 600000) (f : Fin 3) (j : Fin 128)
    (p : Fin 3) (q : Fin 4)
    (hp : min (idx (ix3 e f (0 : Fin 2))).toInt.toNat 2 = p.val)
    (hq : min (idx (ix3 e f (1 : Fin 2))).toInt.toNat 3 = q.val) :
    Host.gather gather_S3x4x128_S600000x3x2_S600000x3x128_2_01_n_n_01_2_11128 tbl idx (ix3 e f j) = tbl (ix3 p q j) := by
  unfold Host.gather
  refine congrArg tbl (funext fun a => Fin.ext ?_)
  have hs0 : gather_S3x4x128_S600000x3x2_S600000x3x128_2_01_n_n_01_2_11128.siIdx (ix3 e f j)
      ⟨List.idxOf (0 : Fin 3) gather_S3x4x128_S600000x3x2_S600000x3x128_2_01_n_n_01_2_11128.startIndexMap, List.idxOf_lt_length_iff.2 bond_sim0⟩ = ix3 e f (0 : Fin 2) := by
    funext b; refine Fin.ext ?_
    match b with
    | ⟨0, _⟩ => rfl
    | ⟨1, _⟩ => rfl
    | ⟨2, _⟩ => rfl
  have hs1 : gather_S3x4x128_S600000x3x2_S600000x3x128_2_01_n_n_01_2_11128.siIdx (ix3 e f j)
      ⟨List.idxOf (1 : Fin 3) gather_S3x4x128_S600000x3x2_S600000x3x128_2_01_n_n_01_2_11128.startIndexMap, List.idxOf_lt_length_iff.2 bond_sim1⟩ = ix3 e f (1 : Fin 2) := by
    funext b; refine Fin.ext ?_
    match b with
    | ⟨0, _⟩ => rfl
    | ⟨1, _⟩ => rfl
    | ⟨2, _⟩ => rfl
  match a with
  | ⟨0, _⟩ =>
    show gather_S3x4x128_S600000x3x2_S600000x3x128_2_01_n_n_01_2_11128.start (ix3 e f j) idx 0 + gather_S3x4x128_S600000x3x2_S600000x3x128_2_01_n_n_01_2_11128.batchCoord (ix3 e f j) 0 + gather_S3x4x128_S600000x3x2_S600000x3x128_2_01_n_n_01_2_11128.offCoord (ix3 e f j) 0 = p.val
    rw [GatherDims.batchCoord_eq_zero _ _ _ List.not_mem_nil,
      GatherDims.offCoord_eq_zero _ _ _ (fun h => ((GatherDims.mem_sKept _ _).mp h).1 bond_col0)]
    unfold GatherDims.start
    rw [dif_pos bond_sim0, hs0]
    exact hp
  | ⟨1, _⟩ =>
    show gather_S3x4x128_S600000x3x2_S600000x3x128_2_01_n_n_01_2_11128.start (ix3 e f j) idx 1 + gather_S3x4x128_S600000x3x2_S600000x3x128_2_01_n_n_01_2_11128.batchCoord (ix3 e f j) 1 + gather_S3x4x128_S600000x3x2_S600000x3x128_2_01_n_n_01_2_11128.offCoord (ix3 e f j) 1 = q.val
    rw [GatherDims.batchCoord_eq_zero _ _ _ List.not_mem_nil,
      GatherDims.offCoord_eq_zero _ _ _ (fun h => ((GatherDims.mem_sKept _ _).mp h).1 bond_col1)]
    unfold GatherDims.start
    rw [dif_pos bond_sim1, hs1]
    exact hq
  | ⟨2, _⟩ =>
    show gather_S3x4x128_S600000x3x2_S600000x3x128_2_01_n_n_01_2_11128.start (ix3 e f j) idx 2 + gather_S3x4x128_S600000x3x2_S600000x3x128_2_01_n_n_01_2_11128.batchCoord (ix3 e f j) 2 + gather_S3x4x128_S600000x3x2_S600000x3x128_2_01_n_n_01_2_11128.offCoord (ix3 e f j) 2 = j.val
    rw [GatherDims.batchCoord_eq_zero _ _ _ List.not_mem_nil]
    unfold GatherDims.start
    rw [dif_neg bond_sim2]
    unfold GatherDims.offCoord
    rw [dif_pos bond_kept2]
    show 0 + 0 + j.val = j.val
    omega

theorem rbond_apply (ea : IVec S600000x3 32) (tbl : Arr S3x4x128) (hea : ∀ i, (ea i).toNat < 4)
    (e : Fin 600000) (j : Fin 128) : RBOND ea tbl (ix2 e j) = bondSum ea tbl e j := by
  have hg : ∀ f : Fin 3, Host.gather gather_S3x4x128_S600000x3x2_S600000x3x128_2_01_n_n_01_2_11128 tbl (RSTART ea) (ix3 e f j)
      = tbl (ix3 f (vocab (ea (ix2 e f))) j) := fun f =>
    gather_bond_apply tbl (RSTART ea) e f j f (vocab (ea (ix2 e f)))
      (by rw [rstart_zero]; exact clamp_pos f)
      (by rw [rstart_one, rattr_apply ea _ (hea _)]; exact clamp_attr _ (hea _))
  unfold RBOND bondSum
  generalize hy : Host.gather gather_S3x4x128_S600000x3x2_S600000x3x128_2_01_n_n_01_2_11128 tbl (RSTART ea) = y0 at hg
  simp only [Host.reduceAdd, Ideal.hostReduceAdd_def]
  rw [Ideal.hostReduceAdd_single reducesTo_S600000x3x128_S600000x128_d1 (by decide)]
  refine Eq.trans (congrArg₂ (· + ·) (show constant (F := Ideal) S_ .f32 0x00000000#32 _ = 0 from Ideal.ofBits_zero_f32)
    (Finset.sum_congr rfl fun f _ => ?_)) (zero_add _)
  refine Eq.trans (congrArg y0 (funext fun a => Fin.ext ?_)) (hg f)
  match a with
  | ⟨0, _⟩ => rfl
  | ⟨1, _⟩ => rfl
  | ⟨2, _⟩ => rfl

theorem rmsg_eq (ea : IVec S600000x3 32) (hs : Arr S600000x128) (tbl : Arr S3x4x128) (hea : ∀ i, (ea i).toNat < 4) :
    RMSG ea hs tbl = msgF ea hs tbl := by
  funext i
  obtain ⟨e, j, rfl⟩ : ∃ (e : Fin 600000) (j : Fin 128), i = ix2 e j := ⟨i 0, i 1, eq_ix2 i⟩
  show max (hs (ix2 e j) + RBOND ea tbl (ix2 e j))
      (broadcastInDim S600000x128 ![] bcast_S_S600000x128 (constant (F := Ideal) S_ .f32 0x00000000#32) (ix2 e j))
    = max (hs (ix2 e j) + bondSum ea tbl e j) 0
  rw [broadcastInDim_apply _ bcast_S_S600000x128 (constant (F := Ideal) S_ .f32 0x00000000#32) (ix2 e j) ix0 (fun a => a.elim0),
    rbond_apply ea tbl hea e j]
  exact congrArg (max _) Ideal.ofBits_zero_f32

end Cert.Gin

end
-- ==== Proof.RChain.lean ====
import proofs.«402997_j6614249635914_3_alg».proof.Proof.RVal
import proofs.«402997_j6614249635914_3_alg».proof.Proof.Gen.KernelIdeal
import proofs.«402997_j6614249635914_3_alg».proof.Proof.Model
import proofs.«402997_j6614249635914_3_alg».proof.Proof.RNode
import proofs.«402997_j6614249635914_3_alg».proof.Proof.RMsg

noncomputable section

namespace Cert.Gin

open Idealize.ShloMosaic Cert.KernelIdeal Cert.ReferenceIdeal.Read

-- The eighteen argument arrays; rfeat l is the node features the reference holds after l layers.
variable (x0 : IVec S50000x9 32) (x1 : IVec S2x600000 32) (x2 : IVec S600000x3 32) (x3 : Arr S9x4x128) (x4 : Arr S5x3x4x128) (x5 : Arr S5) (x6 : Arr S5x128x128) (x7 x8 x9 x10 x11 : Arr S5x128) (x12 : Arr S5x128x128) (x13 x14 x15 x16 x17 : Arr S5x128)

def rfeat0 : Arr S50000x128 :=
  val_main_v17 (F := Ideal) x0 x3

theorem rfeat0_def :
    val_main_v17 (F := Ideal) x0 x3 = rfeat0 x0 x3 := rfl

def rfeat1 : Arr S50000x128 :=
  val_main_v120 (F := Ideal) x0 x1 x2 x3 x4 x5 x6 x7 x8 x9 x10 x11 x12 x13 x14 x15 x16 x17

theorem rfeat1_def :
    val_main_v120 (F := Ideal) x0 x1 x2 x3 x4 x5 x6 x7 x8 x9 x10 x11 x12 x13 x14 x15 x16 x17 = rfeat1 x0 x1 x2 x3 x4 x5 x6 x7 x8 x9 x10 x11 x12 x13 x14 x15 x16 x17 := rfl

def rfeat2 : Arr S50000x128 :=
  val_main_v219 (F := Ideal) x0 x1 x2 x3 x4 x5 x6 x7 x8 x9 x10 x11 x12 x13 x14 x15 x16 x17

theorem rfeat2_def :
    val_main_v219 (F := Ideal) x0 x1 x2 x3 x4 x5 x6 x7 x8 x9 x10 x11 x12 x13 x14 x15 x16 x17 = rfeat2 x0 x1 x2 x3 x4 x5 x6 x7 x8 x9 x10 x11 x12 x13 x14 x15 x16 x17 := rfl

def rfeat3 : Arr S50000x128 :=
  val_main_v318 (F := Ideal) x0 x1 x2 x3 x4 x5 x6 x7 x8 x9 x10 x11 x12 x13 x14 x15 x16 x17

theorem rfeat3_def :
    val_main_v318 (F := Ideal) x0 x1 x2 x3 x4 x5 x6 x7 x8 x9 x10 x11 x12 x13 x14 x15 x16 x17 = rfeat3 x0 x1 x2 x3 x4 x5 x6 x7 x8 x9 x10 x11 x12 x13 x14 x15 x16 x17 := rfl

def rfeat4 : Arr S50000x128 :=
  val_main_v417 (F := Ideal) x0 x1 x2 x3 x4 x5 x6 x7 x8 x9 x10 x11 x12 x13 x14 x15 x16 x17

theorem rfeat4_def :
    val_main_v417 (F := Ideal) x0 x1 x2 x3 x4 x5 x6 x7 x8 x9 x10 x11 x12 x13 x14 x15 x16 x17 = rfeat4 x0 x1 x2 x3 x4 x5 x6 x7 x8 x9 x10 x11 x12 x13 x14 x15 x16 x17 := rfl

def rfeat5 : Arr S50000x128 :=
  val_main_v515 (F := Ideal) x0 x1 x2 x3 x4 x5 x6 x7 x8 x9 x10 x11 x12 x13 x14 x15 x16 x17

theorem rfeat5_def :
    val_main_v515 (F := Ideal) x0 x1 x2 x3 x4 x5 x6 x7 x8 x9 x10 x11 x12 x13 x14 x15 x16 x17 = rfeat5 x0 x1 x2 x3 x4 x5 x6 x7 x8 x9 x10 x11 x12 x13 x14 x15 x16 x17 := rfl

-- A layer of the reference, opened down to the incoming features, is the node update over the summed edge messages over the gathered features: the model's layer.
theorem layer0_eq
    (hea : ∀ i, (x2 i).toNat < 4) :
    rfeat1 x0 x1 x2 x3 x4 x5 x6 x7 x8 x9 x10 x11 x12 x13 x14 x15 x16 x17 =
      lyr0 x1 x2 x4 x5 x6 x7 x8 x9 x10 x11 x12 x13 x14 x15 x16 x17
        (rfeat0 x0 x3) := by
  rw [← rfeat1_def]
  unfold lyr0 layer
  unfold val_main_v120 val_main_v119 val_main_v116 val_main_v109 val_main_v98 val_main_v97 val_main_v92 val_main_v89
    val_main_v88 val_main_v85 val_main_v78 val_main_v67 val_main_v62 val_main_v59 val_main_v58
  unfold val_main_v53 val_main_v50 val_main_v49 val_main_v48
  rw [rfeat0_def x0 x3]
  generalize rfeat0 x0 x3 = h
  refine Eq.trans
    (b := RNODE false (sc0 x5) h (aggOp (dstOf x1) (RMSG x2 (gathOp h (srcOf x1)) (tbl0 x4))) (mat0 x6) (row0 x7) (row0 x8)
      (row0 x9) (row0 x10) (row0 x11) (mat0 x12) (row0 x13) (row0 x14) (row0 x15) (row0 x16) (row0 x17))
    rfl ?_
  rw [rmsg_eq _ _ _ hea, rnode_eq]

theorem layer1_eq
    (hea : ∀ i, (x2 i).toNat < 4) :
    rfeat2 x0 x1 x2 x3 x4 x5 x6 x7 x8 x9 x10 x11 x12 x13 x14 x15 x16 x17 =
      lyr1 x1 x2 x4 x5 x6 x7 x8 x9 x10 x11 x12 x13 x14 x15 x16 x17
        (rfeat1 x0 x1 x2 x3 x4 x5 x6 x7 x8 x9 x10 x11 x12 x13 x14 x15 x16 x17) := by
  rw [← rfeat2_def]
  unfold lyr1 layer
  unfold val_main_v219 val_main_v218 val_main_v215 val_main_v208 val_main_v197 val_main_v196 val_main_v191 val_main_v188
    val_main_v187 val_main_v184 val_main_v177 val_main_v166 val_main_v161 val_main_v158 val_main_v157
  unfold val_main_v152 val_main_v149 val_main_v148 val_main_v147
  rw [rfeat1_def x0 x1 x2 x3 x4 x5 x6 x7 x8 x9 x10 x11 x12 x13 x14 x15 x16 x17]
  generalize rfeat1 x0 x1 x2 x3 x4 x5 x6 x7 x8 x9 x10 x11 x12 x13 x14 x15 x16 x17 = h
  refine Eq.trans
    (b := RNODE false (sc1 x5) h (aggOp (dstOf x1) (RMSG x2 (gathOp h (srcOf x1)) (tbl1 x4))) (mat1 x6) (row1 x7) (row1 x8)
      (row1 x9) (row1 x10) (row1 x11) (mat1 x12) (row1 x13) (row1 x14) (row1 x15) (row1 x16) (row1 x17))
    rfl ?_
  rw [rmsg_eq _ _ _ hea, rnode_eq]

theorem layer2_eq
    (hea : ∀ i, (x2 i).toNat < 4) :
    rfeat3 x0 x1 x2 x3 x4 x5 x6 x7 x8 x9 x10 x11 x12 x13 x14 x15 x16 x17 =
      lyr2 x1 x2 x4 x5 x6 x7 x8 x9 x10 x11 x12 x13 x14 x15 x16 x17
        (rfeat2 x0 x1 x2 x3 x4 x5 x6 x7 x8 x9 x10 x11 x12 x13 x14 x15 x16 x17) := by
  rw [← rfeat3_def]
  unfold lyr2 layer
  unfold val_main_v318 val_main_v317 val_main_v314 val_main_v307 val_main_v296 val_main_v295 val_main_v290 val_main_v287
    val_main_v286 val_main_v283 val_main_v276 val_main_v265 val_main_v260 val_main_v257 val_main_v256
  unfold val_main_v251 val_main_v248 val_main_v247 val_main_v246
  rw [rfeat2_def x0 x1 x2 x3 x4 x5 x6 x7 x8 x9 x10 x11 x12 x13 x14 x15 x16 x17]
  generalize rfeat2 x0 x1 x2 x3 x4 x5 x6 x7 x8 x9 x10 x11 x12 x13 x14 x15 x16 x17 = h
  refine Eq.trans
    (b := RNODE false (sc2 x5) h (aggOp (dstOf x1) (RMSG x2 (gathOp h (srcOf x1)) (tbl2 x4))) (mat2 x6) (row2 x7) (row2 x8)
      (row2 x9) (row2 x10) (row2 x11) (mat2 x12) (row2 x13) (row2 x14) (row2 x15) (row2 x16) (row2 x17))
    rfl ?_
  rw [rmsg_eq _ _ _ hea, rnode_eq]

theorem layer3_eq
    (hea : ∀ i, (x2 i).toNat < 4) :
    rfeat4 x0 x1 x2 x3 x4 x5 x6 x7 x8 x9 x10 x11 x12 x13 x14 x15 x16 x17 =
      lyr3 x1 x2 x4 x5 x6 x7 x8 x9 x10 x11 x12 x13 x14 x15 x16 x17
        (rfeat3 x0 x1 x2 x3 x4 x5 x6 x7 x8 x9 x10 x11 x12 x13 x14 x15 x16 x17) := by
  rw [← rfeat4_def]
  unfold lyr3 layer
  unfold val_main_v417 val_main_v416 val_main_v413 val_main_v406 val_main_v395 val_main_v394 val_main_v389 val_main_v386
    val_main_v385 val_main_v382 val_main_v375 val_main_v364 val_main_v359 val_main_v356 val_main_v355
  unfold val_main_v350 val_main_v347 val_main_v346 val_main_v345
  rw [rfeat3_def x0 x1 x2 x3 x4 x5 x6 x7 x8 x9 x10 x11 x12 x13 x14 x15 x16 x17]
  generalize rfeat3 x0 x1 x2 x3 x4 x5 x6 x7 x8 x9 x10 x11 x12 x13 x14 x15 x16 x17 = h
  refine Eq.trans
    (b := RNODE false (sc3 x5) h (aggOp (dstOf x1) (RMSG x2 (gathOp h (srcOf x1)) (tbl3 x4))) (mat3 x6) (row3 x7) (row3 x8)
      (row3 x9) (row3 x10) (row3 x11) (mat3 x12) (row3 x13) (row3 x14) (row3 x15) (row3 x16) (row3 x17))
    rfl ?_
  rw [rmsg_eq _ _ _ hea, rnode_eq]

theorem layer4_eq
    (hea : ∀ i, (x2 i).toNat < 4) :
    rfeat5 x0 x1 x2 x3 x4 x5 x6 x7 x8 x9 x10 x11 x12 x13 x14 x15 x16 x17 =
      lyr4 x1 x2 x4 x5 x6 x7 x8 x9 x10 x11 x12 x13 x14 x15 x16 x17
        (rfeat4 x0 x1 x2 x3 x4 x5 x6 x7 x8 x9 x10 x11 x12 x13 x14 x15 x16 x17) := by
  rw [← rfeat5_def]
  unfold lyr4 layer
  unfold val_main_v515 val_main_v512 val_main_v505 val_main_v494 val_main_v493 val_main_v488 val_main_v485
    val_main_v484 val_main_v481 val_main_v474 val_main_v463 val_main_v458 val_main_v455 val_main_v454
  unfold val_main_v449 val_main_v446 val_main_v445 val_main_v444
  rw [rfeat4_def x0 x1 x2 x3 x4 x5 x6 x7 x8 x9 x10 x11 x12 x13 x14 x15 x16 x17]
  generalize rfeat4 x0 x1 x2 x3 x4 x5 x6 x7 x8 x9 x10 x11 x12 x13 x14 x15 x16 x17 = h
  refine Eq.trans
    (b := RNODE true (sc4 x5) h (aggOp (dstOf x1) (RMSG x2 (gathOp h (srcOf x1)) (tbl4 x4))) (mat4 x6) (row4 x7) (row4 x8)
      (row4 x9) (row4 x10) (row4 x11) (mat4 x12) (row4 x13) (row4 x14) (row4 x15) (row4 x16) (row4 x17))
    rfl ?_
  rw [rmsg_eq _ _ _ hea, rnode_eq]

theorem atom_fold :
    rfeat0 x0 x3 = atomOp x0 x3 := rfl

-- The five layers composed over the atom encoding.
theorem ref_value
    (hea : ∀ i, (x2 i).toNat < 4) :
    Cert.ReferenceIdeal.Read.val_main_v515 (F := Ideal) x0 x1 x2 x3 x4 x5 x6 x7 x8 x9 x10 x11 x12 x13 x14 x15 x16 x17 =
      model x0 x1 x2 x3 x4 x5 x6 x7 x8 x9 x10 x11 x12 x13 x14 x15 x16 x17 := by
  rw [rfeat5_def]
  unfold model
  rw [layer4_eq _ _ _ _ _ _ _ _ _ _ _ _ _ _ _ _ _ _ hea, layer3_eq _ _ _ _ _ _ _ _ _ _ _ _ _ _ _ _ _ _ hea,
    layer2_eq _ _ _ _ _ _ _ _ _ _ _ _ _ _ _ _ _ _ hea, layer1_eq _ _ _ _ _ _ _ _ _ _ _ _ _ _ _ _ _ _ hea,
    layer0_eq _ _ _ _ _ _ _ _ _ _ _ _ _ _ _ _ _ _ hea, atom_fold]

end Cert.Gin

end
-- ==== Proof.PreEdge.lean ====
import proofs.«402997_j6614249635914_3_alg».proof.Defs
import proofs.«402997_j6614249635914_3_alg».proof.Proof.Gen.Pre_finite_inputs
import Idealize.ShloMosaic.Lib.ReduceAll
import Idealize.ShloMosaic.Lib.StableHlo.Predicate
import Idealize.ShloMosaic.Lib.ValueIdx

namespace Cert.Gin

open Idealize.ShloMosaic

instance : Subsingleton Cert.Pre_finite_inputs.S_.Idx := ⟨fun a b => funext fun d => d.elim0⟩

theorem word_lt_four {a : BitVec 32} (h0 : IntOp.cmpi .sge a 0#32 = 1#1) (h4 : IntOp.cmpi .slt a 4#32 = 1#1) :
    a.toNat < 4 := by
  rw [IntOp.cmpi_sge, show (0#32 : BitVec 32).toInt = 0 from by decide] at h0
  rw [IntOp.cmpi_slt, show (4#32 : BitVec 32).toInt = 4 from by decide] at h4
  have hlt : 2 * a.toNat < 2 ^ 32 := BitVec.toInt_pos_iff.mp h0
  rw [BitVec.toInt_eq_toNat_of_lt hlt] at h4
  omega

section

open Cert.Pre_finite_inputs Cert.Pre_finite_inputs.Facts

variable [Cert.Pre_finite_inputs.Facts]

theorem attr_lt_four_of_last (a2 : IVec S600000x3 32) (a17 : FVec Ideal S5x128 .f32) (p q : IVec S_ 1)
    (h : fn_part4 (F := Ideal) a2 a17 p q ValueIdx.ix0 = 1#1) (i : S600000x3.Idx) : (a2 i).toNat < 4 := by
  dsimp only [fn_part4] at h
  have hall := (IntOp.andi_eq_one.1 h).2
  have hi := Host.reduce_andi_all _ _ _ _ _ hall i
  obtain ⟨h0, h4⟩ := IntOp.andi_eq_one.1 hi
  exact word_lt_four h0 h4

end

theorem edge_attr_in_range [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, (m ((c.tc : Thread Cert.KernelIdeal.nD Cert.KernelIdeal.τ).loc Cert.KernelIdeal.main_arg2) i).toNat < 4 := by
  intro i
  have h := congrFun (hpre c) ValueIdx.ix0
  dsimp only [Cert.Pre_finite_inputs.fn, Cert.Pre_finite_inputs.fn_part1, Cert.Pre_finite_inputs.fn_part2,
    Cert.Pre_finite_inputs.fn_part3] at h
  exact attr_lt_four_of_last _ _ _ _ h i

theorem edge_attr_lt_four [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 600000) (f : Fin 3) :
    ((m ((c.tc : Thread Cert.KernelIdeal.nD Cert.KernelIdeal.τ).loc Cert.KernelIdeal.main_arg2) :
        IVec Cert.KernelIdeal.S600000x3 32) (ValueIdx.ix2 e f)).toNat < 4 :=
  edge_attr_in_range m hpre c (ValueIdx.ix2 e f)

end Cert.Gin
-- ==== Proof.lean ====
import proofs.«402997_j6614249635914_3_alg».proof.Defs
import proofs.«402997_j6614249635914_3_alg».proof.Proof.Gen.Kernel
import proofs.«402997_j6614249635914_3_alg».proof.Proof.Gen.Kernel.Frame
import proofs.«402997_j6614249635914_3_alg».proof.Proof.Gen.KernelIdeal
import proofs.«402997_j6614249635914_3_alg».proof.Proof.Gen.KernelIdeal.Frame
import proofs.«402997_j6614249635914_3_alg».proof.Proof.Gen.ReferenceIdeal
import proofs.«402997_j6614249635914_3_alg».proof.Proof.Gen.Pre_finite_inputs
import proofs.«402997_j6614249635914_3_alg».proof.Proof.KRun
import proofs.«402997_j6614249635914_3_alg».proof.Proof.KChain
import proofs.«402997_j6614249635914_3_alg».proof.Proof.RRun
import proofs.«402997_j6614249635914_3_alg».proof.Proof.RLevels
import proofs.«402997_j6614249635914_3_alg».proof.Proof.RChain
import proofs.«402997_j6614249635914_3_alg».proof.Proof.PreEdge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

-- No operation of the reference writes an argument buffer.
theorem frame_ri : Cert.frame_ReferenceIdeal := fun m ρ _ =>
  (θ_run Cert.ReferenceIdeal.defs _ _).mono
    (fun _ h c => by
      repeat' apply And.intro
      all_goals exact (h c _).trans (Cert.Gin.ref_after_arg m c _ (by decide)))
    (Cert.Gin.rrun (F := Ideal) m ρ)

-- Both idealized programs end at the model of the arguments, and the arguments agree.
theorem algebraic : Cert.algebraic_KernelIdeal_ReferenceIdeal := by
  intro m g m' g' hpre hagree
  refine ⟨fun c => Cert.Gin.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.Gin.kernel_value m g c (Cert.Gin.edge_attr_in_range m hpre c)), (h c).2⟩)
      (Cert.KernelIdeal.Gen.run_value (F := Ideal) m g)
  · refine (θ_run Cert.ReferenceIdeal.defs _ _).mono (fun r h c => ⟨?_, by
      repeat' apply And.intro
      all_goals exact (h c _).trans (Cert.Gin.ref_after_arg m' c _ (by decide))⟩)
      (Cert.Gin.rrun (F := Ideal) m' g')
    obtain ⟨e0, e1, e2, e3, e4, e5, e6, e7, e8, e9, e10, e11, e12, e13, e14, e15, e16, e17⟩ := hagree c
    rw [h c Cert.ReferenceIdeal.main_v515, Cert.Gin.ref_after_value m' c,
      e0, e1, e2, e3, e4, e5, e6, e7, e8, e9, e10, e11, e12, e13, e14, e15, e16, e17]
    exact Cert.Gin.ref_value _ _ _ _ _ _ _ _ _ _ _ _ _ _ _ _ _ _ (Cert.Gin.edge_attr_in_range m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
